-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S4096x64 : Shape := ⟨2, ![4096, 64]⟩
abbrev S64 : Shape := ⟨1, ![64]⟩
abbrev S192x3 : Shape := ⟨2, ![192, 3]⟩
abbrev S3 : Shape := ⟨1, ![3]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S192x3 : S_.BroadcastsInDim S192x3 (![] : Fin 0 → Fin S192x3.rank)
  reducesTo_S192x3_S_d0_1 : S192x3.ReducesTo [0, 1] S_
  bcast_S_S3 : S_.BroadcastsInDim S3 (![] : Fin 0 → Fin S3.rank)
  reducesTo_S3_S_d0 : S3.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg21 : FVec F S16 .f32) (main_v98 : IVec S_ 1) (main_v101 : IVec S128x16 1) (main_c_39 : IVec S_ 1) : IVec S_ 1 :=
  let main_v102 : IVec S_ 1 := (fun x v => Host.reduce IntOp.andi x v reducesTo_S128x16_S_d0_1 h_S_) main_v101 main_c_39
  let main_v103 : IVec S_ 1 := andi main_v98 main_v102
  let main_v104 : FVec F S16 .f32 := Host.absf main_arg21
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  main_v108

def fn_part5 {F : FTy → Type} [FloatOps F] (main_arg18 : FVec F S128x128 .f32) (main_arg19 : FVec F S128 .f32) (main_arg20 : FVec F S128x16 .f32) (main_arg21 : FVec F S16 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x16 .f32 := Host.absf main_arg20
  let main_cst_38 : FVec F S_ .f32 := constant S_ .f32 0x7F800000#32
  let main_v100 : FVec F S128x16 .f32 := broadcastInDim S128x16 ![] bcast_S_S128x16 main_cst_38
  let main_v101 : IVec S128x16 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x16 .f32) (main_arg21 : FVec F S16 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S3 .f32) (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x16 .f32) (main_arg21 : FVec F S16 .f32) (main_v48 : IVec S_ 1) (main_v49 : FVec F S192x3 .f32) (main_v50 : FVec F S192x3 .f32) : IVec S_ 1 :=
  let main_v51 : IVec S192x3 1 := cmpf .olt main_v49 main_v50
  let main_c_19 : IVec S_ 1 := constantI S_ 1 1#1
  let main_v52 : IVec S_ 1 := (fun x v => Host.reduce IntOp.andi x v reducesTo_S192x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S512x128 .f32 := Host.absf main_arg12
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S64 .f32) (main_arg8 : FVec F S4096x64 .f32) (main_arg9 : FVec F S64 .f32) (main_arg10 : FVec F S192x3 .f32) (main_arg11 : FVec F S3 .f32) (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x16 .f32) (main_arg21 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S4096x64 .f32 := Host.absf main_arg8
  let main_cst_14 : FVec F S_ .f32 := constant S_ .f32 0x7F800000#32
  let main_v40 : FVec F S4096x64 .f32 := broadcastInDim S4096x64 ![] bcast_S_S4096x64 main_cst_14
  let main_v41 : IVec S4096x64 1 := cmpf .olt main_v39 main_v40
  let main_c_15 : IVec S_ 1 := constantI S_ 1 1#1
  let main_v42 : IVec S_ 1 := (fun x v => Host.reduce IntOp.andi x v reducesTo_S4096x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x3 .f32 := Host.absf main_arg10
  let main_cst_18 : FVec F S_ .f32 := constant S_ .f32 0x7F800000#32
  let main_v50 : FVec F S192x3 .f32 := broadcastInDim S192x3 ![] bcast_S_S192x3 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S4096x64 .f32) (main_arg5 : FVec F S64 .f32) (main_arg6 : FVec F S4096x64 .f32) (main_arg7 : FVec F S64 .f32) (main_arg8 : FVec F S4096x64 .f32) (main_arg9 : FVec F S64 .f32) (main_arg10 : FVec F S192x3 .f32) (main_arg11 : FVec F S3 .f32) (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x16 .f32) (main_arg21 : FVec F S16 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S4096x4096 .f32) (main_arg1 : FVec F S4096x4096 .f32) (main_arg2 : FVec F S4096x4096 .f32) (main_arg3 : FVec F S4096x512 .f32) (main_arg4 : FVec F S4096x64 .f32) (main_arg5 : FVec F S64 .f32) (main_arg6 : FVec F S4096x64 .f32) (main_arg7 : FVec F S64 .f32) (main_arg8 : FVec F S4096x64 .f32) (main_arg9 : FVec F S64 .f32) (main_arg10 : FVec F S192x3 .f32) (main_arg11 : FVec F S3 .f32) (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x16 .f32) (main_arg21 : FVec F S16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096x4096 : Shape := ⟨2, ![4096, 4096]⟩
abbrev S4096x512 : Shape := ⟨2, ![4096, 512]⟩
abbrev S4096x64 : Shape := ⟨2, ![4096, 64]⟩
abbrev S64 : Shape := ⟨1, ![64]⟩
abbrev S192x3 : Shape := ⟨2, ![192, 3]⟩
abbrev S3 : Shape := ⟨1, ![3]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x64 : Shape := ⟨2, ![1, 64]⟩
abbrev S1x3 : Shape := ⟨2, ![1, 3]⟩
abbrev S64x3 : Shape := ⟨2, ![64, 3]⟩
abbrev S4096x3 : Shape := ⟨2, ![4096, 3]⟩
abbrev S512x4096 : Shape := ⟨2, ![512, 4096]⟩
abbrev S512x3 : Shape := ⟨2, ![512, 3]⟩
abbrev S512x64 : Shape := ⟨2, ![512, 64]⟩
abbrev S512 : Shape := ⟨1, ![512]⟩
abbrev S512x1 : Shape := ⟨2, ![512, 1]⟩
abbrev S3x4096 : Shape := ⟨2, ![3, 4096]⟩
abbrev S1x128 : Shape := ⟨2, ![1, 128]⟩
abbrev S4096x128 : Shape := ⟨2, ![4096, 128]⟩
abbrev S1024x1024 : Shape := ⟨2, ![1024, 1024]⟩
abbrev S3x1024 : Shape := ⟨2, ![3, 1024]⟩
abbrev S1024x512 : Shape := ⟨2, ![1024, 512]⟩
abbrev S1024x128 : Shape := ⟨2, ![1024, 128]⟩
abbrev S1x1024 : Shape := ⟨2, ![1, 1024]⟩
abbrev S2048x128 : Shape := ⟨2, ![2048, 128]⟩
abbrev S2048x2048 : Shape := ⟨2, ![2048, 2048]⟩
abbrev S2048x1 : Shape := ⟨2, ![2048, 1]⟩
abbrev S128x2048 : Shape := ⟨2, ![128, 2048]⟩
abbrev S2048 : Shape := ⟨1, ![2048]⟩
abbrev S4096x16 : Shape := ⟨2, ![4096, 16]⟩
abbrev S1x16 : Shape := ⟨2, ![1, 16]⟩
abbrev S512x16 : Shape := ⟨2, ![512, 16]⟩

abbrev nBuf : Space → Nat
  | .hbm => 43
  | .vmem => 64
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x512, .f32⟩
  | .hbm, ⟨4, _⟩ => ⟨S4096x64, .f32⟩
  | .hbm, ⟨5, _⟩ => ⟨S64, .f32⟩
  | .hbm, ⟨6, _⟩ => ⟨S4096x64, .f32⟩
  | .hbm, ⟨7, _⟩ => ⟨S64, .f32⟩
  | .hbm, ⟨8, _⟩ => ⟨S4096x64, .f32⟩
  | .hbm, ⟨9, _⟩ => ⟨S64, .f32⟩
  | .hbm, ⟨10, _⟩ => ⟨S192x3, .f32⟩
  | .hbm, ⟨11, _⟩ => ⟨S3, .f32⟩
  | .hbm, ⟨12, _⟩ => ⟨S512x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x16, .f32⟩
  | .hbm, ⟨21, _⟩ => ⟨S16, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x3, .f32⟩
  | .hbm, ⟨26, _⟩ => ⟨S64x3, .f32⟩
  | .hbm, ⟨27, _⟩ => ⟨S64x3, .f32⟩
  | .hbm, ⟨28, _⟩ => ⟨S64x3, .f32⟩
  | .hbm, ⟨29, _⟩ => ⟨S4096x3, .f32⟩
  | .hbm, ⟨30, _⟩ => ⟨S3x4096, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S4096x4096, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x16, .f32⟩
  | .hbm, ⟨41, _⟩ => ⟨S1x16, .f32⟩
  | .hbm, ⟨42, _⟩ => ⟨S4096x16, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x3, .f32⟩
  | .local _ .vmem, ⟨13, _⟩ => ⟨S64x3, .f32⟩
  | .local _ .vmem, ⟨14, _⟩ => ⟨S64x3, .f32⟩
  | .local _ .vmem, ⟨15, _⟩ => ⟨S1x3, .f32⟩
  | .local _ .vmem, ⟨16, _⟩ => ⟨S512x3, .f32⟩
  | .local _ .vmem, ⟨17, _⟩ => ⟨S512x3, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S3x1024, .f32⟩
  | .local _ .vmem, ⟨25, _⟩ => ⟨S3x1024, .f32⟩
  | .local _ .vmem, ⟨26, _⟩ => ⟨S1024x512, .f32⟩
  | .local _ .vmem, ⟨27, _⟩ => ⟨S1024x512, .f32⟩
  | .local _ .vmem, ⟨28, _⟩ => ⟨S512x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S1x128, .f32⟩
  | .local _ .vmem, ⟨36, _⟩ => ⟨S1024x1024, .f32⟩
  | .local _ .vmem, ⟨37, _⟩ => ⟨S1024x1024, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048x2048, .f32⟩
  | .local _ .vmem, ⟨52, _⟩ => ⟨S2048x2048, .f32⟩
  | .local _ .vmem, ⟨53, _⟩ => ⟨S2048x128, .f32⟩
  | .local _ .vmem, ⟨54, _⟩ => ⟨S2048x128, .f32⟩
  | .local _ .vmem, ⟨55, _⟩ => ⟨S2048x1, .f32⟩
  | .local _ .vmem, ⟨56, _⟩ => ⟨S2048x1, .f32⟩
  | .local _ .vmem, ⟨57, _⟩ => ⟨S2048x128, .f32⟩
  | .local _ .vmem, ⟨58, _⟩ => ⟨S512x4096, .f32⟩
  | .local _ .vmem, ⟨59, _⟩ => ⟨S512x4096, .f32⟩
  | .local _ .vmem, ⟨60, _⟩ => ⟨S4096x16, .f32⟩
  | .local _ .vmem, ⟨61, _⟩ => ⟨S1x16, .f32⟩
  | .local _ .vmem, ⟨62, _⟩ => ⟨S512x16, .f32⟩
  | .local _ .vmem, ⟨63, _⟩ => ⟨S512x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v13_2 : Ref sig .tc := ⟨.hbm, 37, rfl⟩
abbrev main_v13_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc1_stg16_0 : Ref sig .tc := ⟨.vmem, 42, rfl⟩
abbrev cc1_stg16_1 : Ref sig .tc := ⟨.vmem, 43, rfl⟩
abbrev cc1_scratch0 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg1_1 : Ref sig .tc := ⟨.vmem, 48, rfl⟩
abbrev cc2_stg2_0 : Ref sig .tc := ⟨.vmem, 49, rfl⟩
abbrev cc2_stg2_1 : Ref sig .tc := ⟨.vmem, 50, rfl⟩
abbrev cc2_stg3_0 : Ref sig .tc := ⟨.vmem, 51, rfl⟩
abbrev cc2_stg3_1 : Ref sig .tc := ⟨.vmem, 52, rfl⟩
abbrev cc2_stg4_0 : Ref sig .tc := ⟨.vmem, 53, rfl⟩
abbrev cc2_stg4_1 : Ref sig .tc := ⟨.vmem, 54, rfl⟩
abbrev cc2_scratch0 : Ref sig .tc := ⟨.vmem, 55, rfl⟩
abbrev cc2_scratch1 : Ref sig .tc := ⟨.vmem, 56, rfl⟩
abbrev cc2_scratch2 : Ref sig .tc := ⟨.vmem, 57, rfl⟩
abbrev cc3_stg0_0 : Ref sig .tc := ⟨.vmem, 58, rfl⟩
abbrev cc3_stg0_1 : Ref sig .tc := ⟨.vmem, 59, rfl⟩
abbrev cc3_stg1_0 : Ref sig .tc := ⟨.vmem, 60, rfl⟩
abbrev cc3_stg2_0 : Ref sig .tc := ⟨.vmem, 61, rfl⟩
abbrev cc3_stg3_0 : Ref sig .tc := ⟨.vmem, 62, rfl⟩
abbrev cc3_stg3_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem15_1 : DmaSem sig := 41
abbrev cc1_sem16_0 : DmaSem sig := 42
abbrev cc1_sem16_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem4_1 : DmaSem sig := 53
abbrev cc3_sem0_0 : DmaSem sig := 54
abbrev cc3_sem0_1 : DmaSem sig := 55
abbrev cc3_sem1_0 : DmaSem sig := 56
abbrev cc3_sem2_0 : DmaSem sig := 57
abbrev cc3_sem3_0 : DmaSem sig := 58
abbrev cc3_sem3_1 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_21 : BitVec 32 := 0#32
  let v32 : BitVec 1 := Scalar.cmpi .ne v31 c0_i32_21
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1024x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1024x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1024x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32 : BitVec 32 := 1#32
  let v43 : BitVec 1 := Scalar.cmpi .eq arg1 c1_i32
  let v44 : BitVec 32 := Scalar.extui v43
  let c0_i32_25 : BitVec 32 := 0#32
  let v45 : BitVec 1 := Scalar.cmpi .ne v44 c0_i32_25
  v45

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  shapeCasts_S3_S1x3 : S3.ShapeCasts S1x3
  slices_S192x3_S64x3_0_0 : S192x3.Slices ![0, 0] S64x3
  slices_S192x3_S64x3_64_0 : S192x3.Slices ![64, 0] S64x3
  slices_S192x3_S64x3_128_0 : S192x3.Slices ![128, 0] S64x3
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  inb_S512x3_S512x3_0_0 : ∀ a, (![0, 0] : Fin 2 → Nat) a + S512x3.size a ≤ S512x3.size a
  h_S512x3 : 0 < S512x3.numel
  transposes_S4096x3_S3x4096_1_0 : S4096x3.Transposes [1, 0] S3x4096
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S3x1024_S1x1024_0_0 : ∀ a, (![0, 0] : Fin 2 → Nat) a + S1x1024.size a ≤ S3x1024.size a
  h_S1x1024 : 0 < S1x1024.numel
  shapeCasts_S1x1024_S1x1024 : S1x1024.ShapeCasts S1x1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  inb_S1024x1024_S1024x1024_0_0 : ∀ a, (![0, 0] : Fin 2 → Nat) a + S1024x1024.size a ≤ S1024x1024.size a
  h_S1024x1024 : 0 < S1024x1024.numel
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x128 : S2048x1.Broadcasts S2048x128
  shapeCasts_S16_S1x16 : S16.ShapeCasts S1x16
  shapeCasts_S512x4096_S512x4096 : S512x4096.ShapeCasts S512x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  broadcasts_S512x1_S512x16 : S512x1.Broadcasts S512x16
  inb_S512x16_S512x16_0_0 : ∀ a, (![0, 0] : Fin 2 → Nat) a + S512x16.size a ≤ S512x16.size a
  h_S512x16 : 0 < S512x16.numel
  dot_S512x4096_S4096x64_S512x64_1_0_0_1_n_n_wf : DotDims.WF S512x4096 S4096x64 S512x64 [1] [0] [0] [1] [] []
  dot_S512x64_S64x3_S512x3_1_0_0_1_n_n_wf : DotDims.WF S512x64 S64x3 S512x3 [1] [0] [0] [1] [] []
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S2048x128_S128x2048_S2048x2048_1_0_0_1_n_n_wf : DotDims.WF S2048x128 S128x2048 S2048x2048 [1] [0] [0] [1] [] []
  dot_S2048x2048_S2048x128_S2048x128_1_0_0_1_n_n_wf : DotDims.WF S2048x2048 S2048x128 S2048x128 [1] [0] [0] [1] [] []
  dot_S4096x128_S128x16_S4096x16_1_0_0_1_n_n_wf : DotDims.WF S4096x128 S128x16 S4096x16 [1] [0] [0] [1] [] []
  dot_S512x4096_S4096x16_S512x16_1_0_0_1_n_n_wf : DotDims.WF S512x4096 S4096x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S4096x64.size a
  hwx0_5 : ∀ i : grid0.Coords, EltTy.bits .f32 = 32 ∨ (Rect.block (s := S4096x64) S4096x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x3.size a ≤ S64x3.size a
  hwx0_9 : ∀ i : grid0.Coords, EltTy.bits .f32 = 32 ∨ (Rect.block (s := S64x3) S64x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x3.size a ≤ S64x3.size a
  hwx0_10 : ∀ i : grid0.Coords, EltTy.bits .f32 = 32 ∨ (Rect.block (s := S64x3) S64x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x3.size a ≤ S64x3.size a
  hwx0_11 : ∀ i : grid0.Coords, EltTy.bits .f32 = 32 ∨ (Rect.block (s := S64x3) S64x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x3.size a ≤ S4096x3.size a
  hwx0_13 : ∀ i : grid0.Coords, EltTy.bits .f32 = 32 ∨ (Rect.block (s := S4096x3) S512x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x1024.size a ≤ S3x4096.size a
  hwx1_3 : ∀ i : grid1.Coords, EltTy.bits .f32 = 32 ∨ (Rect.block (s := S3x4096) S3x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x512.size a
  hwx1_4 : ∀ i : grid1.Coords, EltTy.bits .f32 = 32 ∨ (Rect.block (s := S4096x512) S1024x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x1024.size a ≤ S4096x4096.size a
  hwx1_13 : ∀ i : grid1.Coords, EltTy.bits .f32 = 32 ∨ (Rect.block (s := S4096x4096) S1024x1024.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1024x128.size a ≤ S4096x128.size a
  hwx1_14 : ∀ i : grid1.Coords, EltTy.bits .f32 = 32 ∨ (Rect.block (s := S4096x128) S1024x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1024x128.size a ≤ S4096x128.size a
  hwx1_15 : ∀ i : grid1.Coords, EltTy.bits .f32 = 32 ∨ (Rect.block (s := S4096x128) S1024x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1024x128.size a ≤ S4096x128.size a
  hwx1_16 : ∀ i : grid1.Coords, EltTy.bits .f32 = 32 ∨ (Rect.block (s := S4096x128) S1024x128.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S4096x128.size a
  hwx2_0 : ∀ i : grid2.Coords, EltTy.bits .f32 = 32 ∨ (Rect.block (s := S4096x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x128.size a
  hwx2_1 : ∀ i : grid2.Coords, EltTy.bits .f32 = 32 ∨ (Rect.block (s := S4096x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S4096x128.size a
  hwx2_2 : ∀ i : grid2.Coords, EltTy.bits .f32 = 32 ∨ (Rect.block (s := S4096x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S4096x4096.size a
  hwx2_3 : ∀ i : grid2.Coords, EltTy.bits .f32 = 32 ∨ (Rect.block (s := S4096x4096) S2048x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S4096x128.size a
  hwx2_4 : ∀ i : grid2.Coords, EltTy.bits .f32 = 32 ∨ (Rect.block (s := S4096x128) S2048x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x16.size a ≤ S4096x16.size a
  hwx3_1 : ∀ i : grid3.Coords, EltTy.bits .f32 = 32 ∨ (Rect.block (s := S4096x16) S4096x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x16.size a ≤ S4096x16.size a
  hwx3_3 : ∀ i : grid3.Coords, EltTy.bits .f32 = 32 ∨ (Rect.block (s := S4096x16) S512x16.size (cc3_transform_3 i) (hinb3_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S4096x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S4096x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S64x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S64x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S512x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S3x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v13_0) S1024x1024.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v13_1) S1024x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v13_2) S1024x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v13_3) S1024x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev idle1 : Fin 17 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k1_cond2 i == 1#1) | 15 => fun i => !(k1_cond2 i == 1#1) | 16 => fun i => !(k1_cond2 i == 1#1) | ⟨_ + 17, h⟩ => absurd h (Nat.not_lt.2 (Nat.le_add_left _ _))

abbrev win2_0 : Pipeline.Window sig grid2 :=
  Pipeline.Window.ofSpec (Memref.whole main_v13_1) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_2) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13_3) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13_0) S2048x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v13_0) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4096x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S512x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S4096x64 : Shape := ⟨2, ![4096, 64]⟩
abbrev S64 : Shape := ⟨1, ![64]⟩
abbrev S192x3 : Shape := ⟨2, ![192, 3]⟩
abbrev S3 : Shape := ⟨1, ![3]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x64 : Shape := ⟨2, ![1, 64]⟩
abbrev S4096x192 : Shape := ⟨2, ![4096, 192]⟩
abbrev S4096x3 : Shape := ⟨2, ![4096, 3]⟩
abbrev S1x3 : Shape := ⟨2, ![1, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x128 : Shape := ⟨2, ![4096, 128]⟩
abbrev S1x128 : Shape := ⟨2, ![1, 128]⟩
abbrev S128x4096 : Shape := ⟨2, ![128, 4096]⟩
abbrev S4096x16 : Shape := ⟨2, ![4096, 16]⟩
abbrev S1x16 : Shape := ⟨2, ![1, 16]⟩

abbrev nBuf : Space → Nat
  | .hbm => 149
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S4096x512, .f32⟩
  | 4 => ⟨S4096x64, .f32⟩
  | 5 => ⟨S64, .f32⟩
  | 6 => ⟨S4096x64, .f32⟩
  | 7 => ⟨S64, .f32⟩
  | 8 => ⟨S4096x64, .f32⟩
  | 9 => ⟨S64, .f32⟩
  | 10 => ⟨S192x3, .f32⟩
  | 11 => ⟨S3, .f32⟩
  | 12 => ⟨S512x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x16, .f32⟩
  | 21 => ⟨S16, .f32⟩
  | 22 => ⟨S4096x64, .f32⟩
  | 23 => ⟨S1x64, .f32⟩
  | 24 => ⟨S4096x64, .f32⟩
  | 25 => ⟨S4096x64, .f32⟩
  | 26 => ⟨S4096x64, .f32⟩
  | 27 => ⟨S1x64, .f32⟩
  | 28 => ⟨S4096x64, .f32⟩
  | 29 => ⟨S4096x64, .f32⟩
  | 30 => ⟨S4096x64, .f32⟩
  | 31 => ⟨S1x64, .f32⟩
  | 32 => ⟨S4096x64, .f32⟩
  | 33 => ⟨S4096x64, .f32⟩
  | 34 => ⟨S4096x192, .f32⟩
  | 35 => ⟨S4096x3, .f32⟩
  | 36 => ⟨S1x3, .f32⟩
  | 37 => ⟨S4096x3, .f32⟩
  | 38 => ⟨S4096x3, .f32⟩
  | 39 => ⟨S_, .f32⟩
  | 40 => ⟨S4096, .f32⟩
  | 41 => ⟨S_, .f32⟩
  | 42 => ⟨S4096, .f32⟩
  | 43 => ⟨S4096, .f32⟩
  | 44 => ⟨S4096x1, .f32⟩
  | 45 => ⟨S4096x3, .f32⟩
  | 46 => ⟨S4096x3, .f32⟩
  | 47 => ⟨S4096x3, .f32⟩
  | 48 => ⟨S_, .f32⟩
  | 49 => ⟨S4096, .f32⟩
  | 50 => ⟨S4096x1, .f32⟩
  | 51 => ⟨S4096x3, .f32⟩
  | 52 => ⟨S4096x3, .f32⟩
  | 53 => ⟨S4096x1, .f32⟩
  | 54 => ⟨S4096, .f32⟩
  | 55 => ⟨S1x4096, .f32⟩
  | 56 => ⟨S4096x4096, .f32⟩
  | 57 => ⟨S4096x4096, .f32⟩
  | 58 => ⟨S4096x1, .f32⟩
  | 59 => ⟨S4096, .f32⟩
  | 60 => ⟨S1x4096, .f32⟩
  | 61 => ⟨S4096x4096, .f32⟩
  | 62 => ⟨S4096x4096, .f32⟩
  | 63 => ⟨S4096x4096, .f32⟩
  | 64 => ⟨S4096x1, .f32⟩
  | 65 => ⟨S4096, .f32⟩
  | 66 => ⟨S1x4096, .f32⟩
  | 67 => ⟨S4096x4096, .f32⟩
  | 68 => ⟨S4096x4096, .f32⟩
  | 69 => ⟨S4096x4096, .f32⟩
  | 70 => ⟨S4096x128, .f32⟩
  | 71 => ⟨S4096x128, .f32⟩
  | 72 => ⟨S1x128, .f32⟩
  | 73 => ⟨S4096x128, .f32⟩
  | 74 => ⟨S4096x128, .f32⟩
  | 75 => ⟨S_, .f32⟩
  | 76 => ⟨S4096x128, .f32⟩
  | 77 => ⟨S4096x128, .f32⟩
  | 78 => ⟨S4096x128, .f32⟩
  | 79 => ⟨S1x128, .f32⟩
  | 80 => ⟨S4096x128, .f32⟩
  | 81 => ⟨S4096x128, .f32⟩
  | 82 => ⟨S4096x128, .f32⟩
  | 83 => ⟨S1x128, .f32⟩
  | 84 => ⟨S4096x128, .f32⟩
  | 85 => ⟨S4096x128, .f32⟩
  | 86 => ⟨S4096x128, .f32⟩
  | 87 => ⟨S1x128, .f32⟩
  | 88 => ⟨S4096x128, .f32⟩
  | 89 => ⟨S4096x128, .f32⟩
  | 90 => ⟨S128x4096, .f32⟩
  | 91 => ⟨S4096x4096, .f32⟩
  | 92 => ⟨S4096x4096, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1, .f32⟩
  | 99 => ⟨S4096x4096, .f32⟩
  | 100 => ⟨S4096x4096, .f32⟩
  | 101 => ⟨S4096x4096, .f32⟩
  | 102 => ⟨S_, .f32⟩
  | 103 => ⟨S4096, .f32⟩
  | 104 => ⟨S4096x1, .f32⟩
  | 105 => ⟨S4096x4096, .f32⟩
  | 106 => ⟨S4096x4096, .f32⟩
  | 107 => ⟨S_, .f32⟩
  | 108 => ⟨S4096, .f32⟩
  | 109 => ⟨S_, .f32⟩
  | 110 => ⟨S4096, .f32⟩
  | 111 => ⟨S4096, .i1⟩
  | 112 => ⟨S_, .f32⟩
  | 113 => ⟨S4096, .f32⟩
  | 114 => ⟨S4096, .f32⟩
  | 115 => ⟨S4096, .f32⟩
  | 116 => ⟨S_, .f32⟩
  | 117 => ⟨S_, .f32⟩
  | 118 => ⟨S4096, .f32⟩
  | 119 => ⟨S4096, .f32⟩
  | 120 => ⟨S4096x1, .f32⟩
  | 121 => ⟨S4096x4096, .f32⟩
  | 122 => ⟨S4096x4096, .f32⟩
  | 123 => ⟨S1x4096, .f32⟩
  | 124 => ⟨S4096x4096, .f32⟩
  | 125 => ⟨S4096x4096, .f32⟩
  | 126 => ⟨S4096x128, .f32⟩
  | 127 => ⟨S_, .f32⟩
  | _ => ⟨S4096x4096, .f32⟩

abbrev hbmTy0_1 (i : Nat) : BufTy := match i % 128 with
  | 0 => ⟨S4096x128, .f32⟩
  | 1 => ⟨S4096x128, .f32⟩
  | 2 => ⟨S4096x16, .f32⟩
  | 3 => ⟨S4096x16, .f32⟩
  | 4 => ⟨S1x16, .f32⟩
  | 5 => ⟨S4096x16, .f32⟩
  | 6 => ⟨S4096x16, .f32⟩
  | 7 => ⟨S_, .f32⟩
  | 8 => ⟨S4096, .f32⟩
  | 9 => ⟨S_, .f32⟩
  | 10 => ⟨S4096, .f32⟩
  | 11 => ⟨S4096, .f32⟩
  | 12 => ⟨S4096x1, .f32⟩
  | 13 => ⟨S4096x16, .f32⟩
  | 14 => ⟨S4096x16, .f32⟩
  | 15 => ⟨S4096x16, .f32⟩
  | 16 => ⟨S_, .f32⟩
  | 17 => ⟨S4096, .f32⟩
  | 18 => ⟨S4096x1, .f32⟩
  | 19 => ⟨S4096x16, .f32⟩
  | 20 => ⟨S4096x16, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_cst : Ref sig .tc := ⟨.hbm, 75, rfl⟩
abbrev main_call0_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_2 : Ref sig .tc := ⟨.hbm, 93, rfl⟩
abbrev main_v66 : Ref sig .tc := ⟨.hbm, 94, rfl⟩
abbrev main_cst_3 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_4 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_5 : Ref sig .tc := ⟨.hbm, 107, rfl⟩
abbrev main_v77 : Ref sig .tc := ⟨.hbm, 108, rfl⟩
abbrev main_cst_6 : Ref sig .tc := ⟨.hbm, 109, rfl⟩
abbrev main_v78 : Ref sig .tc := ⟨.hbm, 110, rfl⟩
abbrev main_v79 : Ref sig .tc := ⟨.hbm, 111, rfl⟩
abbrev main_cst_7 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_8 : Ref sig .tc := ⟨.hbm, 116, rfl⟩
abbrev main_call1_v0 : Ref sig .tc := ⟨.hbm, 117, rfl⟩
abbrev main_call1_v1 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call2_cst : Ref sig .tc := ⟨.hbm, 127, rfl⟩
abbrev main_call2_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_9 : Ref sig .tc := ⟨.hbm, 135, rfl⟩
abbrev main_v97 : Ref sig .tc := ⟨.hbm, 136, rfl⟩
abbrev main_cst_10 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_11 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x64_S4096x64_S4096x192_d1 : Shape.Concatenates [S4096x64, S4096x64, S4096x64] S4096x192 1
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  slices_S4096x3_S4096x1_0_0 : S4096x3.Slices ![0, 0] S4096x1
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x3_S4096x1_0_1 : S4096x3.Slices ![0, 1] S4096x1
  slices_S4096x3_S4096x1_0_2 : S4096x3.Slices ![0, 2] S4096x1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S4096x128_S128x4096_1_0 : S4096x128.Transposes [1, 0] S128x4096
  reducesTo_S4096x4096_S4096_d1 : S4096x4096.ReducesTo [1] S4096
  bcast_S4096x1_S4096x4096_0_1 : S4096x1.BroadcastsInDim S4096x4096 (![0, 1] : Fin 2 → Fin S4096x4096.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S4096x1_S4096x16_0_1 : S4096x1.BroadcastsInDim S4096x16 (![0, 1] : Fin 2 → Fin S4096x16.rank)
  dot_S4096x4096_S4096x64_S4096x64_1_0_0_1_n_n_wf : DotDims.WF S4096x4096 S4096x64 S4096x64 [1] [0] [0] [1] [] []
  dot_S4096x192_S192x3_S4096x3_1_0_0_1_n_n_wf : DotDims.WF S4096x192 S192x3 S4096x3 [1] [0] [0] [1] [] []
  dot_S4096x512_S512x128_S4096x128_1_0_0_1_n_n_wf : DotDims.WF S4096x512 S512x128 S4096x128 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []
  dot_S4096x128_S128x16_S4096x16_1_0_0_1_n_n_wf : DotDims.WF S4096x128 S128x16 S4096x16 [1] [0] [0] [1] [] []
  dot_S4096x4096_S4096x16_S4096x16_1_0_0_1_n_n_wf : DotDims.WF S4096x4096 S4096x16 S4096x16 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x192_S192x3_S4096x3_1_0_0_1_n_n : DotDims S4096x192 S192x3 S4096x3 where
  lhsContracting := [1]
  rhsContracting := [0]
  lhsNonContracting := [0]
  rhsNonContracting := [1]
  lhsBatch := []
  rhsBatch := []
  wf := dot_S4096x192_S192x3_S4096x3_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.Kernel.R3.lean ====
import proofs.«406496_j14319420965162_3_alg».proof.Proof.Gen.Kernel.Launch
import proofs.«406496_j14319420965162_3_alg».proof.Proof.Gen.Kernel.Skeleton
import proofs.«406496_j14319420965162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut : Rect S512x16 := Rect.unit (s := S512x16) ![0, 0] S512x16.size inb_S512x16_S512x16_0_0
abbrev rA : Rect S512x4096 := Rect.unit (s := S512x4096) ![0, 0] S512x4096.size inb_S512x4096_S512x4096_0_0
abbrev rW : Rect S4096x16 := Rect.unit (s := S4096x16) ![0, 0] S4096x16.size inb_S4096x16_S4096x16_0_0
abbrev rB : Rect S1x16 := Rect.unit (s := S1x16) ![0, 0] S1x16.size inb_S1x16_S1x16_0_0

section

variable (x0 : Vec F S512x4096 .f32) (x1 : Vec F S4096x16 .f32) (x2 : Vec F S1x16 .f32)

def out3 : Vec F S512x16 .f32 :=
  View.canon [⟨rOut, k3_pay1 (View.ld x0 rA) (View.ld x1 rW) (View.ld x2 rB)⟩]

theorem cover3 (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y

set_option maxHeartbeats 1000000 in
theorem sound_kernel (c : Dev nD) (E : Set ℕ) (i : grid3.Coords) (arg1 : Memref sig .tc .vmem S512x4096 .f32) (harg1 : arg1.IsWhole) (arg2 : Memref sig .tc .vmem S4096x16 .f32) (harg2 : arg2.IsWhole)
    (arg3 : Memref sig .tc .vmem S1x16 .f32) (harg3 : arg3.IsWhole) (arg4 : Memref sig .tc .vmem S512x16 .f32) (harg4 : arg4.IsWhole)
    (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc3__gcn2_kernel i arg1 harg1 arg2 harg2 arg3 harg3 arg4 harg4) K := by
  simp only [cc3__gcn2_kernel_eq_skeleton]; unfold cc3__gcn2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after_3 (c : Dev nD) (t : Fin cfg3.N) : (dat V c).after 3 t = out3 (iblk V c 0 t) (iblk V c 1 t) (iblk V c 2 t) := by dsimp only [dat]

theorem body_obligation (c : Dev nD) : BodyObligation (dat (F := F) V c) (defs₀ (F := F)) Variants.none () Set.univ := fun t => by
  rw [bigSep_W3, bigSep_W3]
  show _ ⊢ wp frame _ Set.univ (bodyAt3 t) _
  unfold bodyAt3
  rw [show (dat V c).owesAt () t.succ = (dat V c).owesAt () t.castSucc from rfl]
  have hb := fun (w : Fin cfg3.W) hw hc hk => (dat V c).before_in_eq_fetched w hw (fun _ => rfl) hc hk t
  simp only [show ∀ d, _ = iblk V c 0 t from hb 0 rfl (fun _ _ _ => rfl) (fun _ => rfl),
    show ∀ d, _ = iblk V c 1 t from hb 1 rfl (fun _ _ _ => rfl) (fun _ => rfl),
    show ∀ d, _ = iblk V c 2 t from hb 2 rfl (fun _ _ _ => rfl) (fun _ => rfl)]
  dsimp only [dat]
  iintro ⟨HΦ, Ho, ⟨%d0, H0⟩, ⟨%d1, H1⟩, ⟨%d2, H2⟩, ⟨%d3, H3⟩⟩
  iapply (sound_kernel (iblk V c 0 t) (iblk V c 1 t) (iblk V c 2 t) c Set.univ _ _ _ _ _ _ _ _ _ _)
  iframe H0 H1 H2
  isplitl [H3]; · iexists _; iexact H3
  iintro H
  isplitl [HΦ]; · iexact HΦ
  isplitl [Ho]; · iexact Ho
  iexact H

theorem hin (c : Dev nD) : (Pipeline.ΦA spec3 c : sProp 𝕄) ⊢ (dat V c).Φ 0 := .rfl
theorem hout (c : Dev nD) : (dat V c).Φ (Fin.last cfg3.N) ⊢ (Pipeline.ΦA spec3 c : sProp 𝕄) := .rfl

end Cert.Kernel.R3

end
-- ==== Proof.Kernel.R0.lean ====
import proofs.«406496_j14319420965162_3_alg».proof.Proof.Gen.Kernel.Launch
import proofs.«406496_j14319420965162_3_alg».proof.Proof.Gen.Kernel.Skeleton
import proofs.«406496_j14319420965162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut : Rect S512x3 := Rect.unit (s := S512x3) ![0, 0] S512x3.size inb_S512x3_S512x3_0_0
abbrev rA : Rect S512x4096 := Rect.unit (s := S512x4096) ![0, 0] S512x4096.size inb_S512x4096_S512x4096_0_0
abbrev rW : Rect S4096x64 := Rect.unit (s := S4096x64) ![0, 0] S4096x64.size inb_S4096x64_S4096x64_0_0
abbrev rB : Rect S1x64 := Rect.unit (s := S1x64) ![0, 0] S1x64.size inb_S1x64_S1x64_0_0
abbrev rG : Rect S64x3 := Rect.unit (s := S64x3) ![0, 0] S64x3.size inb_S64x3_S64x3_0_0
abbrev rC : Rect S1x3 := Rect.unit (s := S1x3) ![0, 0] S1x3.size inb_S1x3_S1x3_0_0

section

variable (x0 x1 x2 : Vec F S512x4096 .f32) (x3 x4 x5 : Vec F S4096x64 .f32) (x6 x7 x8 : Vec F S1x64 .f32) (x9 x10 x11 : Vec F S64x3 .f32) (x12 : Vec F S1x3 .f32)

def out0 : Vec F S512x3 .f32 :=
  View.canon [⟨rOut, k0_pay1 (k0_pay2 (View.ld x2 rA) (View.ld x5 rW) (View.ld x8 rB))
    (k0_pay3 (View.ld x0 rA) (View.ld x3 rW) (View.ld x6 rB) (View.ld x1 rA) (View.ld x4 rW) (View.ld x7 rB) (View.ld x9 rG) (View.ld x10 rG))
    (k0_pay4 (View.ld x11 rG)) (View.ld x12 rC)⟩]

theorem cover0 (p0 : Vec F S512x3 .f32) (y : S512x3.Idx) :
    ∃ pc ∈ ([⟨rOut, p0⟩] : List (View.Piece (Elt F) S512x3 .f32)), y ∈ pc.1.set :=
  View.cover_of_tiled [⟨rOut, p0⟩] S512x3.size (by rfl) y

set_option maxHeartbeats 4000000 in
theorem sound_kernel (c : Dev nD) (E : Set ℕ) (i : grid0.Coords) (arg1 arg2 arg3 : Memref sig .tc .vmem S512x4096 .f32) (arg4 arg5 arg6 : Memref sig .tc .vmem S4096x64 .f32) (arg7 arg8 arg9 : Memref sig .tc .vmem S1x64 .f32) (arg10 arg11 arg12 : Memref sig .tc .vmem S64x3 .f32) (arg13 : Memref sig .tc .vmem S1x3 .f32) (arg14 : Memref sig .tc .vmem S512x3 .f32)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0 x0 x1 x2 x3 x4 x5 x6 x7 x8 x9 x10 x11 x12)) -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__logits_kernel_eq_skeleton]; unfold cc0__logits_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0 _)

end

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out0 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec0 c
  q _ := fullShare
  owed _ := 0

theorem A_eq (c : Dev nD) (w : Fin cfg0.W) : (dat V c).A w = V c (Pipeline.arrRef spec0 w) := by
  dsimp only [dat]

theorem after_13 (c : Dev nD) (t : Fin cfg0.N) : (dat V c).after 13 t = out0 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem body_obligation (c : Dev nD) : BodyObligation (dat (F := F) V c) (defs₀ (F := F)) Variants.none () Set.univ := fun t => by
  rw [bigSep_W0, bigSep_W0]
  show _ ⊢ wp frame _ Set.univ (bodyAt0 t) _
  unfold bodyAt0
  rw [show (dat V c).owesAt () t.succ = (dat V c).owesAt () t.castSucc from rfl]
  have hb := fun (w : Fin cfg0.W) hw hc hk => (dat V c).before_in_eq_fetched w hw (fun _ => rfl) hc hk t
  simp only [show ∀ d, _ = iblk V c 0 t from hb 0 rfl (fun _ _ _ => rfl) (fun _ => rfl),
    show ∀ d, _ = iblk V c 1 t from hb 1 rfl (fun _ _ _ => rfl) (fun _ => rfl),
    show ∀ d, _ = iblk V c 2 t from hb 2 rfl (fun _ _ _ => rfl) (fun _ => rfl),
    show ∀ d, _ = iblk V c 3 t from hb 3 rfl (fun _ _ _ => rfl) (fun _ => rfl),
    show ∀ d, _ = iblk V c 4 t from hb 4 rfl (fun _ _ _ => rfl) (fun _ => rfl),
    show ∀ d, _ = iblk V c 5 t from hb 5 rfl (fun _ _ _ => rfl) (fun _ => rfl),
    show ∀ d, _ = iblk V c 6 t from hb 6 rfl (fun _ _ _ => rfl) (fun _ => rfl),
    show ∀ d, _ = iblk V c 7 t from hb 7 rfl (fun _ _ _ => rfl) (fun _ => rfl),
    show ∀ d, _ = iblk V c 8 t from hb 8 rfl (fun _ _ _ => rfl) (fun _ => rfl),
    show ∀ d, _ = iblk V c 9 t from hb 9 rfl (fun _ _ _ => rfl) (fun _ => rfl),
    show ∀ d, _ = iblk V c 10 t from hb 10 rfl (fun _ _ _ => rfl) (fun _ => rfl),
    show ∀ d, _ = iblk V c 11 t from hb 11 rfl (fun _ _ _ => rfl) (fun _ => rfl),
    show ∀ d, _ = iblk V c 12 t from hb 12 rfl (fun _ _ _ => rfl) (fun _ => rfl)]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) c Set.univ _ _ _ _ _ _ _ _ _ _ _ _ _ _ _ _ _ _ _ _ _ _ _ _ _ _ _ _ _ _)
  iframe H0 H1 H2 H3 H4 H5 H6 H7 H8 H9 H10 H11 H12
  isplitl [H13]; · iexists _; iexact H13
  iintro H
  isplitl [HΦ]; · iexact HΦ
  isplitl [Ho]; · iexact Ho
  iexact H

theorem hin (c : Dev nD) : (Pipeline.ΦA spec0 c : sProp 𝕄) ⊢ (dat V c).Φ 0 := .rfl
theorem hout (c : Dev nD) : (dat V c).Φ (Fin.last cfg0.N) ⊢ (Pipeline.ΦA spec0 c : sProp 𝕄) := .rfl

end Cert.Kernel.R0

end
-- ==== Proof.Kernel.R1.lean ====
import proofs.«406496_j14319420965162_3_alg».proof.Proof.Gen.Kernel.Launch
import proofs.«406496_j14319420965162_3_alg».proof.Proof.Gen.Kernel.Skeleton
import proofs.«406496_j14319420965162_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S1024x1024 := Rect.unit (s := S1024x1024) ![0, 0] S1024x1024.size inb_S1024x1024_S1024x1024_0_0
abbrev rN0 : Rect S3x1024 := Rect.unit (s := S3x1024) ![0, 0] S1x1024.size inb_S3x1024_S1x1024_0_0
abbrev rN1 : Rect S3x1024 := Rect.unit (s := S3x1024) ![1, 0] S1x1024.size inb_S3x1024_S1x1024_1_0
abbrev rN2 : Rect S3x1024 := Rect.unit (s := S3x1024) ![2, 0] S1x1024.size inb_S3x1024_S1x1024_2_0
abbrev rX : Rect S1024x512 := Rect.unit (s := S1024x512) ![0, 0] S1024x512.size inb_S1024x512_S1024x512_0_0
abbrev rW1 : Rect S512x128 := Rect.unit (s := S512x128) ![0, 0] S512x128.size inb_S512x128_S512x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rH : Rect S1024x128 := Rect.unit (s := S1024x128) ![0, 0] S1024x128.size inb_S1024x128_S1024x128_0_0

def rst : Vec F S1024x128 .f32 := View.canon [⟨rH, k1_pay5 (F := F)⟩]

def adjT (x0 x1 x2 : Vec F S1024x1024 .f32) (x3 : Vec F S3x1024 .f32) : Vec F S1024x1024 .f32 :=
  View.canon [⟨rA, k1_pay6 (View.ld x3 rN0) (View.ld x3 rN1) (View.ld x3 rN2) (View.ld x0 rA) (View.ld x1 rA) (View.ld x2 rA)⟩]

def accStep (x0 x1 x2 : Vec F S1024x1024 .f32) (x3 : Vec F S3x1024 .f32) (x4 : Vec F S1024x512 .f32) (x5 : Vec F S512x128 .f32)
    (s : Vec F S1024x128 .f32) : Vec F S1024x128 .f32 :=
  View.canon [⟨rH, k1_pay7 (View.ld x3 rN0) (View.ld x3 rN1) (View.ld x3 rN2) (View.ld x0 rA) (View.ld x1 rA) (View.ld x2 rA) (View.ld x4 rX) (View.ld x5 rW1) (View.ld s rH)⟩]

def qOut (s : Vec F S1024x128 .f32) (b1 : Vec F S1x128 .f32) (W : Vec F S128x128 .f32) (b : Vec F S1x128 .f32) : Vec F S1024x128 .f32 :=
  View.canon [⟨rH, k1_pay2 (View.ld s rH) (View.ld b1 rB) (View.ld W rW) (View.ld b rB)⟩]
def kOut (s : Vec F S1024x128 .f32) (b1 : Vec F S1x128 .f32) (W : Vec F S128x128 .f32) (b : Vec F S1x128 .f32) : Vec F S1024x128 .f32 :=
  View.canon [⟨rH, k1_pay3 (View.ld s rH) (View.ld b1 rB) (View.ld W rW) (View.ld b rB)⟩]
def vOut (s : Vec F S1024x128 .f32) (b1 : Vec F S1x128 .f32) (W : Vec F S128x128 .f32) (b : Vec F S1x128 .f32) : Vec F S1024x128 .f32 :=
  View.canon [⟨rH, k1_pay4 (View.ld s rH) (View.ld b1 rB) (View.ld W rW) (View.ld b rB)⟩]

abbrev cond1 (i : grid1.Coords) : Prop :=
  (Scalar.cmpi .ne (Scalar.extui (Scalar.cmpi .eq (BitVec.ofNat 32 (i 1).val) 0#32)) 0#32) = 1#1
theorem hcond1 : ∀ t : Fin cfg1.N, cond1 (grid1.coords t) ↔ t.val % 4 = 0 := by decide +kernel
abbrev cond2 (i : grid1.Coords) : Prop := k1_cond2 i = 1#1
theorem hcond2 : ∀ t : Fin cfg1.N, cond2 (grid1.coords t) ↔ t.val % 4 = 3 := by decide +kernel

abbrev scM : Memref sig .tc .vmem S1024x128 .f32 := Memref.whole cc1_scratch0

-- the accumulator after point n: started from zeros where n ≡ 0 (mod 4), else carried on from point n - 1
def accAt : (n : ℕ) → n < cfg1.N → Vec F S1024x128 .f32
  | 0, hn => accStep (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) rst
  | n + 1, hn => accStep (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
      (if (n + 1) % 4 = 0 then rst else accAt n (Nat.lt_of_succ_lt hn))

theorem accAt_reset (t : Fin cfg1.N) (h : t.val % 4 = 0) :
    accAt V c t.val t.isLt = accStep (iblk V c 0 t) (iblk V c 1 t) (iblk V c 2 t) (iblk V c 3 t) (iblk V c 4 t) (iblk V c 5 t) rst := by
  obtain ⟨n, hn⟩ := t
  cases n with
  | zero => rfl
  | succ n =>
    have h' : (n + 1) % 4 = 0 := h
    show accStep _ _ _ _ _ _ (if (n + 1) % 4 = 0 then rst else accAt V c n (Nat.lt_of_succ_lt hn)) = _
    rw [if_pos h']

theorem accAt_carry (t : Fin cfg1.N) (h : ¬t.val % 4 = 0) :
    accAt V c t.val t.isLt = accStep (iblk V c 0 t) (iblk V c 1 t) (iblk V c 2 t) (iblk V c 3 t) (iblk V c 4 t) (iblk V c 5 t)
      (accAt V c (t.val - 1) (Nat.lt_of_le_of_lt (Nat.sub_le _ _) t.isLt)) := by
  obtain ⟨n, hn⟩ := t
  cases n with
  | zero => exact absurd (Nat.zero_mod 4) h
  | succ n =>
    have h' : ¬(n + 1) % 4 = 0 := h
    show accStep _ _ _ _ _ _ (if (n + 1) % 4 = 0 then rst else accAt V c n (Nat.lt_of_succ_lt hn)) = _
    rw [if_neg h']
    rfl

-- before a point n > 0 the scratch holds the accumulator of point n - 1; before point 0 nothing is known of it
def PhiS : (n : ℕ) → n ≤ cfg1.N → sProp 𝕄
  | 0, _ => Pipeline.ΦA spec1 c
  | n + 1, hn => iprop(owns (c : Thread nD τ) scM fullShare (accAt V c n hn) ∗ Pipeline.scopedRestBut spec1 c [cc1_scratch0] ∗ ∃ r, prngReg c r)

theorem PhiS_zero (n : ℕ) (h : n ≤ cfg1.N) (hz : n = 0) : PhiS V c n h = Pipeline.ΦA spec1 c := by
  subst hz; rfl

theorem PhiS_succ (n : ℕ) (hn : n < cfg1.N) :
    PhiS V c (n + 1) hn = iprop(owns (c : Thread nD τ) scM fullShare (accAt V c n hn) ∗ Pipeline.scopedRestBut spec1 c [cc1_scratch0] ∗ ∃ r, prngReg c r) := rfl

theorem PhiS_pos (n : ℕ) (h : n ≤ cfg1.N) (hz : n ≠ 0) :
    PhiS V c n h = iprop(owns (c : Thread nD τ) scM fullShare (accAt V c (n - 1) (by omega)) ∗ Pipeline.scopedRestBut spec1 c [cc1_scratch0] ∗ ∃ r, prngReg c r) := by
  cases n with
  | zero => exact absurd rfl hz
  | succ n => rfl

def dat : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => adjT (iblk V c 0 t) (iblk V c 1 t) (iblk V c 2 t) (iblk V c 3 t)
    | ⟨14, _⟩ => qOut (accAt V c t.val t.isLt) (iblk V c 12 t) (iblk V c 6 t) (iblk V c 7 t)
    | ⟨15, _⟩ => kOut (accAt V c t.val t.isLt) (iblk V c 12 t) (iblk V c 8 t) (iblk V c 9 t)
    | ⟨16, _⟩ => vOut (accAt V c t.val t.isLt) (iblk V c 12 t) (iblk V c 10 t) (iblk V c 11 t)
    | ⟨_ + 17, h⟩ => absurd h (Nat.not_lt.2 (Nat.le_add_left _ _))
  Φ t := PhiS V c t.val (Nat.le_of_lt_succ t.isLt)
  q _ := fullShare
  owed _ := 0

theorem A_eq (w : Fin cfg1.W) : (dat V c).A w = V c (Pipeline.arrRef spec1 w) := by
  dsimp only [dat]

theorem PhiS_castSucc (t : Fin cfg1.N) :
    (dat V c).Φ t.castSucc = PhiS V c t.val (Nat.le_of_lt t.isLt) := by
  dsimp only [dat]; simp only [Fin.coe_castSucc]

section
variable (t : Fin cfg1.N)

theorem after_13 : (dat V c).after 13 t = adjT (iblk V c 0 t) (iblk V c 1 t) (iblk V c 2 t) (iblk V c 3 t) := by dsimp only [dat]
theorem after_14 : (dat V c).after 14 t = qOut (accAt V c t.val t.isLt) (iblk V c 12 t) (iblk V c 6 t) (iblk V c 7 t) := by dsimp only [dat]
theorem after_15 : (dat V c).after 15 t = kOut (accAt V c t.val t.isLt) (iblk V c 12 t) (iblk V c 8 t) (iblk V c 9 t) := by dsimp only [dat]
theorem after_16 : (dat V c).after 16 t = vOut (accAt V c t.val t.isLt) (iblk V c 12 t) (iblk V c 10 t) (iblk V c 11 t) := by dsimp only [dat]

end

-- the body leaves an input window's block as it finds it, so what it finds there is what it leaves
theorem before_in (w : Fin cfg1.W) (hw : w.val < 13) (t : Fin cfg1.N) (d) : (dat V c).before w t d = (dat V c).after w t := by
  fin_cases w <;> first
    | exact absurd hw (by decide)
    | exact ((dat V c).before_in_eq_fetched _ rfl (fun _ => rfl) (fun _ _ _ => rfl) (fun _ => rfl) t d).trans rfl

theorem live : ∀ t : Fin cfg1.N, cond2 (grid1.coords t) → ∀ w : Fin cfg1.W, cfg1.idle w (cfg1.grid.coords t) = false := by decide +kernel

theorem idle : ∀ t : Fin cfg1.N, ¬cond2 (grid1.coords t) → ∀ w : Fin cfg1.W, 14 ≤ w.val →
    cfg1.idle w (cfg1.grid.coords t) = true ∧ (cfg1.win w).flush t = false := by decide +kernel

theorem leaves_live (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]

theorem leaves_idle (t : Fin cfg1.N) (h : ¬cond2 (grid1.coords t)) (w : Fin cfg1.W) (hw : 14 ≤ w.val := by decide) :
    (dat V c).leavesExact w t = iprop(∃ d, owns (c : Thread nD τ) ((cfg1.win w).stage (cfg1.slots t w)) fullShare ((dat V c).before w t d)) :=
  Dat.leavesExact_idle _ w t (idle t h w hw).1 (idle t h w hw).2

theorem off00 : (![0, 0] : Fin 2 → Nat) = fun _ => 0 := funext fun a => by fin_cases a <;> rfl

section
variable {S : Shape} {off : Fin S.rank → Nat} (ho : off = fun _ => 0) (inb : ∀ a, off a + S.size a ≤ S.size a)
  (p0 : S.Idx → Elt F .f32) (L : List (View.Piece (Elt F) S .f32)) {κ : Kind} {sp : Space} (v : View sig κ sp S .f32)
include ho

theorem coverL (y : S.Idx) : ∃ pc ∈ ((⟨Rect.unit off S.size inb, p0⟩ : View.Piece (Elt F) S .f32) :: L), y ∈ pc.1.set :=
  ⟨_, List.mem_cons.mpr (Or.inl rfl), View.mem_set_unit_zero ho inb y⟩

-- a store through the whole shape, made last, alone decides what is read back
theorem read_writes_L (f : v.ty.Contents (Elt F)) :
    v.read (Elt F) (v.writes (Elt F) f ((⟨Rect.unit off S.size inb, p0⟩ : View.Piece (Elt F) S .f32) :: L))
      = View.canon [(⟨Rect.unit off S.size inb, p0⟩ : View.Piece (Elt F) S .f32)] := by
  rw [View.read_writes_eq_canon _ _ _ (coverL ho inb p0 L), View.canon_cons_unit_zero ho, View.canon_unit_zero ho]

theorem readCov_L :
    v.readCov ((⟨Rect.unit off S.size inb, p0⟩ : View.Piece (Elt F) S .f32) :: L) (Rect.unit off S.size inb).toLoadRect
      = View.ld (View.canon [(⟨Rect.unit off S.size inb, p0⟩ : View.Piece (Elt F) S .f32)]) (Rect.unit off S.size inb) := by
  rw [View.readCov_eq_canon_ld _ _ _ (coverL ho inb p0 L), View.canon_cons_unit_zero ho, View.canon_unit_zero ho]

end

section kernel

variable (E : Set ℕ) (i : grid1.Coords) (arg2 arg3 arg4 arg15 : Memref sig .tc .vmem S1024x1024 .f32) (arg5 : Memref sig .tc .vmem S3x1024 .f32) (arg6 : Memref sig .tc .vmem S1024x512 .f32) (arg7 : Memref sig .tc .vmem S512x128 .f32) (arg8 arg10 arg12 : Memref sig .tc .vmem S128x128 .f32) (arg9 arg11 arg13 arg14 : Memref sig .tc .vmem S1x128 .f32) (arg16 arg17 arg18 arg19 : Memref sig .tc .vmem S1024x128 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
  (x0 x1 x2 : Vec F S1024x1024 .f32) (x3 : Vec F S3x1024 .f32) (x4 : Vec F S1024x512 .f32) (x5 : Vec F S512x128 .f32) (x6 : Vec F S128x128 .f32) (x7 : Vec F S1x128 .f32) (x8 : Vec F S128x128 .f32) (x9 : Vec F S1x128 .f32) (x10 : Vec F S128x128 .f32) (x11 x12 : Vec F S1x128 .f32) (s : Vec F S1024x128 .f32)

-- inner coordinate 0, 1 or 2: the mixed tile is stored and the accumulator stepped once, from zeros (s' = rst) at 0, else from its value (s' = s)
set_option maxHeartbeats 4000000 in
theorem sound_kernel_AB (K : PUnit → sProp 𝕄) (s' : Vec F S1024x128 .f32) (hs : if cond1 i then s' = rst else s' = s) (hc2 : ¬cond2 i) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg15 fullShare d)
        ∗ owns (c : Thread nD τ) arg19 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg15 fullShare (adjT x0 x1 x2 x3)
            ∗ owns (c : Thread nD τ) arg19 fullShare (accStep x0 x1 x2 x3 x4 x5 s')) -∗ K ⟨⟩))
      ⊢ wp frame (wpE (defs₀ (F := F)) Variants.none c none) E (cc1__mix_gcn1_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mix_gcn1_qkv_kernel_eq_skeleton]; unfold cc1__mix_gcn1_qkv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d13, %f13, -, H13⟩, ⟨%fs, %hfs, HS⟩, Hk⟩
  subst hf0 hf1 hf2 hf3 hf4 hf5 hfs
  by_cases hc1 : cond1 i
  all_goals
    first | rw [if_pos hc1] at hs | rw [if_neg hc1] at hs
    subst hs
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H13]
    · iexists _; isplitr
      swap; · iexact H13
      ipureintro
      exact View.read_writes_eq_canon _ _ _ (coverL (S := S1024x1024) off00 _ _ [])
    iexists _; isplitr
    swap; · iexact HS
    ipureintro
    first
    | exact View.read_writes_eq_canon _ _ _ (coverL (S := S1024x128) off00 _ _ [])
    | (sl_unfold_words; rw [read_writes_L (S := S1024x128) off00]; unfold accStep rst; rw [readCov_L (S := S1024x128) off00]; rfl)

-- inner coordinate 3: the same step from the accumulator's value, and the three maps of the stepped accumulator are stored as well
set_option maxHeartbeats 4000000 in
theorem sound_kernel_C (K : PUnit → sProp 𝕄) (hc1 : ¬cond1 i) (hc2 : cond2 i) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ owns (c : Thread nD τ) arg19 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare (adjT x0 x1 x2 x3)
            ∗ owns (c : Thread nD τ) arg16 fullShare (qOut (accStep x0 x1 x2 x3 x4 x5 s) x12 x6 x7)
            ∗ owns (c : Thread nD τ) arg17 fullShare (kOut (accStep x0 x1 x2 x3 x4 x5 s) x12 x8 x9)
            ∗ owns (c : Thread nD τ) arg18 fullShare (vOut (accStep x0 x1 x2 x3 x4 x5 s) x12 x10 x11)
            ∗ owns (c : Thread nD τ) arg19 fullShare (accStep x0 x1 x2 x3 x4 x5 s)) -∗ K ⟨⟩))
      ⊢ wp frame (wpE (defs₀ (F := F)) Variants.none c none) E (cc1__mix_gcn1_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mix_gcn1_qkv_kernel_eq_skeleton]; unfold cc1__mix_gcn1_qkv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, Hk⟩
  subst hf2 hf3 hf4 hf5 hf6 hf7 hf8 hf9 hf10 hf11 hf12 hf13 hf14 hf19
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    rw [read_writes_L (S := S1024x1024) off00]
    unfold adjT
    rfl
  isplitl [H16]
  · iexists _; isplitr
    swap; · iexact H16
    ipureintro
    sl_unfold_words
    rw [read_writes_L (S := S1024x128) off00]
    unfold qOut accStep
    rw [readCov_L (S := S1024x128) off00]
    rfl
  isplitl [H17]
  · iexists _; isplitr
    swap; · iexact H17
    ipureintro
    sl_unfold_words
    rw [read_writes_L (S := S1024x128) off00]
    unfold kOut accStep
    rw [readCov_L (S := S1024x128) off00]
    rfl
  isplitl [H18]
  · iexists _; isplitr
    swap; · iexact H18
    ipureintro
    sl_unfold_words
    rw [read_writes_L (S := S1024x128) off00]
    unfold vOut accStep
    rw [readCov_L (S := S1024x128) off00]
    rfl
  iexists _; isplitr
  swap; · iexact H19
  ipureintro
  sl_unfold_words
  rw [read_writes_L (S := S1024x128) off00]
  unfold accStep
  rfl

end kernel

theorem PhiA_eq :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM, owns_whole]; try rfl

-- at every position the invariant gives the entry invariant back: the accumulator's value is forgotten
theorem Phi_le (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  · rw [PhiS_pos V c _ _ ht, PhiA_eq]
    iintro ⟨HS, Hr, Hg⟩
    iframe Hr Hg
    iexists _; iexact HS

-- by cases on t mod 4: 3 (all four outputs stored), 0 (accumulator restarted), 1 or 2 (accumulator carried on)
set_option maxHeartbeats 4000000 in
theorem sound_body (t : Fin cfg1.N) :
    iprop((dat V c).Φ t.castSucc ∗ (dat V c).owesAt () t.castSucc
        ∗ bigSep Finset.univ fun w : Fin cfg1.W => iprop(∃ d, owns (c : Thread nD τ) ((cfg1.win w).stage (cfg1.slots t w)) fullShare ((dat V c).before w t d)))
      ⊢ wp frame (wpE (defs₀ (F := F)) Variants.none c none) Set.univ (bodyAt1 t) fun _ =>
          iprop((dat V c).Φ t.succ ∗ (dat V c).owesAt () t.succ ∗ bigSep Finset.univ fun w : Fin cfg1.W => (dat V c).leavesExact w t) := by
  rw [bigSep_W1, bigSep_W1]
  simp (disch := decide) only [before_in]
  rw [show (dat V c).owesAt () t.succ = (dat V c).owesAt () t.castSucc from rfl,
    show (dat V c).Φ t.succ = PhiS V c (t.val + 1) t.isLt from rfl, PhiS_succ,
    leaves_live V c 0 t rfl, leaves_live V c 1 t rfl, leaves_live V c 2 t rfl, leaves_live V c 3 t rfl, leaves_live V c 4 t rfl, leaves_live V c 5 t rfl, leaves_live V c 6 t rfl, leaves_live V c 7 t rfl, leaves_live V c 8 t rfl, leaves_live V c 9 t rfl, leaves_live V c 10 t rfl, leaves_live V c 11 t rfl, leaves_live V c 12 t rfl, leaves_live V c 13 t rfl]
  by_cases h3 : t.val % 4 = 3
  · have h0 : ¬t.val % 4 = 0 := by omega
    have hc2 := (hcond2 t).mpr h3
    rw [leaves_live V c 14 t (live t hc2 14), leaves_live V c 15 t (live t hc2 15), leaves_live V c 16 t (live t hc2 16),
      PhiS_castSucc V c t, PhiS_pos V c _ _ (fun e => h0 (by rw [e]))]
    dsimp only [dat]
    rw [accAt_carry V c t h0]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel_C c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _ _ (fun hc => h0 ((hcond1 t).mp hc)) hc2)
    iframe H0 H1 H2 H3 H4 H5 H6 H7 H8 H9 H10 H11 H12 HS
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, H12, H13, H14, H15, H16, HS⟩
    iframe
  · have hc2 : ¬cond2 (grid1.coords t) := fun hc => h3 ((hcond2 t).mp hc)
    rw [leaves_idle V c t hc2 14, leaves_idle V c t hc2 15, leaves_idle V c t hc2 16]
    by_cases h0 : t.val % 4 = 0
    · refine (sep_mono_left (Phi_le V c t.castSucc)).trans ?_
      rw [PhiA_eq]
      dsimp only [dat]
      rw [accAt_reset V c t h0]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
      iapply (sound_kernel_AB c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) _ _ rst (by rw [if_pos ((hcond1 t).mpr h0)]) hc2)
      iframe H0 H1 H2 H3 H4 H5 HS
      isplitl [H13]; · iexists _; iexact H13
      iintro ⟨H0, H1, H2, H3, H4, H5, H13, HS⟩
      iframe
    · rw [PhiS_castSucc V c t, PhiS_pos V c _ _ (fun e => h0 (by rw [e]))]
      dsimp only [dat]
      rw [accAt_carry V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
      iapply (sound_kernel_AB c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) _ _ _ (by rw [if_neg fun hc => h0 ((hcond1 t).mp hc)]) hc2)
      iframe H0 H1 H2 H3 H4 H5 HS
      isplitl [H13]; · iexists _; iexact H13
      iintro ⟨H0, H1, H2, H3, H4, H5, H13, HS⟩
      iframe

theorem body_obligation : BodyObligation (dat (F := F) V c) (defs₀ (F := F)) Variants.none () Set.univ := fun t => sound_body V c t

theorem hin : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout : (dat V c).Φ (Fin.last cfg1.N) ⊢ Pipeline.ΦA spec1 c := Phi_le V c _

end Cert.Kernel.R1

end
-- ==== Proof.Kernel.R2.lean ====
import proofs.«406496_j14319420965162_3_alg».proof.Proof.Gen.Kernel.Launch
import proofs.«406496_j14319420965162_3_alg».proof.Proof.Gen.Kernel.Skeleton
import proofs.«406496_j14319420965162_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S2048x128 := Rect.unit (s := S2048x128) ![0, 0] S2048x128.size inb_S2048x128_S2048x128_0_0
abbrev rC : Rect S2048x1 := Rect.unit (s := S2048x1) ![0, 0] S2048x1.size inb_S2048x1_S2048x1_0_0
abbrev rJ : Rect S2048x2048 := Rect.unit (s := S2048x2048) ![0, 0] S2048x2048.size inb_S2048x2048_S2048x2048_0_0

def m0 : Vec F S2048x1 .f32 := View.canon [⟨rC, k2_pay4 (F := F)⟩]
def l0 : Vec F S2048x1 .f32 := View.canon [⟨rC, k2_pay5 (F := F)⟩]
def a0 : Vec F S2048x128 .f32 := View.canon [⟨rT, k2_pay6 (F := F)⟩]

def mNew (q k : Vec F S2048x128 .f32) (adj : Vec F S2048x2048 .f32) (m : Vec F S2048x1 .f32) : Vec F S2048x1 .f32 :=
  View.canon [⟨rC, k2_pay2 (k2_pay8 (View.ld q rT) (View.ld k rT) (View.ld adj rJ) (View.ld m rC))⟩]

def lNew (q k : Vec F S2048x128 .f32) (adj : Vec F S2048x2048 .f32) (m l : Vec F S2048x1 .f32) : Vec F S2048x1 .f32 :=
  View.canon [⟨rC, k2_pay11 (View.ld q rT) (View.ld k rT) (View.ld adj rJ) (View.ld m rC) (View.ld m rC) (View.ld l rC)⟩]

def aNew (q k v : Vec F S2048x128 .f32) (adj : Vec F S2048x2048 .f32) (m : Vec F S2048x1 .f32) (a : Vec F S2048x128 .f32) : Vec F S2048x128 .f32 :=
  View.canon [⟨rT, k2_pay1 (k2_pay9 (View.ld q rT) (View.ld k rT) (View.ld adj rJ) (View.ld m rC) (View.ld m rC))
    (k2_pay10 (View.ld q rT) (View.ld k rT) (View.ld adj rJ) (View.ld m rC)) (k2_pay12 (View.ld v rT)) (View.ld a rT)⟩]

def out2 (a : Vec F S2048x128 .f32) (l : Vec F S2048x1 .f32) : Vec F S2048x128 .f32 :=
  View.canon [⟨rT, k2_pay3 (View.ld a rT) (View.ld l rC)⟩]

theorem hz : (![0, 0] : Fin 2 → Nat) = fun _ => 0 := funext fun a => by fin_cases a <;> rfl

section fill

variable (S : Shape) {e : EltTy} {κ : Kind} {sp : Space} {v : View sig κ sp S e} {off : Fin S.rank → ℕ} (h : off = fun _ => 0)
  (inb : ∀ a, off a + S.size a ≤ S.size a) (p0 : Vec F S e) (L : List (View.Piece (Elt F) S e))
include h

theorem cover (y : S.Idx) : ∃ pc ∈ ((⟨Rect.unit off S.size inb, p0⟩ : View.Piece (Elt F) S e) :: L), y ∈ pc.1.set :=
  ⟨_, List.mem_cons.mpr (Or.inl rfl), View.mem_set_unit_zero h inb y⟩

-- a buffer whose last store filled it reads as that store's payload alone
theorem read_fill (f : v.ty.Contents (Elt F)) :
    v.read (Elt F) (v.writes (Elt F) f ((⟨Rect.unit off S.size inb, p0⟩ : View.Piece (Elt F) S e) :: L))
      = View.canon [(⟨Rect.unit off S.size inb, p0⟩ : View.Piece (Elt F) S e)] := by
  rw [View.read_writes_eq_canon _ _ _ (cover S h inb p0 L), View.canon_cons_unit_zero h, View.canon_unit_zero h]

theorem readCov_fill :
    v.readCov ((⟨Rect.unit off S.size inb, p0⟩ : View.Piece (Elt F) S e) :: L) (Rect.unit off S.size inb).toLoadRect
      = View.ld (View.canon [(⟨Rect.unit off S.size inb, p0⟩ : View.Piece (Elt F) S e)]) (Rect.unit off S.size inb) := by
  rw [View.readCov_eq_canon_ld _ _ _ (cover S h inb p0 L), View.canon_cons_unit_zero h, View.canon_unit_zero h]

end fill

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 := by decide +kernel
abbrev cond2_1 (i : grid2.Coords) : Prop := k2_cond2 i = 1#1
theorem hcond2_1 : ∀ t : Fin cfg2.N, cond2_1 (grid2.coords t) ↔ t.val % 2 = 1 := by decide +kernel

theorem liveAt_4 : ∀ t : Fin cfg2.N, t.val % 2 = 1 → idle2 4 (grid2.coords t) = false := by decide +kernel
theorem idleAt_4 : ∀ t : Fin cfg2.N, t.val % 2 = 0 → idle2 4 (grid2.coords t) = true := by decide +kernel
theorem noFlush_4 : ∀ t : Fin cfg2.N, t.val % 2 = 0 → (win2 4).flush t = false := by decide +kernel

abbrev scM0 : Memref sig .tc .vmem S2048x1 .f32 := Memref.whole cc2_scratch0
abbrev scM1 : Memref sig .tc .vmem S2048x1 .f32 := Memref.whole cc2_scratch1
abbrev scM2 : Memref sig .tc .vmem S2048x128 .f32 := Memref.whole cc2_scratch2

-- the body at a point with inner coordinate 0 (reset, then step) and at one with inner coordinate 1 (step, then store the output)
theorem sound_kernel (c : Dev nD) (E : Set ℕ) (i : grid2.Coords)
    (arg2 arg3 arg4 arg6 arg9 : Memref sig .tc .vmem S2048x128 .f32) (arg5 : Memref sig .tc .vmem S2048x2048 .f32)
    (arg7 arg8 : Memref sig .tc .vmem S2048x1 .f32) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 x2 : Vec F S2048x128 .f32) (x3 : Vec F S2048x2048 .f32) (K : PUnit → sProp 𝕄) (I W : sProp 𝕄)
    (hI : I = iprop(owns (c : Thread nD τ) arg2 fullShare x0 ∗ owns (c : Thread nD τ) arg3 fullShare x1 ∗ owns (c : Thread nD τ) arg4 fullShare x2 ∗ owns (c : Thread nD τ) arg5 fullShare x3))
    (hW : W = wp frame (wpE (defs₀ (F := F)) Variants.none c none) E (cc2__attn_kernel i arg2 harg2 arg3 harg3 arg4 harg4 arg5 harg5 arg6 harg6 arg7 harg7 arg8 harg8 arg9 harg9) K) :
    (cond2_0 i → ¬cond2_1 i → ∀ x4 : Vec F S2048x128 .f32,
      iprop(I ∗ owns (c : Thread nD τ) arg6 fullShare x4
          ∗ (∃ d, owns (c : Thread nD τ) arg7 fullShare d) ∗ (∃ d, owns (c : Thread nD τ) arg8 fullShare d) ∗ (∃ d, owns (c : Thread nD τ) arg9 fullShare d)
          ∗ (iprop(I ∗ owns (c : Thread nD τ) arg6 fullShare x4
              ∗ owns (c : Thread nD τ) arg7 fullShare (mNew x0 x1 x3 m0)
              ∗ owns (c : Thread nD τ) arg8 fullShare (lNew x0 x1 x3 m0 l0)
              ∗ owns (c : Thread nD τ) arg9 fullShare (aNew x0 x1 x2 x3 m0 a0)) -∗ K ⟨⟩)) ⊢ W)
    ∧ (¬cond2_0 i → cond2_1 i → ∀ (m l : Vec F S2048x1 .f32) (a : Vec F S2048x128 .f32),
      iprop(I ∗ (∃ d, owns (c : Thread nD τ) arg6 fullShare d)
          ∗ owns (c : Thread nD τ) arg7 fullShare m ∗ owns (c : Thread nD τ) arg8 fullShare l ∗ owns (c : Thread nD τ) arg9 fullShare a
          ∗ (iprop(I ∗ owns (c : Thread nD τ) arg6 fullShare (out2 (aNew x0 x1 x2 x3 m a) (lNew x0 x1 x3 m l))
              ∗ owns (c : Thread nD τ) arg7 fullShare (mNew x0 x1 x3 m)
              ∗ owns (c : Thread nD τ) arg8 fullShare (lNew x0 x1 x3 m l)
              ∗ owns (c : Thread nD τ) arg9 fullShare (aNew x0 x1 x2 x3 m a)) -∗ K ⟨⟩)) ⊢ W) := by
  subst hI hW
  refine ⟨fun hc0 hc1 x4 => ?_, fun hc0 hc1 m l a => ?_⟩ <;>
    (simp only [cc2__attn_kernel_eq_skeleton]; unfold cc2__attn_kernel_skel owns)
  on_goal 1 =>
    iintro ⟨⟨⟨%f2, %hf2, H2⟩, ⟨%f3, %hf3, H3⟩, ⟨%f4, %hf4, H4⟩, ⟨%f5, %hf5, H5⟩⟩, ⟨%f6, %hf6, H6⟩, ⟨%d7, %f7, -, H7⟩, ⟨%d8, %f8, -, H8⟩, ⟨%d9, %f9, -, H9⟩, Hk⟩
    subst hf2; subst hf3; subst hf4; subst hf5; subst hf6
  on_goal 2 =>
    iintro ⟨⟨⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hk⟩
    subst hf2; subst hf3; subst hf4; subst hf5; subst hf7; subst hf8; subst hf9
  all_goals
    sl_exec (disch := first | exact hc0 | exact hc1)
    sl_step
    ihave G2 := (owns_intro _ arg2 fullShare _) $$ H2
    ihave G3 := (owns_intro _ arg3 fullShare _) $$ H3
    ihave G4 := (owns_intro _ arg4 fullShare _) $$ H4
    ihave G5 := (owns_intro _ arg5 fullShare _) $$ H5
    ihave G6 := (owns_intro _ arg6 fullShare _) $$ H6
    ihave G7 := (owns_intro _ arg7 fullShare _) $$ H7
    ihave G8 := (owns_intro _ arg8 fullShare _) $$ H8
    ihave G9 := (owns_intro _ arg9 fullShare _) $$ H9
    unfold owns
    sl_unfold_words
    simp only [read_fill S2048x1 hz, read_fill S2048x128 hz, readCov_fill S2048x1 hz, readCov_fill S2048x128 hz]
    iapply Hk
    iframe
    try (isplitl [G6]; · iexact G6)
    isplitl [G7]; · iexact G7
    isplitl [G8]; · iexact G8
    iexact G9

def scStep (c : Dev nD) (t : Fin cfg2.N) (s : Vec F S2048x1 .f32 × Vec F S2048x1 .f32 × Vec F S2048x128 .f32) :
    Vec F S2048x1 .f32 × Vec F S2048x1 .f32 × Vec F S2048x128 .f32 :=
  (mNew (iblk V c 0 t) (iblk V c 1 t) (iblk V c 3 t) s.1,
   lNew (iblk V c 0 t) (iblk V c 1 t) (iblk V c 3 t) s.1 s.2.1,
   aNew (iblk V c 0 t) (iblk V c 1 t) (iblk V c 2 t) (iblk V c 3 t) s.1 s.2.2)

def scAt (c : Dev nD) : (n : ℕ) → n < cfg2.N → Vec F S2048x1 .f32 × Vec F S2048x1 .f32 × Vec F S2048x128 .f32
  | 0, hn => scStep V c ⟨0, hn⟩ (m0, l0, a0)
  | n + 1, hn => scStep V c ⟨n + 1, hn⟩ (if (n + 1) % 2 = 0 then (m0, l0, a0) else scAt c n (Nat.lt_of_succ_lt hn))

theorem scAt_reset (c : Dev nD) (t : Fin cfg2.N) (h : t.val % 2 = 0) : scAt V c t.val t.isLt = scStep V c t (m0, l0, a0) := by
  obtain ⟨n, hn⟩ := t
  cases n with
  | zero => rfl
  | succ n => exact congrArg (scStep V c _) (if_pos h)

theorem scAt_acc (c : Dev nD) (t : Fin cfg2.N) (h : t.val % 2 = 1) :
    scAt V c t.val t.isLt = scStep V c t (scAt V c (t.val - 1) (Nat.lt_of_le_of_lt (Nat.sub_le _ _) t.isLt)) := by
  obtain ⟨n, hn⟩ := t
  cases n with
  | zero => exact absurd h Nat.zero_ne_one
  | succ n => exact congrArg (scStep V c _) (if_neg (by have : (n + 1) % 2 = 1 := h; omega))

abbrev rest (c : Dev nD) : sProp 𝕄 :=
  Pipeline.scopedRestBut (Ix := Unit) (Name := ℕ) (U := UR sig nD τ) (Lvl := ℕ) (Val := Elt F) spec2 c [cc2_scratch0, cc2_scratch1, cc2_scratch2]

-- the three carried buffers hold s; everything else is owned at any contents
def carried (c : Dev nD) (s : Vec F S2048x1 .f32 × Vec F S2048x1 .f32 × Vec F S2048x128 .f32) : sProp 𝕄 :=
  iprop(iprop(iprop(owns (c : Thread nD τ) scM0 fullShare s.1 ∗ owns (c : Thread nD τ) scM1 fullShare s.2.1 ∗ owns (c : Thread nD τ) scM2 fullShare s.2.2)
      ∗ rest c)
      ∗ (∃ r, prngReg c r))

def PhiS (c : Dev nD) : (n : ℕ) → n ≤ cfg2.N → sProp 𝕄
  | 0, _ => Pipeline.ΦA spec2 c
  | n + 1, hn => carried c (scAt V c n hn)

theorem PhiS_pos (c : Dev nD) (n : ℕ) (h : n ≤ cfg2.N) (hz : n ≠ 0) :
    PhiS V c n h = carried c (scAt V c (n - 1) (by omega)) := by
  cases n with
  | zero => exact absurd rfl hz
  | succ n => rfl

theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ rest c)
          ∗ (∃ r, prngReg c r)) := by
  unfold Pipeline.ΦA; rw [scopedRest2_split]; simp only [scM0, scM1, scM2, owns_whole]; try rfl

-- forgetting what the carried buffers hold
theorem carried_out (c : Dev nD) (s : Vec F S2048x1 .f32 × Vec F S2048x1 .f32 × Vec F S2048x128 .f32) :
    (carried c s : sProp 𝕄) ⊢ Pipeline.ΦA spec2 c := by
  rw [PhiA_eq]; unfold carried
  iintro ⟨⟨⟨HS0, HS1, HS2⟩, Hr⟩, Hg⟩
  iframe Hr Hg
  isplitl [HS0]; · iexists _; iexact HS0
  isplitl [HS1]; · iexists _; iexact HS1
  iexists _; iexact HS2

theorem PhiS_out (c : Dev nD) : ∀ n h, PhiS V c n h ⊢ Pipeline.ΦA spec2 c
  | 0, _ => Idealize.SL.BI.Entails.refl _
  | _ + 1, _ => carried_out c _

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out2 (scAt V c t.val t.isLt).2.2 (scAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_4 (c : Dev nD) (t : Fin cfg2.N) :
    (dat V c).after 4 t = out2 (scAt V c t.val t.isLt).2.2 (scAt V c t.val t.isLt).2.1 := by dsimp only [dat]

theorem before_in (c : Dev nD) (t : Fin cfg2.N) :
    (∀ d, (dat V c).before 0 t d = iblk V c 0 t) ∧ (∀ d, (dat V c).before 1 t d = iblk V c 1 t)
      ∧ (∀ d, (dat V c).before 2 t d = iblk V c 2 t) ∧ (∀ d, (dat V c).before 3 t d = iblk V c 3 t) := by
  refine ⟨?_, ?_, ?_, ?_⟩ <;>
    exact fun d => ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2]
  show _ ⊢ wp frame _ Set.univ (bodyAt2 t) _
  unfold bodyAt2
  simp only [before_in V c t]
  rw [show (dat V c).owesAt () t.succ = (dat V c).owesAt () t.castSucc from rfl,
    show (dat V c).Φ t.succ = carried c (scAt V c t.val t.isLt) from rfl, show (dat V c).Φ t.castSucc = PhiS V c t.val (Nat.le_of_lt t.isLt) from rfl,
    show (dat V c).after 0 t = iblk V c 0 t from rfl, show (dat V c).after 1 t = iblk V c 1 t from rfl,
    show (dat V c).after 2 t = iblk V c 2 t from rfl, show (dat V c).after 3 t = iblk V c 3 t from rfl]
  by_cases h : t.val % 2 = 0
  · rw [idleAt_4 t h, noFlush_4 t h, scAt_reset V c t h]
    refine (BI.sep_mono_l (PhiS_out V c _ _)).trans ?_
    show (iprop(_ ∗ _) : sProp 𝕄) ⊢ _
    rw [PhiA_eq]
    unfold carried scStep; dsimp only
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((sound_kernel c Set.univ (grid2.coords t) _ _ _ _ _ _ _ _ _ _ _ _ _ _ _ _ (iblk V c 0 t) (iblk V c 1 t) (iblk V c 2 t) (iblk V c 3 t) _ _ _ rfl rfl).1
      ((hcond2_0 t).mpr h) (fun hc => by have := (hcond2_1 t).mp hc; omega) ((dat V c).before 4 t d4))
    iframe H0 H1 H2 H3 H4 HS0 HS1 HS2
    iintro ⟨⟨H0, H1, H2, H3⟩, H4, HS0, HS1, HS2⟩
    iframe
    iexists d4; iexact H4
  · have h1 : t.val % 2 = 1 := by omega
    rw [liveAt_4 t h1, after_4, scAt_acc V c t h1, PhiS_pos V c _ _ (by omega)]
    unfold carried scStep; dsimp only
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((sound_kernel c Set.univ (grid2.coords t) _ _ _ _ _ _ _ _ _ _ _ _ _ _ _ _ (iblk V c 0 t) (iblk V c 1 t) (iblk V c 2 t) (iblk V c 3 t) _ _ _ rfl rfl).2
      (fun hc => h ((hcond2_0 t).mp hc)) ((hcond2_1 t).mpr h1) _ _ _)
    iframe H0 H1 H2 H3 HS0 HS1 HS2
    isplitl [H4]; · iexists _; iexact H4
    iintro ⟨⟨H0, H1, H2, H3⟩, H4, HS0, HS1, HS2⟩
    iframe

theorem hin (c : Dev nD) : Pipeline.ΦA spec2 c ⊢ (dat V c).Φ 0 := Idealize.SL.BI.Entails.refl _

theorem hout (c : Dev nD) : (dat V c).Φ (Fin.last cfg2.N) ⊢ Pipeline.ΦA spec2 c :=
  PhiS_out V c _ (Nat.le_of_lt_succ (Fin.last cfg2.N).isLt)

end Cert.Kernel.R2

end
-- ==== Proof.Kernel.Segs.lean ====
import proofs.«406496_j14319420965162_3_alg».proof.Proof.Kernel.R3
import proofs.«406496_j14319420965162_3_alg».proof.Proof.Kernel.R0
import proofs.«406496_j14319420965162_3_alg».proof.Proof.Kernel.R1
import proofs.«406496_j14319420965162_3_alg».proof.Proof.Kernel.R2
import proofs.«406496_j14319420965162_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev U1 (c : Dev nD) : Valuation τ sig (Elt F) := V1 m c
def X0 (c : Dev nD) : Buf (Elt F) ((c : Thread nD τ).loc main_v7) := (R0.dat (fun c b => U1 m c b) c).arrAt 13 cfg0.N
def U2 (c : Dev nD) : Valuation τ sig (Elt F) := Function.update (U1 m c) main_v7 (X0 m c)
abbrev U3 (c : Dev nD) : Valuation τ sig (Elt F) := StableHlo.after hostOps1 (U2 m c)
def X1_0 (c : Dev nD) : Buf (Elt F) ((c : Thread nD τ).loc main_v13_0) := (R1.dat (fun c b => U3 m c b) c).arrAt 13 cfg1.N
def X1_1 (c : Dev nD) : Buf (Elt F) ((c : Thread nD τ).loc main_v13_1) := (R1.dat (fun c b => U3 m c b) c).arrAt 14 cfg1.N
def X1_2 (c : Dev nD) : Buf (Elt F) ((c : Thread nD τ).loc main_v13_2) := (R1.dat (fun c b => U3 m c b) c).arrAt 15 cfg1.N
def X1_3 (c : Dev nD) : Buf (Elt F) ((c : Thread nD τ).loc main_v13_3) := (R1.dat (fun c b => U3 m c b) c).arrAt 16 cfg1.N
def U4 (c : Dev nD) : Valuation τ sig (Elt F) :=
  Function.update (Function.update (Function.update (Function.update (U3 m c) main_v13_0 (X1_0 m c)) main_v13_1 (X1_1 m c)) main_v13_2 (X1_2 m c)) main_v13_3 (X1_3 m c)
def X2 (c : Dev nD) : Buf (Elt F) ((c : Thread nD τ).loc main_v14) := (R2.dat (fun c b => U4 m c b) c).arrAt 4 cfg2.N
def U5 (c : Dev nD) : Valuation τ sig (Elt F) := Function.update (U4 m c) main_v14 (X2 m c)
abbrev U6 (c : Dev nD) : Valuation τ sig (Elt F) := StableHlo.after hostOps3 (U5 m c)
def X3 (c : Dev nD) : Buf (Elt F) ((c : Thread nD τ).loc main_v17) := (R3.dat (fun c b => U6 m c b) c).arrAt 3 cfg3.N
def U7 (c : Dev nD) : Valuation τ sig (Elt F) := Function.update (U6 m c) main_v17 (X3 m c)

def outs : Outs (F := F) := fun J r c => match J with
  | 2 => U2 m c r
  | 4 => U4 m c r
  | 5 => U5 m c r
  | 7 => U7 m c r
  | _ => m ((c : Thread nD τ).loc r)

def pdats : (p : Fin 4) → (c : Dev nD) → Dat τ (Elt F) Unit ℕ (UR sig nD τ) ℕ (cfgs p) c
  | ⟨0, _⟩ => fun c => R0.dat (fun c b => U1 m c b) c
  | ⟨1, _⟩ => fun c => R1.dat (fun c b => U3 m c b) c
  | ⟨2, _⟩ => fun c => R2.dat (fun c b => U4 m c b) c
  | ⟨3, _⟩ => fun c => R3.dat (fun c b => U6 m c b) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section
variable {p : Fin 4} (lf : Pipeline.LaunchFacts (nD := nD) (τ := τ) cfgs p) (Vi Vo : Dev nD → Valuation τ sig (Elt F))
  (hA : ∀ c w, (pdats m p c).A w = Vi c (Pipeline.arrRef (cfgs p).spec w))
  (ha : ∀ c w, ((cfgs p).win w).isOut = true → Vo c (Pipeline.arrRef (cfgs p).spec w) = (pdats m p c).arrAt w (cfgs p).N)
  (hb : ∀ c (b : Ref sig .tc), (∀ w, ((cfgs p).win w).isOut = true → b ≠ Pipeline.arrRef (cfgs p).spec w) → Vo c b = Vi c b)

include lf hA ha hb in
/-- `arrRef` is injective, so an input window's array is no output window's and `hb` reads it off `Vi`. -/
theorem exit_arr (c : Dev nD) (w : Fin (cfgs p).W) : (pdats m p c).arrAt w (cfgs p).N = Vo c (Pipeline.arrRef (cfgs p).spec w) := by
  by_cases ho : ((cfgs p).win w).isOut = true
  · exact (ha c w ho).symm
  · rw [Dat.arrAt_in _ w (by simpa using ho), hA, hb]
    exact fun w' ho' e => ho (by rw [lf.win.arr_inj e]; exact ho')

set_option backward.isDefEq.respectTransparency.types false in
/-- The four regions' records differ only in the two valuations and the window facts. -/
def mkReg (hbody : ∀ c, BodyObligation (pdats m p c) (defs₀ (F := F)) 𝒱₀ () Set.univ)
    (hin : ∀ c : Dev nD, (Pipeline.ΦA (cfgs p).spec c : sProp 𝕄) ⊢ (pdats m p c).Φ 0)
    (hout : ∀ c : Dev nD, (pdats m p c).Φ (Fin.last (cfgs p).N) ⊢ (Pipeline.ΦA (cfgs p).spec c : sProp 𝕄))
    (hq : ∀ c w, (pdats m p c).q w = fullShare) (h0 : ∀ c t, (pdats m p c).owed t = 0)
    (hrec : ∀ c x, x ∈ (pdats m p c).recorded 0) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    unfold Pipeline.Dat.owesAt Pipeline.owesWithin
    rw [h0]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine (show iprop((∃ r, prngReg c r) ∗ Pipeline.prefHeld (pcfgs (F := F) p).pre c (fun _ => fullShare) (adm (F := F) p).1 ∗ Pipeline.scopedRest (cfgs p).spec c) ⊢ (Pipeline.ΦA (cfgs p).spec c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    unfold Pipeline.Dat.owesAt Pipeline.owesWithin
    rw [h0]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (exit_arr m lf Vi Vo hA ha hb c)
      fun b h => hb c b fun w _ e => h (Finset.mem_image.mpr ⟨w, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end

theorem U2_out (c : Dev nD) : U2 m c main_v7 = X0 m c := by
  unfold U2; rw [Function.update_self]
theorem U5_out (c : Dev nD) : U5 m c main_v14 = X2 m c := by
  unfold U5; rw [Function.update_self]
theorem U7_out (c : Dev nD) : U7 m c main_v17 = X3 m c := by
  unfold U7; rw [Function.update_self]

theorem upd {V : Valuation τ sig (Elt F)} {a b : Ref sig .tc} (h : b ≠ a) x : Function.update V a x b = V b :=
  Function.update_of_ne (StableHlo.devRef_ne_of_ne h) _ _

theorem U4_0 (c : Dev nD) : U4 m c main_v13_0 = X1_0 m c := by
  unfold U4
  rw [upd (by decide : main_v13_0 ≠ main_v13_3), upd (by decide : main_v13_0 ≠ main_v13_2), upd (by decide : main_v13_0 ≠ main_v13_1), Function.update_self]
theorem U4_1 (c : Dev nD) : U4 m c main_v13_1 = X1_1 m c := by
  unfold U4
  rw [upd (by decide : main_v13_1 ≠ main_v13_3), upd (by decide : main_v13_1 ≠ main_v13_2), Function.update_self]
theorem U4_2 (c : Dev nD) : U4 m c main_v13_2 = X1_2 m c := by
  unfold U4
  rw [upd (by decide : main_v13_2 ≠ main_v13_3), Function.update_self]
theorem U4_3 (c : Dev nD) : U4 m c main_v13_3 = X1_3 m c := by
  unfold U4
  rw [Function.update_self]
theorem U4_of (c : Dev nD) (b : Ref sig .tc) (h0 : b ≠ main_v13_0) (h1 : b ≠ main_v13_1) (h2 : b ≠ main_v13_2) (h3 : b ≠ main_v13_3) : U4 m c b = U3 m c b := by
  unfold U4
  rw [upd h3, upd h2, upd h1, upd h0]

theorem V2_eq (c : Dev nD) : V2 m (outs m) c = U2 m c := by
  show Function.update (V1 m c) main_v7 (U2 m c main_v7) = U2 m c
  rw [U2_out]; rfl
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show Function.update (Function.update (Function.update (Function.update (V3 m (outs m) c) main_v13_0 (U4 m c main_v13_0)) main_v13_1 (U4 m c main_v13_1)) main_v13_2 (U4 m c main_v13_2)) main_v13_3 (U4 m c main_v13_3) = U4 m c
  rw [U4_0, U4_1, U4_2, U4_3, V3_eq]; rfl
theorem V5_eq (c : Dev nD) : V5 m (outs m) c = U5 m c := by
  show Function.update (V4 m (outs m) c) main_v14 (U5 m c main_v14) = U5 m c
  rw [U5_out, V4_eq]; rfl
theorem V6_eq (c : Dev nD) : V6 m (outs m) c = U6 m c := by
  show StableHlo.after hostOps3 (V5 m (outs m) c) = StableHlo.after hostOps3 (U5 m c)
  rw [V5_eq]
theorem V7_eq (c : Dev nD) : V7 m (outs m) c = U7 m c := by
  show Function.update (V6 m (outs m) c) main_v17 (U7 m c main_v17) = U7 m c
  rw [U7_out, V6_eq]; rfl

set_option backward.isDefEq.respectTransparency.types false in
def reg0 : Pipeline.RegionSeg (pcfgs (F := F)) adm (pdats m) () defs₀ 𝒱₀ L lv 0 :=
  mkReg m launch0 (U1 m) (U2 m) (fun _ _ => rfl)
    (fun c w ho => by obtain rfl : w = 13 := (by decide : ∀ w : Fin 14, (cfg0.win w).isOut = true → w = 13) w ho; exact U2_out m c)
    (fun c b h => by unfold U2; exact upd (h (13 : Fin 14) (by decide)) _)
    (R0.body_obligation fun c b => U1 m c b) (R0.hin fun c b => U1 m c b) (R0.hout fun c b => U1 m c b) (fun _ _ => rfl) (fun _ _ => rfl) fun _ _ => trivial

set_option backward.isDefEq.respectTransparency.types false in
def reg1 : Pipeline.RegionSeg (pcfgs (F := F)) adm (pdats m) () defs₀ 𝒱₀ L lv 1 :=
  mkReg m launch1 (U3 m) (U4 m) (fun _ _ => rfl)
    (fun c w ho => by
      rcases (by decide : ∀ w : Fin 17, (cfg1.win w).isOut = true → w = 13 ∨ w = 14 ∨ w = 15 ∨ w = 16) w ho with rfl | rfl | rfl | rfl
      exacts [U4_0 m c, U4_1 m c, U4_2 m c, U4_3 m c])
    (fun c b h => U4_of m c b (h (13 : Fin 17) (by decide)) (h (14 : Fin 17) (by decide)) (h (15 : Fin 17) (by decide)) (h (16 : Fin 17) (by decide)))
    (R1.body_obligation fun c b => U3 m c b) (R1.hin fun c b => U3 m c b) (R1.hout fun c b => U3 m c b) (fun _ _ => rfl) (fun _ _ => rfl) fun _ _ => trivial

set_option backward.isDefEq.respectTransparency.types false in
def reg2 : Pipeline.RegionSeg (pcfgs (F := F)) adm (pdats m) () defs₀ 𝒱₀ L lv 2 :=
  mkReg m launch2 (U4 m) (U5 m) (fun _ _ => rfl)
    (fun c w ho => by obtain rfl : w = 4 := (by decide : ∀ w : Fin 5, (cfg2.win w).isOut = true → w = 4) w ho; exact U5_out m c)
    (fun c b h => by unfold U5; exact upd (h (4 : Fin 5) (by decide)) _)
    (R2.body_obligation fun c b => U4 m c b) (R2.hin fun c b => U4 m c b) (R2.hout fun c b => U4 m c b) (fun _ _ => rfl) (fun _ _ => rfl) fun _ _ => trivial

set_option backward.isDefEq.respectTransparency.types false in
def reg3 : Pipeline.RegionSeg (pcfgs (F := F)) adm (pdats m) () defs₀ 𝒱₀ L lv 3 :=
  mkReg m launch3 (U6 m) (U7 m) (fun _ _ => rfl)
    (fun c w ho => by obtain rfl : w = 3 := (by decide : ∀ w : Fin 4, (cfg3.win w).isOut = true → w = 3) w ho; exact U7_out m c)
    (fun c b h => by unfold U7; exact upd (h (3 : Fin 4) (by decide)) _)
    (R3.body_obligation fun c b => U6 m c b) (R3.hin fun c b => U6 m c b) (R3.hout fun c b => U6 m c b) (fun _ _ => rfl) (fun _ _ => rfl) fun _ _ => trivial

theorem hu₀ (u : UR sig nD τ) : (ownU u : sProp 𝕄) ⊢ |={Set.univ}=> iprop(BI.own (emb₁ u) ∗ bigSep Finset.univ fun _ : Dev nD => (BI.emp : sProp 𝕄)) := by
  iintro Hu; imodintro
  isplitl [Hu]
  · iapply (show (ownU u : sProp 𝕄) ⊢ BI.own (emb₁ u) from .rfl); iexact Hu
  iapply (show (BI.emp : sProp 𝕄) ⊢ bigSep Finset.univ (fun _ : Dev nD => (BI.emp : sProp 𝕄)) from by rw [BI.bigSep_emp_const])
  iempintro

end Cert.Kernel.Segs

end
-- ==== Proof.Kernel.Frame.lean ====
import proofs.«406496_j14319420965162_3_alg».proof.Proof.Kernel.Segs
import proofs.«406496_j14319420965162_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_cond m emb₁ () 𝒱₀ L lv (fun _ _ => rfl) ρ (outs m) (pdats m) 0 (fun _ => iprop(emp))
    (initOf (Pipeline.cells cfgs cellOf_inj) (Pipeline.launchToks cfgs cellOf_inj))
    (hu₀ _)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)

end Cert.Kernel.Segs

end
-- ==== Proof.KernelIdeal.R3.lean ====
import proofs.«406496_j14319420965162_3_alg».proof.Proof.Gen.KernelIdeal.Launch
import proofs.«406496_j14319420965162_3_alg».proof.Proof.Gen.KernelIdeal.Skeleton
import proofs.«406496_j14319420965162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rOut : Rect S512x16 := Rect.unit (s := S512x16) ![0, 0] S512x16.size inb_S512x16_S512x16_0_0
abbrev rA : Rect S512x4096 := Rect.unit (s := S512x4096) ![0, 0] S512x4096.size inb_S512x4096_S512x4096_0_0
abbrev rW : Rect S4096x16 := Rect.unit (s := S4096x16) ![0, 0] S4096x16.size inb_S4096x16_S4096x16_0_0
abbrev rB : Rect S1x16 := Rect.unit (s := S1x16) ![0, 0] S1x16.size inb_S1x16_S1x16_0_0

section

variable (x0 : Vec F S512x4096 .f32) (x1 : Vec F S4096x16 .f32) (x2 : Vec F S1x16 .f32)

def out3 : Vec F S512x16 .f32 :=
  View.canon [⟨rOut, k3_pay1 (View.ld x0 rA) (View.ld x1 rW) (View.ld x2 rB)⟩]

theorem cover3 (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y

set_option maxHeartbeats 1000000 in
theorem sound_kernel (c : Dev nD) (E : Set ℕ) (i : grid3.Coords) (arg1 : Memref sig .tc .vmem S512x4096 .f32) (harg1 : arg1.IsWhole) (arg2 : Memref sig .tc .vmem S4096x16 .f32) (harg2 : arg2.IsWhole)
    (arg3 : Memref sig .tc .vmem S1x16 .f32) (harg3 : arg3.IsWhole) (arg4 : Memref sig .tc .vmem S512x16 .f32) (harg4 : arg4.IsWhole)
    (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc3__gcn2_kernel i arg1 harg1 arg2 harg2 arg3 harg3 arg4 harg4) K := by
  simp only [cc3__gcn2_kernel_eq_skeleton]; unfold cc3__gcn2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after_3 (c : Dev nD) (t : Fin cfg3.N) : (dat V c).after 3 t = out3 (iblk V c 0 t) (iblk V c 1 t) (iblk V c 2 t) := by dsimp only [dat]

theorem body_obligation (c : Dev nD) : BodyObligation (dat (F := F) V c) (defs₀ (F := F)) Variants.none () Set.univ := fun t => by
  rw [bigSep_W3, bigSep_W3]
  show _ ⊢ wp frame _ Set.univ (bodyAt3 t) _
  unfold bodyAt3
  rw [show (dat V c).owesAt () t.succ = (dat V c).owesAt () t.castSucc from rfl]
  have hb := fun (w : Fin cfg3.W) hw hc hk => (dat V c).before_in_eq_fetched w hw (fun _ => rfl) hc hk t
  simp only [show ∀ d, _ = iblk V c 0 t from hb 0 rfl (fun _ _ _ => rfl) (fun _ => rfl),
    show ∀ d, _ = iblk V c 1 t from hb 1 rfl (fun _ _ _ => rfl) (fun _ => rfl),
    show ∀ d, _ = iblk V c 2 t from hb 2 rfl (fun _ _ _ => rfl) (fun _ => rfl)]
  dsimp only [dat]
  iintro ⟨HΦ, Ho, ⟨%d0, H0⟩, ⟨%d1, H1⟩, ⟨%d2, H2⟩, ⟨%d3, H3⟩⟩
  iapply (sound_kernel (iblk V c 0 t) (iblk V c 1 t) (iblk V c 2 t) c Set.univ _ _ _ _ _ _ _ _ _ _)
  iframe H0 H1 H2
  isplitl [H3]; · iexists _; iexact H3
  iintro H
  isplitl [HΦ]; · iexact HΦ
  isplitl [Ho]; · iexact Ho
  iexact H

theorem hin (c : Dev nD) : (Pipeline.ΦA spec3 c : sProp 𝕄) ⊢ (dat V c).Φ 0 := .rfl
theorem hout (c : Dev nD) : (dat V c).Φ (Fin.last cfg3.N) ⊢ (Pipeline.ΦA spec3 c : sProp 𝕄) := .rfl

end Cert.KernelIdeal.R3

end
-- ==== Proof.KernelIdeal.R0.lean ====
import proofs.«406496_j14319420965162_3_alg».proof.Proof.Gen.KernelIdeal.Launch
import proofs.«406496_j14319420965162_3_alg».proof.Proof.Gen.KernelIdeal.Skeleton
import proofs.«406496_j14319420965162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut : Rect S512x3 := Rect.unit (s := S512x3) ![0, 0] S512x3.size inb_S512x3_S512x3_0_0
abbrev rA : Rect S512x4096 := Rect.unit (s := S512x4096) ![0, 0] S512x4096.size inb_S512x4096_S512x4096_0_0
abbrev rW : Rect S4096x64 := Rect.unit (s := S4096x64) ![0, 0] S4096x64.size inb_S4096x64_S4096x64_0_0
abbrev rB : Rect S1x64 := Rect.unit (s := S1x64) ![0, 0] S1x64.size inb_S1x64_S1x64_0_0
abbrev rG : Rect S64x3 := Rect.unit (s := S64x3) ![0, 0] S64x3.size inb_S64x3_S64x3_0_0
abbrev rC : Rect S1x3 := Rect.unit (s := S1x3) ![0, 0] S1x3.size inb_S1x3_S1x3_0_0

section

variable (x0 x1 x2 : Vec F S512x4096 .f32) (x3 x4 x5 : Vec F S4096x64 .f32) (x6 x7 x8 : Vec F S1x64 .f32) (x9 x10 x11 : Vec F S64x3 .f32) (x12 : Vec F S1x3 .f32)

def out0 : Vec F S512x3 .f32 :=
  View.canon [⟨rOut, k0_pay1 (k0_pay2 (View.ld x2 rA) (View.ld x5 rW) (View.ld x8 rB))
    (k0_pay3 (View.ld x0 rA) (View.ld x3 rW) (View.ld x6 rB) (View.ld x1 rA) (View.ld x4 rW) (View.ld x7 rB) (View.ld x9 rG) (View.ld x10 rG))
    (k0_pay4 (View.ld x11 rG)) (View.ld x12 rC)⟩]

theorem cover0 (p0 : Vec F S512x3 .f32) (y : S512x3.Idx) :
    ∃ pc ∈ ([⟨rOut, p0⟩] : List (View.Piece (Elt F) S512x3 .f32)), y ∈ pc.1.set :=
  View.cover_of_tiled [⟨rOut, p0⟩] S512x3.size (by rfl) y

set_option maxHeartbeats 4000000 in
theorem sound_kernel (c : Dev nD) (E : Set ℕ) (i : grid0.Coords) (arg1 arg2 arg3 : Memref sig .tc .vmem S512x4096 .f32) (arg4 arg5 arg6 : Memref sig .tc .vmem S4096x64 .f32) (arg7 arg8 arg9 : Memref sig .tc .vmem S1x64 .f32) (arg10 arg11 arg12 : Memref sig .tc .vmem S64x3 .f32) (arg13 : Memref sig .tc .vmem S1x3 .f32) (arg14 : Memref sig .tc .vmem S512x3 .f32)
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0 x0 x1 x2 x3 x4 x5 x6 x7 x8 x9 x10 x11 x12)) -∗ K ⟨⟩))
      ⊢ wp frame (wpE (defs₀ (F := F)) Variants.none c none) E (cc0__logits_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__logits_kernel_eq_skeleton]; unfold cc0__logits_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0 _)

end

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out0 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec0 c
  q _ := fullShare
  owed _ := 0

theorem A_eq (c : Dev nD) (w : Fin cfg0.W) : (dat V c).A w = V c (Pipeline.arrRef spec0 w) := by
  dsimp only [dat]

theorem after_13 (c : Dev nD) (t : Fin cfg0.N) : (dat V c).after 13 t = out0 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem body_obligation (c : Dev nD) : BodyObligation (dat (F := F) V c) (defs₀ (F := F)) Variants.none () Set.univ := fun t => by
  rw [bigSep_W0, bigSep_W0]
  show _ ⊢ wp frame _ Set.univ (bodyAt0 t) _
  unfold bodyAt0
  rw [show (dat V c).owesAt () t.succ = (dat V c).owesAt () t.castSucc from rfl]
  have hb := fun (w : Fin cfg0.W) hw hc hk => (dat V c).before_in_eq_fetched w hw (fun _ => rfl) hc hk t
  simp only [show ∀ d, _ = iblk V c 0 t from hb 0 rfl (fun _ _ _ => rfl) (fun _ => rfl),
    show ∀ d, _ = iblk V c 1 t from hb 1 rfl (fun _ _ _ => rfl) (fun _ => rfl),
    show ∀ d, _ = iblk V c 2 t from hb 2 rfl (fun _ _ _ => rfl) (fun _ => rfl),
    show ∀ d, _ = iblk V c 3 t from hb 3 rfl (fun _ _ _ => rfl) (fun _ => rfl),
    show ∀ d, _ = iblk V c 4 t from hb 4 rfl (fun _ _ _ => rfl) (fun _ => rfl),
    show ∀ d, _ = iblk V c 5 t from hb 5 rfl (fun _ _ _ => rfl) (fun _ => rfl),
    show ∀ d, _ = iblk V c 6 t from hb 6 rfl (fun _ _ _ => rfl) (fun _ => rfl),
    show ∀ d, _ = iblk V c 7 t from hb 7 rfl (fun _ _ _ => rfl) (fun _ => rfl),
    show ∀ d, _ = iblk V c 8 t from hb 8 rfl (fun _ _ _ => rfl) (fun _ => rfl),
    show ∀ d, _ = iblk V c 9 t from hb 9 rfl (fun _ _ _ => rfl) (fun _ => rfl),
    show ∀ d, _ = iblk V c 10 t from hb 10 rfl (fun _ _ _ => rfl) (fun _ => rfl),
    show ∀ d, _ = iblk V c 11 t from hb 11 rfl (fun _ _ _ => rfl) (fun _ => rfl),
    show ∀ d, _ = iblk V c 12 t from hb 12 rfl (fun _ _ _ => rfl) (fun _ => rfl)]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) c Set.univ _ _ _ _ _ _ _ _ _ _ _ _ _ _ _ _ _ _ _ _ _ _ _ _ _ _ _ _ _ _)
  iframe H0 H1 H2 H3 H4 H5 H6 H7 H8 H9 H10 H11 H12
  isplitl [H13]; · iexists _; iexact H13
  iintro H
  isplitl [HΦ]; · iexact HΦ
  isplitl [Ho]; · iexact Ho
  iexact H

theorem hin (c : Dev nD) : (Pipeline.ΦA spec0 c : sProp 𝕄) ⊢ (dat V c).Φ 0 := .rfl
theorem hout (c : Dev nD) : (dat V c).Φ (Fin.last cfg0.N) ⊢ (Pipeline.ΦA spec0 c : sProp 𝕄) := .rfl

end Cert.KernelIdeal.R0

end
-- ==== Proof.KernelIdeal.R1.lean ====
import proofs.«406496_j14319420965162_3_alg».proof.Proof.Gen.KernelIdeal.Launch
import proofs.«406496_j14319420965162_3_alg».proof.Proof.Gen.KernelIdeal.Skeleton
import proofs.«406496_j14319420965162_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S1024x1024 := Rect.unit (s := S1024x1024) ![0, 0] S1024x1024.size inb_S1024x1024_S1024x1024_0_0
abbrev rN0 : Rect S3x1024 := Rect.unit (s := S3x1024) ![0, 0] S1x1024.size inb_S3x1024_S1x1024_0_0
abbrev rN1 : Rect S3x1024 := Rect.unit (s := S3x1024) ![1, 0] S1x1024.size inb_S3x1024_S1x1024_1_0
abbrev rN2 : Rect S3x1024 := Rect.unit (s := S3x1024) ![2, 0] S1x1024.size inb_S3x1024_S1x1024_2_0
abbrev rX : Rect S1024x512 := Rect.unit (s := S1024x512) ![0, 0] S1024x512.size inb_S1024x512_S1024x512_0_0
abbrev rW1 : Rect S512x128 := Rect.unit (s := S512x128) ![0, 0] S512x128.size inb_S512x128_S512x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rH : Rect S1024x128 := Rect.unit (s := S1024x128) ![0, 0] S1024x128.size inb_S1024x128_S1024x128_0_0

def rst : Vec F S1024x128 .f32 := View.canon [⟨rH, k1_pay5 (F := F)⟩]

def adjT (x0 x1 x2 : Vec F S1024x1024 .f32) (x3 : Vec F S3x1024 .f32) : Vec F S1024x1024 .f32 :=
  View.canon [⟨rA, k1_pay6 (View.ld x3 rN0) (View.ld x3 rN1) (View.ld x3 rN2) (View.ld x0 rA) (View.ld x1 rA) (View.ld x2 rA)⟩]

def accStep (x0 x1 x2 : Vec F S1024x1024 .f32) (x3 : Vec F S3x1024 .f32) (x4 : Vec F S1024x512 .f32) (x5 : Vec F S512x128 .f32)
    (s : Vec F S1024x128 .f32) : Vec F S1024x128 .f32 :=
  View.canon [⟨rH, k1_pay7 (View.ld x3 rN0) (View.ld x3 rN1) (View.ld x3 rN2) (View.ld x0 rA) (View.ld x1 rA) (View.ld x2 rA) (View.ld x4 rX) (View.ld x5 rW1) (View.ld s rH)⟩]

def qOut (s : Vec F S1024x128 .f32) (b1 : Vec F S1x128 .f32) (W : Vec F S128x128 .f32) (b : Vec F S1x128 .f32) : Vec F S1024x128 .f32 :=
  View.canon [⟨rH, k1_pay2 (View.ld s rH) (View.ld b1 rB) (View.ld W rW) (View.ld b rB)⟩]
def kOut (s : Vec F S1024x128 .f32) (b1 : Vec F S1x128 .f32) (W : Vec F S128x128 .f32) (b : Vec F S1x128 .f32) : Vec F S1024x128 .f32 :=
  View.canon [⟨rH, k1_pay3 (View.ld s rH) (View.ld b1 rB) (View.ld W rW) (View.ld b rB)⟩]
def vOut (s : Vec F S1024x128 .f32) (b1 : Vec F S1x128 .f32) (W : Vec F S128x128 .f32) (b : Vec F S1x128 .f32) : Vec F S1024x128 .f32 :=
  View.canon [⟨rH, k1_pay4 (View.ld s rH) (View.ld b1 rB) (View.ld W rW) (View.ld b rB)⟩]

abbrev cond1 (i : grid1.Coords) : Prop :=
  (Scalar.cmpi .ne (Scalar.extui (Scalar.cmpi .eq (BitVec.ofNat 32 (i 1).val) 0#32)) 0#32) = 1#1
theorem hcond1 : ∀ t : Fin cfg1.N, cond1 (grid1.coords t) ↔ t.val % 4 = 0 := by decide +kernel
abbrev cond2 (i : grid1.Coords) : Prop := k1_cond2 i = 1#1
theorem hcond2 : ∀ t : Fin cfg1.N, cond2 (grid1.coords t) ↔ t.val % 4 = 3 := by decide +kernel

abbrev scM : Memref sig .tc .vmem S1024x128 .f32 := Memref.whole cc1_scratch0

-- the accumulator after point n: started from zeros where n ≡ 0 (mod 4), else carried on from point n - 1
def accAt : (n : ℕ) → n < cfg1.N → Vec F S1024x128 .f32
  | 0, hn => accStep (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) rst
  | n + 1, hn => accStep (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
      (if (n + 1) % 4 = 0 then rst else accAt n (Nat.lt_of_succ_lt hn))

theorem accAt_reset (t : Fin cfg1.N) (h : t.val % 4 = 0) :
    accAt V c t.val t.isLt = accStep (iblk V c 0 t) (iblk V c 1 t) (iblk V c 2 t) (iblk V c 3 t) (iblk V c 4 t) (iblk V c 5 t) rst := by
  obtain ⟨n, hn⟩ := t
  cases n with
  | zero => rfl
  | succ n =>
    have h' : (n + 1) % 4 = 0 := h
    show accStep _ _ _ _ _ _ (if (n + 1) % 4 = 0 then rst else accAt V c n (Nat.lt_of_succ_lt hn)) = _
    rw [if_pos h']

theorem accAt_carry (t : Fin cfg1.N) (h : ¬t.val % 4 = 0) :
    accAt V c t.val t.isLt = accStep (iblk V c 0 t) (iblk V c 1 t) (iblk V c 2 t) (iblk V c 3 t) (iblk V c 4 t) (iblk V c 5 t)
      (accAt V c (t.val - 1) (Nat.lt_of_le_of_lt (Nat.sub_le _ _) t.isLt)) := by
  obtain ⟨n, hn⟩ := t
  cases n with
  | zero => exact absurd (Nat.zero_mod 4) h
  | succ n =>
    have h' : ¬(n + 1) % 4 = 0 := h
    show accStep _ _ _ _ _ _ (if (n + 1) % 4 = 0 then rst else accAt V c n (Nat.lt_of_succ_lt hn)) = _
    rw [if_neg h']
    rfl

-- before a point n > 0 the scratch holds the accumulator of point n - 1; before point 0 nothing is known of it
def PhiS : (n : ℕ) → n ≤ cfg1.N → sProp 𝕄
  | 0, _ => Pipeline.ΦA spec1 c
  | n + 1, hn => iprop(owns (c : Thread nD τ) scM fullShare (accAt V c n hn) ∗ Pipeline.scopedRestBut spec1 c [cc1_scratch0] ∗ ∃ r, prngReg c r)

theorem PhiS_zero (n : ℕ) (h : n ≤ cfg1.N) (hz : n = 0) : PhiS V c n h = Pipeline.ΦA spec1 c := by
  subst hz; rfl

theorem PhiS_succ (n : ℕ) (hn : n < cfg1.N) :
    PhiS V c (n + 1) hn = iprop(owns (c : Thread nD τ) scM fullShare (accAt V c n hn) ∗ Pipeline.scopedRestBut spec1 c [cc1_scratch0] ∗ ∃ r, prngReg c r) := rfl

theorem PhiS_pos (n : ℕ) (h : n ≤ cfg1.N) (hz : n ≠ 0) :
    PhiS V c n h = iprop(owns (c : Thread nD τ) scM fullShare (accAt V c (n - 1) (by omega)) ∗ Pipeline.scopedRestBut spec1 c [cc1_scratch0] ∗ ∃ r, prngReg c r) := by
  cases n with
  | zero => exact absurd rfl hz
  | succ n => rfl

def dat : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => adjT (iblk V c 0 t) (iblk V c 1 t) (iblk V c 2 t) (iblk V c 3 t)
    | ⟨14, _⟩ => qOut (accAt V c t.val t.isLt) (iblk V c 12 t) (iblk V c 6 t) (iblk V c 7 t)
    | ⟨15, _⟩ => kOut (accAt V c t.val t.isLt) (iblk V c 12 t) (iblk V c 8 t) (iblk V c 9 t)
    | ⟨16, _⟩ => vOut (accAt V c t.val t.isLt) (iblk V c 12 t) (iblk V c 10 t) (iblk V c 11 t)
    | ⟨_ + 17, h⟩ => absurd h (Nat.not_lt.2 (Nat.le_add_left _ _))
  Φ t := PhiS V c t.val (Nat.le_of_lt_succ t.isLt)
  q _ := fullShare
  owed _ := 0

theorem A_eq (w : Fin cfg1.W) : (dat V c).A w = V c (Pipeline.arrRef spec1 w) := by
  dsimp only [dat]

theorem PhiS_castSucc (t : Fin cfg1.N) :
    (dat V c).Φ t.castSucc = PhiS V c t.val (Nat.le_of_lt t.isLt) := by
  dsimp only [dat]; simp only [Fin.coe_castSucc]

section
variable (t : Fin cfg1.N)

theorem after_13 : (dat V c).after 13 t = adjT (iblk V c 0 t) (iblk V c 1 t) (iblk V c 2 t) (iblk V c 3 t) := by dsimp only [dat]
theorem after_14 : (dat V c).after 14 t = qOut (accAt V c t.val t.isLt) (iblk V c 12 t) (iblk V c 6 t) (iblk V c 7 t) := by dsimp only [dat]
theorem after_15 : (dat V c).after 15 t = kOut (accAt V c t.val t.isLt) (iblk V c 12 t) (iblk V c 8 t) (iblk V c 9 t) := by dsimp only [dat]
theorem after_16 : (dat V c).after 16 t = vOut (accAt V c t.val t.isLt) (iblk V c 12 t) (iblk V c 10 t) (iblk V c 11 t) := by dsimp only [dat]

end

-- the body leaves an input window's block as it finds it, so what it finds there is what it leaves
theorem before_in (w : Fin cfg1.W) (hw : w.val < 13) (t : Fin cfg1.N) (d) : (dat V c).before w t d = (dat V c).after w t := by
  fin_cases w <;> first
    | exact absurd hw (by decide)
    | exact ((dat V c).before_in_eq_fetched _ rfl (fun _ => rfl) (fun _ _ _ => rfl) (fun _ => rfl) t d).trans rfl

theorem live : ∀ t : Fin cfg1.N, cond2 (grid1.coords t) → ∀ w : Fin cfg1.W, cfg1.idle w (cfg1.grid.coords t) = false := by decide +kernel

theorem idle : ∀ t : Fin cfg1.N, ¬cond2 (grid1.coords t) → ∀ w : Fin cfg1.W, 14 ≤ w.val →
    cfg1.idle w (cfg1.grid.coords t) = true ∧ (cfg1.win w).flush t = false := by decide +kernel

theorem leaves_live (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]

theorem leaves_idle (t : Fin cfg1.N) (h : ¬cond2 (grid1.coords t)) (w : Fin cfg1.W) (hw : 14 ≤ w.val := by decide) :
    (dat V c).leavesExact w t = iprop(∃ d, owns (c : Thread nD τ) ((cfg1.win w).stage (cfg1.slots t w)) fullShare ((dat V c).before w t d)) :=
  Dat.leavesExact_idle _ w t (idle t h w hw).1 (idle t h w hw).2

theorem off00 : (![0, 0] : Fin 2 → Nat) = fun _ => 0 := funext fun a => by fin_cases a <;> rfl

section
variable {S : Shape} {off : Fin S.rank → Nat} (ho : off = fun _ => 0) (inb : ∀ a, off a + S.size a ≤ S.size a)
  (p0 : S.Idx → Elt F .f32) (L : List (View.Piece (Elt F) S .f32)) {κ : Kind} {sp : Space} (v : View sig κ sp S .f32)
include ho

theorem coverL (y : S.Idx) : ∃ pc ∈ ((⟨Rect.unit off S.size inb, p0⟩ : View.Piece (Elt F) S .f32) :: L), y ∈ pc.1.set :=
  ⟨_, List.mem_cons.mpr (Or.inl rfl), View.mem_set_unit_zero ho inb y⟩

-- a store through the whole shape, made last, alone decides what is read back
theorem read_writes_L (f : v.ty.Contents (Elt F)) :
    v.read (Elt F) (v.writes (Elt F) f ((⟨Rect.unit off S.size inb, p0⟩ : View.Piece (Elt F) S .f32) :: L))
      = View.canon [(⟨Rect.unit off S.size inb, p0⟩ : View.Piece (Elt F) S .f32)] := by
  rw [View.read_writes_eq_canon _ _ _ (coverL ho inb p0 L), View.canon_cons_unit_zero ho, View.canon_unit_zero ho]

theorem readCov_L :
    v.readCov ((⟨Rect.unit off S.size inb, p0⟩ : View.Piece (Elt F) S .f32) :: L) (Rect.unit off S.size inb).toLoadRect
      = View.ld (View.canon [(⟨Rect.unit off S.size inb, p0⟩ : View.Piece (Elt F) S .f32)]) (Rect.unit off S.size inb) := by
  rw [View.readCov_eq_canon_ld _ _ _ (coverL ho inb p0 L), View.canon_cons_unit_zero ho, View.canon_unit_zero ho]

end

section kernel

variable (E : Set ℕ) (i : grid1.Coords) (arg2 arg3 arg4 arg15 : Memref sig .tc .vmem S1024x1024 .f32) (arg5 : Memref sig .tc .vmem S3x1024 .f32) (arg6 : Memref sig .tc .vmem S1024x512 .f32) (arg7 : Memref sig .tc .vmem S512x128 .f32) (arg8 arg10 arg12 : Memref sig .tc .vmem S128x128 .f32) (arg9 arg11 arg13 arg14 : Memref sig .tc .vmem S1x128 .f32) (arg16 arg17 arg18 arg19 : Memref sig .tc .vmem S1024x128 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole)
  (x0 x1 x2 : Vec F S1024x1024 .f32) (x3 : Vec F S3x1024 .f32) (x4 : Vec F S1024x512 .f32) (x5 : Vec F S512x128 .f32) (x6 : Vec F S128x128 .f32) (x7 : Vec F S1x128 .f32) (x8 : Vec F S128x128 .f32) (x9 : Vec F S1x128 .f32) (x10 : Vec F S128x128 .f32) (x11 x12 : Vec F S1x128 .f32) (s : Vec F S1024x128 .f32)

-- inner coordinate 0, 1 or 2: the mixed tile is stored and the accumulator stepped once, from zeros (s' = rst) at 0, else from its value (s' = s)
set_option maxHeartbeats 4000000 in
theorem sound_kernel_AB (K : PUnit → sProp 𝕄) (s' : Vec F S1024x128 .f32) (hs : if cond1 i then s' = rst else s' = s) (hc2 : ¬cond2 i) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg15 fullShare d)
        ∗ owns (c : Thread nD τ) arg19 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg15 fullShare (adjT x0 x1 x2 x3)
            ∗ owns (c : Thread nD τ) arg19 fullShare (accStep x0 x1 x2 x3 x4 x5 s')) -∗ K ⟨⟩))
      ⊢ wp frame (wpE (defs₀ (F := F)) Variants.none c none) E (cc1__mix_gcn1_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mix_gcn1_qkv_kernel_eq_skeleton]; unfold cc1__mix_gcn1_qkv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d13, %f13, -, H13⟩, ⟨%fs, %hfs, HS⟩, Hk⟩
  subst hf0 hf1 hf2 hf3 hf4 hf5 hfs
  by_cases hc1 : cond1 i
  all_goals
    first | rw [if_pos hc1] at hs | rw [if_neg hc1] at hs
    subst hs
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H13]
    · iexists _; isplitr
      swap; · iexact H13
      ipureintro
      exact View.read_writes_eq_canon _ _ _ (coverL (S := S1024x1024) off00 _ _ [])
    iexists _; isplitr
    swap; · iexact HS
    ipureintro
    first
    | exact View.read_writes_eq_canon _ _ _ (coverL (S := S1024x128) off00 _ _ [])
    | (sl_unfold_words; rw [read_writes_L (S := S1024x128) off00]; unfold accStep rst; rw [readCov_L (S := S1024x128) off00]; rfl)

-- inner coordinate 3: the same step from the accumulator's value, and the three maps of the stepped accumulator are stored as well
set_option maxHeartbeats 4000000 in
theorem sound_kernel_C (K : PUnit → sProp 𝕄) (hc1 : ¬cond1 i) (hc2 : cond2 i) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ owns (c : Thread nD τ) arg19 fullShare s
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare (adjT x0 x1 x2 x3)
            ∗ owns (c : Thread nD τ) arg16 fullShare (qOut (accStep x0 x1 x2 x3 x4 x5 s) x12 x6 x7)
            ∗ owns (c : Thread nD τ) arg17 fullShare (kOut (accStep x0 x1 x2 x3 x4 x5 s) x12 x8 x9)
            ∗ owns (c : Thread nD τ) arg18 fullShare (vOut (accStep x0 x1 x2 x3 x4 x5 s) x12 x10 x11)
            ∗ owns (c : Thread nD τ) arg19 fullShare (accStep x0 x1 x2 x3 x4 x5 s)) -∗ K ⟨⟩))
      ⊢ wp frame (wpE (defs₀ (F := F)) Variants.none c none) E (cc1__mix_gcn1_qkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mix_gcn1_qkv_kernel_eq_skeleton]; unfold cc1__mix_gcn1_qkv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, Hk⟩
  subst hf2 hf3 hf4 hf5 hf6 hf7 hf8 hf9 hf10 hf11 hf12 hf13 hf14 hf19
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    rw [read_writes_L (S := S1024x1024) off00]
    unfold adjT
    rfl
  isplitl [H16]
  · iexists _; isplitr
    swap; · iexact H16
    ipureintro
    sl_unfold_words
    rw [read_writes_L (S := S1024x128) off00]
    unfold qOut accStep
    rw [readCov_L (S := S1024x128) off00]
    rfl
  isplitl [H17]
  · iexists _; isplitr
    swap; · iexact H17
    ipureintro
    sl_unfold_words
    rw [read_writes_L (S := S1024x128) off00]
    unfold kOut accStep
    rw [readCov_L (S := S1024x128) off00]
    rfl
  isplitl [H18]
  · iexists _; isplitr
    swap; · iexact H18
    ipureintro
    sl_unfold_words
    rw [read_writes_L (S := S1024x128) off00]
    unfold vOut accStep
    rw [readCov_L (S := S1024x128) off00]
    rfl
  iexists _; isplitr
  swap; · iexact H19
  ipureintro
  sl_unfold_words
  rw [read_writes_L (S := S1024x128) off00]
  unfold accStep
  rfl

end kernel

theorem PhiA_eq :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM, owns_whole]; try rfl

-- at every position the invariant gives the entry invariant back: the accumulator's value is forgotten
theorem Phi_le (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  · rw [PhiS_pos V c _ _ ht, PhiA_eq]
    iintro ⟨HS, Hr, Hg⟩
    iframe Hr Hg
    iexists _; iexact HS

-- by cases on t mod 4: 3 (all four outputs stored), 0 (accumulator restarted), 1 or 2 (accumulator carried on)
set_option maxHeartbeats 4000000 in
theorem sound_body (t : Fin cfg1.N) :
    iprop((dat V c).Φ t.castSucc ∗ (dat V c).owesAt () t.castSucc
        ∗ bigSep Finset.univ fun w : Fin cfg1.W => iprop(∃ d, owns (c : Thread nD τ) ((cfg1.win w).stage (cfg1.slots t w)) fullShare ((dat V c).before w t d)))
      ⊢ wp frame (wpE (defs₀ (F := F)) Variants.none c none) Set.univ (bodyAt1 t) fun _ =>
          iprop((dat V c).Φ t.succ ∗ (dat V c).owesAt () t.succ ∗ bigSep Finset.univ fun w : Fin cfg1.W => (dat V c).leavesExact w t) := by
  rw [bigSep_W1, bigSep_W1]
  simp (disch := decide) only [before_in]
  rw [show (dat V c).owesAt () t.succ = (dat V c).owesAt () t.castSucc from rfl,
    show (dat V c).Φ t.succ = PhiS V c (t.val + 1) t.isLt from rfl, PhiS_succ,
    leaves_live V c 0 t rfl, leaves_live V c 1 t rfl, leaves_live V c 2 t rfl, leaves_live V c 3 t rfl, leaves_live V c 4 t rfl, leaves_live V c 5 t rfl, leaves_live V c 6 t rfl, leaves_live V c 7 t rfl, leaves_live V c 8 t rfl, leaves_live V c 9 t rfl, leaves_live V c 10 t rfl, leaves_live V c 11 t rfl, leaves_live V c 12 t rfl, leaves_live V c 13 t rfl]
  by_cases h3 : t.val % 4 = 3
  · have h0 : ¬t.val % 4 = 0 := by omega
    have hc2 := (hcond2 t).mpr h3
    rw [leaves_live V c 14 t (live t hc2 14), leaves_live V c 15 t (live t hc2 15), leaves_live V c 16 t (live t hc2 16),
      PhiS_castSucc V c t, PhiS_pos V c _ _ (fun e => h0 (by rw [e]))]
    dsimp only [dat]
    rw [accAt_carry V c t h0]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel_C c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _ _ (fun hc => h0 ((hcond1 t).mp hc)) hc2)
    iframe H0 H1 H2 H3 H4 H5 H6 H7 H8 H9 H10 H11 H12 HS
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, H12, H13, H14, H15, H16, HS⟩
    iframe
  · have hc2 : ¬cond2 (grid1.coords t) := fun hc => h3 ((hcond2 t).mp hc)
    rw [leaves_idle V c t hc2 14, leaves_idle V c t hc2 15, leaves_idle V c t hc2 16]
    by_cases h0 : t.val % 4 = 0
    · refine (sep_mono_left (Phi_le V c t.castSucc)).trans ?_
      rw [PhiA_eq]
      dsimp only [dat]
      rw [accAt_reset V c t h0]
      iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
      iapply (sound_kernel_AB c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) _ _ rst (by rw [if_pos ((hcond1 t).mpr h0)]) hc2)
      iframe H0 H1 H2 H3 H4 H5 HS
      isplitl [H13]; · iexists _; iexact H13
      iintro ⟨H0, H1, H2, H3, H4, H5, H13, HS⟩
      iframe
    · rw [PhiS_castSucc V c t, PhiS_pos V c _ _ (fun e => h0 (by rw [e]))]
      dsimp only [dat]
      rw [accAt_carry V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
      iapply (sound_kernel_AB c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) _ _ _ (by rw [if_neg fun hc => h0 ((hcond1 t).mp hc)]) hc2)
      iframe H0 H1 H2 H3 H4 H5 HS
      isplitl [H13]; · iexists _; iexact H13
      iintro ⟨H0, H1, H2, H3, H4, H5, H13, HS⟩
      iframe

theorem body_obligation : BodyObligation (dat (F := F) V c) (defs₀ (F := F)) Variants.none () Set.univ := fun t => sound_body V c t

theorem hin : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout : (dat V c).Φ (Fin.last cfg1.N) ⊢ Pipeline.ΦA spec1 c := Phi_le V c _

end Cert.KernelIdeal.R1

end
-- ==== Proof.KernelIdeal.R2.lean ====
import proofs.«406496_j14319420965162_3_alg».proof.Proof.Gen.KernelIdeal.Launch
import proofs.«406496_j14319420965162_3_alg».proof.Proof.Gen.KernelIdeal.Skeleton
import proofs.«406496_j14319420965162_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S2048x128 := Rect.unit (s := S2048x128) ![0, 0] S2048x128.size inb_S2048x128_S2048x128_0_0
abbrev rC : Rect S2048x1 := Rect.unit (s := S2048x1) ![0, 0] S2048x1.size inb_S2048x1_S2048x1_0_0
abbrev rJ : Rect S2048x2048 := Rect.unit (s := S2048x2048) ![0, 0] S2048x2048.size inb_S2048x2048_S2048x2048_0_0

def m0 : Vec F S2048x1 .f32 := View.canon [⟨rC, k2_pay4 (F := F)⟩]
def l0 : Vec F S2048x1 .f32 := View.canon [⟨rC, k2_pay5 (F := F)⟩]
def a0 : Vec F S2048x128 .f32 := View.canon [⟨rT, k2_pay6 (F := F)⟩]

def mNew (q k : Vec F S2048x128 .f32) (adj : Vec F S2048x2048 .f32) (m : Vec F S2048x1 .f32) : Vec F S2048x1 .f32 :=
  View.canon [⟨rC, k2_pay2 (k2_pay8 (View.ld q rT) (View.ld k rT) (View.ld adj rJ) (View.ld m rC))⟩]

def lNew (q k : Vec F S2048x128 .f32) (adj : Vec F S2048x2048 .f32) (m l : Vec F S2048x1 .f32) : Vec F S2048x1 .f32 :=
  View.canon [⟨rC, k2_pay11 (View.ld q rT) (View.ld k rT) (View.ld adj rJ) (View.ld m rC) (View.ld m rC) (View.ld l rC)⟩]

def aNew (q k v : Vec F S2048x128 .f32) (adj : Vec F S2048x2048 .f32) (m : Vec F S2048x1 .f32) (a : Vec F S2048x128 .f32) : Vec F S2048x128 .f32 :=
  View.canon [⟨rT, k2_pay1 (k2_pay9 (View.ld q rT) (View.ld k rT) (View.ld adj rJ) (View.ld m rC) (View.ld m rC))
    (k2_pay10 (View.ld q rT) (View.ld k rT) (View.ld adj rJ) (View.ld m rC)) (k2_pay12 (View.ld v rT)) (View.ld a rT)⟩]

def out2 (a : Vec F S2048x128 .f32) (l : Vec F S2048x1 .f32) : Vec F S2048x128 .f32 :=
  View.canon [⟨rT, k2_pay3 (View.ld a rT) (View.ld l rC)⟩]

theorem hz : (![0, 0] : Fin 2 → Nat) = fun _ => 0 := funext fun a => by fin_cases a <;> rfl

section fill

variable (S : Shape) {e : EltTy} {κ : Kind} {sp : Space} {v : View sig κ sp S e} {off : Fin S.rank → ℕ} (h : off = fun _ => 0)
  (inb : ∀ a, off a + S.size a ≤ S.size a) (p0 : Vec F S e) (L : List (View.Piece (Elt F) S e))
include h

theorem cover (y : S.Idx) : ∃ pc ∈ ((⟨Rect.unit off S.size inb, p0⟩ : View.Piece (Elt F) S e) :: L), y ∈ pc.1.set :=
  ⟨_, List.mem_cons.mpr (Or.inl rfl), View.mem_set_unit_zero h inb y⟩

-- a buffer whose last store filled it reads as that store's payload alone
theorem read_fill (f : v.ty.Contents (Elt F)) :
    v.read (Elt F) (v.writes (Elt F) f ((⟨Rect.unit off S.size inb, p0⟩ : View.Piece (Elt F) S e) :: L))
      = View.canon [(⟨Rect.unit off S.size inb, p0⟩ : View.Piece (Elt F) S e)] := by
  rw [View.read_writes_eq_canon _ _ _ (cover S h inb p0 L), View.canon_cons_unit_zero h, View.canon_unit_zero h]

theorem readCov_fill :
    v.readCov ((⟨Rect.unit off S.size inb, p0⟩ : View.Piece (Elt F) S e) :: L) (Rect.unit off S.size inb).toLoadRect
      = View.ld (View.canon [(⟨Rect.unit off S.size inb, p0⟩ : View.Piece (Elt F) S e)]) (Rect.unit off S.size inb) := by
  rw [View.readCov_eq_canon_ld _ _ _ (cover S h inb p0 L), View.canon_cons_unit_zero h, View.canon_unit_zero h]

end fill

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 := by decide +kernel
abbrev cond2_1 (i : grid2.Coords) : Prop := k2_cond2 i = 1#1
theorem hcond2_1 : ∀ t : Fin cfg2.N, cond2_1 (grid2.coords t) ↔ t.val % 2 = 1 := by decide +kernel

theorem liveAt_4 : ∀ t : Fin cfg2.N, t.val % 2 = 1 → idle2 4 (grid2.coords t) = false := by decide +kernel
theorem idleAt_4 : ∀ t : Fin cfg2.N, t.val % 2 = 0 → idle2 4 (grid2.coords t) = true := by decide +kernel
theorem noFlush_4 : ∀ t : Fin cfg2.N, t.val % 2 = 0 → (win2 4).flush t = false := by decide +kernel

abbrev scM0 : Memref sig .tc .vmem S2048x1 .f32 := Memref.whole cc2_scratch0
abbrev scM1 : Memref sig .tc .vmem S2048x1 .f32 := Memref.whole cc2_scratch1
abbrev scM2 : Memref sig .tc .vmem S2048x128 .f32 := Memref.whole cc2_scratch2

-- the body at a point with inner coordinate 0 (reset, then step) and at one with inner coordinate 1 (step, then store the output)
theorem sound_kernel (c : Dev nD) (E : Set ℕ) (i : grid2.Coords)
    (arg2 arg3 arg4 arg6 arg9 : Memref sig .tc .vmem S2048x128 .f32) (arg5 : Memref sig .tc .vmem S2048x2048 .f32)
    (arg7 arg8 : Memref sig .tc .vmem S2048x1 .f32) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 x2 : Vec F S2048x128 .f32) (x3 : Vec F S2048x2048 .f32) (K : PUnit → sProp 𝕄) (I W : sProp 𝕄)
    (hI : I = iprop(owns (c : Thread nD τ) arg2 fullShare x0 ∗ owns (c : Thread nD τ) arg3 fullShare x1 ∗ owns (c : Thread nD τ) arg4 fullShare x2 ∗ owns (c : Thread nD τ) arg5 fullShare x3))
    (hW : W = wp frame (wpE (defs₀ (F := F)) Variants.none c none) E (cc2__attn_kernel i arg2 harg2 arg3 harg3 arg4 harg4 arg5 harg5 arg6 harg6 arg7 harg7 arg8 harg8 arg9 harg9) K) :
    (cond2_0 i → ¬cond2_1 i → ∀ x4 : Vec F S2048x128 .f32,
      iprop(I ∗ owns (c : Thread nD τ) arg6 fullShare x4
          ∗ (∃ d, owns (c : Thread nD τ) arg7 fullShare d) ∗ (∃ d, owns (c : Thread nD τ) arg8 fullShare d) ∗ (∃ d, owns (c : Thread nD τ) arg9 fullShare d)
          ∗ (iprop(I ∗ owns (c : Thread nD τ) arg6 fullShare x4
              ∗ owns (c : Thread nD τ) arg7 fullShare (mNew x0 x1 x3 m0)
              ∗ owns (c : Thread nD τ) arg8 fullShare (lNew x0 x1 x3 m0 l0)
              ∗ owns (c : Thread nD τ) arg9 fullShare (aNew x0 x1 x2 x3 m0 a0)) -∗ K ⟨⟩)) ⊢ W)
    ∧ (¬cond2_0 i → cond2_1 i → ∀ (m l : Vec F S2048x1 .f32) (a : Vec F S2048x128 .f32),
      iprop(I ∗ (∃ d, owns (c : Thread nD τ) arg6 fullShare d)
          ∗ owns (c : Thread nD τ) arg7 fullShare m ∗ owns (c : Thread nD τ) arg8 fullShare l ∗ owns (c : Thread nD τ) arg9 fullShare a
          ∗ (iprop(I ∗ owns (c : Thread nD τ) arg6 fullShare (out2 (aNew x0 x1 x2 x3 m a) (lNew x0 x1 x3 m l))
              ∗ owns (c : Thread nD τ) arg7 fullShare (mNew x0 x1 x3 m)
              ∗ owns (c : Thread nD τ) arg8 fullShare (lNew x0 x1 x3 m l)
              ∗ owns (c : Thread nD τ) arg9 fullShare (aNew x0 x1 x2 x3 m a)) -∗ K ⟨⟩)) ⊢ W) := by
  subst hI hW
  refine ⟨fun hc0 hc1 x4 => ?_, fun hc0 hc1 m l a => ?_⟩ <;>
    (simp only [cc2__attn_kernel_eq_skeleton]; unfold cc2__attn_kernel_skel owns)
  on_goal 1 =>
    iintro ⟨⟨⟨%f2, %hf2, H2⟩, ⟨%f3, %hf3, H3⟩, ⟨%f4, %hf4, H4⟩, ⟨%f5, %hf5, H5⟩⟩, ⟨%f6, %hf6, H6⟩, ⟨%d7, %f7, -, H7⟩, ⟨%d8, %f8, -, H8⟩, ⟨%d9, %f9, -, H9⟩, Hk⟩
    subst hf2; subst hf3; subst hf4; subst hf5; subst hf6
  on_goal 2 =>
    iintro ⟨⟨⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hk⟩
    subst hf2; subst hf3; subst hf4; subst hf5; subst hf7; subst hf8; subst hf9
  all_goals
    sl_exec (disch := first | exact hc0 | exact hc1)
    sl_step
    ihave G2 := (owns_intro _ arg2 fullShare _) $$ H2
    ihave G3 := (owns_intro _ arg3 fullShare _) $$ H3
    ihave G4 := (owns_intro _ arg4 fullShare _) $$ H4
    ihave G5 := (owns_intro _ arg5 fullShare _) $$ H5
    ihave G6 := (owns_intro _ arg6 fullShare _) $$ H6
    ihave G7 := (owns_intro _ arg7 fullShare _) $$ H7
    ihave G8 := (owns_intro _ arg8 fullShare _) $$ H8
    ihave G9 := (owns_intro _ arg9 fullShare _) $$ H9
    unfold owns
    sl_unfold_words
    simp only [read_fill S2048x1 hz, read_fill S2048x128 hz, readCov_fill S2048x1 hz, readCov_fill S2048x128 hz]
    iapply Hk
    iframe
    try (isplitl [G6]; · iexact G6)
    isplitl [G7]; · iexact G7
    isplitl [G8]; · iexact G8
    iexact G9

def scStep (c : Dev nD) (t : Fin cfg2.N) (s : Vec F S2048x1 .f32 × Vec F S2048x1 .f32 × Vec F S2048x128 .f32) :
    Vec F S2048x1 .f32 × Vec F S2048x1 .f32 × Vec F S2048x128 .f32 :=
  (mNew (iblk V c 0 t) (iblk V c 1 t) (iblk V c 3 t) s.1,
   lNew (iblk V c 0 t) (iblk V c 1 t) (iblk V c 3 t) s.1 s.2.1,
   aNew (iblk V c 0 t) (iblk V c 1 t) (iblk V c 2 t) (iblk V c 3 t) s.1 s.2.2)

def scAt (c : Dev nD) : (n : ℕ) → n < cfg2.N → Vec F S2048x1 .f32 × Vec F S2048x1 .f32 × Vec F S2048x128 .f32
  | 0, hn => scStep V c ⟨0, hn⟩ (m0, l0, a0)
  | n + 1, hn => scStep V c ⟨n + 1, hn⟩ (if (n + 1) % 2 = 0 then (m0, l0, a0) else scAt c n (Nat.lt_of_succ_lt hn))

theorem scAt_reset (c : Dev nD) (t : Fin cfg2.N) (h : t.val % 2 = 0) : scAt V c t.val t.isLt = scStep V c t (m0, l0, a0) := by
  obtain ⟨n, hn⟩ := t
  cases n with
  | zero => rfl
  | succ n => exact congrArg (scStep V c _) (if_pos h)

theorem scAt_acc (c : Dev nD) (t : Fin cfg2.N) (h : t.val % 2 = 1) :
    scAt V c t.val t.isLt = scStep V c t (scAt V c (t.val - 1) (Nat.lt_of_le_of_lt (Nat.sub_le _ _) t.isLt)) := by
  obtain ⟨n, hn⟩ := t
  cases n with
  | zero => exact absurd h Nat.zero_ne_one
  | succ n => exact congrArg (scStep V c _) (if_neg (by have : (n + 1) % 2 = 1 := h; omega))

abbrev rest (c : Dev nD) : sProp 𝕄 :=
  Pipeline.scopedRestBut (Ix := Unit) (Name := ℕ) (U := UR sig nD τ) (Lvl := ℕ) (Val := Elt F) spec2 c [cc2_scratch0, cc2_scratch1, cc2_scratch2]

-- the three carried buffers hold s; everything else is owned at any contents
def carried (c : Dev nD) (s : Vec F S2048x1 .f32 × Vec F S2048x1 .f32 × Vec F S2048x128 .f32) : sProp 𝕄 :=
  iprop(iprop(iprop(owns (c : Thread nD τ) scM0 fullShare s.1 ∗ owns (c : Thread nD τ) scM1 fullShare s.2.1 ∗ owns (c : Thread nD τ) scM2 fullShare s.2.2)
      ∗ rest c)
      ∗ (∃ r, prngReg c r))

def PhiS (c : Dev nD) : (n : ℕ) → n ≤ cfg2.N → sProp 𝕄
  | 0, _ => Pipeline.ΦA spec2 c
  | n + 1, hn => carried c (scAt V c n hn)

theorem PhiS_pos (c : Dev nD) (n : ℕ) (h : n ≤ cfg2.N) (hz : n ≠ 0) :
    PhiS V c n h = carried c (scAt V c (n - 1) (by omega)) := by
  cases n with
  | zero => exact absurd rfl hz
  | succ n => rfl

theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d))
          ∗ rest c)
          ∗ (∃ r, prngReg c r)) := by
  unfold Pipeline.ΦA; rw [scopedRest2_split]; simp only [scM0, scM1, scM2, owns_whole]; try rfl

-- forgetting what the carried buffers hold
theorem carried_out (c : Dev nD) (s : Vec F S2048x1 .f32 × Vec F S2048x1 .f32 × Vec F S2048x128 .f32) :
    (carried c s : sProp 𝕄) ⊢ Pipeline.ΦA spec2 c := by
  rw [PhiA_eq]; unfold carried
  iintro ⟨⟨⟨HS0, HS1, HS2⟩, Hr⟩, Hg⟩
  iframe Hr Hg
  isplitl [HS0]; · iexists _; iexact HS0
  isplitl [HS1]; · iexists _; iexact HS1
  iexists _; iexact HS2

theorem PhiS_out (c : Dev nD) : ∀ n h, PhiS V c n h ⊢ Pipeline.ΦA spec2 c
  | 0, _ => Idealize.SL.BI.Entails.refl _
  | _ + 1, _ => carried_out c _

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out2 (scAt V c t.val t.isLt).2.2 (scAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_4 (c : Dev nD) (t : Fin cfg2.N) :
    (dat V c).after 4 t = out2 (scAt V c t.val t.isLt).2.2 (scAt V c t.val t.isLt).2.1 := by dsimp only [dat]

theorem before_in (c : Dev nD) (t : Fin cfg2.N) :
    (∀ d, (dat V c).before 0 t d = iblk V c 0 t) ∧ (∀ d, (dat V c).before 1 t d = iblk V c 1 t)
      ∧ (∀ d, (dat V c).before 2 t d = iblk V c 2 t) ∧ (∀ d, (dat V c).before 3 t d = iblk V c 3 t) := by
  refine ⟨?_, ?_, ?_, ?_⟩ <;>
    exact fun d => ((dat V c).before_in_eq_fetched _ rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2]
  show _ ⊢ wp frame _ Set.univ (bodyAt2 t) _
  unfold bodyAt2
  simp only [before_in V c t]
  rw [show (dat V c).owesAt () t.succ = (dat V c).owesAt () t.castSucc from rfl,
    show (dat V c).Φ t.succ = carried c (scAt V c t.val t.isLt) from rfl, show (dat V c).Φ t.castSucc = PhiS V c t.val (Nat.le_of_lt t.isLt) from rfl,
    show (dat V c).after 0 t = iblk V c 0 t from rfl, show (dat V c).after 1 t = iblk V c 1 t from rfl,
    show (dat V c).after 2 t = iblk V c 2 t from rfl, show (dat V c).after 3 t = iblk V c 3 t from rfl]
  by_cases h : t.val % 2 = 0
  · rw [idleAt_4 t h, noFlush_4 t h, scAt_reset V c t h]
    refine (BI.sep_mono_l (PhiS_out V c _ _)).trans ?_
    show (iprop(_ ∗ _) : sProp 𝕄) ⊢ _
    rw [PhiA_eq]
    unfold carried scStep; dsimp only
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((sound_kernel c Set.univ (grid2.coords t) _ _ _ _ _ _ _ _ _ _ _ _ _ _ _ _ (iblk V c 0 t) (iblk V c 1 t) (iblk V c 2 t) (iblk V c 3 t) _ _ _ rfl rfl).1
      ((hcond2_0 t).mpr h) (fun hc => by have := (hcond2_1 t).mp hc; omega) ((dat V c).before 4 t d4))
    iframe H0 H1 H2 H3 H4 HS0 HS1 HS2
    iintro ⟨⟨H0, H1, H2, H3⟩, H4, HS0, HS1, HS2⟩
    iframe
    iexists d4; iexact H4
  · have h1 : t.val % 2 = 1 := by omega
    rw [liveAt_4 t h1, after_4, scAt_acc V c t h1, PhiS_pos V c _ _ (by omega)]
    unfold carried scStep; dsimp only
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((sound_kernel c Set.univ (grid2.coords t) _ _ _ _ _ _ _ _ _ _ _ _ _ _ _ _ (iblk V c 0 t) (iblk V c 1 t) (iblk V c 2 t) (iblk V c 3 t) _ _ _ rfl rfl).2
      (fun hc => h ((hcond2_0 t).mp hc)) ((hcond2_1 t).mpr h1) _ _ _)
    iframe H0 H1 H2 H3 HS0 HS1 HS2
    isplitl [H4]; · iexists _; iexact H4
    iintro ⟨⟨H0, H1, H2, H3⟩, H4, HS0, HS1, HS2⟩
    iframe

theorem hin (c : Dev nD) : Pipeline.ΦA spec2 c ⊢ (dat V c).Φ 0 := Idealize.SL.BI.Entails.refl _

theorem hout (c : Dev nD) : (dat V c).Φ (Fin.last cfg2.N) ⊢ Pipeline.ΦA spec2 c :=
  PhiS_out V c _ (Nat.le_of_lt_succ (Fin.last cfg2.N).isLt)

end Cert.KernelIdeal.R2

end
-- ==== Proof.KernelIdeal.Segs.lean ====
import proofs.«406496_j14319420965162_3_alg».proof.Proof.KernelIdeal.R3
import proofs.«406496_j14319420965162_3_alg».proof.Proof.KernelIdeal.R0
import proofs.«406496_j14319420965162_3_alg».proof.Proof.KernelIdeal.R1
import proofs.«406496_j14319420965162_3_alg».proof.Proof.KernelIdeal.R2
import proofs.«406496_j14319420965162_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev U1 (c : Dev nD) : Valuation τ sig (Elt F) := V1 m c
def X0 (c : Dev nD) : Buf (Elt F) ((c : Thread nD τ).loc main_v7) := (R0.dat (fun c b => U1 m c b) c).arrAt 13 cfg0.N
def U2 (c : Dev nD) : Valuation τ sig (Elt F) := Function.update (U1 m c) main_v7 (X0 m c)
abbrev U3 (c : Dev nD) : Valuation τ sig (Elt F) := StableHlo.after hostOps1 (U2 m c)
def X1_0 (c : Dev nD) : Buf (Elt F) ((c : Thread nD τ).loc main_v13_0) := (R1.dat (fun c b => U3 m c b) c).arrAt 13 cfg1.N
def X1_1 (c : Dev nD) : Buf (Elt F) ((c : Thread nD τ).loc main_v13_1) := (R1.dat (fun c b => U3 m c b) c).arrAt 14 cfg1.N
def X1_2 (c : Dev nD) : Buf (Elt F) ((c : Thread nD τ).loc main_v13_2) := (R1.dat (fun c b => U3 m c b) c).arrAt 15 cfg1.N
def X1_3 (c : Dev nD) : Buf (Elt F) ((c : Thread nD τ).loc main_v13_3) := (R1.dat (fun c b => U3 m c b) c).arrAt 16 cfg1.N
def U4 (c : Dev nD) : Valuation τ sig (Elt F) :=
  Function.update (Function.update (Function.update (Function.update (U3 m c) main_v13_0 (X1_0 m c)) main_v13_1 (X1_1 m c)) main_v13_2 (X1_2 m c)) main_v13_3 (X1_3 m c)
def X2 (c : Dev nD) : Buf (Elt F) ((c : Thread nD τ).loc main_v14) := (R2.dat (fun c b => U4 m c b) c).arrAt 4 cfg2.N
def U5 (c : Dev nD) : Valuation τ sig (Elt F) := Function.update (U4 m c) main_v14 (X2 m c)
abbrev U6 (c : Dev nD) : Valuation τ sig (Elt F) := StableHlo.after hostOps3 (U5 m c)
def X3 (c : Dev nD) : Buf (Elt F) ((c : Thread nD τ).loc main_v17) := (R3.dat (fun c b => U6 m c b) c).arrAt 3 cfg3.N
def U7 (c : Dev nD) : Valuation τ sig (Elt F) := Function.update (U6 m c) main_v17 (X3 m c)

def outs : Outs (F := F) := fun J r c => match J with
  | 2 => U2 m c r
  | 4 => U4 m c r
  | 5 => U5 m c r
  | 7 => U7 m c r
  | _ => m ((c : Thread nD τ).loc r)

def pdats : (p : Fin 4) → (c : Dev nD) → Dat τ (Elt F) Unit ℕ (UR sig nD τ) ℕ (cfgs p) c
  | ⟨0, _⟩ => fun c => R0.dat (fun c b => U1 m c b) c
  | ⟨1, _⟩ => fun c => R1.dat (fun c b => U3 m c b) c
  | ⟨2, _⟩ => fun c => R2.dat (fun c b => U4 m c b) c
  | ⟨3, _⟩ => fun c => R3.dat (fun c b => U6 m c b) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section
variable {p : Fin 4} (lf : Pipeline.LaunchFacts (nD := nD) (τ := τ) cfgs p) (Vi Vo : Dev nD → Valuation τ sig (Elt F))
  (hA : ∀ c w, (pdats m p c).A w = Vi c (Pipeline.arrRef (cfgs p).spec w))
  (ha : ∀ c w, ((cfgs p).win w).isOut = true → Vo c (Pipeline.arrRef (cfgs p).spec w) = (pdats m p c).arrAt w (cfgs p).N)
  (hb : ∀ c (b : Ref sig .tc), (∀ w, ((cfgs p).win w).isOut = true → b ≠ Pipeline.arrRef (cfgs p).spec w) → Vo c b = Vi c b)

include lf hA ha hb in
/-- `arrRef` is injective, so an input window's array is no output window's and `hb` reads it off `Vi`. -/
theorem exit_arr (c : Dev nD) (w : Fin (cfgs p).W) : (pdats m p c).arrAt w (cfgs p).N = Vo c (Pipeline.arrRef (cfgs p).spec w) := by
  by_cases ho : ((cfgs p).win w).isOut = true
  · exact (ha c w ho).symm
  · rw [Dat.arrAt_in _ w (by simpa using ho), hA, hb]
    exact fun w' ho' e => ho (by rw [lf.win.arr_inj e]; exact ho')

set_option backward.isDefEq.respectTransparency.types false in
/-- The four regions' records differ only in the two valuations and the window facts. -/
def mkReg (hbody : ∀ c, BodyObligation (pdats m p c) (defs₀ (F := F)) 𝒱₀ () Set.univ)
    (hin : ∀ c : Dev nD, (Pipeline.ΦA (cfgs p).spec c : sProp 𝕄) ⊢ (pdats m p c).Φ 0)
    (hout : ∀ c : Dev nD, (pdats m p c).Φ (Fin.last (cfgs p).N) ⊢ (Pipeline.ΦA (cfgs p).spec c : sProp 𝕄))
    (hq : ∀ c w, (pdats m p c).q w = fullShare) (h0 : ∀ c t, (pdats m p c).owed t = 0)
    (hrec : ∀ c x, x ∈ (pdats m p c).recorded 0) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    unfold Pipeline.Dat.owesAt Pipeline.owesWithin
    rw [h0]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine (show iprop((∃ r, prngReg c r) ∗ Pipeline.prefHeld (pcfgs (F := F) p).pre c (fun _ => fullShare) (adm (F := F) p).1 ∗ Pipeline.scopedRest (cfgs p).spec c) ⊢ (Pipeline.ΦA (cfgs p).spec c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    unfold Pipeline.Dat.owesAt Pipeline.owesWithin
    rw [h0]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (exit_arr m lf Vi Vo hA ha hb c)
      fun b h => hb c b fun w _ e => h (Finset.mem_image.mpr ⟨w, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end

theorem U2_out (c : Dev nD) : U2 m c main_v7 = X0 m c := by
  unfold U2; rw [Function.update_self]
theorem U5_out (c : Dev nD) : U5 m c main_v14 = X2 m c := by
  unfold U5; rw [Function.update_self]
theorem U7_out (c : Dev nD) : U7 m c main_v17 = X3 m c := by
  unfold U7; rw [Function.update_self]

theorem upd {V : Valuation τ sig (Elt F)} {a b : Ref sig .tc} (h : b ≠ a) x : Function.update V a x b = V b :=
  Function.update_of_ne (StableHlo.devRef_ne_of_ne h) _ _

theorem U4_0 (c : Dev nD) : U4 m c main_v13_0 = X1_0 m c := by
  unfold U4
  rw [upd (by decide : main_v13_0 ≠ main_v13_3), upd (by decide : main_v13_0 ≠ main_v13_2), upd (by decide : main_v13_0 ≠ main_v13_1), Function.update_self]
theorem U4_1 (c : Dev nD) : U4 m c main_v13_1 = X1_1 m c := by
  unfold U4
  rw [upd (by decide : main_v13_1 ≠ main_v13_3), upd (by decide : main_v13_1 ≠ main_v13_2), Function.update_self]
theorem U4_2 (c : Dev nD) : U4 m c main_v13_2 = X1_2 m c := by
  unfold U4
  rw [upd (by decide : main_v13_2 ≠ main_v13_3), Function.update_self]
theorem U4_3 (c : Dev nD) : U4 m c main_v13_3 = X1_3 m c := by
  unfold U4
  rw [Function.update_self]
theorem U4_of (c : Dev nD) (b : Ref sig .tc) (h0 : b ≠ main_v13_0) (h1 : b ≠ main_v13_1) (h2 : b ≠ main_v13_2) (h3 : b ≠ main_v13_3) : U4 m c b = U3 m c b := by
  unfold U4
  rw [upd h3, upd h2, upd h1, upd h0]

theorem V2_eq (c : Dev nD) : V2 m (outs m) c = U2 m c := by
  show Function.update (V1 m c) main_v7 (U2 m c main_v7) = U2 m c
  rw [U2_out]; rfl
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show Function.update (Function.update (Function.update (Function.update (V3 m (outs m) c) main_v13_0 (U4 m c main_v13_0)) main_v13_1 (U4 m c main_v13_1)) main_v13_2 (U4 m c main_v13_2)) main_v13_3 (U4 m c main_v13_3) = U4 m c
  rw [U4_0, U4_1, U4_2, U4_3, V3_eq]; rfl
theorem V5_eq (c : Dev nD) : V5 m (outs m) c = U5 m c := by
  show Function.update (V4 m (outs m) c) main_v14 (U5 m c main_v14) = U5 m c
  rw [U5_out, V4_eq]; rfl
theorem V6_eq (c : Dev nD) : V6 m (outs m) c = U6 m c := by
  show StableHlo.after hostOps3 (V5 m (outs m) c) = StableHlo.after hostOps3 (U5 m c)
  rw [V5_eq]
theorem V7_eq (c : Dev nD) : V7 m (outs m) c = U7 m c := by
  show Function.update (V6 m (outs m) c) main_v17 (U7 m c main_v17) = U7 m c
  rw [U7_out, V6_eq]; rfl

set_option backward.isDefEq.respectTransparency.types false in
def reg0 : Pipeline.RegionSeg (pcfgs (F := F)) adm (pdats m) () defs₀ 𝒱₀ L lv 0 :=
  mkReg m launch0 (U1 m) (U2 m) (fun _ _ => rfl)
    (fun c w ho => by obtain rfl : w = 13 := (by decide : ∀ w : Fin 14, (cfg0.win w).isOut = true → w = 13) w ho; exact U2_out m c)
    (fun c b h => by unfold U2; exact upd (h (13 : Fin 14) (by decide)) _)
    (R0.body_obligation fun c b => U1 m c b) (R0.hin fun c b => U1 m c b) (R0.hout fun c b => U1 m c b) (fun _ _ => rfl) (fun _ _ => rfl) fun _ _ => trivial

set_option backward.isDefEq.respectTransparency.types false in
def reg1 : Pipeline.RegionSeg (pcfgs (F := F)) adm (pdats m) () defs₀ 𝒱₀ L lv 1 :=
  mkReg m launch1 (U3 m) (U4 m) (fun _ _ => rfl)
    (fun c w ho => by
      rcases (by decide : ∀ w : Fin 17, (cfg1.win w).isOut = true → w = 13 ∨ w = 14 ∨ w = 15 ∨ w = 16) w ho with rfl | rfl | rfl | rfl
      exacts [U4_0 m c, U4_1 m c, U4_2 m c, U4_3 m c])
    (fun c b h => U4_of m c b (h (13 : Fin 17) (by decide)) (h (14 : Fin 17) (by decide)) (h (15 : Fin 17) (by decide)) (h (16 : Fin 17) (by decide)))
    (R1.body_obligation fun c b => U3 m c b) (R1.hin fun c b => U3 m c b) (R1.hout fun c b => U3 m c b) (fun _ _ => rfl) (fun _ _ => rfl) fun _ _ => trivial

set_option backward.isDefEq.respectTransparency.types false in
def reg2 : Pipeline.RegionSeg (pcfgs (F := F)) adm (pdats m) () defs₀ 𝒱₀ L lv 2 :=
  mkReg m launch2 (U4 m) (U5 m) (fun _ _ => rfl)
    (fun c w ho => by obtain rfl : w = 4 := (by decide : ∀ w : Fin 5, (cfg2.win w).isOut = true → w = 4) w ho; exact U5_out m c)
    (fun c b h => by unfold U5; exact upd (h (4 : Fin 5) (by decide)) _)
    (R2.body_obligation fun c b => U4 m c b) (R2.hin fun c b => U4 m c b) (R2.hout fun c b => U4 m c b) (fun _ _ => rfl) (fun _ _ => rfl) fun _ _ => trivial

set_option backward.isDefEq.respectTransparency.types false in
def reg3 : Pipeline.RegionSeg (pcfgs (F := F)) adm (pdats m) () defs₀ 𝒱₀ L lv 3 :=
  mkReg m launch3 (U6 m) (U7 m) (fun _ _ => rfl)
    (fun c w ho => by obtain rfl : w = 3 := (by decide : ∀ w : Fin 4, (cfg3.win w).isOut = true → w = 3) w ho; exact U7_out m c)
    (fun c b h => by unfold U7; exact upd (h (3 : Fin 4) (by decide)) _)
    (R3.body_obligation fun c b => U6 m c b) (R3.hin fun c b => U6 m c b) (R3.hout fun c b => U6 m c b) (fun _ _ => rfl) (fun _ _ => rfl) fun _ _ => trivial

theorem hu₀ (u : UR sig nD τ) : (ownU u : sProp 𝕄) ⊢ |={Set.univ}=> iprop(BI.own (emb₁ u) ∗ bigSep Finset.univ fun _ : Dev nD => (BI.emp : sProp 𝕄)) := by
  iintro Hu; imodintro
  isplitl [Hu]
  · iapply (show (ownU u : sProp 𝕄) ⊢ BI.own (emb₁ u) from .rfl); iexact Hu
  iapply (show (BI.emp : sProp 𝕄) ⊢ bigSep Finset.univ (fun _ : Dev nD => (BI.emp : sProp 𝕄)) from by rw [BI.bigSep_emp_const])
  iempintro

end Cert.KernelIdeal.Segs

end
-- ==== Proof.KernelIdeal.Frame.lean ====
import proofs.«406496_j14319420965162_3_alg».proof.Proof.KernelIdeal.Segs
import proofs.«406496_j14319420965162_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_cond m emb₁ () 𝒱₀ L lv (fun _ _ => rfl) ρ (outs m) (pdats m) 0 (fun _ => iprop(emp))
    (initOf (Pipeline.cells cfgs cellOf_inj) (Pipeline.launchToks cfgs cellOf_inj))
    (hu₀ _)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)

end Cert.KernelIdeal.Segs

end
-- ==== Proof.KernelIdeal.RunCond.lean ====
import proofs.«406496_j14319420965162_3_alg».proof.Proof.Gen.KernelIdeal.Regions

set_option maxRecDepth 2688

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c)) :
    θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = V7 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, (hpost1 c).trans (hpre2 c), hpost2 c, hpre3 c, (hpost3 c).trans (sep_mono .rfl (hE4 c))⟩)
    (hinit := ?_) (QY := fun c s => ∀ b : Ref sig .tc, ¬ (Proc.devRef .tc b : DevRef τ sig).isScoped → s.mem ((c.tc : Thread nD τ).loc b) = V7 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact fun b hb => h _ (Finset.mem_filter.mpr ⟨StableHlo.devRef_mem_tcRefs b, hb⟩)
    · iexact HSI

end Cert.KernelIdeal.Run

end
-- ==== Proof.KernelIdeal.RunVals.lean ====
import proofs.«406496_j14319420965162_3_alg».proof.Proof.KernelIdeal.Segs
import proofs.«406496_j14319420965162_3_alg».proof.Proof.KernelIdeal.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run

variable (m : (ℓ : Loc nD τ sig) → Buf (Elt F) ℓ)

theorem U7_v7 (c : Dev nD) : U7 m c main_v7 = X0 m c := by
  have h6 : U6 m c main_v7 = U5 m c main_v7 := by
    rw [← V6_eq, ← V5_eq]; exact V6_of m (outs m) c main_v7 (by decide)
  have h3 : U3 m c main_v7 = U2 m c main_v7 := by
    rw [← V3_eq, ← V2_eq]; exact V3_of m (outs m) c main_v7 (by decide)
  unfold U7
  rw [upd (by decide : main_v7 ≠ main_v17), h6]
  unfold U5
  rw [upd (by decide : main_v7 ≠ main_v14), U4_of m c main_v7 (by decide) (by decide) (by decide) (by decide), h3, U2_out]

set_option backward.isDefEq.respectTransparency.types false in
theorem run_vals (ρ : Dev nD → PrngReg) : θ_run defs (onTc (τ := τ) (main (F := F))) ⟨m, fun _ => 0, ρ⟩ (fun r => ∀ c : Dev nD,
      r.2.mem ((c.tc : Thread nD τ).loc main_v17) = X3 m c
      ∧ r.2.mem ((c.tc : Thread nD τ).loc main_v7) = X0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c main_v17 (by decide)).trans (by rw [V7_eq, U7_out]), (h c main_v7 (by decide)).trans (by rw [V7_eq, U7_v7]),
    (h c main_arg0 (by decide)).trans (V7_main_arg0 m _ c),
    (h c main_arg1 (by decide)).trans (V7_main_arg1 m _ c),
    (h c main_arg2 (by decide)).trans (V7_main_arg2 m _ c),
    (h c main_arg3 (by decide)).trans (V7_main_arg3 m _ c),
    (h c main_arg4 (by decide)).trans (V7_main_arg4 m _ c),
    (h c main_arg5 (by decide)).trans (V7_main_arg5 m _ c),
    (h c main_arg6 (by decide)).trans (V7_main_arg6 m _ c),
    (h c main_arg7 (by decide)).trans (V7_main_arg7 m _ c),
    (h c main_arg8 (by decide)).trans (V7_main_arg8 m _ c),
    (h c main_arg9 (by decide)).trans (V7_main_arg9 m _ c),
    (h c main_arg10 (by decide)).trans (V7_main_arg10 m _ c),
    (h c main_arg11 (by decide)).trans (V7_main_arg11 m _ c),
    (h c main_arg12 (by decide)).trans (V7_main_arg12 m _ c),
    (h c main_arg13 (by decide)).trans (V7_main_arg13 m _ c),
    (h c main_arg14 (by decide)).trans (V7_main_arg14 m _ c),
    (h c main_arg15 (by decide)).trans (V7_main_arg15 m _ c),
    (h c main_arg16 (by decide)).trans (V7_main_arg16 m _ c),
    (h c main_arg17 (by decide)).trans (V7_main_arg17 m _ c),
    (h c main_arg18 (by decide)).trans (V7_main_arg18 m _ c),
    (h c main_arg19 (by decide)).trans (V7_main_arg19 m _ c),
    (h c main_arg20 (by decide)).trans (V7_main_arg20 m _ c),
    (h c main_arg21 (by decide)).trans (V7_main_arg21 m _ c)⟩)
    (run_cond m emb₁ () 𝒱₀ L lv (fun _ _ => rfl) ρ (outs m) (pdats m) 0 (fun _ => iprop(emp))
      (initOf (Pipeline.cells cfgs cellOf_inj) (Pipeline.launchToks cfgs cellOf_inj))
      (hu₀ _)
      (fun _ c => R c)
      (Pipeline.initEach L lv fun c => by
        iintro ⟨⟨-, HO, -, Hp, -⟩, -⟩
        imodintro
        isplitl [Hp]; · iexists _; iexact Hp
        iexists ∅; iexact HO)
      (fun c => by iintro ⟨-, HO⟩; iexact HO)
      (reg0 m) (fun c => .rfl) (fun c => by rw [V2_eq]; exact .rfl)
      (reg1 m) (fun c => by rw [V3_eq]; exact .rfl) (fun c => by rw [V4_eq]; exact .rfl)
      (reg2 m) (fun c => by rw [V4_eq]; exact .rfl) (fun c => by rw [V5_eq]; exact .rfl)
      (reg3 m) (fun c => by rw [V6_eq]; exact .rfl) (fun c => by rw [V7_eq]; exact .rfl))

end Cert.KernelIdeal.Segs

end
-- ==== Proof.Spec.lean ====
import Idealize.ShloMosaic.PureOps.Ideal
import Idealize.ShloMosaic.Lib.ValueIdx

noncomputable section

namespace Cert.Spec

open Idealize.ShloMosaic

abbrev Mat (n k : ℕ) : Type := Fin n → Fin k → EReal

abbrev Row (n : ℕ) : Type := Fin n → EReal

def Mat.Fin' {n k : ℕ} (A : Mat n k) : Prop := ∀ i j, A i j ≠ ⊤ ∧ A i j ≠ ⊥
def Row.Fin' {n : ℕ} (b : Row n) : Prop := ∀ j, b j ≠ ⊤ ∧ b j ≠ ⊥

def mm {n k p : ℕ} (A : Mat n k) (B : Mat k p) : Mat n p := fun i j => ∑ l, A i l * B l j

def addRow {n p : ℕ} (A : Mat n p) (b : Row p) : Mat n p := fun i j => A i j + b j

def rowMax {n p : ℕ} (A : Mat n p) : Row n := fun i => Finset.univ.sup (A i)

def softmax {n p : ℕ} (A : Mat n p) : Mat n p := fun i j =>
  Ideal.div (Ideal.exp (A i j - rowMax A i)) (∑ l, Ideal.exp (A i l - rowMax A i))

def relu {n p : ℕ} (A : Mat n p) : Mat n p := fun i j => max (A i j) 0

def hcat3 {n : ℕ} (a b c : Mat n 64) : Mat n 192 := fun i l =>
  if h : l.val < 64 then a i ⟨l.val, h⟩
  else if h' : l.val < 128 then b i ⟨l.val - 64, by omega⟩
  else c i ⟨l.val - 128, by omega⟩

def zOf (A : Mat 4096 4096) (Wa : Mat 4096 64) (ba : Row 64) : Mat 4096 64 := addRow (mm A Wa) ba

def nz (A0 A1 A2 : Mat 4096 4096) (Wa1 Wa2 Wa3 : Mat 4096 64) (ba1 ba2 ba3 : Row 64) (Wagg : Mat 192 3) (bagg : Row 3) : Mat 4096 3 :=
  softmax (addRow (mm (hcat3 (zOf A0 Wa1 ba1) (zOf A1 Wa2 ba2) (zOf A2 Wa3 ba3)) Wagg) bagg)

def adj (A0 A1 A2 : Mat 4096 4096) (w : Mat 4096 3) : Mat 4096 4096 := fun i j =>
  A0 i j * w j 0 + A1 i j * w j 1 + A2 i j * w j 2

def hid (a : Mat 4096 4096) (x : Mat 4096 512) (W1 : Mat 512 128) (b1 : Row 128) : Mat 4096 128 :=
  relu (addRow (mm a (mm x W1)) b1)

def lin {n k p : ℕ} (h : Mat n k) (W : Mat k p) (b : Row p) : Mat n p := addRow (mm h W) b

def scores (a : Mat 4096 4096) (Q K : Mat 4096 128) : Mat 4096 4096 := fun i j => a i j * ∑ l, Q i l * K j l

def xt (a : Mat 4096 4096) (Q K Vh : Mat 4096 128) : Mat 4096 128 := relu (mm (softmax (scores a Q K)) Vh)

def out (a : Mat 4096 4096) (X : Mat 4096 128) (W2 : Mat 128 16) (b2 : Row 16) : Mat 4096 16 :=
  softmax (addRow (mm a (mm X W2)) b2)

structure Args where
  A0 : Mat 4096 4096
  A1 : Mat 4096 4096
  A2 : Mat 4096 4096
  x : Mat 4096 512
  Wa1 : Mat 4096 64
  ba1 : Row 64
  Wa2 : Mat 4096 64
  ba2 : Row 64
  Wa3 : Mat 4096 64
  ba3 : Row 64
  Wagg : Mat 192 3
  bagg : Row 3
  W1 : Mat 512 128
  b1 : Row 128
  Wq : Mat 128 128
  bq : Row 128
  Wk : Mat 128 128
  bk : Row 128
  Wv : Mat 128 128
  bv : Row 128
  W2 : Mat 128 16
  b2 : Row 16

structure Args.Fin' (p : Args) : Prop where
  A0 : p.A0.Fin'
  A1 : p.A1.Fin'
  A2 : p.A2.Fin'
  x : p.x.Fin'
  Wa1 : p.Wa1.Fin'
  ba1 : p.ba1.Fin'
  Wa2 : p.Wa2.Fin'
  ba2 : p.ba2.Fin'
  Wa3 : p.Wa3.Fin'
  ba3 : p.ba3.Fin'
  Wagg : p.Wagg.Fin'
  bagg : p.bagg.Fin'
  W1 : p.W1.Fin'
  b1 : p.b1.Fin'
  Wq : p.Wq.Fin'
  bq : p.bq.Fin'
  Wk : p.Wk.Fin'
  bk : p.bk.Fin'
  Wv : p.Wv.Fin'
  bv : p.bv.Fin'
  W2 : p.W2.Fin'
  b2 : p.b2.Fin'

namespace Args
variable (p : Args)
def nzV : Mat 4096 3 := nz p.A0 p.A1 p.A2 p.Wa1 p.Wa2 p.Wa3 p.ba1 p.ba2 p.ba3 p.Wagg p.bagg
def adjV : Mat 4096 4096 := adj p.A0 p.A1 p.A2 p.nzV
def hV : Mat 4096 128 := hid p.adjV p.x p.W1 p.b1
def qV : Mat 4096 128 := lin p.hV p.Wq p.bq
def kV : Mat 4096 128 := lin p.hV p.Wk p.bk
def vV : Mat 4096 128 := lin p.hV p.Wv p.bv
def xtV : Mat 4096 128 := xt p.adjV p.qV p.kV p.vV
def outV : Mat 4096 16 := out p.adjV p.xtV p.W2 p.b2
end Args

def toMat {n k : ℕ} {S : Shape} (hS : S.rank = 2) (v : S.Idx → EReal) (mk : Fin n → Fin k → S.Idx) : Mat n k := fun i j => v (mk i j)

end Cert.Spec

end
-- ==== Proof.KernelIdeal.ChainA.lean ====
import proofs.«406496_j14319420965162_3_alg».proof.Proof.Gen.KernelIdeal.Regions
import proofs.«406496_j14319420965162_3_alg».proof.Proof.Spec
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.ValueLayout
import Idealize.ShloMosaic.Lib.StackMember

noncomputable section

namespace Cert.KernelIdeal.Chain

open Cert.KernelIdeal Cert.KernelIdeal.Gen
open Idealize.ShloMosaic Idealize.ShloMosaic.TcCoe Idealize.ShloMosaic.ValueIdx Idealize.ShloMosaic.StableHlo

abbrev rd2 {n k : ℕ} (v : (⟨2, ![n, k]⟩ : Shape).Idx → EReal) : Spec.Mat n k := fun i j => v (ix2 i j)
abbrev rd1 {n : ℕ} (v : (⟨1, ![n]⟩ : Shape).Idx → EReal) : Spec.Row n := fun j => v (ix1 j)

-- a vector laid out as a one-row matrix has the vector's entries along that row
theorem row_of {n : ℕ} {v : (⟨2, ![1, n]⟩ : Shape).Idx → EReal} {x : (⟨1, ![n]⟩ : Shape).Idx → EReal}
    {h : (⟨1, ![n]⟩ : Shape).ShapeCasts ⟨2, ![1, n]⟩} (e : v = shapeCast ⟨2, ![1, n]⟩ x h) (j : Fin n) :
    rd2 v (0 : Fin 1) j = rd1 x j :=
  e ▸ shapeCast_a_1a_apply x h 0 j

variable (V : Valuation τ sig (Elt Ideal))

theorem h0_v0 (j : Fin 64) :
    rd2 (StableHlo.after hostOps0 V main_v0) (0 : Fin 1) j = rd1 (V main_arg5) j :=
  row_of (by after_results; rfl) j

theorem h0_v1 (j : Fin 64) :
    rd2 (StableHlo.after hostOps0 V main_v1) (0 : Fin 1) j = rd1 (V main_arg7) j :=
  row_of (by after_results; rfl) j

theorem h0_v2 (j : Fin 64) :
    rd2 (StableHlo.after hostOps0 V main_v2) (0 : Fin 1) j = rd1 (V main_arg9) j :=
  row_of (by after_results; rfl) j

theorem h0_v3 (j : Fin 3) :
    rd2 (StableHlo.after hostOps0 V main_v3) (0 : Fin 1) j = rd1 (V main_arg11) j :=
  row_of (by after_results; rfl) j

theorem h0_v4 (l : Fin 64) (k : Fin 3) :
    rd2 (StableHlo.after hostOps0 V main_v4) l k = rd2 (V main_arg10) (⟨l.val, by omega⟩ : Fin 192) k := by
  show (StableHlo.after hostOps0 V main_v4 : S64x3.Idx → EReal) (ix2 l k) = _
  after_results
  exact slice2_axis0_apply 0 _ _ l k _ (Nat.zero_add _).symm

theorem h0_v5 (l : Fin 64) (k : Fin 3) :
    rd2 (StableHlo.after hostOps0 V main_v5) l k = rd2 (V main_arg10) (⟨l.val + 64, by omega⟩ : Fin 192) k := by
  show (StableHlo.after hostOps0 V main_v5 : S64x3.Idx → EReal) (ix2 l k) = _
  after_results
  exact slice2_axis0_apply 64 _ _ l k _ (Nat.add_comm _ _)

theorem h0_v6 (l : Fin 64) (k : Fin 3) :
    rd2 (StableHlo.after hostOps0 V main_v6) l k = rd2 (V main_arg10) (⟨l.val + 128, by omega⟩ : Fin 192) k := by
  show (StableHlo.after hostOps0 V main_v6 : S64x3.Idx → EReal) (ix2 l k) = _
  after_results
  exact slice2_axis0_apply 128 _ _ l k _ (Nat.add_comm _ _)

theorem h0_of (r : Ref sig .tc) (h : r ∉ hostOps0_W) : StableHlo.after hostOps0 V r = V r :=
  StableHlo.after_of_writes_sub hostOps0 _ hostOps0_writes h

theorem h1_v8 (k : Fin 3) (j : Fin 4096) :
    rd2 (StableHlo.after hostOps1 V main_v8) k j = rd2 (V main_v7) j k := by
  show (StableHlo.after hostOps1 V main_v8 : S3x4096.Idx → EReal) (ix2 k j) = _
  after_results
  exact transpose_ix2_apply _ _ k j

theorem h1_v9 (j : Fin 128) :
    rd2 (StableHlo.after hostOps1 V main_v9) (0 : Fin 1) j = rd1 (V main_arg13) j :=
  row_of (by after_results; rfl) j

theorem h1_v10 (j : Fin 128) :
    rd2 (StableHlo.after hostOps1 V main_v10) (0 : Fin 1) j = rd1 (V main_arg15) j :=
  row_of (by after_results; rfl) j

theorem h1_v11 (j : Fin 128) :
    rd2 (StableHlo.after hostOps1 V main_v11) (0 : Fin 1) j = rd1 (V main_arg17) j :=
  row_of (by after_results; rfl) j

theorem h1_v12 (j : Fin 128) :
    rd2 (StableHlo.after hostOps1 V main_v12) (0 : Fin 1) j = rd1 (V main_arg19) j :=
  row_of (by after_results; rfl) j

theorem h1_of (r : Ref sig .tc) (h : r ∉ hostOps1_W) : StableHlo.after hostOps1 V r = V r :=
  StableHlo.after_of_writes_sub hostOps1 _ hostOps1_writes h

-- the contraction runs over the left factor's columns and the right factor's rows
theorem h3_v15 (i : Fin 4096) (k : Fin 16) :
    rd2 (StableHlo.after hostOps3 V main_v15) i k = ∑ l : Fin 128, rd2 (V main_v14) i l * rd2 (V main_arg20) l k := by
  show (StableHlo.after hostOps3 V main_v15 : S4096x16.Idx → EReal) (ix2 i k) = _
  after_results
  exact StackMember.dotGeneral_plain_apply (m := 4096) (k := 128) (n := 16) (φ₁ := .f32) (φ₂ := .f32) _ _ _ i k

theorem h3_v16 (j : Fin 16) :
    rd2 (StableHlo.after hostOps3 V main_v16) (0 : Fin 1) j = rd1 (V main_arg21) j :=
  row_of (by after_results; rfl) j

theorem h3_of (r : Ref sig .tc) (h : r ∉ hostOps3_W) : StableHlo.after hostOps3 V r = V r :=
  StableHlo.after_of_writes_sub hostOps3 _ hostOps3_writes h

end Cert.KernelIdeal.Chain

end
-- ==== Proof.Finite.lean ====
import proofs.«406496_j14319420965162_3_alg».proof.Defs
import proofs.«406496_j14319420965162_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.SL.Sem Cert.Pre_finite_inputs

instance : Subsingleton S_.Idx := ⟨fun a b => funext fun d => d.elim0⟩

/-- `|x| < +∞` only at a real `x`. -/
theorem real_of_abs_lt_inf (x : EReal) (h : Ideal.cmp .olt (max x (-x)) (Ideal.ofBits .f32 0x7F800000#32) = 1#1) :
    x ≠ ⊤ ∧ x ≠ ⊥ := by
  induction x using EReal.rec with
  | coe r => exact ⟨EReal.coe_ne_top r, EReal.coe_ne_bot r⟩
  | _ => simp [Ideal.cmp, Ideal.ofBits, Ideal.ieee] at h

abbrev AllReal {S : Shape} (x : FVec Ideal S .f32) : Prop := ∀ i, x i ≠ ⊤ ∧ x i ≠ ⊥

/-- If "|x i| < +∞" holds at every index at once, every entry of `x` is real. -/
theorem conj_finite {S : Shape} {axes : List (Fin S.rank)} {hr : S.ReducesTo axes S_} {hb hu} {x : FVec Ideal S .f32}
    {init : IVec S_ 1} {j}
    (e : Host.reduce IntOp.andi (cmpf .olt (Host.absf x) (broadcastInDim S ![] hb (constant S_ .f32 0x7F800000#32))) init hr hu j = 1#1) :
    AllReal x :=
  fun i => real_of_abs_lt_inf _ (Host.reduce_andi_all _ init hr hu j e i)

/-- The precondition is the conjunction of that statement over the 22 arrays. -/
theorem fn_finite {a0 a1 a2 a3 a4 a5 a6 a7 a8 a9 a10 a11 a12 a13 a14 a15 a16 a17 a18 a19 a20 a21}
    (h : fn (F := Ideal) a0 a1 a2 a3 a4 a5 a6 a7 a8 a9 a10 a11 a12 a13 a14 a15 a16 a17 a18 a19 a20 a21 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 := by
  have h0 := congrFun h ValueIdx.ix0
  dsimp only [fn, fn_part1, fn_part2, fn_part3, fn_part4, fn_part5, fn_part6, andi] at h0
  simp only [IntOp.andi_eq_one, and_assoc] at h0
  iterate 21
    obtain ⟨e, h0⟩ := h0
    refine ⟨conj_finite e, ?_⟩
  exact conj_finite h0

end Cert.Finite

end
-- ==== Proof.KernelIdeal.ArgsK.lean ====
import proofs.«406496_j14319420965162_3_alg».proof.KernelIdeal
import proofs.«406496_j14319420965162_3_alg».proof.Proof.Spec
import proofs.«406496_j14319420965162_3_alg».proof.Proof.Finite
import Idealize.ShloMosaic.Lib.ValueIdx

noncomputable section

namespace Cert.KernelIdeal.Chain

open Cert.KernelIdeal Idealize.ShloMosaic Idealize.ShloMosaic.TcCoe Idealize.ShloMosaic.ValueIdx Idealize.SL.Sem

variable (m : (ℓ : Loc nD τ sig) → Buf (Elt Ideal) ℓ)

def argsK (c : Dev nD) : Spec.Args where
  A0 := fun i j => m ((c.tc : Thread nD τ).loc main_arg0) (ix2 i j)
  A1 := fun i j => m ((c.tc : Thread nD τ).loc main_arg1) (ix2 i j)
  A2 := fun i j => m ((c.tc : Thread nD τ).loc main_arg2) (ix2 i j)
  x := fun i j => m ((c.tc : Thread nD τ).loc main_arg3) (ix2 i j)
  Wa1 := fun i j => m ((c.tc : Thread nD τ).loc main_arg4) (ix2 i j)
  ba1 := fun j => m ((c.tc : Thread nD τ).loc main_arg5) (ix1 j)
  Wa2 := fun i j => m ((c.tc : Thread nD τ).loc main_arg6) (ix2 i j)
  ba2 := fun j => m ((c.tc : Thread nD τ).loc main_arg7) (ix1 j)
  Wa3 := fun i j => m ((c.tc : Thread nD τ).loc main_arg8) (ix2 i j)
  ba3 := fun j => m ((c.tc : Thread nD τ).loc main_arg9) (ix1 j)
  Wagg := fun i j => m ((c.tc : Thread nD τ).loc main_arg10) (ix2 i j)
  bagg := fun j => m ((c.tc : Thread nD τ).loc main_arg11) (ix1 j)
  W1 := fun i j => m ((c.tc : Thread nD τ).loc main_arg12) (ix2 i j)
  b1 := fun j => m ((c.tc : Thread nD τ).loc main_arg13) (ix1 j)
  Wq := fun i j => m ((c.tc : Thread nD τ).loc main_arg14) (ix2 i j)
  bq := fun j => m ((c.tc : Thread nD τ).loc main_arg15) (ix1 j)
  Wk := fun i j => m ((c.tc : Thread nD τ).loc main_arg16) (ix2 i j)
  bk := fun j => m ((c.tc : Thread nD τ).loc main_arg17) (ix1 j)
  Wv := fun i j => m ((c.tc : Thread nD τ).loc main_arg18) (ix2 i j)
  bv := fun j => m ((c.tc : Thread nD τ).loc main_arg19) (ix1 j)
  W2 := fun i j => m ((c.tc : Thread nD τ).loc main_arg20) (ix2 i j)
  b2 := fun j => m ((c.tc : Thread nD τ).loc main_arg21) (ix1 j)

theorem argsK_fin (h : Cert.Pre_KernelIdeal m) (c : Dev nD) : (argsK m c).Fin' := by
  obtain ⟨h0, h1, h2, h3, h4, h5, h6, h7, h8, h9, h10, h11, h12, h13, h14, h15, h16, h17, h18, h19, h20, h21⟩ := Cert.Finite.fn_finite (h c)
  exact ⟨fun _ _ => h0 _, fun _ _ => h1 _, fun _ _ => h2 _, fun _ _ => h3 _, fun _ _ => h4 _, fun _ => h5 _, fun _ _ => h6 _, fun _ => h7 _, fun _ _ => h8 _, fun _ => h9 _, fun _ _ => h10 _, fun _ => h11 _, fun _ _ => h12 _, fun _ => h13 _, fun _ _ => h14 _, fun _ => h15 _, fun _ _ => h16 _, fun _ => h17 _, fun _ _ => h18 _, fun _ => h19 _, fun _ _ => h20 _, fun _ => h21 _⟩

end Cert.KernelIdeal.Chain

end
-- ==== Proof.KernelIdeal.ChainB.lean ====
import proofs.«406496_j14319420965162_3_alg».proof.Proof.KernelIdeal.Segs
import proofs.«406496_j14319420965162_3_alg».proof.Proof.KernelIdeal.ChainA
import proofs.«406496_j14319420965162_3_alg».proof.Proof.KernelIdeal.ArgsK
import proofs.«406496_j14319420965162_3_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem U1_of (r : Ref sig .tc) (h0 : r ∉ hostOps0_W) : U1 m c r = m ((c.tc : Thread nD τ).loc r) :=
  (h0_of (V0 m c) r h0).trans rfl
theorem U2_of (r : Ref sig .tc) (h0 : r ∉ hostOps0_W) (h7 : r ≠ main_v7) : U2 m c r = m ((c.tc : Thread nD τ).loc r) := by
  unfold U2
  rw [Function.update_of_ne (StableHlo.devRef_ne_of_ne h7)]
  exact U1_of m c r h0
theorem U3_of (r : Ref sig .tc) (h0 : r ∉ hostOps0_W) (h7 : r ≠ main_v7) (h1 : r ∉ hostOps1_W) : U3 m c r = m ((c.tc : Thread nD τ).loc r) :=
  (h1_of (U2 m c) r h1).trans (U2_of m c r h0 h7)
theorem U5_of_arg (r : Ref sig .tc) (h0 : r ∉ hostOps0_W) (h7 : r ≠ main_v7) (h1 : r ∉ hostOps1_W)
    (h130 : r ≠ main_v13_0) (h131 : r ≠ main_v13_1) (h132 : r ≠ main_v13_2) (h133 : r ≠ main_v13_3) (h14 : r ≠ main_v14) : U5 m c r = m ((c.tc : Thread nD τ).loc r) := by
  unfold U5
  rw [Function.update_of_ne (StableHlo.devRef_ne_of_ne h14)]
  exact (U4_of m c r h130 h131 h132 h133).trans (U3_of m c r h0 h7 h1)

theorem U3_v8 (k : Fin 3) (j : Fin 4096) : rd2 (U3 m c main_v8) k j = rd2 (X0 m c) j k := by
  refine (h1_v8 (U2 m c) k j).trans ?_
  rw [U2_out]
theorem U3_v9 (j : Fin 128) : rd2 (U3 m c main_v9) (0 : Fin 1) j = (argsK m c).b1 j := by
  refine (h1_v9 (U2 m c) j).trans ?_
  rw [U2_of m c main_arg13 (by decide) (by decide)]; rfl
theorem U3_v10 (j : Fin 128) : rd2 (U3 m c main_v10) (0 : Fin 1) j = (argsK m c).bq j := by
  refine (h1_v10 (U2 m c) j).trans ?_
  rw [U2_of m c main_arg15 (by decide) (by decide)]; rfl
theorem U3_v11 (j : Fin 128) : rd2 (U3 m c main_v11) (0 : Fin 1) j = (argsK m c).bk j := by
  refine (h1_v11 (U2 m c) j).trans ?_
  rw [U2_of m c main_arg17 (by decide) (by decide)]; rfl
theorem U3_v12 (j : Fin 128) : rd2 (U3 m c main_v12) (0 : Fin 1) j = (argsK m c).bv j := by
  refine (h1_v12 (U2 m c) j).trans ?_
  rw [U2_of m c main_arg19 (by decide) (by decide)]; rfl

theorem U6_v13_0 : U6 m c main_v13_0 = X1_0 m c := by
  refine (h3_of (U5 m c) main_v13_0 (by decide)).trans ?_
  unfold U5
  rw [Function.update_of_ne (StableHlo.devRef_ne_of_ne (by decide))]
  exact U4_0 m c
theorem U6_v15 (i : Fin 4096) (k : Fin 16) : rd2 (U6 m c main_v15) i k = ∑ l : Fin 128, rd2 (X2 m c) i l * (argsK m c).W2 l k := by
  refine (h3_v15 (U5 m c) i k).trans ?_
  rw [U5_out, U5_of_arg m c main_arg20 (by decide) (by decide) (by decide) (by decide) (by decide) (by decide) (by decide) (by decide)]; rfl
theorem U6_v16 (k : Fin 16) : rd2 (U6 m c main_v16) (0 : Fin 1) k = (argsK m c).b2 k := by
  refine (h3_v16 (U5 m c) k).trans ?_
  rw [U5_of_arg m c main_arg21 (by decide) (by decide) (by decide) (by decide) (by decide) (by decide) (by decide) (by decide)]; rfl

end Cert.KernelIdeal.Chain

end
-- ==== Proof.KernelIdeal.V3.lean ====
import proofs.«406496_j14319420965162_3_alg».proof.Proof.Gen.KernelIdeal.Skeleton
import proofs.«406496_j14319420965162_3_alg».proof.Proof.Spec
import Idealize.ShloMosaic.Lib.ValueLayout
import Idealize.ShloMosaic.PureOps.Ideal.Laws

noncomputable section

namespace Cert.KernelIdeal.V3

open Cert.KernelIdeal Cert.KernelIdeal.Gen
open Idealize.ShloMosaic Idealize.ShloMosaic.ValueIdx

/-- A vector as a column, repeated along the second axis, holds entry i all along row i. -/
theorem column_apply {α : Type} {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  refine (broadcastTo_apply _ hb (ix2 i j) (ix2 i (0 : Fin 1)) fun ax => ?_).trans (shapeCast_apply x hc _ _ ?_)
  · match ax with
    | ⟨0, _⟩ =>
      show i.val = if a = 1 then 0 else i.val
      split
      · have := i.isLt; omega
      · rfl
    | ⟨1, _⟩ => rfl
  · rw [Shape.rowMajor_val_two, Shape.rowMajor_val_one]
    show i.val = i.val * 1 + 0
    omega

theorem ofBits_neg_inf_f32 : Ideal.ofBits .f32 0xFF800000#32 = ⊥ := by
  simp [Ideal.ofBits, Ideal.ieee]

theorem lift_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

section Lanes
variable {a b : ℕ} (src : FVec Ideal ⟨2, ![a, b]⟩ .f32) (h : (⟨2, ![a, b]⟩ : Shape).Reduces [1] ⟨1, ![a]⟩) (hφ : FKind.Formats .f32)

theorem laneSum_apply (hacc : (0x00000000#32 : BitVec 32) = 0x00000000#32) (p : Fin a) :
    multiReduction (F := Ideal) .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_ix1 h p k))

theorem laneMax_apply (hacc : (0xFF800000#32 : BitVec 32) = 0xFF800000#32) (p : Fin a) :
    multiReduction (F := Ideal) .maximumf [1] ⟨1, ![a]⟩ src 0xFF800000#32 h hφ hacc (ix1 p)
      = Finset.univ.sup (fun k : Fin b => (src (ix2 p k) : EReal)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32, show (src ∘ h.lift (ix1 p)) = fun k : Fin b => src (ix2 p k) from funext fun k => congrArg src (lift_ix1 h p k)]
  rfl

end Lanes

/-- With m the rows' maxima, exp (z - m) divided by its row sums is the row softmax of z. -/
theorem softmax_tail_apply {a b : ℕ} (z : FVec Ideal ⟨2, ![a, b]⟩ .f32) (m : FVec Ideal ⟨1, ![a]⟩ .f32) (Z : Spec.Mat a b)
    (hz : ∀ i j, z (ix2 i j) = Z i j) (hm : ∀ i : Fin a, m (ix1 i) = Finset.univ.sup (fun k : Fin b => (z (ix2 i k) : EReal)))
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hacc : (0x00000000#32 : BitVec 32) = 0x00000000#32) (p : Fin a) (q : Fin b) :
    divf (exp (subf z (broadcastTo ⟨2, ![a, b]⟩ (shapeCast ⟨2, ![a, 1]⟩ m hc) hb)))
        (broadcastTo ⟨2, ![a, b]⟩ (shapeCast ⟨2, ![a, 1]⟩
          (multiReduction (F := Ideal) .add [1] ⟨1, ![a]⟩ (exp (subf z (broadcastTo ⟨2, ![a, b]⟩ (shapeCast ⟨2, ![a, 1]⟩ m hc) hb)))
            0x00000000#32 hr hφ hacc) hc) hb) (ix2 p q)
      = Spec.softmax Z p q := by
  obtain rfl : (fun i j => z (ix2 i j)) = Z := funext₂ hz
  have he : ∀ (i : Fin a) (j : Fin b), exp (subf z (broadcastTo ⟨2, ![a, b]⟩ (shapeCast ⟨2, ![a, 1]⟩ m hc) hb)) (ix2 i j)
      = Ideal.exp (z (ix2 i j) - Finset.univ.sup (fun k : Fin b => (z (ix2 i k) : EReal))) := fun i j => by
    show Ideal.exp (z (ix2 i j) - broadcastTo ⟨2, ![a, b]⟩ (shapeCast ⟨2, ![a, 1]⟩ m hc) hb (ix2 i j)) = _
    rw [column_apply m hc hb i j, hm i]
  show Ideal.div (exp (subf z (broadcastTo ⟨2, ![a, b]⟩ (shapeCast ⟨2, ![a, 1]⟩ m hc) hb)) (ix2 p q))
      (broadcastTo ⟨2, ![a, b]⟩ (shapeCast ⟨2, ![a, 1]⟩ _ hc) hb (ix2 p q)) = _
  rw [column_apply _ hc hb p q, laneSum_apply _ hr hφ hacc p, he p q]
  unfold Spec.softmax Spec.rowMax
  exact congrArg _ (Finset.sum_congr rfl fun l _ => he p l)

/-- Entry (p, q) of a rank-2 product started from zero is ∑ k, x p k * y k q. -/
theorem mm_apply {m K n : ℕ} (d : DotDims ⟨2, ![m, K]⟩ ⟨2, ![K, n]⟩ ⟨2, ![m, n]⟩) (hd : d = DotDims.plain m K n)
    (x : FVec Ideal ⟨2, ![m, K]⟩ .f32) (y : FVec Ideal ⟨2, ![K, n]⟩ .f32) (p : Fin m) (q : Fin n) :
    matmul d (some .fp32) x y (constant (F := Ideal) ⟨2, ![m, n]⟩ .f32 0x00000000#32) (ix2 p q)
      = ∑ k : Fin K, x (ix2 p k) * y (ix2 k q) := by
  subst hd
  simp only [matmul]
  rw [Ideal.matmul_constant_zero_apply, ← Equiv.sum_comp (contrEquiv1 (DotDims.plain m K n) K rfl rfl).symm]
  refine Finset.sum_congr rfl fun k _ => ?_
  congr 2 <;> exact funext fun a => Fin.ext (by match a with | ⟨0, _⟩ => rfl | ⟨1, _⟩ => rfl)

def matOf {n k : ℕ} (v : FVec Ideal ⟨2, ![n, k]⟩ .f32) : Spec.Mat n k := fun i j => v (ix2 i j)
def rowOf {k : ℕ} (v : FVec Ideal ⟨2, ![1, k]⟩ .f32) : Spec.Row k := fun j => v (ix2 (0 : Fin 1) j)

section Payload
variable (v0 : FVec Ideal S512x4096 .f32) (v2 : FVec Ideal S4096x16 .f32) (v5 : FVec Ideal S1x16 .f32)

def logits3 : FVec Ideal S512x16 .f32 :=
  addf (matmul dot_S512x4096_S4096x16_S512x16_1_0_0_1_n_n (some .fp32) (shapeCast S512x4096 v0 shapeCasts_S512x4096_S512x4096)
      (shapeCast S4096x16 v2 shapeCasts_S4096x16_S4096x16) (constant (F := Ideal) S512x16 .f32 0x00000000#32))
    (broadcastTo S512x16 (shapeCast S1x16 v5 shapeCasts_S1x16_S1x16) broadcasts_S1x16_S512x16)

/-- A row's maximum joined with ⊥ is still that row's maximum, so the value is the row softmax of the logits. -/
theorem k3_pay1_apply (p : Fin 512) (q : Fin 16) :
    k3_pay1 (F := Ideal) v0 v2 v5 (ix2 p q) = Spec.softmax (Spec.addRow (Spec.mm (matOf v0) (matOf v2)) (rowOf v5)) p q :=
  softmax_tail_apply (logits3 v0 v2 v5)
    (maximumf (broadcast S512 (Scalar.ofBits (F := Ideal) .f32 0xFF800000#32))
      (multiReduction (F := Ideal) .maximumf [1] S512 (logits3 v0 v2 v5) 0xFF800000#32 reduces_S512x16_S512 (.inl rfl) rfl)) _
    (fun p q => by
      unfold logits3
      rw [shapeCast_self, shapeCast_self, shapeCast_self]
      show matmul _ _ _ _ _ (ix2 p q) + broadcastTo S512x16 v5 broadcasts_S1x16_S512x16 (ix2 p q) = _
      rw [mm_apply dot_S512x4096_S4096x16_S512x16_1_0_0_1_n_n rfl, broadcastTo_1b_ab_apply]
      rfl)
    (fun i => by
      show max (Ideal.ofBits .f32 0xFF800000#32) (multiReduction (F := Ideal) .maximumf [1] S512 (logits3 v0 v2 v5) 0xFF800000#32 reduces_S512x16_S512 (.inl rfl) rfl (ix1 i)) = _
      rw [ofBits_neg_inf_f32, laneMax_apply _ reduces_S512x16_S512 (.inl rfl) rfl i]
      exact max_eq_right bot_le)
    reduces_S512x16_S512 shapeCasts_S512_S512x1 broadcasts_S512x1_S512x16 (.inl rfl) rfl p q

end Payload

end Cert.KernelIdeal.V3

end
-- ==== Proof.KernelIdeal.V0.lean ====
import proofs.«406496_j14319420965162_3_alg».proof.Proof.KernelIdeal.V3

noncomputable section

namespace Cert.KernelIdeal.V0

open Cert.KernelIdeal Cert.KernelIdeal.Gen Cert.KernelIdeal.V3
open Idealize.ShloMosaic Idealize.ShloMosaic.ValueIdx

theorem matOf_pay2 (v0 : FVec Ideal S512x4096 .f32) (v1 : FVec Ideal S4096x64 .f32) (v3 : FVec Ideal S1x64 .f32) :
    matOf (k0_pay2 (F := Ideal) v0 v1 v3) = Spec.addRow (Spec.mm (matOf v0) (matOf v1)) (rowOf v3) :=
  funext₂ fun p q => by
    show matmul _ _ _ _ _ (ix2 p q) + broadcastTo S512x64 (shapeCast S1x64 v3 shapeCasts_S1x64_S1x64) broadcasts_S1x64_S512x64 (ix2 p q) = _
    rw [shapeCast_self, mm_apply dot_S512x4096_S4096x64_S512x64_1_0_0_1_n_n rfl, broadcastTo_1b_ab_apply]
    rfl

theorem matOf_pay3 (v0 : FVec Ideal S512x4096 .f32) (v1 : FVec Ideal S4096x64 .f32) (v3 : FVec Ideal S1x64 .f32)
    (v7 : FVec Ideal S512x4096 .f32) (v8 : FVec Ideal S4096x64 .f32) (v10 : FVec Ideal S1x64 .f32)
    (v21 : FVec Ideal S64x3 .f32) (v24 : FVec Ideal S64x3 .f32) :
    matOf (k0_pay3 (F := Ideal) v0 v1 v3 v7 v8 v10 v21 v24)
      = fun p q => Spec.mm (Spec.addRow (Spec.mm (matOf v0) (matOf v1)) (rowOf v3)) (matOf v21) p q
        + Spec.mm (Spec.addRow (Spec.mm (matOf v7) (matOf v8)) (rowOf v10)) (matOf v24) p q :=
  funext₂ fun p q => by
    show matmul _ _ (k0_pay2 (F := Ideal) v0 v1 v3) _ _ (ix2 p q) + matmul _ _ (k0_pay2 (F := Ideal) v7 v8 v10) _ _ (ix2 p q) = _
    rw [shapeCast_self, shapeCast_self, mm_apply dot_S512x64_S64x3_S512x3_1_0_0_1_n_n rfl, mm_apply dot_S512x64_S64x3_S512x3_1_0_0_1_n_n rfl, ← matOf_pay2, ← matOf_pay2]
    rfl

theorem k0_pay4_eq (v28 : FVec Ideal S64x3 .f32) : k0_pay4 (F := Ideal) v28 = v28 :=
  shapeCast_self v28 shapeCasts_S64x3_S64x3

section Logits
variable (v20 : FVec Ideal S512x64 .f32) (v27 : FVec Ideal S512x3 .f32) (v29 : FVec Ideal S64x3 .f32) (v32 : FVec Ideal S1x3 .f32)

def logits0 : FVec Ideal S512x3 .f32 :=
  addf (addf v27 (matmul dot_S512x64_S64x3_S512x3_1_0_0_1_n_n (some .fp32) v20 v29 (constant (F := Ideal) S512x3 .f32 0x00000000#32)))
    (broadcastTo S512x3 (shapeCast S1x3 v32 shapeCasts_S1x3_S1x3) broadcasts_S1x3_S512x3)

theorem k0_pay1_apply (p : Fin 512) (q : Fin 3) :
    k0_pay1 (F := Ideal) v20 v27 v29 v32 (ix2 p q)
      = Spec.softmax (Spec.addRow (fun i j => matOf v27 i j + Spec.mm (matOf v20) (matOf v29) i j) (rowOf v32)) p q :=
  softmax_tail_apply (logits0 v20 v27 v29 v32)
    (multiReduction (F := Ideal) .maximumf [1] S512 (logits0 v20 v27 v29 v32) 0xFF800000#32 reduces_S512x3_S512 (.inl rfl) rfl) _
    (fun p q => by
      unfold logits0
      rw [shapeCast_self]
      show (v27 (ix2 p q) + matmul _ _ _ _ _ (ix2 p q)) + broadcastTo S512x3 v32 broadcasts_S1x3_S512x3 (ix2 p q) = _
      rw [mm_apply dot_S512x64_S64x3_S512x3_1_0_0_1_n_n rfl, broadcastTo_1b_ab_apply]
      rfl)
    (fun i => laneMax_apply (logits0 v20 v27 v29 v32) reduces_S512x3_S512 (.inl rfl) rfl i)
    reduces_S512x3_S512 shapeCasts_S512_S512x1 broadcasts_S512x1_S512x3 (.inl rfl) rfl p q

end Logits

/-- With zK = TK * WK + bK: ((z1 * g1 + z2 * g2) + z3 * g3) + bg, for any number of rows. -/
def agg {n : ℕ} (T1 T2 T3 : Spec.Mat n 4096) (W1 W2 W3 : Spec.Mat 4096 64) (b1 b2 b3 : Spec.Row 64)
    (g1 g2 g3 : Spec.Mat 64 3) (bg : Spec.Row 3) : Spec.Mat n 3 :=
  Spec.addRow (fun i j => (Spec.mm (Spec.addRow (Spec.mm T1 W1) b1) g1 i j + Spec.mm (Spec.addRow (Spec.mm T2 W2) b2) g2 i j)
    + Spec.mm (Spec.addRow (Spec.mm T3 W3) b3) g3 i j) bg

theorem agg_row_congr {n n' : ℕ} (T1 T2 T3 : Spec.Mat n 4096) (T1' T2' T3' : Spec.Mat n' 4096) (W1 W2 W3 : Spec.Mat 4096 64)
    (b1 b2 b3 : Spec.Row 64) (g1 g2 g3 : Spec.Mat 64 3) (bg : Spec.Row 3) (i : Fin n) (i' : Fin n')
    (h1 : T1 i = T1' i') (h2 : T2 i = T2' i') (h3 : T3 i = T3' i') :
    agg T1 T2 T3 W1 W2 W3 b1 b2 b3 g1 g2 g3 bg i = agg T1' T2' T3' W1 W2 W3 b1 b2 b3 g1 g2 g3 bg i' := by
  funext j
  unfold agg Spec.addRow Spec.mm
  beta_reduce
  rw [h1, h2, h3]

theorem result_apply (x0 x1 x2 : FVec Ideal S512x4096 .f32) (x3 x4 x5 : FVec Ideal S4096x64 .f32) (x6 x7 x8 : FVec Ideal S1x64 .f32)
    (x9 x10 x11 : FVec Ideal S64x3 .f32) (x12 : FVec Ideal S1x3 .f32) (p : Fin 512) (q : Fin 3) :
    k0_pay1 (F := Ideal) (k0_pay2 x2 x5 x8) (k0_pay3 x0 x3 x6 x1 x4 x7 x9 x10) (k0_pay4 x11) x12 (ix2 p q)
      = Spec.softmax (agg (matOf x0) (matOf x1) (matOf x2) (matOf x3) (matOf x4) (matOf x5) (rowOf x6) (rowOf x7) (rowOf x8)
          (matOf x9) (matOf x10) (matOf x11) (rowOf x12)) p q := by
  rw [k0_pay1_apply, k0_pay4_eq, matOf_pay2, matOf_pay3]
  rfl

end Cert.KernelIdeal.V0

end
-- ==== Proof.KernelIdeal.V3b.lean ====
import proofs.«406496_j14319420965162_3_alg».proof.Proof.KernelIdeal.R3
import proofs.«406496_j14319420965162_3_alg».proof.Proof.KernelIdeal.V3
import Idealize.ShloMosaic.Lib.Decide

noncomputable section

namespace Cert.KernelIdeal.V3b

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

noncomputable def A (c : Dev nD) : Spec.Mat 4096 4096 := fun i l => (V c (Pipeline.arrRef spec3 0) : S4096x4096.Idx → EReal) (ix2 i l)
noncomputable def B (c : Dev nD) : Spec.Mat 4096 16 := fun l k => (V c (Pipeline.arrRef spec3 1) : S4096x16.Idx → EReal) (ix2 l k)
noncomputable def b (c : Dev nD) : Spec.Row 16 := fun k => (V c (Pipeline.arrRef spec3 2) : S1x16.Idx → EReal) (ix2 (0 : Fin 1) k)

noncomputable def G (c : Dev nD) : S4096x16.Idx → EReal := fun i =>
  Spec.softmax (Spec.addRow (Spec.mm (A V c) (B V c)) (b V c)) ⟨(i 0).val, idx2_lt0 i⟩ ⟨(i 1).val, idx2_lt1 i⟩

/-- Only row i of M enters the softmax at (i, j). -/
theorem softmax_row_congr {n n' k : ℕ} (M : Spec.Mat n k) (M' : Spec.Mat n' k) (i : Fin n) (i' : Fin n') (h : M i = M' i') (j : Fin k) :
    Spec.softmax M i j = Spec.softmax M' i' j := by
  unfold Spec.softmax Spec.rowMax
  rw [h]

theorem zero_offsets : (![0, 0] : Fin 2 → Nat) = fun _ => 0 := funext fun a => by fin_cases a <;> rfl

/-- Contents read at indices whose coordinates agree are the same. -/
theorem read_all {S : Shape} {α : Type} (X : S.Idx → α) {i j : S.Idx} (h : ∀ a, (i a).val = (j a).val) : X i = X j :=
  congrArg X (funext fun a => Fin.ext (h a))

theorem read_eq {n k : ℕ} {α : Type} (X : (⟨2, ![n, k]⟩ : Shape).Idx → α) {i j : (⟨2, ![n, k]⟩ : Shape).Idx}
    (h0 : (i 0).val = (j 0).val) (h1 : (i 1).val = (j 1).val) : X i = X j :=
  read_all X fun a => by match a with | ⟨0, _⟩ => exact h0 | ⟨1, _⟩ => exact h1

theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Point
variable (c : Dev nD) (t : Fin cfg3.N)

theorem tile_eq (p : Fin 512) (l : Fin 4096) (hp : t.val * 512 + p.val < 4096) :
    V3.matOf (n := 512) (k := 4096) (R3.iblk V c 0 t) p l = A V c ⟨t.val * 512 + p.val, hp⟩ l := by
  obtain ⟨e0, e1, -⟩ := index_facts t
  exact read_eq (V c (Pipeline.arrRef spec3 0)) (by show win3_0.index t 0 * 512 + 1 * p.val = t.val * 512 + p.val; omega) (by show win3_0.index t 1 * 4096 + 1 * l.val = l.val; omega)

theorem factor_eq : V3.matOf (n := 4096) (k := 16) (R3.iblk V c 1 t) = B V c := by
  obtain ⟨-, -, e2, e3, -⟩ := index_facts t
  exact funext₂ fun l k => read_eq (V c (Pipeline.arrRef spec3 1)) (by show win3_1.index t 0 * 4096 + 1 * l.val = l.val; omega) (by show win3_1.index t 1 * 16 + 1 * k.val = k.val; omega)

theorem bias_eq : V3.rowOf (k := 16) (R3.iblk V c 2 t) = b V c := by
  obtain ⟨-, -, -, -, e4, e5, -⟩ := index_facts t
  exact funext fun k => read_eq (V c (Pipeline.arrRef spec3 2)) (by show win3_2.index t 0 * 1 + 1 * 0 = 0; omega) (by show win3_2.index t 1 * 16 + 1 * k.val = k.val; omega)

theorem flushed_eq :
    (R3.dat V c).flushed 3 t = ((cfg3.win 3).blk t).view.read (Elt Ideal) (G V c) := by
  show (cfg3.win 3).cut (grid3.coords t) ((R3.dat V c).after 3 t) = _
  rw [R3.after_3]
  unfold R3.out3
  rw [View.canon_unit_zero zero_offsets]
  simp only [View.ld_unit_zero (S := S512x4096) zero_offsets, View.ld_unit_zero (S := S4096x16) zero_offsets,
    View.ld_unit_zero (S := S1x16) zero_offsets]
  refine funext fun (j : S512x16.Idx) => ?_
  obtain ⟨p, q, rfl⟩ : ∃ p q, j = ix2 p q := ⟨j 0, j 1, eq_ix2 j⟩
  obtain ⟨-, -, -, -, -, -, e6, e7⟩ := index_facts t
  have hp : t.val * 512 + p.val < 4096 := by have hN : cfg3.N = 8 := N_3; have := t.isLt; omega
  refine Eq.trans ?_ (read_eq (G V c) (j := ix2 (⟨t.val * 512 + p.val, hp⟩ : Fin 4096) q) ?_ ?_).symm
  · refine (V3.k3_pay1_apply _ _ _ p q).trans ?_
    rw [factor_eq, bias_eq]
    have hrow : Spec.addRow (Spec.mm (V3.matOf (R3.iblk V c 0 t)) (B V c)) (b V c) p
        = Spec.addRow (Spec.mm (A V c) (B V c)) (b V c) ⟨t.val * 512 + p.val, hp⟩ := by
      funext k
      unfold Spec.addRow Spec.mm
      exact congrArg (· + b V c k) (Finset.sum_congr rfl fun l _ => by rw [tile_eq V c t p l hp])
    exact softmax_row_congr _ _ p ⟨t.val * 512 + p.val, hp⟩ hrow q
  · show win3_3.index t 0 * 512 + 1 * p.val = t.val * 512 + p.val; omega
  · show win3_3.index t 1 * 16 + 1 * q.val = q.val; omega

end Point

theorem cover (i : S4096x16.Idx) : ∃ t : Fin cfg3.N, (cfg3.win 3).flush t = true ∧ i ∈ ((cfg3.win 3).blk t).view.set := by
  have hi0 : (i 0).val < 4096 := (i 0).isLt
  have hi1 : (i 1).val < 16 := (i 1).isLt
  have hN : grid3.N = 8 := N_3
  let t : Fin cfg3.N := ⟨(i 0).val / 512, by show (i 0).val / 512 < grid3.N; omega⟩
  obtain ⟨-, -, -, -, -, -, e6, e7⟩ := index_facts t
  have e6' : win3_3.index t (0 : Fin 2) = (i 0).val / 512 := e6
  refine ⟨t, flush3_3 t, ?_⟩
  show i ∈ ((View.whole main_v17).slice (win3_3.rect t)).set
  rw [View.set_slice_whole, Rect.mem_set_unit]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 16 ≤ (i 1).val ∧ (i 1).val < win3_3.index t (1 : Fin 2) * 16 + 16; omega

theorem arr_out (c : Dev nD) : ∀ (i : Fin 4096) (k : Fin 16),
    (R3.dat (F := Ideal) V c).arrAt 3 cfg3.N (ix2 i k) = Spec.softmax (Spec.addRow (Spec.mm (A V c) (B V c)) (b V c)) i k := fun i k => by
  rw [(R3.dat V c).arrAt_eq_of_cover 3 (G V c) (fun t _ => flushed_eq V c t) cover]
  rfl

end Cert.KernelIdeal.V3b

end
-- ==== Proof.KernelIdeal.V0b.lean ====
import proofs.«406496_j14319420965162_3_alg».proof.Proof.KernelIdeal.R0
import proofs.«406496_j14319420965162_3_alg».proof.Proof.KernelIdeal.V0
import proofs.«406496_j14319420965162_3_alg».proof.Proof.KernelIdeal.V3b
import Idealize.ShloMosaic.Lib.Decide

noncomputable section

namespace Cert.KernelIdeal.V0b

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

noncomputable def A0 (c : Dev nD) : Spec.Mat 4096 4096 := fun i l => (V c (Pipeline.arrRef spec0 0) : S4096x4096.Idx → EReal) (ix2 i l)
noncomputable def A1 (c : Dev nD) : Spec.Mat 4096 4096 := fun i l => (V c (Pipeline.arrRef spec0 1) : S4096x4096.Idx → EReal) (ix2 i l)
noncomputable def A2 (c : Dev nD) : Spec.Mat 4096 4096 := fun i l => (V c (Pipeline.arrRef spec0 2) : S4096x4096.Idx → EReal) (ix2 i l)
noncomputable def Wa1 (c : Dev nD) : Spec.Mat 4096 64 := fun l k => (V c (Pipeline.arrRef spec0 3) : S4096x64.Idx → EReal) (ix2 l k)
noncomputable def Wa2 (c : Dev nD) : Spec.Mat 4096 64 := fun l k => (V c (Pipeline.arrRef spec0 4) : S4096x64.Idx → EReal) (ix2 l k)
noncomputable def Wa3 (c : Dev nD) : Spec.Mat 4096 64 := fun l k => (V c (Pipeline.arrRef spec0 5) : S4096x64.Idx → EReal) (ix2 l k)
noncomputable def ba1 (c : Dev nD) : Spec.Row 64 := fun k => (V c (Pipeline.arrRef spec0 6) : S1x64.Idx → EReal) (ix2 (0 : Fin 1) k)
noncomputable def ba2 (c : Dev nD) : Spec.Row 64 := fun k => (V c (Pipeline.arrRef spec0 7) : S1x64.Idx → EReal) (ix2 (0 : Fin 1) k)
noncomputable def ba3 (c : Dev nD) : Spec.Row 64 := fun k => (V c (Pipeline.arrRef spec0 8) : S1x64.Idx → EReal) (ix2 (0 : Fin 1) k)
noncomputable def Wg1 (c : Dev nD) : Spec.Mat 64 3 := fun l k => (V c (Pipeline.arrRef spec0 9) : S64x3.Idx → EReal) (ix2 l k)
noncomputable def Wg2 (c : Dev nD) : Spec.Mat 64 3 := fun l k => (V c (Pipeline.arrRef spec0 10) : S64x3.Idx → EReal) (ix2 l k)
noncomputable def Wg3 (c : Dev nD) : Spec.Mat 64 3 := fun l k => (V c (Pipeline.arrRef spec0 11) : S64x3.Idx → EReal) (ix2 l k)
noncomputable def bg (c : Dev nD) : Spec.Row 3 := fun k => (V c (Pipeline.arrRef spec0 12) : S1x3.Idx → EReal) (ix2 (0 : Fin 1) k)

noncomputable def aggV (c : Dev nD) : Spec.Mat 4096 3 :=
  V0.agg (A0 V c) (A1 V c) (A2 V c) (Wa1 V c) (Wa2 V c) (Wa3 V c) (ba1 V c) (ba2 V c) (ba3 V c) (Wg1 V c) (Wg2 V c) (Wg3 V c) (bg V c)

noncomputable def G (c : Dev nD) : S4096x3.Idx → EReal := fun i =>
  Spec.softmax (aggV V c) ⟨(i 0).val, idx2_lt0 i⟩ ⟨(i 1).val, idx2_lt1 i⟩

theorem tile_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

theorem whole_index : ∀ (t : Fin cfg0.N) (w : Fin cfg0.W) (a : Fin (cfg0.win w).shape.rank), 3 ≤ w.val → w.val ≤ 12 → (cfg0.win w).index t a = 0 :=
  (by decide +kernel : ∀ t : Fin grid0.N, _)

section Point
variable (c : Dev nD) (t : Fin cfg0.N)

theorem tile0_eq (p : Fin 512) (hp : t.val * 512 + p.val < 4096) :
    V3.matOf (n := 512) (k := 4096) (R0.iblk V c 0 t) p = A0 V c ⟨t.val * 512 + p.val, hp⟩ := by
  obtain ⟨e0, e1, -⟩ := tile_index t
  exact funext fun l => V3b.read_eq (V c (Pipeline.arrRef spec0 0)) (by show win0_0.index t 0 * 512 + 1 * p.val = t.val * 512 + p.val; omega) (by show win0_0.index t 1 * 4096 + 1 * l.val = l.val; omega)

theorem tile1_eq (p : Fin 512) (hp : t.val * 512 + p.val < 4096) :
    V3.matOf (n := 512) (k := 4096) (R0.iblk V c 1 t) p = A1 V c ⟨t.val * 512 + p.val, hp⟩ := by
  obtain ⟨-, -, e0, e1, -⟩ := tile_index t
  exact funext fun l => V3b.read_eq (V c (Pipeline.arrRef spec0 1)) (by show win0_1.index t 0 * 512 + 1 * p.val = t.val * 512 + p.val; omega) (by show win0_1.index t 1 * 4096 + 1 * l.val = l.val; omega)

theorem tile2_eq (p : Fin 512) (hp : t.val * 512 + p.val < 4096) :
    V3.matOf (n := 512) (k := 4096) (R0.iblk V c 2 t) p = A2 V c ⟨t.val * 512 + p.val, hp⟩ := by
  obtain ⟨-, -, -, -, e0, e1, -⟩ := tile_index t
  exact funext fun l => V3b.read_eq (V c (Pipeline.arrRef spec0 2)) (by show win0_2.index t 0 * 512 + 1 * p.val = t.val * 512 + p.val; omega) (by show win0_2.index t 1 * 4096 + 1 * l.val = l.val; omega)

theorem factor1_eq : V3.matOf (n := 4096) (k := 64) (R0.iblk V c 3 t) = Wa1 V c :=
  funext₂ fun l k => V3b.read_all (V c (Pipeline.arrRef spec0 3)) fun a => by
    show (cfg0.win 3).index t a * _ + 1 * _ = _
    rw [whole_index t 3 a (by decide) (by decide)]; omega

theorem factor2_eq : V3.matOf (n := 4096) (k := 64) (R0.iblk V c 4 t) = Wa2 V c :=
  funext₂ fun l k => V3b.read_all (V c (Pipeline.arrRef spec0 4)) fun a => by
    show (cfg0.win 4).index t a * _ + 1 * _ = _
    rw [whole_index t 4 a (by decide) (by decide)]; omega

theorem factor3_eq : V3.matOf (n := 4096) (k := 64) (R0.iblk V c 5 t) = Wa3 V c :=
  funext₂ fun l k => V3b.read_all (V c (Pipeline.arrRef spec0 5)) fun a => by
    show (cfg0.win 5).index t a * _ + 1 * _ = _
    rw [whole_index t 5 a (by decide) (by decide)]; omega

theorem bias1_eq : V3.rowOf (k := 64) (R0.iblk V c 6 t) = ba1 V c :=
  funext fun k => V3b.read_all (V c (Pipeline.arrRef spec0 6)) fun a => by
    show (cfg0.win 6).index t a * _ + 1 * _ = _
    rw [whole_index t 6 a (by decide) (by decide)]; omega

theorem bias2_eq : V3.rowOf (k := 64) (R0.iblk V c 7 t) = ba2 V c :=
  funext fun k => V3b.read_all (V c (Pipeline.arrRef spec0 7)) fun a => by
    show (cfg0.win 7).index t a * _ + 1 * _ = _
    rw [whole_index t 7 a (by decide) (by decide)]; omega

theorem bias3_eq : V3.rowOf (k := 64) (R0.iblk V c 8 t) = ba3 V c :=
  funext fun k => V3b.read_all (V c (Pipeline.arrRef spec0 8)) fun a => by
    show (cfg0.win 8).index t a * _ + 1 * _ = _
    rw [whole_index t 8 a (by decide) (by decide)]; omega

theorem slice1_eq : V3.matOf (n := 64) (k := 3) (R0.iblk V c 9 t) = Wg1 V c :=
  funext₂ fun l k => V3b.read_all (V c (Pipeline.arrRef spec0 9)) fun a => by
    show (cfg0.win 9).index t a * _ + 1 * _ = _
    rw [whole_index t 9 a (by decide) (by decide)]; omega

theorem slice2_eq : V3.matOf (n := 64) (k := 3) (R0.iblk V c 10 t) = Wg2 V c :=
  funext₂ fun l k => V3b.read_all (V c (Pipeline.arrRef spec0 10)) fun a => by
    show (cfg0.win 10).index t a * _ + 1 * _ = _
    rw [whole_index t 10 a (by decide) (by decide)]; omega

theorem slice3_eq : V3.matOf (n := 64) (k := 3) (R0.iblk V c 11 t) = Wg3 V c :=
  funext₂ fun l k => V3b.read_all (V c (Pipeline.arrRef spec0 11)) fun a => by
    show (cfg0.win 11).index t a * _ + 1 * _ = _
    rw [whole_index t 11 a (by decide) (by decide)]; omega

theorem biasg_eq : V3.rowOf (k := 3) (R0.iblk V c 12 t) = bg V c :=
  funext fun k => V3b.read_all (V c (Pipeline.arrRef spec0 12)) fun a => by
    show (cfg0.win 12).index t a * _ + 1 * _ = _
    rw [whole_index t 12 a (by decide) (by decide)]; omega

theorem flushed_eq :
    (R0.dat V c).flushed 13 t = ((cfg0.win 13).blk t).view.read (Elt Ideal) (G V c) := by
  show (cfg0.win 13).cut (grid0.coords t) ((R0.dat V c).after 13 t) = _
  rw [R0.after_13]
  unfold R0.out0
  rw [View.canon_unit_zero V3b.zero_offsets]
  simp only [View.ld_unit_zero (S := S512x4096) V3b.zero_offsets, View.ld_unit_zero (S := S4096x64) V3b.zero_offsets,
    View.ld_unit_zero (S := S1x64) V3b.zero_offsets, View.ld_unit_zero (S := S64x3) V3b.zero_offsets,
    View.ld_unit_zero (S := S1x3) V3b.zero_offsets]
  refine funext fun (j : S512x3.Idx) => ?_
  obtain ⟨p, q, rfl⟩ : ∃ p q, j = ix2 p q := ⟨j 0, j 1, eq_ix2 j⟩
  obtain ⟨-, -, -, -, -, -, e6, e7⟩ := tile_index t
  have hp : t.val * 512 + p.val < 4096 := by have hN : cfg0.N = 8 := N_0; have := t.isLt; omega
  refine Eq.trans ?_ (V3b.read_eq (G V c) (j := ix2 (⟨t.val * 512 + p.val, hp⟩ : Fin 4096) q) ?_ ?_).symm
  · refine (V0.result_apply _ _ _ _ _ _ _ _ _ _ _ _ _ p q).trans ?_
    rw [factor1_eq V c t, factor2_eq V c t, factor3_eq V c t, bias1_eq V c t, bias2_eq V c t, bias3_eq V c t,
      slice1_eq V c t, slice2_eq V c t, slice3_eq V c t, biasg_eq V c t]
    exact V3b.softmax_row_congr _ (aggV V c) p ⟨t.val * 512 + p.val, hp⟩
      (V0.agg_row_congr _ _ _ _ _ _ _ _ _ _ _ _ _ _ _ _ p ⟨t.val * 512 + p.val, hp⟩ (tile0_eq V c t p hp) (tile1_eq V c t p hp) (tile2_eq V c t p hp)) q
  · show win0_13.index t 0 * 512 + 1 * p.val = t.val * 512 + p.val; omega
  · show win0_13.index t 1 * 3 + 1 * q.val = q.val; omega

end Point

theorem cover (i : S4096x3.Idx) : ∃ t : Fin cfg0.N, (cfg0.win 13).flush t = true ∧ i ∈ ((cfg0.win 13).blk t).view.set := by
  have hi0 : (i 0).val < 4096 := (i 0).isLt
  have hi1 : (i 1).val < 3 := (i 1).isLt
  have hN : grid0.N = 8 := N_0
  let t : Fin cfg0.N := ⟨(i 0).val / 512, by show (i 0).val / 512 < grid0.N; omega⟩
  obtain ⟨-, -, -, -, -, -, e6, e7⟩ := tile_index t
  have e6' : win0_13.index t (0 : Fin 2) = (i 0).val / 512 := e6
  refine ⟨t, flush0_13 t, ?_⟩
  show i ∈ ((View.whole main_v7).slice (win0_13.rect t)).set
  rw [View.set_slice_whole, Rect.mem_set_unit]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 3 ≤ (i 1).val ∧ (i 1).val < win0_13.index t (1 : Fin 2) * 3 + 3; omega

theorem arr_out (c : Dev nD) : ∀ (i : Fin 4096) (k : Fin 3),
    (R0.dat (F := Ideal) V c).arrAt 13 cfg0.N (ix2 i k)
      = Spec.softmax (Spec.addRow (fun i j => (Spec.mm (Spec.zOf (A0 V c) (Wa1 V c) (ba1 V c)) (Wg1 V c) i j
            + Spec.mm (Spec.zOf (A1 V c) (Wa2 V c) (ba2 V c)) (Wg2 V c) i j)
          + Spec.mm (Spec.zOf (A2 V c) (Wa3 V c) (ba3 V c)) (Wg3 V c) i j) (bg V c)) i k := fun i k => by
  rw [(R0.dat V c).arrAt_eq_of_cover 13 (G V c) (fun t _ => flushed_eq V c t) cover]
  rfl

end Cert.KernelIdeal.V0b

end
-- ==== Proof.Alg.Sums.lean ====
import proofs.«406496_j14319420965162_3_alg».proof.Proof.Spec
import Mathlib.Algebra.BigOperators.Fin
import Mathlib.Data.EReal.Basic

namespace Cert.Alg

open Cert

theorem sum_split {M : Type*} [AddCommMonoid M] {m n : ℕ} (N : ℕ) (h : N = m + n) (f : Fin N → M) :
    ∑ l, f l = ∑ l : Fin m, f ⟨l.val, by omega⟩ + ∑ l : Fin n, f ⟨m + l.val, by omega⟩ := by
  subst h
  rw [Fin.sum_univ_add]
  rfl

theorem mm_hcat3 {n : ℕ} (a b c : Spec.Mat n 64) (W : Spec.Mat 192 3) (i : Fin n) (j : Fin 3) :
    Spec.mm (Spec.hcat3 a b c) W i j
      = (∑ l : Fin 64, a i l * W ⟨l.val, by omega⟩ j + ∑ l : Fin 64, b i l * W ⟨l.val + 64, by omega⟩ j)
        + ∑ l : Fin 64, c i l * W ⟨l.val + 128, by omega⟩ j := by
  have h1 : ∀ l : Fin 64, Spec.hcat3 a b c i ⟨l.val, by omega⟩ = a i l := by
    intro l
    simp [Spec.hcat3]
  have h2 : ∀ l : Fin 64, Spec.hcat3 a b c i ⟨l.val + 64, by omega⟩ = b i l := by
    intro l
    have n1 : ¬ (l.val + 64 < 64) := by omega
    have p2 : l.val + 64 < 128 := by omega
    simp [Spec.hcat3, n1, p2]
  have h3 : ∀ l : Fin 64, Spec.hcat3 a b c i ⟨l.val + 128, by omega⟩ = c i l := by
    intro l
    have n1 : ¬ (l.val + 128 < 64) := by omega
    have n2 : ¬ (l.val + 128 < 128) := by omega
    simp [Spec.hcat3, n1, n2]
  have e2 : ∀ l : Fin 64, (⟨64 + l.val, by omega⟩ : Fin 192) = ⟨l.val + 64, by omega⟩ := by
    intro l; apply Fin.ext; simp only []; omega
  have e3 : ∀ l : Fin 64, (⟨128 + l.val, by omega⟩ : Fin 192) = ⟨l.val + 128, by omega⟩ := by
    intro l; apply Fin.ext; simp only []; omega
  unfold Spec.mm
  rw [sum_split 192 (m := 128) (n := 64) (by norm_num) (fun l => Spec.hcat3 a b c i l * W l j),
    sum_split 128 (m := 64) (n := 64) (by norm_num)
      (fun l : Fin 128 => Spec.hcat3 a b c i ⟨l.val, by omega⟩ * W ⟨l.val, by omega⟩ j)]
  simp only [e2, e3, h1, h2, h3]

theorem sum_blocks4 (f : Fin 4096 → EReal) :
    ∑ l, f l
      = (((0 + ∑ l : Fin 1024, f ⟨l.val, by omega⟩) + ∑ l : Fin 1024, f ⟨1024 + l.val, by omega⟩)
          + ∑ l : Fin 1024, f ⟨2048 + l.val, by omega⟩)
        + ∑ l : Fin 1024, f ⟨3072 + l.val, by omega⟩ := by
  rw [sum_split 4096 (m := 3072) (n := 1024) (by norm_num) f,
    sum_split 3072 (m := 2048) (n := 1024) (by norm_num) (fun l : Fin 3072 => f ⟨l.val, by omega⟩),
    sum_split 2048 (m := 1024) (n := 1024) (by norm_num) (fun l : Fin 2048 => f ⟨l.val, by omega⟩),
    zero_add]

end Cert.Alg
-- ==== Proof.KernelIdeal.ChainC.lean ====
import proofs.«406496_j14319420965162_3_alg».proof.Proof.KernelIdeal.ChainB
import proofs.«406496_j14319420965162_3_alg».proof.Proof.KernelIdeal.V0b
import proofs.«406496_j14319420965162_3_alg».proof.Proof.Alg.Sums

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem r0_A0 : V0b.A0 (fun c b => U1 m c b) c = (argsK m c).A0 := congrArg rd2 (U1_of m c main_arg0 (by decide))
theorem r0_A1 : V0b.A1 (fun c b => U1 m c b) c = (argsK m c).A1 := congrArg rd2 (U1_of m c main_arg1 (by decide))
theorem r0_A2 : V0b.A2 (fun c b => U1 m c b) c = (argsK m c).A2 := congrArg rd2 (U1_of m c main_arg2 (by decide))
theorem r0_Wa1 : V0b.Wa1 (fun c b => U1 m c b) c = (argsK m c).Wa1 := congrArg rd2 (U1_of m c main_arg4 (by decide))
theorem r0_Wa2 : V0b.Wa2 (fun c b => U1 m c b) c = (argsK m c).Wa2 := congrArg rd2 (U1_of m c main_arg6 (by decide))
theorem r0_Wa3 : V0b.Wa3 (fun c b => U1 m c b) c = (argsK m c).Wa3 := congrArg rd2 (U1_of m c main_arg8 (by decide))
theorem r0_ba1 : V0b.ba1 (fun c b => U1 m c b) c = (argsK m c).ba1 := funext fun j => h0_v0 (V0 m c) j
theorem r0_ba2 : V0b.ba2 (fun c b => U1 m c b) c = (argsK m c).ba2 := funext fun j => h0_v1 (V0 m c) j
theorem r0_ba3 : V0b.ba3 (fun c b => U1 m c b) c = (argsK m c).ba3 := funext fun j => h0_v2 (V0 m c) j
theorem r0_bg : V0b.bg (fun c b => U1 m c b) c = (argsK m c).bagg := funext fun k => h0_v3 (V0 m c) k
theorem r0_Wg1 : V0b.Wg1 (fun c b => U1 m c b) c = fun l k => (argsK m c).Wagg (⟨l.val, by omega⟩ : Fin 192) k :=
  funext fun l => funext fun k => h0_v4 (V0 m c) l k
theorem r0_Wg2 : V0b.Wg2 (fun c b => U1 m c b) c = fun l k => (argsK m c).Wagg (⟨l.val + 64, by omega⟩ : Fin 192) k :=
  funext fun l => funext fun k => h0_v5 (V0 m c) l k
theorem r0_Wg3 : V0b.Wg3 (fun c b => U1 m c b) c = fun l k => (argsK m c).Wagg (⟨l.val + 128, by omega⟩ : Fin 192) k :=
  funext fun l => funext fun k => h0_v6 (V0 m c) l k

-- three column blocks side by side times a matrix is the sum of each block times its 64 rows of that matrix
theorem nz_val (i : Fin 4096) (k : Fin 3) : X0 m c (ValueIdx.ix2 i k) = (argsK m c).nzV i k := by
  unfold X0
  rw [V0b.arr_out, r0_A0, r0_A1, r0_A2, r0_Wa1, r0_Wa2, r0_Wa3, r0_ba1, r0_ba2, r0_ba3, r0_bg, r0_Wg1, r0_Wg2, r0_Wg3]
  unfold Spec.Args.nzV Spec.nz
  rw [show ∀ a b d W, Spec.mm (Spec.hcat3 a b d) W = _ from
    fun a b d W => funext fun i => funext fun j => Alg.mm_hcat3 (n := 4096) a b d W i j]
  rfl

end Cert.KernelIdeal.Chain

end
-- ==== Proof.KernelIdeal.ChainD.lean ====
import proofs.«406496_j14319420965162_3_alg».proof.Proof.KernelIdeal.ChainB
import proofs.«406496_j14319420965162_3_alg».proof.Proof.KernelIdeal.V3b

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem r3_A : V3b.A (fun c b => U6 m c b) c = rd2 (X1_0 m c) := congrArg rd2 (U6_v13_0 m c)
theorem r3_B : V3b.B (fun c b => U6 m c b) c = Spec.mm (rd2 (X2 m c)) (argsK m c).W2 :=
  funext fun l => funext fun k => U6_v15 m c l k
theorem r3_b : V3b.b (fun c b => U6 m c b) c = (argsK m c).b2 := funext fun k => U6_v16 m c k

theorem X3_eq (i : Fin 4096) (k : Fin 16) :
    X3 m c (ix2 i k) = Spec.out (rd2 (X1_0 m c)) (rd2 (X2 m c)) (argsK m c).W2 (argsK m c).b2 i k := by
  unfold X3
  rw [V3b.arr_out, r3_A, r3_B, r3_b]
  rfl

end Cert.KernelIdeal.Chain

end
-- ==== Proof.KernelIdeal.V2.lean ====
import proofs.«406496_j14319420965162_3_alg».proof.Proof.Gen.KernelIdeal.Skeleton
import proofs.«406496_j14319420965162_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.V2

open Cert.KernelIdeal Cert.KernelIdeal.Gen
open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

-- the reduced index with the column put back is the entry's index
theorem lift_row (r k : Fin 2048) : reduces_S2048x2048_S2048.lift (ix1 r) k = ix2 r k :=
  funext fun c => match c with | ⟨0, _⟩ => rfl | ⟨1, _⟩ => rfl

theorem rowSum_apply (src : FVec Ideal S2048x2048 .f32) (r : Fin 2048) :
    multiReduction (F := Ideal) .add [1] S2048 src 0x00000000#32 reduces_S2048x2048_S2048 (.inl rfl) rfl (ix1 r)
      = ∑ k : Fin 2048, src (ix2 r k) :=
  (Ideal.multiReduction_add_single src 0x00000000#32 reduces_S2048x2048_S2048 (.inl rfl) rfl (ix1 r)).trans
    (Finset.sum_congr rfl fun k _ => congrArg src (lift_row r k))

theorem ofBits_neg_inf : Ideal.ofBits .f32 0xFF800000#32 = (⊥ : EReal) := by
  simp [Ideal.ofBits, Ideal.ieee]

-- a fold of max from the bottom element is the supremum
theorem rowMax_apply (src : FVec Ideal S2048x2048 .f32) (r : Fin 2048) :
    multiReduction (F := Ideal) .maximumf [1] S2048 src 0xFF800000#32 reduces_S2048x2048_S2048 (.inl rfl) rfl (ix1 r)
      = Finset.univ.sup fun k : Fin 2048 => src (ix2 r k) := by
  refine (Ideal.multiReduction_maximumf_single src 0xFF800000#32 reduces_S2048x2048_S2048 (.inl rfl) rfl (ix1 r)).trans ?_
  rw [show (src ∘ reduces_S2048x2048_S2048.lift (ix1 r)) = fun k : Fin 2048 => src (ix2 r k) from
    funext fun k => congrArg src (lift_row r k)]
  show Finset.fold max (Ideal.ofBits .f32 0xFF800000#32) _ _ = _
  rw [ofBits_neg_inf]
  rfl

-- the contraction runs over the left factor's columns and the right factor's rows, so an entry is the sum of products over the shared coordinate
theorem mm_qk_apply (A : FVec Ideal S2048x128 .f32) (B : FVec Ideal S128x2048 .f32) (p q : Fin 2048) :
    matmul dot_S2048x128_S128x2048_S2048x2048_1_0_0_1_n_n (some .fp32) A B (constant (F := Ideal) S2048x2048 .f32 0x00000000#32) (ix2 p q)
      = ∑ l : Fin 128, A (ix2 p l) * B (ix2 l q) := by
  rw [matmul_zero_eq_dotGeneral]
  exact StackMember.dotGeneral_plain_apply (m := 2048) (k := 128) (n := 2048) _ A B p q

theorem mm_pv_apply (A : FVec Ideal S2048x2048 .f32) (B : FVec Ideal S2048x128 .f32) (p : Fin 2048) (f : Fin 128) :
    matmul dot_S2048x2048_S2048x128_S2048x128_1_0_0_1_n_n (some .fp32) A B (constant (F := Ideal) S2048x128 .f32 0x00000000#32) (ix2 p f)
      = ∑ k : Fin 2048, A (ix2 p k) * B (ix2 k f) := by
  rw [matmul_zero_eq_dotGeneral]
  exact StackMember.dotGeneral_plain_apply (m := 2048) (k := 2048) (n := 128) _ A B p f

end Cert.KernelIdeal.V2

end
-- ==== Proof.KernelIdeal.V2p.lean ====
import proofs.«406496_j14319420965162_3_alg».proof.Proof.KernelIdeal.V2

noncomputable section

namespace Cert.KernelIdeal.V2

open Cert.KernelIdeal Cert.KernelIdeal.Gen
open Idealize.ShloMosaic Idealize.ShloMosaic.ValueIdx

theorem pay7_apply (q k : Vec Ideal S2048x128 .f32) (a : Vec Ideal S2048x2048 .f32) (p j : Fin 2048) :
    k2_pay7 (F := Ideal) q k a (ix2 p j) = a (ix2 p j) * ∑ l : Fin 128, q (ix2 p l) * k (ix2 j l) := by
  unfold k2_pay7
  simp only [shapeCast_self]
  rw [mulf_apply, mm_qk_apply, mul_comm]
  refine congrArg (a (ix2 p j) * ·) (Finset.sum_congr rfl fun l _ => ?_)
  rw [transpose_ix2_apply]

theorem pay8_apply (q k : Vec Ideal S2048x128 .f32) (a : Vec Ideal S2048x2048 .f32) (m : Vec Ideal S2048x1 .f32)
    (p : Fin 2048) (u : Fin 1) :
    k2_pay8 (F := Ideal) q k a m (ix2 p u)
      = max (m (ix2 p u)) (Finset.univ.sup fun j : Fin 2048 => k2_pay7 (F := Ideal) q k a (ix2 p j)) := by
  unfold k2_pay8
  rw [maximumf_apply, shapeCast_a_a1_apply, rowMax_apply]

theorem pay9_apply (q k : Vec Ideal S2048x128 .f32) (a : Vec Ideal S2048x2048 .f32) (m m' : Vec Ideal S2048x1 .f32)
    (p : Fin 2048) (u : Fin 1) :
    k2_pay9 (F := Ideal) q k a m m' (ix2 p u)
      = Ideal.exp (m' (ix2 p u) - k2_pay8 (F := Ideal) q k a m (ix2 p u)) := rfl

theorem pay10_apply (q k : Vec Ideal S2048x128 .f32) (a : Vec Ideal S2048x2048 .f32) (m : Vec Ideal S2048x1 .f32)
    (p j : Fin 2048) :
    k2_pay10 (F := Ideal) q k a m (ix2 p j)
      = Ideal.exp (k2_pay7 (F := Ideal) q k a (ix2 p j) - k2_pay8 (F := Ideal) q k a m (ix2 p (0 : Fin 1))) := by
  unfold k2_pay10
  show Ideal.exp (k2_pay7 (F := Ideal) q k a (ix2 p j) - broadcastTo S2048x2048 (k2_pay8 (F := Ideal) q k a m) broadcasts_S2048x1_S2048x2048 (ix2 p j)) = _
  rw [broadcastTo_a1_ab_apply]

theorem pay11_apply (q k : Vec Ideal S2048x128 .f32) (a : Vec Ideal S2048x2048 .f32) (m m' l : Vec Ideal S2048x1 .f32)
    (p : Fin 2048) (u : Fin 1) :
    k2_pay11 (F := Ideal) q k a m m' l (ix2 p u)
      = k2_pay9 (F := Ideal) q k a m m' (ix2 p u) * l (ix2 p u)
        + ∑ j : Fin 2048, k2_pay10 (F := Ideal) q k a m (ix2 p j) := by
  unfold k2_pay11
  simp only [shapeCast_self]
  rw [addf_apply, mulf_apply, shapeCast_a_a1_apply, rowSum_apply]

theorem pay1_apply (s : FVec Ideal S2048x1 .f32) (w : FVec Ideal S2048x2048 .f32) (v : FVec Ideal S2048x128 .f32)
    (acc : Vec Ideal S2048x128 .f32) (p : Fin 2048) (f : Fin 128) :
    k2_pay1 (F := Ideal) s w v acc (ix2 p f)
      = s (ix2 p (0 : Fin 1)) * acc (ix2 p f) + ∑ j : Fin 2048, w (ix2 p j) * v (ix2 j f) := by
  unfold k2_pay1
  simp only [shapeCast_self]
  rw [addf_apply, mulf_apply, broadcastTo_a1_ab_apply, mm_pv_apply]

theorem pay2_eq (m : FVec Ideal S2048x1 .f32) : k2_pay2 (F := Ideal) m = m := by
  unfold k2_pay2
  exact shapeCast_self _ _

theorem pay3_apply (acc : Vec Ideal S2048x128 .f32) (l : Vec Ideal S2048x1 .f32) (p : Fin 2048) (f : Fin 128) :
    k2_pay3 (F := Ideal) acc l (ix2 p f) = max (Ideal.div (acc (ix2 p f)) (l (ix2 p (0 : Fin 1)))) 0 := by
  unfold k2_pay3
  rw [maximumf_apply, divf_apply, broadcastTo_a1_ab_apply, broadcast_apply]
  show max _ (Ideal.ofBits .f32 0x00000000#32) = _
  rw [Ideal.ofBits_zero_f32]

theorem pay4_apply (i : S2048x1.Idx) : k2_pay4 (F := Ideal) i = Ideal.ofBits .f32 0xFF333332#32 := by
  unfold k2_pay4
  simp only [shapeCast_self]
  rfl

theorem pay5_apply (i : S2048x1.Idx) : k2_pay5 (F := Ideal) i = 0 := by
  unfold k2_pay5
  simp only [shapeCast_self]
  exact Ideal.ofBits_zero_f32

theorem pay6_apply (i : S2048x128.Idx) : k2_pay6 (F := Ideal) i = 0 := by
  unfold k2_pay6
  simp only [shapeCast_self]
  exact Ideal.ofBits_zero_f32

theorem pay12_eq (v : Vec Ideal S2048x128 .f32) : k2_pay12 (F := Ideal) v = v := by
  unfold k2_pay12
  exact shapeCast_self _ _

theorem m0_coe : Ideal.ofBits .f32 0xFF333332#32 = ((-(11744050 * 2 ^ 104) : ℝ) : EReal) := by
  simp [Ideal.ofBits, Ideal.ieee]

theorem m0_real : Ideal.ofBits .f32 0xFF333332#32 ≠ (⊤ : EReal) ∧ Ideal.ofBits .f32 0xFF333332#32 ≠ (⊥ : EReal) := by
  rw [m0_coe]; exact ⟨EReal.coe_ne_top _, EReal.coe_ne_bot _⟩

end Cert.KernelIdeal.V2

end
-- ==== Proof.Alg.Online.lean ====
import proofs.«406496_j14319420965162_3_alg».proof.Proof.Spec
import Mathlib.Data.EReal.Inv
import Mathlib.Analysis.Complex.Exponential
import Mathlib.Algebra.BigOperators.Fin
import Mathlib.Algebra.Order.BigOperators.Group.Finset
import Mathlib.Data.Finset.Lattice.Fold

noncomputable section

namespace Cert.Alg

open Idealize.ShloMosaic

theorem exp_ofReal (r : ℝ) : Ideal.exp (r : EReal) = ((Real.exp r : ℝ) : EReal) := rfl

theorem sum_ofReal {ι : Type*} (t : Finset ι) (f : ι → ℝ) :
    ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

theorem div_ofReal (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

theorem sup_real {n : ℕ} (hn : 0 < n) (r : Fin n → ℝ) :
    ∃ M : ℝ, Finset.univ.sup (fun j => (r j : EReal)) = (M : EReal) := by
  haveI : Nonempty (Fin n) := ⟨⟨0, hn⟩⟩
  obtain ⟨i, -, hi⟩ := Finset.exists_mem_eq_sup Finset.univ Finset.univ_nonempty (fun j => (r j : EReal))
  exact ⟨r i, hi⟩

theorem max_real (a b : ℝ) : ∃ c : ℝ, max (a : EReal) (b : EReal) = (c : EReal) := by
  rcases max_choice (a : EReal) (b : EReal) with h | h
  · exact ⟨a, h⟩
  · exact ⟨b, h⟩

theorem sum_exp_ne_zero {n : ℕ} (hn : 0 < n) (r : Fin n → ℝ) (c : ℝ) : ∑ l, Real.exp (r l - c) ≠ 0 := by
  haveI : Nonempty (Fin n) := ⟨⟨0, hn⟩⟩
  exact (Finset.sum_pos (fun l _ => Real.exp_pos _) Finset.univ_nonempty).ne'

theorem real_softmax_shift {ι : Type*} (t : Finset ι) (r : ι → ℝ) (c d : ℝ) (j : ι) :
    Real.exp (r j - c) / ∑ l ∈ t, Real.exp (r l - c) = Real.exp (r j - d) / ∑ l ∈ t, Real.exp (r l - d) := by
  have h : ∀ l, Real.exp (r l - c) = Real.exp (d - c) * Real.exp (r l - d) := fun l => by
    rw [← Real.exp_add]; congr 1; ring
  rw [h j, Finset.sum_congr rfl (fun l _ => h l), ← Finset.mul_sum, mul_div_mul_left _ _ (Real.exp_ne_zero _)]

def lo (s : Fin 4096 → EReal) : Fin 2048 → EReal := fun j => s ⟨j.val, by omega⟩

def hi (s : Fin 4096 → EReal) : Fin 2048 → EReal := fun j => s ⟨2048 + j.val, by omega⟩

def m1 (s : Fin 4096 → EReal) (m0 : EReal) : EReal := max m0 (Finset.univ.sup (lo s))

def a1 (s : Fin 4096 → EReal) (m0 : EReal) : EReal := Ideal.exp (m0 - m1 s m0)

def l1 (s : Fin 4096 → EReal) (m0 : EReal) : EReal := a1 s m0 * 0 + ∑ j, Ideal.exp (lo s j - m1 s m0)

def acc1 (s v : Fin 4096 → EReal) (m0 : EReal) : EReal :=
  a1 s m0 * 0 + ∑ j, Ideal.exp (lo s j - m1 s m0) * lo v j

def m2 (s : Fin 4096 → EReal) (m0 : EReal) : EReal := max (m1 s m0) (Finset.univ.sup (hi s))

def a2 (s : Fin 4096 → EReal) (m0 : EReal) : EReal := Ideal.exp (m1 s m0 - m2 s m0)

def l2 (s : Fin 4096 → EReal) (m0 : EReal) : EReal :=
  a2 s m0 * l1 s m0 + ∑ j, Ideal.exp (hi s j - m2 s m0)

def acc2 (s v : Fin 4096 → EReal) (m0 : EReal) : EReal :=
  a2 s m0 * acc1 s v m0 + ∑ j, Ideal.exp (hi s j - m2 s m0) * hi v j

theorem sum_two_halves (f : Fin 4096 → ℝ) :
    ∑ j : Fin 4096, f j
      = ∑ j : Fin 2048, f ⟨j.val, by omega⟩ + ∑ j : Fin 2048, f ⟨2048 + j.val, by omega⟩ :=
  Fin.sum_univ_add (a := 2048) (b := 2048) f

theorem m1_real (r : Fin 4096 → ℝ) (c0 : ℝ) : ∃ c1 : ℝ, m1 (fun j => (r j : EReal)) c0 = (c1 : EReal) := by
  obtain ⟨M, hM⟩ := sup_real (n := 2048) (by omega) (fun j => r ⟨j.val, by omega⟩)
  unfold m1 lo
  rw [hM]
  exact max_real c0 M

theorem m2_real (r : Fin 4096 → ℝ) (c0 : ℝ) : ∃ c2 : ℝ, m2 (fun j => (r j : EReal)) c0 = (c2 : EReal) := by
  obtain ⟨c1, h1⟩ := m1_real r c0
  obtain ⟨M, hM⟩ := sup_real (n := 2048) (by omega) (fun j => r ⟨2048 + j.val, by omega⟩)
  unfold m2 hi
  rw [h1, hM]
  exact max_real c1 M

theorem real_two_tiles (e : Fin 4096 → ℝ) (r : Fin 4096 → ℝ) (c1 c2 : ℝ) :
    Real.exp (c1 - c2) * (∑ j : Fin 2048, Real.exp (r ⟨j.val, by omega⟩ - c1) * e ⟨j.val, by omega⟩)
        + ∑ j : Fin 2048, Real.exp (r ⟨2048 + j.val, by omega⟩ - c2) * e ⟨2048 + j.val, by omega⟩
      = ∑ j : Fin 4096, Real.exp (r j - c2) * e j := by
  rw [sum_two_halves (fun j => Real.exp (r j - c2) * e j), Finset.mul_sum]
  congr 1
  refine Finset.sum_congr rfl (fun j _ => ?_)
  rw [← mul_assoc, ← Real.exp_add]
  congr 2
  ring

theorem l2_eq (r : Fin 4096 → ℝ) (c0 c2 : ℝ) (h2 : m2 (fun j => (r j : EReal)) c0 = (c2 : EReal)) :
    l2 (fun j => (r j : EReal)) c0 = ((∑ j : Fin 4096, Real.exp (r j - c2) : ℝ) : EReal) := by
  obtain ⟨c1, h1⟩ := m1_real r c0
  have := real_two_tiles (fun _ => 1) r c1 c2
  simp only [mul_one] at this
  rw [← this]
  unfold l2 a2 l1 a1
  rw [h2, h1]
  simp only [lo, hi, mul_zero, zero_add, ← EReal.coe_sub, exp_ofReal, sum_ofReal, ← EReal.coe_mul, ← EReal.coe_add]

theorem acc2_eq (r w : Fin 4096 → ℝ) (c0 c2 : ℝ) (h2 : m2 (fun j => (r j : EReal)) c0 = (c2 : EReal)) :
    acc2 (fun j => (r j : EReal)) (fun j => (w j : EReal)) c0
      = ((∑ j : Fin 4096, Real.exp (r j - c2) * w j : ℝ) : EReal) := by
  obtain ⟨c1, h1⟩ := m1_real r c0
  rw [← real_two_tiles w r c1 c2]
  unfold acc2 a2 acc1 a1
  rw [h2, h1]
  simp only [lo, hi, mul_zero, zero_add, ← EReal.coe_sub, exp_ofReal, sum_ofReal, ← EReal.coe_mul, ← EReal.coe_add]

theorem online2 (s v : Fin 4096 → EReal) (m0 : EReal) (hs : ∀ j, s j ≠ ⊤ ∧ s j ≠ ⊥)
    (hv : ∀ j, v j ≠ ⊤ ∧ v j ≠ ⊥) (hm0 : m0 ≠ ⊤ ∧ m0 ≠ ⊥) :
    Ideal.div (acc2 s v m0) (l2 s m0)
      = ∑ j : Fin 4096, Ideal.div (Ideal.exp (s j - Finset.univ.sup s))
          (∑ l, Ideal.exp (s l - Finset.univ.sup s)) * v j := by
  lift s to Fin 4096 → ℝ using hs
  lift v to Fin 4096 → ℝ using hv
  lift m0 to ℝ using hm0
  obtain ⟨c2, h2⟩ := m2_real s m0
  obtain ⟨M, hM⟩ := sup_real (n := 4096) (by omega) s
  rw [acc2_eq s v m0 c2 h2, l2_eq s m0 c2 h2, hM]
  simp only [← EReal.coe_sub, exp_ofReal, sum_ofReal]
  rw [div_ofReal _ _ (sum_exp_ne_zero (by omega) s c2)]
  simp only [div_ofReal _ _ (sum_exp_ne_zero (n := 4096) (by omega) s M), ← EReal.coe_mul, sum_ofReal]
  refine congrArg Real.toEReal ?_
  rw [Finset.sum_div]
  refine Finset.sum_congr rfl (fun j _ => ?_)
  rw [mul_div_right_comm, real_softmax_shift Finset.univ s c2 M j]

end Cert.Alg

end
-- ==== Proof.KernelIdeal.V2b.lean ====
import proofs.«406496_j14319420965162_3_alg».proof.Proof.KernelIdeal.R2
import proofs.«406496_j14319420965162_3_alg».proof.Proof.KernelIdeal.V2p
import proofs.«406496_j14319420965162_3_alg».proof.Proof.Alg.Online

noncomputable section

namespace Cert.KernelIdeal.V2

open Cert.KernelIdeal Cert.KernelIdeal.Gen
open Idealize.ShloMosaic Idealize.ShloMosaic.ValueIdx

theorem hz : (![0, 0] : Fin 2 → Nat) = fun _ => 0 := funext fun a => match a with | ⟨0, _⟩ => rfl | ⟨1, _⟩ => rfl

abbrev mInit : EReal := Ideal.ofBits .f32 0xFF333332#32

theorem m0_apply (i : S2048x1.Idx) : R2.m0 (F := Ideal) i = mInit := by
  unfold R2.m0
  rw [View.canon_unit_zero hz]
  exact pay4_apply i

theorem l0_apply (i : S2048x1.Idx) : R2.l0 (F := Ideal) i = 0 := by
  unfold R2.l0
  rw [View.canon_unit_zero hz]
  exact pay5_apply i

theorem a0_apply (i : S2048x128.Idx) : R2.a0 (F := Ideal) i = 0 := by
  unfold R2.a0
  rw [View.canon_unit_zero hz]
  exact pay6_apply i

theorem mNew_eq (q k : Vec Ideal S2048x128 .f32) (a : Vec Ideal S2048x2048 .f32) (m : Vec Ideal S2048x1 .f32) :
    R2.mNew q k a m = k2_pay8 (F := Ideal) q k a m := by
  unfold R2.mNew
  rw [View.canon_unit_zero hz]
  simp only [View.ld_unit_zero (S := S2048x128) hz, View.ld_unit_zero (S := S2048x2048) hz, View.ld_unit_zero (S := S2048x1) hz]
  exact pay2_eq _

def sT (q k : Vec Ideal S2048x128 .f32) (a : Vec Ideal S2048x2048 .f32) (p : Fin 2048) : Fin 2048 → EReal :=
  fun j => a (ix2 p j) * ∑ l : Fin 128, q (ix2 p l) * k (ix2 j l)

theorem mNew_apply (q k : Vec Ideal S2048x128 .f32) (a : Vec Ideal S2048x2048 .f32) (m : Vec Ideal S2048x1 .f32)
    (p : Fin 2048) :
    R2.mNew q k a m (ix2 p (0 : Fin 1)) = max (m (ix2 p (0 : Fin 1))) (Finset.univ.sup (sT q k a p)) := by
  rw [mNew_eq, pay8_apply]
  exact congrArg (max _) (congrArg Finset.univ.sup (funext fun j => pay7_apply q k a p j))

theorem lNew_apply (q k : Vec Ideal S2048x128 .f32) (a : Vec Ideal S2048x2048 .f32) (m l : Vec Ideal S2048x1 .f32)
    (p : Fin 2048) :
    R2.lNew q k a m l (ix2 p (0 : Fin 1))
      = Ideal.exp (m (ix2 p (0 : Fin 1)) - R2.mNew q k a m (ix2 p (0 : Fin 1))) * l (ix2 p (0 : Fin 1))
        + ∑ j : Fin 2048, Ideal.exp (sT q k a p j - R2.mNew q k a m (ix2 p (0 : Fin 1))) := by
  unfold R2.lNew
  rw [View.canon_unit_zero hz]
  simp only [View.ld_unit_zero (S := S2048x128) hz, View.ld_unit_zero (S := S2048x2048) hz, View.ld_unit_zero (S := S2048x1) hz]
  rw [mNew_eq, pay11_apply, pay9_apply]
  exact congrArg (_ + ·) (Finset.sum_congr rfl fun j _ => by rw [pay10_apply, pay7_apply]; rfl)

theorem aNew_apply (q k v : Vec Ideal S2048x128 .f32) (a : Vec Ideal S2048x2048 .f32) (m : Vec Ideal S2048x1 .f32)
    (acc : Vec Ideal S2048x128 .f32) (p : Fin 2048) (f : Fin 128) :
    R2.aNew q k v a m acc (ix2 p f)
      = Ideal.exp (m (ix2 p (0 : Fin 1)) - R2.mNew q k a m (ix2 p (0 : Fin 1))) * acc (ix2 p f)
        + ∑ j : Fin 2048, Ideal.exp (sT q k a p j - R2.mNew q k a m (ix2 p (0 : Fin 1))) * v (ix2 j f) := by
  unfold R2.aNew
  rw [View.canon_unit_zero hz]
  simp only [View.ld_unit_zero (S := S2048x128) hz, View.ld_unit_zero (S := S2048x2048) hz, View.ld_unit_zero (S := S2048x1) hz,
    pay12_eq]
  rw [mNew_eq, pay1_apply, pay9_apply]
  exact congrArg (_ + ·) (Finset.sum_congr rfl fun j _ => by rw [pay10_apply, pay7_apply]; rfl)

theorem out2_apply (acc : Vec Ideal S2048x128 .f32) (l : Vec Ideal S2048x1 .f32) (p : Fin 2048) (f : Fin 128) :
    R2.out2 acc l (ix2 p f) = max (Ideal.div (acc (ix2 p f)) (l (ix2 p (0 : Fin 1)))) 0 := by
  unfold R2.out2
  rw [View.canon_unit_zero hz]
  simp only [View.ld_unit_zero (S := S2048x128) hz, View.ld_unit_zero (S := S2048x1) hz]
  exact pay3_apply _ _ p f

def stepT (q k v : Vec Ideal S2048x128 .f32) (a : Vec Ideal S2048x2048 .f32)
    (s : Vec Ideal S2048x1 .f32 × Vec Ideal S2048x1 .f32 × Vec Ideal S2048x128 .f32) :
    Vec Ideal S2048x1 .f32 × Vec Ideal S2048x1 .f32 × Vec Ideal S2048x128 .f32 :=
  (R2.mNew q k a s.1, R2.lNew q k a s.1 s.2.1, R2.aNew q k v a s.1 s.2.2)

theorem two_tiles (q0 k0 v0 q1 k1 v1 : Vec Ideal S2048x128 .f32) (a0 a1 : Vec Ideal S2048x2048 .f32)
    (s v : Fin 4096 → EReal) (p : Fin 2048) (f : Fin 128)
    (hlo : ∀ j, sT q0 k0 a0 p j = Alg.lo s j) (hhi : ∀ j, sT q1 k1 a1 p j = Alg.hi s j)
    (hvlo : ∀ j, v0 (ix2 j f) = Alg.lo v j) (hvhi : ∀ j, v1 (ix2 j f) = Alg.hi v j) :
    R2.out2 (stepT q1 k1 v1 a1 (stepT q0 k0 v0 a0 (R2.m0, R2.l0, R2.a0))).2.2
        (stepT q1 k1 v1 a1 (stepT q0 k0 v0 a0 (R2.m0, R2.l0, R2.a0))).2.1 (ix2 p f)
      = max (Ideal.div (Alg.acc2 s v mInit) (Alg.l2 s mInit)) 0 := by
  have hs0 : sT q0 k0 a0 p = Alg.lo s := funext hlo
  have hs1 : sT q1 k1 a1 p = Alg.hi s := funext hhi
  have hM1 : R2.mNew q0 k0 a0 R2.m0 (ix2 p (0 : Fin 1)) = Alg.m1 s mInit := by
    rw [mNew_apply, m0_apply, hs0]; rfl
  have hL1 : R2.lNew q0 k0 a0 R2.m0 R2.l0 (ix2 p (0 : Fin 1)) = Alg.l1 s mInit := by
    rw [lNew_apply, hM1, m0_apply, l0_apply, hs0]; rfl
  have hA1 : R2.aNew q0 k0 v0 a0 R2.m0 R2.a0 (ix2 p f) = Alg.acc1 s v mInit := by
    rw [aNew_apply, hM1, m0_apply, a0_apply, hs0]
    unfold Alg.acc1 Alg.a1
    exact congrArg (_ + ·) (Finset.sum_congr rfl fun j _ => by rw [hvlo])
  have hM2 : R2.mNew q1 k1 a1 (R2.mNew q0 k0 a0 R2.m0) (ix2 p (0 : Fin 1)) = Alg.m2 s mInit := by
    rw [mNew_apply, hM1, hs1]; rfl
  have hL2 : R2.lNew q1 k1 a1 (R2.mNew q0 k0 a0 R2.m0) (R2.lNew q0 k0 a0 R2.m0 R2.l0) (ix2 p (0 : Fin 1)) = Alg.l2 s mInit := by
    rw [lNew_apply, hM2, hM1, hL1, hs1]; rfl
  have hA2 : R2.aNew q1 k1 v1 a1 (R2.mNew q0 k0 a0 R2.m0) (R2.aNew q0 k0 v0 a0 R2.m0 R2.a0) (ix2 p f) = Alg.acc2 s v mInit := by
    rw [aNew_apply, hM2, hM1, hA1, hs1]
    unfold Alg.acc2 Alg.a2
    exact congrArg (_ + ·) (Finset.sum_congr rfl fun j _ => by rw [hvhi])
  dsimp only [stepT]
  rw [out2_apply, hA2, hL2]

end Cert.KernelIdeal.V2

end
-- ==== Proof.KernelIdeal.V2c.lean ====
import proofs.«406496_j14319420965162_3_alg».proof.Proof.KernelIdeal.V2b

noncomputable section

namespace Cert.KernelIdeal.V2

open Cert.KernelIdeal Cert.KernelIdeal.Gen
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

def qM (c : Dev nD) : Spec.Mat 4096 128 := fun i l => (V c (Pipeline.arrRef spec2 0) : S4096x128.Idx → Elt Ideal .f32) (ix2 i l)
def kM (c : Dev nD) : Spec.Mat 4096 128 := fun i l => (V c (Pipeline.arrRef spec2 1) : S4096x128.Idx → Elt Ideal .f32) (ix2 i l)
def vM (c : Dev nD) : Spec.Mat 4096 128 := fun i l => (V c (Pipeline.arrRef spec2 2) : S4096x128.Idx → Elt Ideal .f32) (ix2 i l)
def aM (c : Dev nD) : Spec.Mat 4096 4096 := fun i j => (V c (Pipeline.arrRef spec2 3) : S4096x4096.Idx → Elt Ideal .f32) (ix2 i j)

def xtG (c : Dev nD) (i : Fin 4096) (f : Fin 128) : EReal :=
  max (Ideal.div (Alg.acc2 (Spec.scores (aM V c) (qM V c) (kM V c) i) (fun j => vM V c j f) mInit)
      (Alg.l2 (Spec.scores (aM V c) (qM V c) (kM V c) i) mInit)) 0

theorem idx_facts : ∀ t : Fin cfg2.N,
    win2_0.index t (0 : Fin 2) = t.val / 2 ∧ win2_0.index t (1 : Fin 2) = 0
    ∧ win2_1.index t (0 : Fin 2) = t.val % 2 ∧ win2_1.index t (1 : Fin 2) = 0
    ∧ win2_2.index t (0 : Fin 2) = t.val % 2 ∧ win2_2.index t (1 : Fin 2) = 0
    ∧ win2_3.index t (0 : Fin 2) = t.val / 2 ∧ win2_3.index t (1 : Fin 2) = t.val % 2
    ∧ win2_4.index t (0 : Fin 2) = t.val / 2 ∧ win2_4.index t (1 : Fin 2) = 0 :=
  (by decide +kernel : ∀ t : Fin grid2.N, _)

theorem iblk0_apply (c : Dev nD) (t : Fin cfg2.N) (p : Fin 2048) (l : Fin 128) (i : Fin 4096)
    (hi : i.val = t.val / 2 * 2048 + p.val) : R2.iblk V c 0 t (ix2 p l) = qM V c i l := by
  obtain ⟨e0, e1, -⟩ := idx_facts t
  unfold R2.iblk qM
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2048 + 1 * p.val = i.val; rw [e0, hi]; omega
  | ⟨1, _⟩ => show win2_0.index t (1 : Fin 2) * 128 + 1 * l.val = l.val; rw [e1]; omega

theorem iblk1_apply (c : Dev nD) (t : Fin cfg2.N) (j : Fin 2048) (l : Fin 128) (j' : Fin 4096)
    (hj : j'.val = t.val % 2 * 2048 + j.val) : R2.iblk V c 1 t (ix2 j l) = kM V c j' l := by
  obtain ⟨-, -, e0, e1, -⟩ := idx_facts t
  unfold R2.iblk kM
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 2048 + 1 * j.val = j'.val; rw [e0, hj]; omega
  | ⟨1, _⟩ => show win2_1.index t (1 : Fin 2) * 128 + 1 * l.val = l.val; rw [e1]; omega

theorem iblk2_apply (c : Dev nD) (t : Fin cfg2.N) (j : Fin 2048) (f : Fin 128) (j' : Fin 4096)
    (hj : j'.val = t.val % 2 * 2048 + j.val) : R2.iblk V c 2 t (ix2 j f) = vM V c j' f := by
  obtain ⟨-, -, -, -, e0, e1, -⟩ := idx_facts t
  unfold R2.iblk vM
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 2048 + 1 * j.val = j'.val; rw [e0, hj]; omega
  | ⟨1, _⟩ => show win2_2.index t (1 : Fin 2) * 128 + 1 * f.val = f.val; rw [e1]; omega

theorem iblk3_apply (c : Dev nD) (t : Fin cfg2.N) (p j : Fin 2048) (i j' : Fin 4096)
    (hi : i.val = t.val / 2 * 2048 + p.val) (hj : j'.val = t.val % 2 * 2048 + j.val) :
    R2.iblk V c 3 t (ix2 p j) = aM V c i j' := by
  obtain ⟨-, -, -, -, -, -, e0, e1, -⟩ := idx_facts t
  unfold R2.iblk aM
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 2048 + 1 * p.val = i.val; rw [e0, hi]; omega
  | ⟨1, _⟩ => show win2_3.index t (1 : Fin 2) * 2048 + 1 * j.val = j'.val; rw [e1, hj]; omega

theorem sT_iblk (c : Dev nD) (t : Fin cfg2.N) (p j : Fin 2048) (i j' : Fin 4096)
    (hi : i.val = t.val / 2 * 2048 + p.val) (hj : j'.val = t.val % 2 * 2048 + j.val) :
    sT (R2.iblk V c 0 t) (R2.iblk V c 1 t) (R2.iblk V c 3 t) p j = Spec.scores (aM V c) (qM V c) (kM V c) i j' := by
  unfold sT Spec.scores
  rw [iblk3_apply V c t p j i j' hi hj]
  exact congrArg (_ * ·) (Finset.sum_congr rfl fun l _ => by
    rw [iblk0_apply V c t p l i hi, iblk1_apply V c t j l j' hj])

theorem after4_apply (c : Dev nD) (t : Fin cfg2.N) (ht : t.val % 2 = 1) (p : Fin 2048) (f : Fin 128) (i : Fin 4096)
    (hi : i.val = t.val / 2 * 2048 + p.val) :
    R2.out2 (R2.scAt V c t.val t.isLt).2.2 (R2.scAt V c t.val t.isLt).2.1 (ix2 p f) = xtG V c i f := by
  have ht' : t.val - 1 < cfg2.N := Nat.lt_of_le_of_lt (Nat.sub_le _ _) t.isLt
  have h0 : (⟨t.val - 1, ht'⟩ : Fin cfg2.N).val % 2 = 0 := by show (t.val - 1) % 2 = 0; omega
  rw [R2.scAt_acc V c t ht, R2.scAt_reset V c ⟨t.val - 1, ht'⟩ h0]
  exact two_tiles _ _ _ _ _ _ _ _ (Spec.scores (aM V c) (qM V c) (kM V c) i) (fun j => vM V c j f) p f
    (fun j => sT_iblk V c ⟨t.val - 1, ht'⟩ p j i ⟨j.val, by omega⟩
      (by show i.val = (t.val - 1) / 2 * 2048 + p.val; omega) (by show j.val = (t.val - 1) % 2 * 2048 + j.val; omega))
    (fun j => sT_iblk V c t p j i ⟨2048 + j.val, by omega⟩ hi (by show 2048 + j.val = t.val % 2 * 2048 + j.val; omega))
    (fun j => iblk2_apply V c ⟨t.val - 1, ht'⟩ j f ⟨j.val, by omega⟩ (by show j.val = (t.val - 1) % 2 * 2048 + j.val; omega))
    (fun j => iblk2_apply V c t j f ⟨2048 + j.val, by omega⟩ (by show 2048 + j.val = t.val % 2 * 2048 + j.val; omega))

def G (c : Dev nD) : Buf (Elt Ideal) ((c : Thread nD τ).loc main_v14) :=
  (fun idx => xtG V c (idx 0) (idx 1) : S4096x128.Idx → Elt Ideal .f32)

theorem flushed_apply (c : Dev nD) (t : Fin cfg2.N) (x : ((cfg2.win 4).xblock (cfg2.grid.coords t)).Idx)
    (hx0 : (x 0).val < 2048) (hx1 : (x 1).val < 128) :
    (R2.dat V c).flushed 4 t x
      = R2.out2 (R2.scAt V c t.val t.isLt).2.2 (R2.scAt V c t.val t.isLt).2.1 (ix2 ⟨(x 0).val, hx0⟩ ⟨(x 1).val, hx1⟩) := by
  show (R2.dat V c).after 4 t ((cfg2.win 4).xinj (grid2.coords t) x) = _
  rw [R2.after_4]
  exact congrArg (R2.out2 (R2.scAt V c t.val t.isLt).2.2 (R2.scAt V c t.val t.isLt).2.1)
    (funext fun a => Fin.ext (match a with | ⟨0, _⟩ => rfl | ⟨1, _⟩ => rfl))

theorem readG_apply (c : Dev nD) (t : Fin cfg2.N) (x : ((cfg2.win 4).xblock (cfg2.grid.coords t)).Idx)
    (i : Fin 4096) (f : Fin 128) (hi : i.val = t.val / 2 * 2048 + (x 0).val) (hf : f.val = (x 1).val) :
    ((cfg2.win 4).blk t).view.read (Elt Ideal) (G V c) x = xtG V c i f := by
  obtain ⟨-, -, -, -, -, -, -, -, e0, e1⟩ := idx_facts t
  rw [View.read_apply]
  show xtG V c _ _ = xtG V c i f
  exact congrArg₂ (xtG V c)
    (Fin.ext (by show win2_4.index t (0 : Fin 2) * 2048 + 1 * (x 0).val = i.val; rw [e0, hi]; omega))
    (Fin.ext (by show win2_4.index t (1 : Fin 2) * 128 + 1 * (x 1).val = f.val; rw [e1, hf]; omega))

theorem flushed_eq (c : Dev nD) (t : Fin cfg2.N) (hf : (cfg2.win 4).flush t = true) :
    (R2.dat V c).flushed 4 t = ((cfg2.win 4).blk t).view.read (Elt Ideal) (G V c) := by
  have ht : t.val % 2 = 1 := (flush2_4 t).mp hf
  funext x
  have hx0 : (x 0).val < 2048 := (x 0).isLt
  have hx1 : (x 1).val < 128 := (x 1).isLt
  have hN : cfg2.N = 4 := N_2
  have hp : t.val / 2 * 2048 + (x 0).val < 4096 := by have := t.isLt; omega
  rw [flushed_apply V c t x hx0 hx1, readG_apply V c t x ⟨t.val / 2 * 2048 + (x 0).val, hp⟩ ⟨(x 1).val, hx1⟩ rfl rfl]
  exact after4_apply V c t ht _ _ _ rfl

theorem mem_blk4 (t : Fin cfg2.N) (i : S4096x128.Idx) :
    i ∈ ((cfg2.win 4).blk t).view.set ↔ ∀ a : Fin 2, win2_4.index t a * S2048x128.size a ≤ (i a).val ∧ (i a).val < win2_4.index t a * S2048x128.size a + S2048x128.size a := by
  show i ∈ ((View.whole main_v14).slice (win2_4.rect t)).set ↔ _
  rw [View.set_slice_whole, Rect.mem_set_unit]
  exact Iff.rfl

-- row i lies in the block of grid point 2 * (i / 2048) + 1, whose inner coordinate is 1
theorem cover (i : S4096x128.Idx) : ∃ t : Fin cfg2.N, (cfg2.win 4).flush t = true ∧ i ∈ ((cfg2.win 4).blk t).view.set := by
  have hN : cfg2.N = 4 := N_2
  have hi0 : (i 0).val < 4096 := (i 0).isLt
  have hi1 : (i 1).val < 128 := (i 1).isLt
  obtain ⟨t, ht⟩ : ∃ t : Fin cfg2.N, t.val = 2 * ((i 0).val / 2048) + 1 := ⟨⟨_, by omega⟩, rfl⟩
  obtain ⟨-, -, -, -, -, -, -, -, e0, e1⟩ := idx_facts t
  refine ⟨t, (flush2_4 t).mpr (by omega), (mem_blk4 t i).mpr fun a => ?_⟩
  match a with
  | ⟨0, _⟩ =>
    show win2_4.index t (0 : Fin 2) * 2048 ≤ (i 0).val ∧ (i 0).val < win2_4.index t (0 : Fin 2) * 2048 + 2048
    rw [e0]; omega
  | ⟨1, _⟩ =>
    show win2_4.index t (1 : Fin 2) * 128 ≤ (i 1).val ∧ (i 1).val < win2_4.index t (1 : Fin 2) * 128 + 128
    rw [e1]; omega

theorem final (c : Dev nD) : (R2.dat V c).arrAt 4 cfg2.N = G V c :=
  (R2.dat V c).arrAt_eq_of_cover 4 (G V c) (flushed_eq V c) cover

theorem xt_apply (c : Dev nD) (i : Fin 4096) (f : Fin 128) :
    ((R2.dat V c).arrAt 4 cfg2.N : S4096x128.Idx → Elt Ideal .f32) (ix2 i f) = xtG V c i f := by
  rw [final]
  rfl

end Cert.KernelIdeal.V2

end
-- ==== Proof.KernelIdeal.V2d.lean ====
import proofs.«406496_j14319420965162_3_alg».proof.Proof.KernelIdeal.V2c

noncomputable section

namespace Cert.KernelIdeal.V2

open Cert.KernelIdeal Cert.KernelIdeal.Gen
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

-- with real scores and values the two-tile recurrence from a real starting maximum is the row softmax weighted over the values
theorem xt_apply_spec (c : Dev nD) (i : Fin 4096) (f : Fin 128)
    (hs : ∀ j, Spec.scores (aM V c) (qM V c) (kM V c) i j ≠ ⊤ ∧ Spec.scores (aM V c) (qM V c) (kM V c) i j ≠ ⊥)
    (hv : ∀ j, vM V c j f ≠ ⊤ ∧ vM V c j f ≠ ⊥) :
    ((R2.dat V c).arrAt 4 cfg2.N : S4096x128.Idx → Elt Ideal .f32) (ix2 i f)
      = Spec.xt (aM V c) (qM V c) (kM V c) (vM V c) i f := by
  rw [xt_apply]
  unfold xtG
  rw [Alg.online2 (Spec.scores (aM V c) (qM V c) (kM V c) i) (fun j => vM V c j f) mInit hs hv m0_real]
  rfl

end Cert.KernelIdeal.V2

end
-- ==== Proof.KernelIdeal.ChainE.lean ====
import proofs.«406496_j14319420965162_3_alg».proof.Proof.KernelIdeal.ChainB
import proofs.«406496_j14319420965162_3_alg».proof.Proof.KernelIdeal.V2d

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem r2_q : V2.qM (fun c b => U4 m c b) c = rd2 (X1_1 m c) := congrArg rd2 (U4_1 m c)
theorem r2_k : V2.kM (fun c b => U4 m c b) c = rd2 (X1_2 m c) := congrArg rd2 (U4_2 m c)
theorem r2_v : V2.vM (fun c b => U4 m c b) c = rd2 (X1_3 m c) := congrArg rd2 (U4_3 m c)
theorem r2_a : V2.aM (fun c b => U4 m c b) c = rd2 (X1_0 m c) := congrArg rd2 (U4_0 m c)

theorem X2_eq (i : Fin 4096) (f : Fin 128)
    (hs : ∀ j, Spec.scores (rd2 (X1_0 m c)) (rd2 (X1_1 m c)) (rd2 (X1_2 m c)) i j ≠ ⊤ ∧ Spec.scores (rd2 (X1_0 m c)) (rd2 (X1_1 m c)) (rd2 (X1_2 m c)) i j ≠ ⊥)
    (hv : ∀ j, rd2 (X1_3 m c) j f ≠ ⊤ ∧ rd2 (X1_3 m c) j f ≠ ⊥) :
    X2 m c (ix2 i f) = Spec.xt (rd2 (X1_0 m c)) (rd2 (X1_1 m c)) (rd2 (X1_2 m c)) (rd2 (X1_3 m c)) i f := by
  have h := V2.xt_apply_spec (fun c b => U4 m c b) c i f (by rw [r2_a, r2_q, r2_k]; exact hs) (by rw [r2_v]; exact hv)
  rw [r2_a, r2_q, r2_k, r2_v] at h
  exact h

end Cert.KernelIdeal.Chain

end
-- ==== Proof.KernelIdeal.V1.lean ====
import proofs.«406496_j14319420965162_3_alg».proof.Proof.Gen.KernelIdeal.Skeleton
import proofs.«406496_j14319420965162_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.V1

open Cert.KernelIdeal Cert.KernelIdeal.Gen
open Idealize.ShloMosaic Idealize.ShloMosaic.ValueIdx
open scoped BigOperators

-- An m × k by k × n product into the zero accumulator is, entry by entry, the sum over the contracted coordinate.
theorem mm_apply {m k n : ℕ} (d : DotDims ⟨2, ![m, k]⟩ ⟨2, ![k, n]⟩ ⟨2, ![m, n]⟩) (hd : d = DotDims.plain m k n)
    (l : FVec Ideal ⟨2, ![m, k]⟩ .f32) (r : FVec Ideal ⟨2, ![k, n]⟩ .f32) (p : Fin m) (q : Fin n) :
    matmul d (some .fp32) l r (constant (F := Ideal) ⟨2, ![m, n]⟩ .f32 0x00000000#32) (ix2 p q)
      = ∑ c : Fin k, l (ix2 p c) * r (ix2 c q) := by
  subst hd
  simp only [matmul]
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  refine congrArg₂ (fun a b => l a * r b) (funext fun a => Fin.ext ?_) (funext fun a => Fin.ext ?_)
  · match a with
    | ⟨0, _⟩ =>
      show ((DotDims.plain m k n).lhsIdx (ix2 p q) _ 0).val = p.val
      unfold DotDims.lhsIdx
      rw [dif_neg (show ¬(0 : Fin 2) ∈ (DotDims.plain m k n).lhsBatch from List.not_mem_nil),
        dif_pos (show (0 : Fin 2) ∈ (DotDims.plain m k n).lhsNonContracting from List.mem_singleton_self _)]
      rfl
    | ⟨1, _⟩ => exact ((DotDims.plain m k n).lhsIdx_val_of_single rfl _ _).trans hc
  · match a with
    | ⟨0, _⟩ => exact ((DotDims.plain m k n).rhsIdx_val_of_single rfl _ _).trans hc
    | ⟨1, _⟩ =>
      show ((DotDims.plain m k n).rhsIdx (ix2 p q) _ 1).val = q.val
      unfold DotDims.rhsIdx
      rw [dif_neg (show ¬(1 : Fin 2) ∈ (DotDims.plain m k n).rhsBatch from List.not_mem_nil),
        dif_pos (show (1 : Fin 2) ∈ (DotDims.plain m k n).rhsNonContracting from List.mem_singleton_self _)]
      rfl

theorem k1_pay5_apply (p : Fin 1024) (q : Fin 128) : (k1_pay5 (F := Ideal)) (ix2 p q) = 0 := by
  unfold k1_pay5
  simp only [shapeCast_self]
  rw [broadcast_apply]
  exact Ideal.ofBits_zero_f32

section
variable (v3 v5 v7 : FVec Ideal S1x1024 .f32) (v9 v12 v16 : FVec Ideal S1024x1024 .f32)

theorem k1_pay6_apply (p q : Fin 1024) :
    k1_pay6 (F := Ideal) v3 v5 v7 v9 v12 v16 (ix2 p q)
      = v9 (ix2 p q) * v3 (ix2 (0 : Fin 1) q) + v12 (ix2 p q) * v5 (ix2 (0 : Fin 1) q) + v16 (ix2 p q) * v7 (ix2 (0 : Fin 1) q) := by
  unfold k1_pay6
  simp only [shapeCast_self]
  rw [addf_apply, addf_apply, mulf_apply, mulf_apply, mulf_apply, broadcastTo_1b_ab_apply, broadcastTo_1b_ab_apply,
    broadcastTo_1b_ab_apply]

theorem k1_pay7_apply (v21 : FVec Ideal S1024x512 .f32) (v22 : FVec Ideal S512x128 .f32) (v24 : FVec Ideal S1024x128 .f32)
    (p : Fin 1024) (q : Fin 128) :
    k1_pay7 (F := Ideal) v3 v5 v7 v9 v12 v16 v21 v22 v24 (ix2 p q)
      = v24 (ix2 p q) + ∑ l : Fin 1024,
          (v9 (ix2 p l) * v3 (ix2 (0 : Fin 1) l) + v12 (ix2 p l) * v5 (ix2 (0 : Fin 1) l) + v16 (ix2 p l) * v7 (ix2 (0 : Fin 1) l))
            * ∑ m : Fin 512, v21 (ix2 l m) * v22 (ix2 m q) := by
  unfold k1_pay7
  simp only [shapeCast_self]
  rw [addf_apply, mm_apply dot_S1024x1024_S1024x128_S1024x128_1_0_0_1_n_n rfl]
  exact congrArg (v24 (ix2 p q) + ·) (Finset.sum_congr rfl fun l _ => by
    rw [k1_pay6_apply, mm_apply dot_S1024x512_S512x128_S1024x128_1_0_0_1_n_n rfl])
end

variable (v33 : FVec Ideal S1024x128 .f32) (v34 : FVec Ideal S1x128 .f32)

theorem k1_pay1_apply (p : Fin 1024) (q : Fin 128) :
    k1_pay1 (F := Ideal) v33 v34 (ix2 p q) = max (v33 (ix2 p q) + v34 (ix2 (0 : Fin 1) q)) 0 := by
  unfold k1_pay1
  simp only [shapeCast_self]
  rw [maximumf_apply, addf_apply, broadcastTo_1b_ab_apply, broadcast_apply]
  exact congrArg (max _) Ideal.ofBits_zero_f32

theorem k1_pay2_apply (v40 : FVec Ideal S128x128 .f32) (v42 : FVec Ideal S1x128 .f32) (p : Fin 1024) (q : Fin 128) :
    k1_pay2 (F := Ideal) v33 v34 v40 v42 (ix2 p q)
      = (∑ l : Fin 128, max (v33 (ix2 p l) + v34 (ix2 (0 : Fin 1) l)) 0 * v40 (ix2 l q)) + v42 (ix2 (0 : Fin 1) q) := by
  unfold k1_pay2
  simp only [shapeCast_self]
  rw [addf_apply, mm_apply dot_S1024x128_S128x128_S1024x128_1_0_0_1_n_n rfl, broadcastTo_1b_ab_apply]
  exact congrArg (· + v42 (ix2 (0 : Fin 1) q)) (Finset.sum_congr rfl fun l _ => by rw [k1_pay1_apply])

-- The three linear outputs are one expression of their arguments.
theorem k1_pay3_apply (v47 : FVec Ideal S128x128 .f32) (v49 : FVec Ideal S1x128 .f32) (p : Fin 1024) (q : Fin 128) :
    k1_pay3 (F := Ideal) v33 v34 v47 v49 (ix2 p q)
      = (∑ l : Fin 128, max (v33 (ix2 p l) + v34 (ix2 (0 : Fin 1) l)) 0 * v47 (ix2 l q)) + v49 (ix2 (0 : Fin 1) q) :=
  k1_pay2_apply v33 v34 v47 v49 p q

theorem k1_pay4_apply (v54 : FVec Ideal S128x128 .f32) (v56 : FVec Ideal S1x128 .f32) (p : Fin 1024) (q : Fin 128) :
    k1_pay4 (F := Ideal) v33 v34 v54 v56 (ix2 p q)
      = (∑ l : Fin 128, max (v33 (ix2 p l) + v34 (ix2 (0 : Fin 1) l)) 0 * v54 (ix2 l q)) + v56 (ix2 (0 : Fin 1) q) :=
  k1_pay2_apply v33 v34 v54 v56 p q

end Cert.KernelIdeal.V1

end
-- ==== Proof.KernelIdeal.V1a.lean ====
import proofs.«406496_j14319420965162_3_alg».proof.Proof.Gen.KernelIdeal.Launch
import proofs.«406496_j14319420965162_3_alg».proof.Proof.Gen.KernelIdeal.Points
import Idealize.ShloMosaic.Lib.Pipeline.Value
import Idealize.ShloMosaic.Lib.ValueIdx
import Idealize.ShloMosaic.Lib.Tactic

noncomputable section

namespace Cert.KernelIdeal.V1

open Cert.KernelIdeal Cert.KernelIdeal.Gen
open Idealize.ShloMosaic Idealize.ShloMosaic.TcCoe Idealize.ShloMosaic.ValueIdx Idealize.SL.Sem

variable {F : FTy → Type} [FloatOps F]

theorem hz : (![0, 0] : Fin 2 → Nat) = fun _ => 0 := funext fun a => by fin_cases a <;> rfl

theorem N1 : cfg1.N = 16 := N_1

theorem idx_facts : ∀ t : Fin cfg1.N,
    (win1_0.index t (0 : Fin 2) = t.val / 4 ∧ win1_0.index t (1 : Fin 2) = t.val % 4)
    ∧ (win1_1.index t (0 : Fin 2) = t.val / 4 ∧ win1_1.index t (1 : Fin 2) = t.val % 4)
    ∧ (win1_2.index t (0 : Fin 2) = t.val / 4 ∧ win1_2.index t (1 : Fin 2) = t.val % 4)
    ∧ (win1_3.index t (0 : Fin 2) = 0 ∧ win1_3.index t (1 : Fin 2) = t.val % 4)
    ∧ (win1_4.index t (0 : Fin 2) = t.val % 4 ∧ win1_4.index t (1 : Fin 2) = 0)
    ∧ (win1_13.index t (0 : Fin 2) = t.val / 4 ∧ win1_13.index t (1 : Fin 2) = t.val % 4)
    ∧ (win1_14.index t (0 : Fin 2) = t.val / 4 ∧ win1_14.index t (1 : Fin 2) = 0)
    ∧ (win1_15.index t (0 : Fin 2) = t.val / 4 ∧ win1_15.index t (1 : Fin 2) = 0)
    ∧ (win1_16.index t (0 : Fin 2) = t.val / 4 ∧ win1_16.index t (1 : Fin 2) = 0) :=
  (by decide +kernel : ∀ t : Fin grid1.N, _)

theorem idx_whole : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

def at4 (b : ℕ) (p : Fin 1024) (hb : b < 4) : Fin 4096 := ⟨1024 * b + p.val, by have := p.isLt; omega⟩

theorem div4_lt (t : Fin cfg1.N) : t.val / 4 < 4 := by have h := t.isLt; have e := N1; omega
theorem mod4_lt (t : Fin cfg1.N) : t.val % 4 < 4 := Nat.mod_lt _ (by decide)

-- Two rank-2 indices with the same coordinates read the same entry.
theorem rd2 {m n : ℕ} {α : Type} (A : (⟨2, ![m, n]⟩ : Shape).Idx → α) {j : (⟨2, ![m, n]⟩ : Shape).Idx} {P : Fin m} {Q : Fin n}
    (h0 : (j 0).val = P.val) (h1 : (j 1).val = Q.val) : A j = A (ix2 P Q) :=
  congrArg A (funext fun a => Fin.ext (match a with | ⟨0, _⟩ => h0 | ⟨1, _⟩ => h1))

-- A block's coordinate in its array: block index times block size plus the coordinate inside the block.
theorem off {i c s x : ℕ} (e : i = c) : i * s + 1 * x = s * c + x := by rw [e, Nat.one_mul, Nat.mul_comm]
theorem off0 {i s x : ℕ} (e : i = 0) : i * s + 1 * x = x := by rw [e, Nat.zero_mul, Nat.zero_add, Nat.one_mul]

section
variable (A : S4096x4096.Idx → Elt F .f32) (t : Fin cfg1.N) (p q : Fin 1024)
theorem blk0_apply : (((cfg1.win 0).blk t).view.read (Elt F) A : Vec F S1024x1024 .f32) (ix2 p q)
    = A (ix2 (at4 (t.val / 4) p (div4_lt t)) (at4 (t.val % 4) q (mod4_lt t))) :=
  rd2 A (off (idx_facts t).1.1) (off (idx_facts t).1.2)
theorem blk1_apply : (((cfg1.win 1).blk t).view.read (Elt F) A : Vec F S1024x1024 .f32) (ix2 p q)
    = A (ix2 (at4 (t.val / 4) p (div4_lt t)) (at4 (t.val % 4) q (mod4_lt t))) :=
  rd2 A (off (idx_facts t).2.1.1) (off (idx_facts t).2.1.2)
theorem blk2_apply : (((cfg1.win 2).blk t).view.read (Elt F) A : Vec F S1024x1024 .f32) (ix2 p q)
    = A (ix2 (at4 (t.val / 4) p (div4_lt t)) (at4 (t.val % 4) q (mod4_lt t))) :=
  rd2 A (off (idx_facts t).2.2.1.1) (off (idx_facts t).2.2.1.2)
theorem blk13_apply : (((cfg1.win 13).blk t).view.read (Elt F) A : Vec F S1024x1024 .f32) (ix2 p q)
    = A (ix2 (at4 (t.val / 4) p (div4_lt t)) (at4 (t.val % 4) q (mod4_lt t))) :=
  rd2 A (off (idx_facts t).2.2.2.2.2.1.1) (off (idx_facts t).2.2.2.2.2.1.2)
end
theorem blk3_apply (A : S3x4096.Idx → Elt F .f32) (t : Fin cfg1.N) (k : Fin 3) (q : Fin 1024) :
    (((cfg1.win 3).blk t).view.read (Elt F) A : Vec F S3x1024 .f32) (ix2 k q)
      = A (ix2 k (at4 (t.val % 4) q (mod4_lt t))) :=
  rd2 A (off0 (idx_facts t).2.2.2.1.1) (off (idx_facts t).2.2.2.1.2)
theorem blk4_apply (A : S4096x512.Idx → Elt F .f32) (t : Fin cfg1.N) (p : Fin 1024) (q : Fin 512) :
    (((cfg1.win 4).blk t).view.read (Elt F) A : Vec F S1024x512 .f32) (ix2 p q)
      = A (ix2 (at4 (t.val % 4) p (mod4_lt t)) q) :=
  rd2 A (off (idx_facts t).2.2.2.2.1.1) (off0 (idx_facts t).2.2.2.2.1.2)
theorem blk5_apply (A : S512x128.Idx → Elt F .f32) (t : Fin cfg1.N) (p : Fin 512) (q : Fin 128) :
    (((cfg1.win 5).blk t).view.read (Elt F) A : Vec F S512x128 .f32) (ix2 p q) = A (ix2 p q) :=
  rd2 A (off0 (idx_whole t).1.1) (off0 (idx_whole t).1.2)
section
variable (A : S128x128.Idx → Elt F .f32) (t : Fin cfg1.N) (p q : Fin 128)
theorem blk6_apply : (((cfg1.win 6).blk t).view.read (Elt F) A : Vec F S128x128 .f32) (ix2 p q) = A (ix2 p q) :=
  rd2 A (off0 (idx_whole t).2.1.1) (off0 (idx_whole t).2.1.2)
theorem blk8_apply : (((cfg1.win 8).blk t).view.read (Elt F) A : Vec F S128x128 .f32) (ix2 p q) = A (ix2 p q) :=
  rd2 A (off0 (idx_whole t).2.2.2.1.1) (off0 (idx_whole t).2.2.2.1.2)
theorem blk10_apply : (((cfg1.win 10).blk t).view.read (Elt F) A : Vec F S128x128 .f32) (ix2 p q) = A (ix2 p q) :=
  rd2 A (off0 (idx_whole t).2.2.2.2.2.1.1) (off0 (idx_whole t).2.2.2.2.2.1.2)
end
section
variable (A : S1x128.Idx → Elt F .f32) (t : Fin cfg1.N) (p : Fin 1) (q : Fin 128)
theorem blk7_apply : (((cfg1.win 7).blk t).view.read (Elt F) A : Vec F S1x128 .f32) (ix2 p q) = A (ix2 p q) :=
  rd2 A (off0 (idx_whole t).2.2.1.1) (off0 (idx_whole t).2.2.1.2)
theorem blk9_apply : (((cfg1.win 9).blk t).view.read (Elt F) A : Vec F S1x128 .f32) (ix2 p q) = A (ix2 p q) :=
  rd2 A (off0 (idx_whole t).2.2.2.2.1.1) (off0 (idx_whole t).2.2.2.2.1.2)
theorem blk11_apply : (((cfg1.win 11).blk t).view.read (Elt F) A : Vec F S1x128 .f32) (ix2 p q) = A (ix2 p q) :=
  rd2 A (off0 (idx_whole t).2.2.2.2.2.2.1.1) (off0 (idx_whole t).2.2.2.2.2.2.1.2)
theorem blk12_apply : (((cfg1.win 12).blk t).view.read (Elt F) A : Vec F S1x128 .f32) (ix2 p q) = A (ix2 p q) :=
  rd2 A (off0 (idx_whole t).2.2.2.2.2.2.2.1) (off0 (idx_whole t).2.2.2.2.2.2.2.2)
end
section
variable (A : S4096x128.Idx → Elt F .f32) (t : Fin cfg1.N) (p : Fin 1024) (q : Fin 128)
theorem blk14_apply : (((cfg1.win 14).blk t).view.read (Elt F) A : Vec F S1024x128 .f32) (ix2 p q) = A (ix2 (at4 (t.val / 4) p (div4_lt t)) q) :=
  rd2 A (off (idx_facts t).2.2.2.2.2.2.1.1) (off0 (idx_facts t).2.2.2.2.2.2.1.2)
theorem blk15_apply : (((cfg1.win 15).blk t).view.read (Elt F) A : Vec F S1024x128 .f32) (ix2 p q) = A (ix2 (at4 (t.val / 4) p (div4_lt t)) q) :=
  rd2 A (off (idx_facts t).2.2.2.2.2.2.2.1.1) (off0 (idx_facts t).2.2.2.2.2.2.2.1.2)
theorem blk16_apply : (((cfg1.win 16).blk t).view.read (Elt F) A : Vec F S1024x128 .f32) (ix2 p q) = A (ix2 (at4 (t.val / 4) p (div4_lt t)) q) :=
  rd2 A (off (idx_facts t).2.2.2.2.2.2.2.2.1) (off0 (idx_facts t).2.2.2.2.2.2.2.2.2)
end

end Cert.KernelIdeal.V1

end
-- ==== Proof.KernelIdeal.V1b.lean ====
import proofs.«406496_j14319420965162_3_alg».proof.Proof.KernelIdeal.R1
import proofs.«406496_j14319420965162_3_alg».proof.Proof.KernelIdeal.V1
import proofs.«406496_j14319420965162_3_alg».proof.Proof.KernelIdeal.V1a

noncomputable section

namespace Cert.KernelIdeal.V1

open Cert.KernelIdeal Cert.KernelIdeal.Gen
open Idealize.ShloMosaic Idealize.ShloMosaic.TcCoe Idealize.ShloMosaic.ValueIdx Idealize.SL.Sem
open scoped BigOperators

theorem rst_apply (p : Fin 1024) (q : Fin 128) : (R1.rst (F := Ideal) : FVec Ideal S1024x128 .f32) (ix2 p q) = 0 := by
  unfold R1.rst
  rw [View.canon_unit_zero hz]
  exact k1_pay5_apply p q

section
variable (x0 x1 x2 : Vec Ideal S1024x1024 .f32) (x3 : Vec Ideal S3x1024 .f32)

-- A one-row rectangle at row k of the 3 x 1024 block reads that row.
theorem ld_row {j : S3x1024.Idx} {k : Fin 3} {q : Fin 1024} (h0 : (j 0).val = k.val) (h1 : (j 1).val = 0 + 1 * q.val) :
    x3 j = x3 (ix2 k q) :=
  congrArg x3 (funext fun a => Fin.ext (match a with | ⟨0, _⟩ => h0 | ⟨1, _⟩ => h1.trans ((Nat.zero_add _).trans (Nat.one_mul _))))
theorem ld_rN0 (q : Fin 1024) : (View.ld x3 R1.rN0 : FVec Ideal S1x1024 .f32) (ix2 (0 : Fin 1) q) = x3 (ix2 (0 : Fin 3) q) :=
  ld_row x3 rfl rfl
theorem ld_rN1 (q : Fin 1024) : (View.ld x3 R1.rN1 : FVec Ideal S1x1024 .f32) (ix2 (0 : Fin 1) q) = x3 (ix2 (1 : Fin 3) q) :=
  ld_row x3 rfl rfl
theorem ld_rN2 (q : Fin 1024) : (View.ld x3 R1.rN2 : FVec Ideal S1x1024 .f32) (ix2 (0 : Fin 1) q) = x3 (ix2 (2 : Fin 3) q) :=
  ld_row x3 rfl rfl

theorem adjT_apply (p q : Fin 1024) :
    (R1.adjT x0 x1 x2 x3 : FVec Ideal S1024x1024 .f32) (ix2 p q)
      = x0 (ix2 p q) * x3 (ix2 (0 : Fin 3) q) + x1 (ix2 p q) * x3 (ix2 (1 : Fin 3) q) + x2 (ix2 p q) * x3 (ix2 (2 : Fin 3) q) := by
  unfold R1.adjT
  rw [View.canon_unit_zero hz]
  simp only [View.ld_unit_zero (S := S1024x1024) hz]
  refine (k1_pay6_apply (View.ld x3 R1.rN0) (View.ld x3 R1.rN1) (View.ld x3 R1.rN2) x0 x1 x2 p q).trans ?_
  rw [ld_rN0, ld_rN1, ld_rN2]

theorem accStep_apply (x4 : Vec Ideal S1024x512 .f32)
    (x5 : Vec Ideal S512x128 .f32) (s : Vec Ideal S1024x128 .f32) (p : Fin 1024) (q : Fin 128) :
    (R1.accStep x0 x1 x2 x3 x4 x5 s : FVec Ideal S1024x128 .f32) (ix2 p q)
      = s (ix2 p q) + ∑ l : Fin 1024,
          (x0 (ix2 p l) * x3 (ix2 (0 : Fin 3) l) + x1 (ix2 p l) * x3 (ix2 (1 : Fin 3) l) + x2 (ix2 p l) * x3 (ix2 (2 : Fin 3) l))
            * ∑ m : Fin 512, x4 (ix2 l m) * x5 (ix2 m q) := by
  unfold R1.accStep
  rw [View.canon_unit_zero hz]
  simp only [View.ld_unit_zero (S := S1024x1024) hz, View.ld_unit_zero (S := S1024x512) hz, View.ld_unit_zero (S := S512x128) hz,
    View.ld_unit_zero (S := S1024x128) hz]
  refine (k1_pay7_apply (View.ld x3 R1.rN0) (View.ld x3 R1.rN1) (View.ld x3 R1.rN2) x0 x1 x2 x4 x5 s p q).trans ?_
  exact congrArg (s (ix2 p q) + ·) (Finset.sum_congr rfl fun l _ => by rw [ld_rN0, ld_rN1, ld_rN2])
end

variable (s : Vec Ideal S1024x128 .f32) (b1 : Vec Ideal S1x128 .f32) (W : Vec Ideal S128x128 .f32) (b : Vec Ideal S1x128 .f32)
  (p : Fin 1024) (q : Fin 128)

theorem qOut_apply :
    (R1.qOut s b1 W b : FVec Ideal S1024x128 .f32) (ix2 p q)
      = (∑ l : Fin 128, max (s (ix2 p l) + b1 (ix2 (0 : Fin 1) l)) 0 * W (ix2 l q)) + b (ix2 (0 : Fin 1) q) := by
  unfold R1.qOut
  rw [View.canon_unit_zero hz]
  simp only [View.ld_unit_zero (S := S1024x128) hz, View.ld_unit_zero (S := S1x128) hz, View.ld_unit_zero (S := S128x128) hz]
  exact k1_pay2_apply s b1 W b p q

-- The three outputs are one expression of their arguments.
theorem kOut_apply :
    (R1.kOut s b1 W b : FVec Ideal S1024x128 .f32) (ix2 p q)
      = (∑ l : Fin 128, max (s (ix2 p l) + b1 (ix2 (0 : Fin 1) l)) 0 * W (ix2 l q)) + b (ix2 (0 : Fin 1) q) :=
  qOut_apply s b1 W b p q

theorem vOut_apply :
    (R1.vOut s b1 W b : FVec Ideal S1024x128 .f32) (ix2 p q)
      = (∑ l : Fin 128, max (s (ix2 p l) + b1 (ix2 (0 : Fin 1) l)) 0 * W (ix2 l q)) + b (ix2 (0 : Fin 1) q) :=
  qOut_apply s b1 W b p q

end Cert.KernelIdeal.V1

end
-- ==== Proof.KernelIdeal.V1c.lean ====
import proofs.«406496_j14319420965162_3_alg».proof.Proof.KernelIdeal.V1b
import proofs.«406496_j14319420965162_3_alg».proof.Proof.Alg.Sums

noncomputable section

namespace Cert.KernelIdeal.V1

open Cert Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))
  (c : Dev nD) (t : Fin cfg1.N)

noncomputable def mA0 : Spec.Mat 4096 4096 := fun i j => (V c (Pipeline.arrRef spec1 0) : Vec Ideal S4096x4096 .f32) (ix2 i j)
noncomputable def mA1 : Spec.Mat 4096 4096 := fun i j => (V c (Pipeline.arrRef spec1 1) : Vec Ideal S4096x4096 .f32) (ix2 i j)
noncomputable def mA2 : Spec.Mat 4096 4096 := fun i j => (V c (Pipeline.arrRef spec1 2) : Vec Ideal S4096x4096 .f32) (ix2 i j)
noncomputable def mW : Spec.Mat 4096 3 := fun j k => (V c (Pipeline.arrRef spec1 3) : Vec Ideal S3x4096 .f32) (ix2 k j)
noncomputable def mX : Spec.Mat 4096 512 := fun i j => (V c (Pipeline.arrRef spec1 4) : Vec Ideal S4096x512 .f32) (ix2 i j)
noncomputable def mW1 : Spec.Mat 512 128 := fun i j => (V c (Pipeline.arrRef spec1 5) : Vec Ideal S512x128 .f32) (ix2 i j)
noncomputable def mWq : Spec.Mat 128 128 := fun i j => (V c (Pipeline.arrRef spec1 6) : Vec Ideal S128x128 .f32) (ix2 i j)
noncomputable def rBq : Spec.Row 128 := fun f => (V c (Pipeline.arrRef spec1 7) : Vec Ideal S1x128 .f32) (ix2 (0 : Fin 1) f)
noncomputable def mWk : Spec.Mat 128 128 := fun i j => (V c (Pipeline.arrRef spec1 8) : Vec Ideal S128x128 .f32) (ix2 i j)
noncomputable def rBk : Spec.Row 128 := fun f => (V c (Pipeline.arrRef spec1 9) : Vec Ideal S1x128 .f32) (ix2 (0 : Fin 1) f)
noncomputable def mWv : Spec.Mat 128 128 := fun i j => (V c (Pipeline.arrRef spec1 10) : Vec Ideal S128x128 .f32) (ix2 i j)
noncomputable def rBv : Spec.Row 128 := fun f => (V c (Pipeline.arrRef spec1 11) : Vec Ideal S1x128 .f32) (ix2 (0 : Fin 1) f)
noncomputable def rB1 : Spec.Row 128 := fun f => (V c (Pipeline.arrRef spec1 12) : Vec Ideal S1x128 .f32) (ix2 (0 : Fin 1) f)

noncomputable def mAdj : Spec.Mat 4096 4096 := Spec.adj (mA0 V c) (mA1 V c) (mA2 V c) (mW V c)
noncomputable def mXW : Spec.Mat 4096 128 := Spec.mm (mX V c) (mW1 V c)

abbrev b0 : Vec Ideal S1024x1024 .f32 := R1.iblk V c 0 t
abbrev b1 : Vec Ideal S1024x1024 .f32 := R1.iblk V c 1 t
abbrev b2 : Vec Ideal S1024x1024 .f32 := R1.iblk V c 2 t
abbrev b3 : Vec Ideal S3x1024 .f32 := R1.iblk V c 3 t
abbrev b4 : Vec Ideal S1024x512 .f32 := R1.iblk V c 4 t
abbrev b5 : Vec Ideal S512x128 .f32 := R1.iblk V c 5 t

theorem iblk0_apply (p q : Fin 1024) :
    b0 V c t (ix2 p q) = mA0 V c (at4 (t.val / 4) p (div4_lt t)) (at4 (t.val % 4) q (mod4_lt t)) :=
  blk0_apply (V c (Pipeline.arrRef spec1 0)) t p q
theorem iblk1_apply (p q : Fin 1024) :
    b1 V c t (ix2 p q) = mA1 V c (at4 (t.val / 4) p (div4_lt t)) (at4 (t.val % 4) q (mod4_lt t)) :=
  blk1_apply (V c (Pipeline.arrRef spec1 1)) t p q
theorem iblk2_apply (p q : Fin 1024) :
    b2 V c t (ix2 p q) = mA2 V c (at4 (t.val / 4) p (div4_lt t)) (at4 (t.val % 4) q (mod4_lt t)) :=
  blk2_apply (V c (Pipeline.arrRef spec1 2)) t p q
theorem iblk3_apply (k : Fin 3) (q : Fin 1024) :
    b3 V c t (ix2 k q) = mW V c (at4 (t.val % 4) q (mod4_lt t)) k :=
  blk3_apply (V c (Pipeline.arrRef spec1 3)) t k q

noncomputable def seg (I : Fin 4096) (f : Fin 128) (j : ℕ) : EReal :=
  if hj : j < 4 then ∑ l : Fin 1024, mAdj V c I (at4 j l hj) * mXW V c (at4 j l hj) f else 0

noncomputable def part (g : ℕ → EReal) : ℕ → EReal
  | 0 => 0 + g 0
  | n + 1 => part g n + g (n + 1)

theorem step_apply (s : Vec Ideal S1024x128 .f32) (p : Fin 1024) (f : Fin 128) :
    (R1.accStep (b0 V c t) (b1 V c t) (b2 V c t) (b3 V c t) (b4 V c t) (b5 V c t) s : FVec Ideal S1024x128 .f32) (ix2 p f)
      = s (ix2 p f) + seg V c (at4 (t.val / 4) p (div4_lt t)) f (t.val % 4) := by
  refine (accStep_apply (b0 V c t) (b1 V c t) (b2 V c t) (b3 V c t) (b4 V c t) (b5 V c t) s p f).trans ?_
  unfold seg
  rw [dif_pos (mod4_lt t)]
  refine congrArg (fun z : EReal => s (ix2 p f) + z) (Finset.sum_congr rfl fun l _ => ?_)
  refine congrArg₂ (fun a b : EReal => a * b) ?_ ?_
  · rw [iblk0_apply V c t p l, iblk1_apply V c t p l, iblk2_apply V c t p l, iblk3_apply V c t 0 l, iblk3_apply V c t 1 l,
      iblk3_apply V c t 2 l]
    rfl
  · show _ = ∑ m : Fin 512, mX V c (at4 (t.val % 4) l (mod4_lt t)) m * mW1 V c m f
    exact Finset.sum_congr rfl fun m _ => congrArg₂ (fun a b : EReal => a * b) (blk4_apply (V c (Pipeline.arrRef spec1 4)) t l m)
      (blk5_apply (V c (Pipeline.arrRef spec1 5)) t m f)

theorem acc_reset_apply (h : t.val % 4 = 0) (p : Fin 1024) (f : Fin 128) :
    (R1.accAt V c t.val t.isLt : FVec Ideal S1024x128 .f32) (ix2 p f)
      = 0 + seg V c (at4 (t.val / 4) p (div4_lt t)) f (t.val % 4) := by
  refine (congrFun (R1.accAt_reset V c t h) (ix2 p f)).trans ?_
  refine (step_apply V c t R1.rst p f).trans ?_
  exact congrArg (fun z : EReal => z + seg V c (at4 (t.val / 4) p (div4_lt t)) f (t.val % 4)) (rst_apply p f)

theorem at4_congr {b b' : ℕ} (e : b = b') (p : Fin 1024) (hb : b < 4) (hb' : b' < 4) : at4 b p hb = at4 b' p hb' := by
  subst e; rfl

theorem acc_inv : ∀ (n : ℕ) (hn : n < cfg1.N) (p : Fin 1024) (f : Fin 128),
    (R1.accAt V c n hn : FVec Ideal S1024x128 .f32) (ix2 p f)
      = part (seg V c (at4 (n / 4) p (div4_lt ⟨n, hn⟩)) f) (n % 4) := by
  intro n
  induction n with
  | zero =>
    intro hn p f
    exact acc_reset_apply V c ⟨0, hn⟩ rfl p f
  | succ n ih =>
    intro hn p f
    have hn' : n < cfg1.N := Nat.lt_of_succ_lt hn
    by_cases h : (n + 1) % 4 = 0
    · refine (acc_reset_apply V c ⟨n + 1, hn⟩ h p f).trans ?_
      show 0 + seg V c (at4 ((n + 1) / 4) p (div4_lt ⟨n + 1, hn⟩)) f ((n + 1) % 4)
        = part (seg V c (at4 ((n + 1) / 4) p (div4_lt ⟨n + 1, hn⟩)) f) ((n + 1) % 4)
      rw [h]
      rfl
    · refine ((congrFun (R1.accAt_carry V c ⟨n + 1, hn⟩ h) (ix2 p f)).trans (step_apply V c ⟨n + 1, hn⟩ _ p f)).trans ?_
      have e1 : (n + 1) / 4 = n / 4 := by omega
      have e2 : (n + 1) % 4 = n % 4 + 1 := by omega
      have eI : at4 ((n + 1) / 4) p (div4_lt ⟨n + 1, hn⟩) = at4 (n / 4) p (div4_lt ⟨n, hn'⟩) :=
        at4_congr e1 p (div4_lt ⟨n + 1, hn⟩) (div4_lt ⟨n, hn'⟩)
      show (R1.accAt V c n hn' : FVec Ideal S1024x128 .f32) (ix2 p f)
          + seg V c (at4 ((n + 1) / 4) p (div4_lt ⟨n + 1, hn⟩)) f ((n + 1) % 4)
        = part (seg V c (at4 ((n + 1) / 4) p (div4_lt ⟨n + 1, hn⟩)) f) ((n + 1) % 4)
      rw [ih hn' p f, e2, eI]
      rfl

theorem part3_eq (I : Fin 4096) (f : Fin 128) :
    part (seg V c I f) 3 = Spec.mm (mAdj V c) (mXW V c) I f := by
  have e0 : ∀ l : Fin 1024, at4 0 l (by decide) = (⟨l.val, by have := l.isLt; omega⟩ : Fin 4096) := fun l => Fin.ext (by show 1024 * 0 + l.val = l.val; omega)
  have e : ∀ (j a : ℕ) (hj : j < 4) (ha : 1024 * j = a) (l : Fin 1024),
      at4 j l hj = (⟨a + l.val, by have := l.isLt; omega⟩ : Fin 4096) :=
    fun j a hj ha l => Fin.ext (by show 1024 * j + l.val = a + l.val; rw [ha])
  unfold Spec.mm
  rw [Alg.sum_blocks4 (fun l => mAdj V c I l * mXW V c l f)]
  show (((0 + seg V c I f 0) + seg V c I f 1) + seg V c I f 2) + seg V c I f 3 = _
  unfold seg
  rw [dif_pos (by decide : 0 < 4), dif_pos (by decide : 1 < 4), dif_pos (by decide : 2 < 4), dif_pos (by decide : 3 < 4)]
  simp only [e0, e 1 1024 _ rfl, e 2 2048 _ rfl, e 3 3072 _ rfl]

theorem acc_last (h : t.val % 4 = 3) (p : Fin 1024) (f : Fin 128) :
    (R1.accAt V c t.val t.isLt : FVec Ideal S1024x128 .f32) (ix2 p f)
      = Spec.mm (mAdj V c) (mXW V c) (at4 (t.val / 4) p (div4_lt t)) f := by
  rw [acc_inv V c t.val t.isLt p f, h]
  exact part3_eq V c _ f

end Cert.KernelIdeal.V1

end
-- ==== Proof.KernelIdeal.V1d.lean ====
import proofs.«406496_j14319420965162_3_alg».proof.Proof.KernelIdeal.V1c

noncomputable section

namespace Cert.KernelIdeal.V1

open Cert Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))
  (c : Dev nD)

theorem ext2 {n0 n1 : ℕ} {α : Type} (f g : (⟨2, ![n0, n1]⟩ : Shape).Idx → α)
    (h : ∀ (p : Fin n0) (q : Fin n1), f (ix2 p q) = g (ix2 p q)) : f = g :=
  funext fun j => by rw [eq_ix2 j]; exact h (j 0) (j 1)

def gAdj : Vec Ideal S4096x4096 .f32 :=
  fun i => mAdj V c ⟨(i 0).val, idx2_lt0 i⟩ ⟨(i 1).val, idx2_lt1 i⟩

-- The sixteen 1024 x 1024 blocks tile the array, and each holds a0 * w0 + a1 * w1 + a2 * w2 at its offsets.
theorem arr13_apply (I J : Fin 4096) :
    ((R1.dat V c).arrAt 13 cfg1.N : Vec Ideal S4096x4096 .f32) (ix2 I J)
      = Spec.adj (mA0 V c) (mA1 V c) (mA2 V c) (mW V c) I J :=
  congrFun ((R1.dat V c).arrAt_eq_of_cover 13 (gAdj V c) (fun t _ => by
    show (cfg1.win 13).cut (grid1.coords t) ((R1.dat V c).after 13 t) = _
    rw [R1.after_13 V c t]
    exact ext2 (R1.adjT (b0 V c t) (b1 V c t) (b2 V c t) (b3 V c t) : Vec Ideal S1024x1024 .f32) _ fun p q => by
      refine (adjT_apply (b0 V c t) (b1 V c t) (b2 V c t) (b3 V c t) p q).trans ?_
      rw [iblk0_apply V c t p q, iblk1_apply V c t p q, iblk2_apply V c t p q, iblk3_apply V c t 0 q, iblk3_apply V c t 1 q,
        iblk3_apply V c t 2 q]
      exact (blk13_apply (gAdj V c) t p q).symm) fun (i : S4096x4096.Idx) => by
    have h0 : (i 0).val < 4096 := idx2_lt0 i
    have h1 : (i 1).val < 4096 := idx2_lt1 i
    have hN := N1
    obtain ⟨t, ht⟩ : ∃ t : Fin cfg1.N, t.val = 4 * ((i 0).val / 1024) + (i 1).val / 1024 := ⟨⟨_, by omega⟩, rfl⟩
    refine ⟨t, flush1_13 t, ?_⟩
    show i ∈ ((View.whole main_v13_0).slice (win1_13.rect t)).set
    rw [View.set_slice_whole, Rect.mem_set_unit]
    intro a
    match a with
    | ⟨0, _⟩ =>
      show win1_13.index t (0 : Fin 2) * 1024 ≤ (i 0).val ∧ (i 0).val < win1_13.index t (0 : Fin 2) * 1024 + 1024
      rw [(idx_facts t).2.2.2.2.2.1.1]; omega
    | ⟨1, _⟩ =>
      show win1_13.index t (1 : Fin 2) * 1024 ≤ (i 1).val ∧ (i 1).val < win1_13.index t (1 : Fin 2) * 1024 + 1024
      rw [(idx_facts t).2.2.2.2.2.1.2]; omega) (ix2 I J)

end Cert.KernelIdeal.V1

end
-- ==== Proof.KernelIdeal.V1e.lean ====
import proofs.«406496_j14319420965162_3_alg».proof.Proof.KernelIdeal.V1d

noncomputable section

namespace Cert.KernelIdeal.V1

open Cert Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))
  (c : Dev nD) (t : Fin cfg1.N)

abbrev b12 : Vec Ideal S1x128 .f32 := R1.iblk V c 12 t

theorem iblk12_apply (q : Fin 128) : b12 V c t (ix2 (0 : Fin 1) q) = rB1 V c q :=
  blk12_apply (V c (Pipeline.arrRef spec1 12)) t 0 q

def hidM : Spec.Mat 4096 128 := Spec.hid (mAdj V c) (mX V c) (mW1 V c) (rB1 V c)

def gLin (W : Spec.Mat 128 128) (b : Spec.Row 128) : Vec Ideal S4096x128 .f32 :=
  fun i => Spec.lin (hidM V c) W b ⟨(i 0).val, idx2_lt0 i⟩ ⟨(i 1).val, idx2_lt1 i⟩

-- After the last column block the accumulator is a row block of adj * (x * W1).
theorem lin_block (h : t.val % 4 = 3) {W : Spec.Mat 128 128} {b : Spec.Row 128}
    {bW : Vec Ideal S128x128 .f32} {bb : Vec Ideal S1x128 .f32}
    (hW : ∀ l q, bW (ix2 l q) = W l q) (hb : ∀ q, bb (ix2 (0 : Fin 1) q) = b q)
    {O R : Vec Ideal S1024x128 .f32}
    (hO : ∀ p q, O (ix2 p q) = (∑ l : Fin 128, max ((R1.accAt V c t.val t.isLt : FVec Ideal S1024x128 .f32) (ix2 p l)
      + b12 V c t (ix2 (0 : Fin 1) l)) 0 * bW (ix2 l q)) + bb (ix2 (0 : Fin 1) q))
    (hR : ∀ p q, R (ix2 p q) = gLin V c W b (ix2 (at4 (t.val / 4) p (div4_lt t)) q)) : O = R :=
  ext2 _ _ fun p q => by
    rw [hO, hR, hb]
    show _ = (∑ l : Fin 128, hidM V c (at4 (t.val / 4) p (div4_lt t)) l * W l q) + b q
    refine congrArg (fun z : EReal => z + b q) (Finset.sum_congr rfl fun l _ => ?_)
    rw [acc_last V c t h p l, iblk12_apply V c t l, hW l q]
    rfl

-- Rows split into four blocks of 1024; block i belongs to point 4 * i + 3.
theorem row_cover {ix : Fin cfg1.N → Fin 2 → ℕ} (hix : ∀ t, ix t 0 = t.val / 4 ∧ ix t 1 = 0) (i : S4096x128.Idx) :
    ∃ t : Fin cfg1.N, t.val % 4 = 3 ∧ ∀ a : Fin 2, ix t a * S1024x128.size a ≤ (i a).val
      ∧ (i a).val < ix t a * S1024x128.size a + S1024x128.size a := by
  have h0 : (i 0).val < 4096 := idx2_lt0 i
  have h1 : (i 1).val < 128 := idx2_lt1 i
  have hN := N1
  obtain ⟨t, ht⟩ : ∃ t : Fin cfg1.N, t.val = 4 * ((i 0).val / 1024) + 3 := ⟨⟨_, by omega⟩, rfl⟩
  refine ⟨t, by omega, fun a => ?_⟩
  match a with
  | ⟨0, _⟩ =>
    show ix t 0 * 1024 ≤ (i 0).val ∧ (i 0).val < ix t 0 * 1024 + 1024
    rw [(hix t).1]; omega
  | ⟨1, _⟩ =>
    show ix t 1 * 128 ≤ (i 1).val ∧ (i 1).val < ix t 1 * 128 + 128
    rw [(hix t).2]; omega

theorem arr14_apply (I : Fin 4096) (f : Fin 128) :
    ((R1.dat V c).arrAt 14 cfg1.N : Vec Ideal S4096x128 .f32) (ix2 I f)
      = Spec.lin (Spec.hid (mAdj V c) (mX V c) (mW1 V c) (rB1 V c)) (mWq V c) (rBq V c) I f :=
  congrFun ((R1.dat V c).arrAt_eq_of_cover 14 (gLin V c (mWq V c) (rBq V c)) (fun t hf => by
    show (cfg1.win 14).cut (grid1.coords t) ((R1.dat V c).after 14 t) = _
    rw [R1.after_14 V c t]
    exact lin_block V c t ((flush1_14 t).mp hf) (W := mWq V c) (b := rBq V c) (blk6_apply (V c (Pipeline.arrRef spec1 6)) t)
      (blk7_apply (V c (Pipeline.arrRef spec1 7)) t 0) (qOut_apply _ _ _ _) (blk14_apply (gLin V c (mWq V c) (rBq V c)) t)) fun (i : S4096x128.Idx) => by
    obtain ⟨t, h, hm⟩ := row_cover (ix := win1_14.index) (fun t => (idx_facts t).2.2.2.2.2.2.1) i
    refine ⟨t, (flush1_14 t).mpr h, ?_⟩
    show i ∈ ((View.whole main_v13_1).slice (win1_14.rect t)).set
    rw [View.set_slice_whole, Rect.mem_set_unit]
    exact hm) (ix2 I f)

theorem arr15_apply (I : Fin 4096) (f : Fin 128) :
    ((R1.dat V c).arrAt 15 cfg1.N : Vec Ideal S4096x128 .f32) (ix2 I f)
      = Spec.lin (Spec.hid (mAdj V c) (mX V c) (mW1 V c) (rB1 V c)) (mWk V c) (rBk V c) I f :=
  congrFun ((R1.dat V c).arrAt_eq_of_cover 15 (gLin V c (mWk V c) (rBk V c)) (fun t hf => by
    show (cfg1.win 15).cut (grid1.coords t) ((R1.dat V c).after 15 t) = _
    rw [R1.after_15 V c t]
    exact lin_block V c t ((flush1_15 t).mp hf) (W := mWk V c) (b := rBk V c) (blk8_apply (V c (Pipeline.arrRef spec1 8)) t)
      (blk9_apply (V c (Pipeline.arrRef spec1 9)) t 0) (kOut_apply _ _ _ _) (blk15_apply (gLin V c (mWk V c) (rBk V c)) t)) fun (i : S4096x128.Idx) => by
    obtain ⟨t, h, hm⟩ := row_cover (ix := win1_15.index) (fun t => (idx_facts t).2.2.2.2.2.2.2.1) i
    refine ⟨t, (flush1_15 t).mpr h, ?_⟩
    show i ∈ ((View.whole main_v13_2).slice (win1_15.rect t)).set
    rw [View.set_slice_whole, Rect.mem_set_unit]
    exact hm) (ix2 I f)

theorem arr16_apply (I : Fin 4096) (f : Fin 128) :
    ((R1.dat V c).arrAt 16 cfg1.N : Vec Ideal S4096x128 .f32) (ix2 I f)
      = Spec.lin (Spec.hid (mAdj V c) (mX V c) (mW1 V c) (rB1 V c)) (mWv V c) (rBv V c) I f :=
  congrFun ((R1.dat V c).arrAt_eq_of_cover 16 (gLin V c (mWv V c) (rBv V c)) (fun t hf => by
    show (cfg1.win 16).cut (grid1.coords t) ((R1.dat V c).after 16 t) = _
    rw [R1.after_16 V c t]
    exact lin_block V c t ((flush1_16 t).mp hf) (W := mWv V c) (b := rBv V c) (blk10_apply (V c (Pipeline.arrRef spec1 10)) t)
      (blk11_apply (V c (Pipeline.arrRef spec1 11)) t 0) (vOut_apply _ _ _ _) (blk16_apply (gLin V c (mWv V c) (rBv V c)) t)) fun (i : S4096x128.Idx) => by
    obtain ⟨t, h, hm⟩ := row_cover (ix := win1_16.index) (fun t => (idx_facts t).2.2.2.2.2.2.2.2) i
    refine ⟨t, (flush1_16 t).mpr h, ?_⟩
    show i ∈ ((View.whole main_v13_3).slice (win1_16.rect t)).set
    rw [View.set_slice_whole, Rect.mem_set_unit]
    exact hm) (ix2 I f)

end Cert.KernelIdeal.V1

end
-- ==== Proof.KernelIdeal.ChainG.lean ====
import proofs.«406496_j14319420965162_3_alg».proof.Proof.KernelIdeal.ChainC
import proofs.«406496_j14319420965162_3_alg».proof.Proof.KernelIdeal.V1e

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem r1_mA0 : V1.mA0 (fun c b => U3 m c b) c = (argsK m c).A0 := congrArg rd2 (U3_of m c main_arg0 (by decide) (by decide) (by decide))
theorem r1_mA1 : V1.mA1 (fun c b => U3 m c b) c = (argsK m c).A1 := congrArg rd2 (U3_of m c main_arg1 (by decide) (by decide) (by decide))
theorem r1_mA2 : V1.mA2 (fun c b => U3 m c b) c = (argsK m c).A2 := congrArg rd2 (U3_of m c main_arg2 (by decide) (by decide) (by decide))
theorem r1_mX : V1.mX (fun c b => U3 m c b) c = (argsK m c).x := congrArg rd2 (U3_of m c main_arg3 (by decide) (by decide) (by decide))
theorem r1_mW1 : V1.mW1 (fun c b => U3 m c b) c = (argsK m c).W1 := congrArg rd2 (U3_of m c main_arg12 (by decide) (by decide) (by decide))
theorem r1_mWq : V1.mWq (fun c b => U3 m c b) c = (argsK m c).Wq := congrArg rd2 (U3_of m c main_arg14 (by decide) (by decide) (by decide))
theorem r1_mWk : V1.mWk (fun c b => U3 m c b) c = (argsK m c).Wk := congrArg rd2 (U3_of m c main_arg16 (by decide) (by decide) (by decide))
theorem r1_mWv : V1.mWv (fun c b => U3 m c b) c = (argsK m c).Wv := congrArg rd2 (U3_of m c main_arg18 (by decide) (by decide) (by decide))
theorem r1_mW : V1.mW (fun c b => U3 m c b) c = (argsK m c).nzV := by
  funext j k
  exact (U3_v8 m c k j).trans (nz_val m c j k)
theorem r1_rB1 : V1.rB1 (fun c b => U3 m c b) c = (argsK m c).b1 := funext fun f => U3_v9 m c f
theorem r1_rBq : V1.rBq (fun c b => U3 m c b) c = (argsK m c).bq := funext fun f => U3_v10 m c f
theorem r1_rBk : V1.rBk (fun c b => U3 m c b) c = (argsK m c).bk := funext fun f => U3_v11 m c f
theorem r1_rBv : V1.rBv (fun c b => U3 m c b) c = (argsK m c).bv := funext fun f => U3_v12 m c f
theorem r1_mAdj : V1.mAdj (fun c b => U3 m c b) c = (argsK m c).adjV := by
  unfold V1.mAdj
  rw [r1_mA0, r1_mA1, r1_mA2, r1_mW]
  rfl

theorem X1_0_mat : rd2 (X1_0 m c) = (argsK m c).adjV := by
  funext I J
  show X1_0 m c (ix2 I J) = _
  unfold X1_0
  rw [V1.arr13_apply, r1_mA0, r1_mA1, r1_mA2, r1_mW]
  rfl
theorem X1_1_mat : rd2 (X1_1 m c) = (argsK m c).qV := by
  funext I f
  show X1_1 m c (ix2 I f) = _
  unfold X1_1
  rw [V1.arr14_apply, r1_mAdj, r1_mX, r1_mW1, r1_rB1, r1_mWq, r1_rBq]
  rfl
theorem X1_2_mat : rd2 (X1_2 m c) = (argsK m c).kV := by
  funext I f
  show X1_2 m c (ix2 I f) = _
  unfold X1_2
  rw [V1.arr15_apply, r1_mAdj, r1_mX, r1_mW1, r1_rB1, r1_mWk, r1_rBk]
  rfl
theorem X1_3_mat : rd2 (X1_3 m c) = (argsK m c).vV := by
  funext I f
  show X1_3 m c (ix2 I f) = _
  unfold X1_3
  rw [V1.arr16_apply, r1_mAdj, r1_mX, r1_mW1, r1_rB1, r1_mWv, r1_rBv]
  rfl

end Cert.KernelIdeal.Chain

end
-- ==== Proof.Alg.Finite.lean ====
import proofs.«406496_j14319420965162_3_alg».proof.Proof.Spec
import Mathlib.Data.EReal.Basic
import Mathlib.Data.EReal.Operations
import Mathlib.Data.EReal.Inv
import Mathlib.Analysis.Complex.Exponential
import Mathlib.Algebra.BigOperators.Field
import Mathlib.Algebra.Order.BigOperators.Group.Finset
import Mathlib.Data.Finset.Lattice.Fold

namespace Cert.Alg

open Cert Idealize.ShloMosaic

theorem real_coe (r : ℝ) : (r : EReal) ≠ ⊤ ∧ (r : EReal) ≠ ⊥ := ⟨EReal.coe_ne_top r, EReal.coe_ne_bot r⟩

theorem real_zero : (0 : EReal) ≠ ⊤ ∧ (0 : EReal) ≠ ⊥ := real_coe 0

theorem real_add {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact real_coe _

theorem real_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact real_coe _

theorem real_max {x y : EReal} (hx : x ≠ ⊤ ∧ x ≠ ⊥) (hy : y ≠ ⊤ ∧ y ≠ ⊥) :
    max x y ≠ ⊤ ∧ max x y ≠ ⊥ := by
  rcases max_choice x y with h | h <;> rw [h] <;> assumption

theorem coe_sum {ι : Type*} (s : Finset ι) (g : ι → ℝ) :
    ((∑ l ∈ s, g l : ℝ) : EReal) = ∑ l ∈ s, (g l : EReal) := by
  induction s using Finset.cons_induction with
  | empty => simp
  | cons a s ha ih => rw [Finset.sum_cons, Finset.sum_cons, EReal.coe_add, ih]

theorem real_sum {ι : Type*} (s : Finset ι) (f : ι → EReal) (hf : ∀ l ∈ s, f l ≠ ⊤ ∧ f l ≠ ⊥) :
    ∑ l ∈ s, f l ≠ ⊤ ∧ ∑ l ∈ s, f l ≠ ⊥ := by
  induction s using Finset.cons_induction with
  | empty => simpa using real_zero
  | cons a s ha ih =>
    rw [Finset.sum_cons]
    exact real_add (hf a (Finset.mem_cons_self a s)) (ih fun l hl => hf l (Finset.mem_cons.2 (Or.inr hl)))

theorem mat_lift {n k : ℕ} {A : Spec.Mat n k} (hA : A.Fin') :
    ∃ a : Fin n → Fin k → ℝ, A = fun i j => (a i j : EReal) :=
  ⟨fun i j => (A i j).toReal, funext fun i => funext fun j => (EReal.coe_toReal (hA i j).1 (hA i j).2).symm⟩

theorem exp_coe (r : ℝ) : Ideal.exp (r : EReal) = (Real.exp r : EReal) := rfl

theorem div_coe (a b : ℝ) (hb : b ≠ 0) : Ideal.div (a : EReal) (b : EReal) = ((a / b : ℝ) : EReal) := by
  unfold Ideal.div
  rw [if_neg (by rwa [EReal.coe_eq_zero]), ← EReal.coe_inv, ← EReal.coe_mul, div_eq_mul_inv]

theorem rowMax_attained {n p : ℕ} (hp : 0 < p) (A : Spec.Mat n p) (i : Fin n) :
    ∃ j, Spec.rowMax A i = A i j := by
  have hne : (Finset.univ : Finset (Fin p)).Nonempty := ⟨⟨0, hp⟩, Finset.mem_univ _⟩
  obtain ⟨j, _, hj⟩ := Finset.exists_mem_eq_sup Finset.univ hne (A i)
  exact ⟨j, hj⟩

theorem softmax_coe {n p : ℕ} (hp : 0 < p) (a : Fin n → Fin p → ℝ) (i : Fin n) :
    ∃ m : ℝ, 0 < ∑ l, Real.exp (a i l - m) ∧
      ∀ j, Spec.softmax (fun i j => (a i j : EReal)) i j
        = ((Real.exp (a i j - m) / ∑ l, Real.exp (a i l - m) : ℝ) : EReal) := by
  obtain ⟨j0, hj0⟩ := rowMax_attained hp (fun i j => (a i j : EReal)) i
  have hm : Spec.rowMax (fun i j => (a i j : EReal)) i = ((a i j0 : ℝ) : EReal) := hj0
  have hS : 0 < ∑ l, Real.exp (a i l - a i j0) :=
    Finset.sum_pos (fun l _ => Real.exp_pos _) ⟨⟨0, hp⟩, Finset.mem_univ _⟩
  refine ⟨a i j0, hS, fun j => ?_⟩
  show Ideal.div (Ideal.exp ((a i j : EReal) - Spec.rowMax (fun i j => (a i j : EReal)) i))
      (∑ l, Ideal.exp ((a i l : EReal) - Spec.rowMax (fun i j => (a i j : EReal)) i)) = _
  rw [hm]
  simp only [← EReal.coe_sub, exp_coe]
  rw [← coe_sum, div_coe _ _ (ne_of_gt hS)]

theorem softmax_fin {n p : ℕ} (hp : 0 < p) {A : Spec.Mat n p} (hA : A.Fin') : (Spec.softmax A).Fin' := by
  obtain ⟨a, rfl⟩ := mat_lift hA
  intro i j
  obtain ⟨m, _, h⟩ := softmax_coe hp a i
  rw [h j]; exact real_coe _

theorem softmax_row_sum {n p : ℕ} (hp : 0 < p) (A : Spec.Mat n p) (hA : A.Fin') (i : Fin n) :
    ∑ j, Spec.softmax A i j = 1 := by
  obtain ⟨a, rfl⟩ := mat_lift hA
  obtain ⟨m, hS, h⟩ := softmax_coe hp a i
  simp only [h]
  rw [← coe_sum, ← Finset.sum_div, div_self (ne_of_gt hS), EReal.coe_one]

theorem mm_fin {n k p : ℕ} {A : Spec.Mat n k} {B : Spec.Mat k p} (hA : A.Fin') (hB : B.Fin') :
    (Spec.mm A B).Fin' :=
  fun i j => real_sum _ _ fun l _ => real_mul (hA i l) (hB l j)

theorem addRow_fin {n p : ℕ} {A : Spec.Mat n p} {b : Spec.Row p} (hA : A.Fin') (hb : b.Fin') :
    (Spec.addRow A b).Fin' :=
  fun i j => real_add (hA i j) (hb j)

theorem relu_fin {n p : ℕ} {A : Spec.Mat n p} (hA : A.Fin') : (Spec.relu A).Fin' :=
  fun i j => real_max (hA i j) real_zero

theorem hcat3_fin {n : ℕ} {a b c : Spec.Mat n 64} (ha : a.Fin') (hb : b.Fin') (hc : c.Fin') :
    (Spec.hcat3 a b c).Fin' := by
  intro i l
  unfold Spec.hcat3
  split
  · exact ha i _
  · split
    · exact hb i _
    · exact hc i _

theorem lin_fin {n k p : ℕ} {h : Spec.Mat n k} {W : Spec.Mat k p} {b : Spec.Row p}
    (hh : h.Fin') (hW : W.Fin') (hb : b.Fin') : (Spec.lin h W b).Fin' :=
  addRow_fin (mm_fin hh hW) hb

section Args
variable {p : Spec.Args} (hp : p.Fin')
include hp

theorem nzV_fin : p.nzV.Fin' :=
  softmax_fin (by norm_num) (addRow_fin (mm_fin (hcat3_fin (lin_fin hp.A0 hp.Wa1 hp.ba1) (lin_fin hp.A1 hp.Wa2 hp.ba2)
    (lin_fin hp.A2 hp.Wa3 hp.ba3)) hp.Wagg) hp.bagg)

theorem adjV_fin : p.adjV.Fin' := fun i j =>
  real_add (real_add (real_mul (hp.A0 i j) (nzV_fin hp j 0)) (real_mul (hp.A1 i j) (nzV_fin hp j 1)))
    (real_mul (hp.A2 i j) (nzV_fin hp j 2))

theorem hV_fin : p.hV.Fin' := relu_fin (addRow_fin (mm_fin (adjV_fin hp) (mm_fin hp.x hp.W1)) hp.b1)

theorem qV_fin : p.qV.Fin' := lin_fin (hV_fin hp) hp.Wq hp.bq

theorem kV_fin : p.kV.Fin' := lin_fin (hV_fin hp) hp.Wk hp.bk

theorem vV_fin : p.vV.Fin' := lin_fin (hV_fin hp) hp.Wv hp.bv

theorem scoresV_fin : (Spec.scores p.adjV p.qV p.kV).Fin' := fun i j =>
  real_mul (adjV_fin hp i j) (real_sum _ _ fun l _ => real_mul (qV_fin hp i l) (kV_fin hp j l))

end Args

end Cert.Alg
-- ==== Proof.KernelIdeal.ChainH.lean ====
import proofs.«406496_j14319420965162_3_alg».proof.Proof.KernelIdeal.ChainC
import proofs.«406496_j14319420965162_3_alg».proof.Proof.KernelIdeal.ChainD
import proofs.«406496_j14319420965162_3_alg».proof.Proof.KernelIdeal.ChainE
import proofs.«406496_j14319420965162_3_alg».proof.Proof.KernelIdeal.ChainG
import proofs.«406496_j14319420965162_3_alg».proof.Proof.Alg.Finite

noncomputable section

namespace Cert.KernelIdeal.Chain

open Cert.KernelIdeal Cert.KernelIdeal.Gen Cert.KernelIdeal.Segs
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

theorem X2_mat (hp : (argsK m c).Fin') : rd2 (X2 m c) = (argsK m c).xtV := by
  funext i f
  have h := X2_eq m c i f
    (by rw [X1_0_mat m c, X1_1_mat m c, X1_2_mat m c]; exact Alg.scoresV_fin hp i)
    (by rw [X1_3_mat m c]; exact fun j => Alg.vV_fin hp j f)
  rw [X1_0_mat m c, X1_1_mat m c, X1_2_mat m c, X1_3_mat m c] at h
  exact h

theorem out_val (hp : (argsK m c).Fin') (i : Fin 4096) (k : Fin 16) : X3 m c (ValueIdx.ix2 i k) = (argsK m c).outV i k := by
  rw [X3_eq, X1_0_mat m c, X2_mat m c hp]
  rfl

end Cert.KernelIdeal.Chain

end
-- ==== Proof.Ref.ReadC.lean ====
import proofs.«406496_j14319420965162_3_alg».proof.Proof.Gen.ReferenceIdeal
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.ReadC

open Cert.ReferenceIdeal Cert.ReferenceIdeal.Gen Idealize.ShloMosaic Idealize.ShloMosaic.TcCoe Idealize.SL.Sem Idealize.ShloMosaic.StableHlo

abbrev lix {M K N : ℕ} (i : (⟨2, ![M, N]⟩ : Shape).Idx) (k : Fin K) : (⟨2, ![M, K]⟩ : Shape).Idx := fun a => match a with
  | ⟨0, _⟩ => ⟨(i 0).val, (i 0).isLt⟩
  | ⟨1, _⟩ => ⟨k.val, k.isLt⟩
abbrev rix {M K N : ℕ} (i : (⟨2, ![M, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩

-- a product of an M×K by a K×N matrix, whatever record spells it, is read at an index as the sum over the contracted coordinate
theorem mm_apply {M K N : ℕ} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) (i : (⟨2, ![M, N]⟩ : Shape).Idx) :
    Host.dotGeneral D none A B i = ∑ k : Fin K, A (lix i k) * B (rix i k) := by
  subst hD
  obtain ⟨a, b, rfl⟩ : ∃ (a : Fin M) (b : Fin N), i = ValueIdx.ix2 a b := ⟨i 0, i 1, ValueIdx.eq_ix2 i⟩
  rw [StackMember.dotGeneral_plain_apply]
  refine Finset.sum_congr rfl fun k _ => ?_
  have hl : ValueIdx.ix2 a k = lix (N := N) (ValueIdx.ix2 a b) k := funext fun t => Fin.ext (by match t with | ⟨0, _⟩ => rfl | ⟨1, _⟩ => rfl)
  have hr : ValueIdx.ix2 k b = rix (M := M) (ValueIdx.ix2 a b) k := funext fun t => Fin.ext (by match t with | ⟨0, _⟩ => rfl | ⟨1, _⟩ => rfl)
  rw [hl, hr]

section
variable {F : FTy → Type} [FloatOps F]
variable (x0 x1 x2 : (⟨S4096x4096, .f32⟩ : BufTy).Contents (Elt F))
  (x3 : (⟨S4096x512, .f32⟩ : BufTy).Contents (Elt F))
  (x4 : (⟨S4096x64, .f32⟩ : BufTy).Contents (Elt F))
  (x5 : (⟨S64, .f32⟩ : BufTy).Contents (Elt F))
  (x6 : (⟨S4096x64, .f32⟩ : BufTy).Contents (Elt F))
  (x7 : (⟨S64, .f32⟩ : BufTy).Contents (Elt F))
  (x8 : (⟨S4096x64, .f32⟩ : BufTy).Contents (Elt F))
  (x9 : (⟨S64, .f32⟩ : BufTy).Contents (Elt F))
  (x10 : (⟨S192x3, .f32⟩ : BufTy).Contents (Elt F))
  (x11 : (⟨S3, .f32⟩ : BufTy).Contents (Elt F))
  (x12 : (⟨S512x128, .f32⟩ : BufTy).Contents (Elt F))
  (x13 : (⟨S128, .f32⟩ : BufTy).Contents (Elt F))
  (x14 : (⟨S128x128, .f32⟩ : BufTy).Contents (Elt F))
  (x15 : (⟨S128, .f32⟩ : BufTy).Contents (Elt F))
  (x16 : (⟨S128x128, .f32⟩ : BufTy).Contents (Elt F))
  (x17 : (⟨S128, .f32⟩ : BufTy).Contents (Elt F))
  (x18 : (⟨S128x128, .f32⟩ : BufTy).Contents (Elt F))
  (x19 : (⟨S128, .f32⟩ : BufTy).Contents (Elt F))
  (x20 : (⟨S128x16, .f32⟩ : BufTy).Contents (Elt F))
  (x21 : (⟨S16, .f32⟩ : BufTy).Contents (Elt F))

def val_main_v0 : (⟨S4096x64, .f32⟩ : BufTy).Contents (Elt F) :=
  Host.dotGeneral dot_S4096x4096_S4096x64_S4096x64_1_0_0_1_n_n none (x0) (x4)

abbrev lidx_main_v0 (i : S4096x64.Idx) (k : Fin 4096) : S4096x4096.Idx := lix i k

abbrev ridx_main_v0 (i : S4096x64.Idx) (k : Fin 4096) : S4096x64.Idx := rix i k

def val_main_v1 : (⟨S1x64, .f32⟩ : BufTy).Contents (Elt F) :=
  broadcastInDim S1x64 ![1] bcast_S64_S1x64_1 (x5)

abbrev idx_main_v1 (i : S1x64.Idx) : S64.Idx := fun a => match a with
  | ⟨0, _⟩ => ⟨(i 1).val, (i 1).isLt⟩

theorem val_main_v1_apply (i : S1x64.Idx) :
    val_main_v1 (F := F) x5 i = x5 (idx_main_v1 i) := by
  unfold val_main_v1
  exact broadcastInDim_apply _ bcast_S64_S1x64_1 x5 i (idx_main_v1 i) (fun a => match a with
    | ⟨0, _⟩ => by show (i 1).val = if (64 : Nat) = 1 then 0 else (i 1).val; rw [if_neg (by decide)])

def val_main_v2 : (⟨S4096x64, .f32⟩ : BufTy).Contents (Elt F) :=
  broadcastInDim S4096x64 ![0, 1] bcast_S1x64_S4096x64_0_1 (val_main_v1 (F := F) x5)

abbrev idx_main_v2 (i : S4096x64.Idx) : S1x64.Idx := fun a => match a with
  | ⟨0, _⟩ => ⟨0, Nat.one_pos⟩
  | ⟨1, _⟩ => ⟨(i 1).val, (i 1).isLt⟩

theorem val_main_v2_apply (i : S4096x64.Idx) :
    val_main_v2 (F := F) x5 i = val_main_v1 (F := F) x5 (idx_main_v2 i) := by
  unfold val_main_v2
  generalize val_main_v1 (F := F) x5 = y
  exact broadcastInDim_apply _ bcast_S1x64_S4096x64_0_1 y i (idx_main_v2 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v3 : (⟨S4096x64, .f32⟩ : BufTy).Contents (Elt F) :=
  addf (val_main_v0 (F := F) x0 x4) (val_main_v2 (F := F) x5)

theorem val_main_v3_apply (i : S4096x64.Idx) :
    val_main_v3 (F := F) x0 x4 x5 i = FloatOps.addf (val_main_v0 (F := F) x0 x4 i) (val_main_v2 (F := F) x5 i) := rfl

def val_main_v4 : (⟨S4096x64, .f32⟩ : BufTy).Contents (Elt F) :=
  Host.dotGeneral dot_S4096x4096_S4096x64_S4096x64_1_0_0_1_n_n none (x1) (x6)

abbrev lidx_main_v4 (i : S4096x64.Idx) (k : Fin 4096) : S4096x4096.Idx := lix i k

abbrev ridx_main_v4 (i : S4096x64.Idx) (k : Fin 4096) : S4096x64.Idx := rix i k

def val_main_v5 : (⟨S1x64, .f32⟩ : BufTy).Contents (Elt F) :=
  broadcastInDim S1x64 ![1] bcast_S64_S1x64_1 (x7)

abbrev idx_main_v5 (i : S1x64.Idx) : S64.Idx := fun a => match a with
  | ⟨0, _⟩ => ⟨(i 1).val, (i 1).isLt⟩

theorem val_main_v5_apply (i : S1x64.Idx) :
    val_main_v5 (F := F) x7 i = x7 (idx_main_v5 i) := by
  unfold val_main_v5
  exact broadcastInDim_apply _ bcast_S64_S1x64_1 x7 i (idx_main_v5 i) (fun a => match a with
    | ⟨0, _⟩ => by show (i 1).val = if (64 : Nat) = 1 then 0 else (i 1).val; rw [if_neg (by decide)])

def val_main_v6 : (⟨S4096x64, .f32⟩ : BufTy).Contents (Elt F) :=
  broadcastInDim S4096x64 ![0, 1] bcast_S1x64_S4096x64_0_1 (val_main_v5 (F := F) x7)

abbrev idx_main_v6 (i : S4096x64.Idx) : S1x64.Idx := fun a => match a with
  | ⟨0, _⟩ => ⟨0, Nat.one_pos⟩
  | ⟨1, _⟩ => ⟨(i 1).val, (i 1).isLt⟩

theorem val_main_v6_apply (i : S4096x64.Idx) :
    val_main_v6 (F := F) x7 i = val_main_v5 (F := F) x7 (idx_main_v6 i) := by
  unfold val_main_v6
  generalize val_main_v5 (F := F) x7 = y
  exact broadcastInDim_apply _ bcast_S1x64_S4096x64_0_1 y i (idx_main_v6 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v7 : (⟨S4096x64, .f32⟩ : BufTy).Contents (Elt F) :=
  addf (val_main_v4 (F := F) x1 x6) (val_main_v6 (F := F) x7)

theorem val_main_v7_apply (i : S4096x64.Idx) :
    val_main_v7 (F := F) x1 x6 x7 i = FloatOps.addf (val_main_v4 (F := F) x1 x6 i) (val_main_v6 (F := F) x7 i) := rfl

def val_main_v8 : (⟨S4096x64, .f32⟩ : BufTy).Contents (Elt F) :=
  Host.dotGeneral dot_S4096x4096_S4096x64_S4096x64_1_0_0_1_n_n none (x2) (x8)

abbrev lidx_main_v8 (i : S4096x64.Idx) (k : Fin 4096) : S4096x4096.Idx := lix i k

abbrev ridx_main_v8 (i : S4096x64.Idx) (k : Fin 4096) : S4096x64.Idx := rix i k

def val_main_v9 : (⟨S1x64, .f32⟩ : BufTy).Contents (Elt F) :=
  broadcastInDim S1x64 ![1] bcast_S64_S1x64_1 (x9)

abbrev idx_main_v9 (i : S1x64.Idx) : S64.Idx := fun a => match a with
  | ⟨0, _⟩ => ⟨(i 1).val, (i 1).isLt⟩

theorem val_main_v9_apply (i : S1x64.Idx) :
    val_main_v9 (F := F) x9 i = x9 (idx_main_v9 i) := by
  unfold val_main_v9
  exact broadcastInDim_apply _ bcast_S64_S1x64_1 x9 i (idx_main_v9 i) (fun a => match a with
    | ⟨0, _⟩ => by show (i 1).val = if (64 : Nat) = 1 then 0 else (i 1).val; rw [if_neg (by decide)])

def val_main_v10 : (⟨S4096x64, .f32⟩ : BufTy).Contents (Elt F) :=
  broadcastInDim S4096x64 ![0, 1] bcast_S1x64_S4096x64_0_1 (val_main_v9 (F := F) x9)

abbrev idx_main_v10 (i : S4096x64.Idx) : S1x64.Idx := fun a => match a with
  | ⟨0, _⟩ => ⟨0, Nat.one_pos⟩
  | ⟨1, _⟩ => ⟨(i 1).val, (i 1).isLt⟩

theorem val_main_v10_apply (i : S4096x64.Idx) :
    val_main_v10 (F := F) x9 i = val_main_v9 (F := F) x9 (idx_main_v10 i) := by
  unfold val_main_v10
  generalize val_main_v9 (F := F) x9 = y
  exact broadcastInDim_apply _ bcast_S1x64_S4096x64_0_1 y i (idx_main_v10 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v11 : (⟨S4096x64, .f32⟩ : BufTy).Contents (Elt F) :=
  addf (val_main_v8 (F := F) x2 x8) (val_main_v10 (F := F) x9)

theorem val_main_v11_apply (i : S4096x64.Idx) :
    val_main_v11 (F := F) x2 x8 x9 i = FloatOps.addf (val_main_v8 (F := F) x2 x8 i) (val_main_v10 (F := F) x9 i) := rfl

def val_main_v12 : (⟨S4096x192, .f32⟩ : BufTy).Contents (Elt F) :=
  concatenate S4096x192 1 [⟨S4096x64, (val_main_v3 (F := F) x0 x4 x5)⟩, ⟨S4096x64, (val_main_v7 (F := F) x1 x6 x7)⟩, ⟨S4096x64, (val_main_v11 (F := F) x2 x8 x9)⟩] concatenates_S4096x64_S4096x64_S4096x64_S4096x192_d1

def val_main_v13 : (⟨S4096x3, .f32⟩ : BufTy).Contents (Elt F) :=
  Host.dotGeneral dot_S4096x192_S192x3_S4096x3_1_0_0_1_n_n none (val_main_v12 (F := F) x0 x1 x2 x4 x5 x6 x7 x8 x9) (x10)

abbrev lidx_main_v13 (i : S4096x3.Idx) (k : Fin 192) : S4096x192.Idx := lix i k

abbrev ridx_main_v13 (i : S4096x3.Idx) (k : Fin 192) : S192x3.Idx := rix i k

def val_main_v14 : (⟨S1x3, .f32⟩ : BufTy).Contents (Elt F) :=
  broadcastInDim S1x3 ![1] bcast_S3_S1x3_1 (x11)

abbrev idx_main_v14 (i : S1x3.Idx) : S3.Idx := fun a => match a with
  | ⟨0, _⟩ => ⟨(i 1).val, (i 1).isLt⟩

theorem val_main_v14_apply (i : S1x3.Idx) :
    val_main_v14 (F := F) x11 i = x11 (idx_main_v14 i) := by
  unfold val_main_v14
  exact broadcastInDim_apply _ bcast_S3_S1x3_1 x11 i (idx_main_v14 i) (fun a => match a with
    | ⟨0, _⟩ => by show (i 1).val = if (3 : Nat) = 1 then 0 else (i 1).val; rw [if_neg (by decide)])

def val_main_v15 : (⟨S4096x3, .f32⟩ : BufTy).Contents (Elt F) :=
  broadcastInDim S4096x3 ![0, 1] bcast_S1x3_S4096x3_0_1 (val_main_v14 (F := F) x11)

abbrev idx_main_v15 (i : S4096x3.Idx) : S1x3.Idx := fun a => match a with
  | ⟨0, _⟩ => ⟨0, Nat.one_pos⟩
  | ⟨1, _⟩ => ⟨(i 1).val, (i 1).isLt⟩

theorem val_main_v15_apply (i : S4096x3.Idx) :
    val_main_v15 (F := F) x11 i = val_main_v14 (F := F) x11 (idx_main_v15 i) := by
  unfold val_main_v15
  generalize val_main_v14 (F := F) x11 = y
  exact broadcastInDim_apply _ bcast_S1x3_S4096x3_0_1 y i (idx_main_v15 i) (fun a => match a with
    | ⟨0, _⟩ => by show 0 = if (1 : Nat) = 1 then 0 else (i 0).val; rw [if_pos rfl]
    | ⟨1, _⟩ => by show (i 1).val = if (3 : Nat) = 1 then 0 else (i 1).val; rw [if_neg (by decide)])

def val_main_v16 : (⟨S4096x3, .f32⟩ : BufTy).Contents (Elt F) :=
  addf (val_main_v13 (F := F) x0 x1 x2 x4 x5 x6 x7 x8 x9 x10) (val_main_v15 (F := F) x11)

theorem val_main_v16_apply (i : S4096x3.Idx) :
    val_main_v16 (F := F) x0 x1 x2 x4 x5 x6 x7 x8 x9 x10 x11 i = FloatOps.addf (val_main_v13 (F := F) x0 x1 x2 x4 x5 x6 x7 x8 x9 x10 i) (val_main_v15 (F := F) x11 i) := rfl

def val_main_cst : (⟨S_, .f32⟩ : BufTy).Contents (Elt F) :=
  constant S_ .f32 0xFF800000#32

theorem val_main_cst_apply (i : S_.Idx) :
    val_main_cst (F := F) i = FloatOps.ofBits .f32 0xFF800000#32 := rfl

def val_main_v17 : (⟨S4096, .f32⟩ : BufTy).Contents (Elt F) :=
  Host.reduce FloatOps.maximumf (val_main_v16 (F := F) x0 x1 x2 x4 x5 x6 x7 x8 x9 x10 x11) (val_main_cst (F := F)) reducesTo_S4096x3_S4096_d1 h_S_

def val_main_cst_0 : (⟨S_, .f32⟩ : BufTy).Contents (Elt F) :=
  constant S_ .f32 0xFF800000#32

theorem val_main_cst_0_apply (i : S_.Idx) :
    val_main_cst_0 (F := F) i = FloatOps.ofBits .f32 0xFF800000#32 := rfl

def val_main_v18 : (⟨S4096, .f32⟩ : BufTy).Contents (Elt F) :=
  broadcastInDim S4096 ![] bcast_S_S4096 (val_main_cst_0 (F := F))

abbrev idx_main_v18 (i : S4096.Idx) : S_.Idx := fun a => a.elim0

theorem val_main_v18_apply (i : S4096.Idx) :
    val_main_v18 (F := F) i = val_main_cst_0 (F := F) (idx_main_v18 i) := by
  unfold val_main_v18
  generalize val_main_cst_0 (F := F) = y
  exact broadcastInDim_apply _ bcast_S_S4096 y i (idx_main_v18 i) (fun a => a.elim0)

def val_main_v19 : (⟨S4096, .f32⟩ : BufTy).Contents (Elt F) :=
  maximumf (val_main_v18 (F := F)) (val_main_v17 (F := F) x0 x1 x2 x4 x5 x6 x7 x8 x9 x10 x11)

theorem val_main_v19_apply (i : S4096.Idx) :
    val_main_v19 (F := F) x0 x1 x2 x4 x5 x6 x7 x8 x9 x10 x11 i = FloatOps.maximumf (val_main_v18 (F := F) i) (val_main_v17 (F := F) x0 x1 x2 x4 x5 x6 x7 x8 x9 x10 x11 i) := rfl

def val_main_v20 : (⟨S4096x1, .f32⟩ : BufTy).Contents (Elt F) :=
  broadcastInDim S4096x1 ![0] bcast_S4096_S4096x1_0 (val_main_v19 (F := F) x0 x1 x2 x4 x5 x6 x7 x8 x9 x10 x11)

abbrev idx_main_v20 (i : S4096x1.Idx) : S4096.Idx := fun a => match a with
  | ⟨0, _⟩ => ⟨(i 0).val, (i 0).isLt⟩

theorem val_main_v20_apply (i : S4096x1.Idx) :
    val_main_v20 (F := F) x0 x1 x2 x4 x5 x6 x7 x8 x9 x10 x11 i = val_main_v19 (F := F) x0 x1 x2 x4 x5 x6 x7 x8 x9 x10 x11 (idx_main_v20 i) := by
  unfold val_main_v20
  generalize val_main_v19 (F := F) x0 x1 x2 x4 x5 x6 x7 x8 x9 x10 x11 = y
  exact broadcastInDim_apply _ bcast_S4096_S4096x1_0 y i (idx_main_v20 i) (fun a => match a with
    | ⟨0, _⟩ => by show (i 0).val = if (4096 : Nat) = 1 then 0 else (i 0).val; rw [if_neg (by decide)])

def val_main_v21 : (⟨S4096x3, .f32⟩ : BufTy).Contents (Elt F) :=
  broadcastInDim S4096x3 ![0, 1] bcast_S4096x1_S4096x3_0_1 (val_main_v20 (F := F) x0 x1 x2 x4 x5 x6 x7 x8 x9 x10 x11)

abbrev idx_main_v21 (i : S4096x3.Idx) : S4096x1.Idx := fun a => match a with
  | ⟨0, _⟩ => ⟨(i 0).val, (i 0).isLt⟩
  | ⟨1, _⟩ => ⟨0, Nat.one_pos⟩

theorem val_main_v21_apply (i : S4096x3.Idx) :
    val_main_v21 (F := F) x0 x1 x2 x4 x5 x6 x7 x8 x9 x10 x11 i = val_main_v20 (F := F) x0 x1 x2 x4 x5 x6 x7 x8 x9 x10 x11 (idx_main_v21 i) := by
  unfold val_main_v21
  generalize val_main_v20 (F := F) x0 x1 x2 x4 x5 x6 x7 x8 x9 x10 x11 = y
  exact broadcastInDim_apply _ bcast_S4096x1_S4096x3_0_1 y i (idx_main_v21 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v22 : (⟨S4096x3, .f32⟩ : BufTy).Contents (Elt F) :=
  subf (val_main_v16 (F := F) x0 x1 x2 x4 x5 x6 x7 x8 x9 x10 x11) (val_main_v21 (F := F) x0 x1 x2 x4 x5 x6 x7 x8 x9 x10 x11)

theorem val_main_v22_apply (i : S4096x3.Idx) :
    val_main_v22 (F := F) x0 x1 x2 x4 x5 x6 x7 x8 x9 x10 x11 i = FloatOps.subf (val_main_v16 (F := F) x0 x1 x2 x4 x5 x6 x7 x8 x9 x10 x11 i) (val_main_v21 (F := F) x0 x1 x2 x4 x5 x6 x7 x8 x9 x10 x11 i) := rfl

def val_main_v23 : (⟨S4096x3, .f32⟩ : BufTy).Contents (Elt F) :=
  Host.exp (val_main_v22 (F := F) x0 x1 x2 x4 x5 x6 x7 x8 x9 x10 x11)

theorem val_main_v23_apply (i : S4096x3.Idx) :
    val_main_v23 (F := F) x0 x1 x2 x4 x5 x6 x7 x8 x9 x10 x11 i = FloatOps.hostUnary .exp (val_main_v22 (F := F) x0 x1 x2 x4 x5 x6 x7 x8 x9 x10 x11 i) := rfl

def val_main_cst_1 : (⟨S_, .f32⟩ : BufTy).Contents (Elt F) :=
  constant S_ .f32 0x00000000#32

theorem val_main_cst_1_apply (i : S_.Idx) :
    val_main_cst_1 (F := F) i = FloatOps.ofBits .f32 0x00000000#32 := rfl

def val_main_v24 : (⟨S4096, .f32⟩ : BufTy).Contents (Elt F) :=
  Host.reduceAdd (val_main_v23 (F := F) x0 x1 x2 x4 x5 x6 x7 x8 x9 x10 x11) (val_main_cst_1 (F := F)) reducesTo_S4096x3_S4096_d1 h_S_

abbrev idx_main_v24 (i : S4096.Idx) (k : Fin 3) : S4096x3.Idx := fun a => match a with
  | ⟨0, _⟩ => ⟨(i 0).val, (i 0).isLt⟩
  | ⟨1, _⟩ => ⟨k.val, k.isLt⟩

def val_main_v25 : (⟨S4096x1, .f32⟩ : BufTy).Contents (Elt F) :=
  broadcastInDim S4096x1 ![0] bcast_S4096_S4096x1_0 (val_main_v24 (F := F) x0 x1 x2 x4 x5 x6 x7 x8 x9 x10 x11)

abbrev idx_main_v25 (i : S4096x1.Idx) : S4096.Idx := fun a => match a with
  | ⟨0, _⟩ => ⟨(i 0).val, (i 0).isLt⟩

theorem val_main_v25_apply (i : S4096x1.Idx) :
    val_main_v25 (F := F) x0 x1 x2 x4 x5 x6 x7 x8 x9 x10 x11 i = val_main_v24 (F := F) x0 x1 x2 x4 x5 x6 x7 x8 x9 x10 x11 (idx_main_v25 i) := by
  unfold val_main_v25
  generalize val_main_v24 (F := F) x0 x1 x2 x4 x5 x6 x7 x8 x9 x10 x11 = y
  exact broadcastInDim_apply _ bcast_S4096_S4096x1_0 y i (idx_main_v25 i) (fun a => match a with
    | ⟨0, _⟩ => by show (i 0).val = if (4096 : Nat) = 1 then 0 else (i 0).val; rw [if_neg (by decide)])

def val_main_v26 : (⟨S4096x3, .f32⟩ : BufTy).Contents (Elt F) :=
  broadcastInDim S4096x3 ![0, 1] bcast_S4096x1_S4096x3_0_1 (val_main_v25 (F := F) x0 x1 x2 x4 x5 x6 x7 x8 x9 x10 x11)

abbrev idx_main_v26 (i : S4096x3.Idx) : S4096x1.Idx := fun a => match a with
  | ⟨0, _⟩ => ⟨(i 0).val, (i 0).isLt⟩
  | ⟨1, _⟩ => ⟨0, Nat.one_pos⟩

theorem val_main_v26_apply (i : S4096x3.Idx) :
    val_main_v26 (F := F) x0 x1 x2 x4 x5 x6 x7 x8 x9 x10 x11 i = val_main_v25 (F := F) x0 x1 x2 x4 x5 x6 x7 x8 x9 x10 x11 (idx_main_v26 i) := by
  unfold val_main_v26
  generalize val_main_v25 (F := F) x0 x1 x2 x4 x5 x6 x7 x8 x9 x10 x11 = y
  exact broadcastInDim_apply _ bcast_S4096x1_S4096x3_0_1 y i (idx_main_v26 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v27 : (⟨S4096x3, .f32⟩ : BufTy).Contents (Elt F) :=
  Host.divf (val_main_v23 (F := F) x0 x1 x2 x4 x5 x6 x7 x8 x9 x10 x11) (val_main_v26 (F := F) x0 x1 x2 x4 x5 x6 x7 x8 x9 x10 x11)

theorem val_main_v27_apply (i : S4096x3.Idx) :
    val_main_v27 (F := F) x0 x1 x2 x4 x5 x6 x7 x8 x9 x10 x11 i = FloatOps.hostDivf (val_main_v23 (F := F) x0 x1 x2 x4 x5 x6 x7 x8 x9 x10 x11 i) (val_main_v26 (F := F) x0 x1 x2 x4 x5 x6 x7 x8 x9 x10 x11 i) := rfl

def val_main_v28 : (⟨S4096x1, .f32⟩ : BufTy).Contents (Elt F) :=
  extractStridedSlice S4096x1 ![0, 0] (val_main_v27 (F := F) x0 x1 x2 x4 x5 x6 x7 x8 x9 x10 x11) slices_S4096x3_S4096x1_0_0

abbrev idx_main_v28 (i : S4096x1.Idx) : S4096x3.Idx := fun a => match a with
  | ⟨0, _⟩ => ⟨(i 0).val, (i 0).isLt⟩
  | ⟨1, _⟩ => ⟨(i 1).val, by have h1 : (i 1).val < 1 := (i 1).isLt; show (i 1).val < 3; omega⟩

theorem val_main_v28_apply (i : S4096x1.Idx) :
    val_main_v28 (F := F) x0 x1 x2 x4 x5 x6 x7 x8 x9 x10 x11 i = val_main_v27 (F := F) x0 x1 x2 x4 x5 x6 x7 x8 x9 x10 x11 (idx_main_v28 i) := by
  unfold val_main_v28
  generalize val_main_v27 (F := F) x0 x1 x2 x4 x5 x6 x7 x8 x9 x10 x11 = y
  exact extractStridedSlice_apply ![0, 0] y slices_S4096x3_S4096x1_0_0 i (idx_main_v28 i) (fun a => match a with
    | ⟨0, _⟩ => by show (i 0).val = 0 + (i 0).val; omega
    | ⟨1, _⟩ => by show (i 1).val = 0 + (i 1).val; omega)

def val_main_v29 : (⟨S4096, .f32⟩ : BufTy).Contents (Elt F) :=
  shapeCast _ (val_main_v28 (F := F) x0 x1 x2 x4 x5 x6 x7 x8 x9 x10 x11) shapeCasts_S4096x1_S4096

abbrev idx_main_v29 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩

theorem val_main_v29_apply (i : S4096.Idx) :
    val_main_v29 (F := F) x0 x1 x2 x4 x5 x6 x7 x8 x9 x10 x11 i = val_main_v28 (F := F) x0 x1 x2 x4 x5 x6 x7 x8 x9 x10 x11 (idx_main_v29 i) := by
  unfold val_main_v29
  generalize val_main_v28 (F := F) x0 x1 x2 x4 x5 x6 x7 x8 x9 x10 x11 = y
  exact shapeCast_apply y shapeCasts_S4096x1_S4096 i (idx_main_v29 i)
    (by rewrite [Shape.rowMajor_val_two, Shape.rowMajor_val_one]; have h0 : (i 0).val < 4096 := (i 0).isLt; show ((i 0).val) / 1 * 1 + 0 = (i 0).val; omega)

def val_main_v30 : (⟨S1x4096, .f32⟩ : BufTy).Contents (Elt F) :=
  broadcastInDim S1x4096 ![1] bcast_S4096_S1x4096_1 (val_main_v29 (F := F) x0 x1 x2 x4 x5 x6 x7 x8 x9 x10 x11)

abbrev idx_main_v30 (i : S1x4096.Idx) : S4096.Idx := fun a => match a with
  | ⟨0, _⟩ => ⟨(i 1).val, (i 1).isLt⟩

theorem val_main_v30_apply (i : S1x4096.Idx) :
    val_main_v30 (F := F) x0 x1 x2 x4 x5 x6 x7 x8 x9 x10 x11 i = val_main_v29 (F := F) x0 x1 x2 x4 x5 x6 x7 x8 x9 x10 x11 (idx_main_v30 i) := by
  unfold val_main_v30
  generalize val_main_v29 (F := F) x0 x1 x2 x4 x5 x6 x7 x8 x9 x10 x11 = y
  exact broadcastInDim_apply _ bcast_S4096_S1x4096_1 y i (idx_main_v30 i) (fun a => match a with
    | ⟨0, _⟩ => by show (i 1).val = if (4096 : Nat) = 1 then 0 else (i 1).val; rw [if_neg (by decide)])

def val_main_v31 : (⟨S4096x4096, .f32⟩ : BufTy).Contents (Elt F) :=
  broadcastInDim S4096x4096 ![0, 1] bcast_S1x4096_S4096x4096_0_1 (val_main_v30 (F := F) x0 x1 x2 x4 x5 x6 x7 x8 x9 x10 x11)

abbrev idx_main_v31 (i : S4096x4096.Idx) : S1x4096.Idx := fun a => match a with
  | ⟨0, _⟩ => ⟨0, Nat.one_pos⟩
  | ⟨1, _⟩ => ⟨(i 1).val, (i 1).isLt⟩

theorem val_main_v31_apply (i : S4096x4096.Idx) :
    val_main_v31 (F := F) x0 x1 x2 x4 x5 x6 x7 x8 x9 x10 x11 i = val_main_v30 (F := F) x0 x1 x2 x4 x5 x6 x7 x8 x9 x10 x11 (idx_main_v31 i) := by
  unfold val_main_v31
  generalize val_main_v30 (F := F) x0 x1 x2 x4 x5 x6 x7 x8 x9 x10 x11 = y
  exact broadcastInDim_apply _ bcast_S1x4096_S4096x4096_0_1 y i (idx_main_v31 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v32 : (⟨S4096x4096, .f32⟩ : BufTy).Contents (Elt F) :=
  mulf (x0) (val_main_v31 (F := F) x0 x1 x2 x4 x5 x6 x7 x8 x9 x10 x11)

theorem val_main_v32_apply (i : S4096x4096.Idx) :
    val_main_v32 (F := F) x0 x1 x2 x4 x5 x6 x7 x8 x9 x10 x11 i = FloatOps.mulf (x0 i) (val_main_v31 (F := F) x0 x1 x2 x4 x5 x6 x7 x8 x9 x10 x11 i) := rfl

def val_main_v33 : (⟨S4096x1, .f32⟩ : BufTy).Contents (Elt F) :=
  extractStridedSlice S4096x1 ![0, 1] (val_main_v27 (F := F) x0 x1 x2 x4 x5 x6 x7 x8 x9 x10 x11) slices_S4096x3_S4096x1_0_1

abbrev idx_main_v33 (i : S4096x1.Idx) : S4096x3.Idx := fun a => match a with
  | ⟨0, _⟩ => ⟨(i 0).val, (i 0).isLt⟩
  | ⟨1, _⟩ => ⟨1 + (i 1).val, by have h1 : (i 1).val < 1 := (i 1).isLt; show 1 + (i 1).val < 3; omega⟩

theorem val_main_v33_apply (i : S4096x1.Idx) :
    val_main_v33 (F := F) x0 x1 x2 x4 x5 x6 x7 x8 x9 x10 x11 i = val_main_v27 (F := F) x0 x1 x2 x4 x5 x6 x7 x8 x9 x10 x11 (idx_main_v33 i) := by
  unfold val_main_v33
  generalize val_main_v27 (F := F) x0 x1 x2 x4 x5 x6 x7 x8 x9 x10 x11 = y
  exact extractStridedSlice_apply ![0, 1] y slices_S4096x3_S4096x1_0_1 i (idx_main_v33 i) (fun a => match a with
    | ⟨0, _⟩ => by show (i 0).val = 0 + (i 0).val; omega
    | ⟨1, _⟩ => by show 1 + (i 1).val = 1 + (i 1).val; omega)

def val_main_v34 : (⟨S4096, .f32⟩ : BufTy).Contents (Elt F) :=
  shapeCast _ (val_main_v33 (F := F) x0 x1 x2 x4 x5 x6 x7 x8 x9 x10 x11) shapeCasts_S4096x1_S4096

abbrev idx_main_v34 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩

theorem val_main_v34_apply (i : S4096.Idx) :
    val_main_v34 (F := F) x0 x1 x2 x4 x5 x6 x7 x8 x9 x10 x11 i = val_main_v33 (F := F) x0 x1 x2 x4 x5 x6 x7 x8 x9 x10 x11 (idx_main_v34 i) := by
  unfold val_main_v34
  generalize val_main_v33 (F := F) x0 x1 x2 x4 x5 x6 x7 x8 x9 x10 x11 = y
  exact shapeCast_apply y shapeCasts_S4096x1_S4096 i (idx_main_v34 i)
    (by rewrite [Shape.rowMajor_val_two, Shape.rowMajor_val_one]; have h0 : (i 0).val < 4096 := (i 0).isLt; show ((i 0).val) / 1 * 1 + 0 = (i 0).val; omega)

def val_main_v35 : (⟨S1x4096, .f32⟩ : BufTy).Contents (Elt F) :=
  broadcastInDim S1x4096 ![1] bcast_S4096_S1x4096_1 (val_main_v34 (F := F) x0 x1 x2 x4 x5 x6 x7 x8 x9 x10 x11)

abbrev idx_main_v35 (i : S1x4096.Idx) : S4096.Idx := fun a => match a with
  | ⟨0, _⟩ => ⟨(i 1).val, (i 1).isLt⟩

theorem val_main_v35_apply (i : S1x4096.Idx) :
    val_main_v35 (F := F) x0 x1 x2 x4 x5 x6 x7 x8 x9 x10 x11 i = val_main_v34 (F := F) x0 x1 x2 x4 x5 x6 x7 x8 x9 x10 x11 (idx_main_v35 i) := by
  unfold val_main_v35
  generalize val_main_v34 (F := F) x0 x1 x2 x4 x5 x6 x7 x8 x9 x10 x11 = y
  exact broadcastInDim_apply _ bcast_S4096_S1x4096_1 y i (idx_main_v35 i) (fun a => match a with
    | ⟨0, _⟩ => by show (i 1).val = if (4096 : Nat) = 1 then 0 else (i 1).val; rw [if_neg (by decide)])

def val_main_v36 : (⟨S4096x4096, .f32⟩ : BufTy).Contents (Elt F) :=
  broadcastInDim S4096x4096 ![0, 1] bcast_S1x4096_S4096x4096_0_1 (val_main_v35 (F := F) x0 x1 x2 x4 x5 x6 x7 x8 x9 x10 x11)

abbrev idx_main_v36 (i : S4096x4096.Idx) : S1x4096.Idx := fun a => match a with
  | ⟨0, _⟩ => ⟨0, Nat.one_pos⟩
  | ⟨1, _⟩ => ⟨(i 1).val, (i 1).isLt⟩

theorem val_main_v36_apply (i : S4096x4096.Idx) :
    val_main_v36 (F := F) x0 x1 x2 x4 x5 x6 x7 x8 x9 x10 x11 i = val_main_v35 (F := F) x0 x1 x2 x4 x5 x6 x7 x8 x9 x10 x11 (idx_main_v36 i) := by
  unfold val_main_v36
  generalize val_main_v35 (F := F) x0 x1 x2 x4 x5 x6 x7 x8 x9 x10 x11 = y
  exact broadcastInDim_apply _ bcast_S1x4096_S4096x4096_0_1 y i (idx_main_v36 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v37 : (⟨S4096x4096, .f32⟩ : BufTy).Contents (Elt F) :=
  mulf (x1) (val_main_v36 (F := F) x0 x1 x2 x4 x5 x6 x7 x8 x9 x10 x11)

theorem val_main_v37_apply (i : S4096x4096.Idx) :
    val_main_v37 (F := F) x0 x1 x2 x4 x5 x6 x7 x8 x9 x10 x11 i = FloatOps.mulf (x1 i) (val_main_v36 (F := F) x0 x1 x2 x4 x5 x6 x7 x8 x9 x10 x11 i) := rfl

def val_main_v38 : (⟨S4096x4096, .f32⟩ : BufTy).Contents (Elt F) :=
  addf (val_main_v32 (F := F) x0 x1 x2 x4 x5 x6 x7 x8 x9 x10 x11) (val_main_v37 (F := F) x0 x1 x2 x4 x5 x6 x7 x8 x9 x10 x11)

theorem val_main_v38_apply (i : S4096x4096.Idx) :
    val_main_v38 (F := F) x0 x1 x2 x4 x5 x6 x7 x8 x9 x10 x11 i = FloatOps.addf (val_main_v32 (F := F) x0 x1 x2 x4 x5 x6 x7 x8 x9 x10 x11 i) (val_main_v37 (F := F) x0 x1 x2 x4 x5 x6 x7 x8 x9 x10 x11 i) := rfl

def val_main_v39 : (⟨S4096x1, .f32⟩ : BufTy).Contents (Elt F) :=
  extractStridedSlice S4096x1 ![0, 2] (val_main_v27 (F := F) x0 x1 x2 x4 x5 x6 x7 x8 x9 x10 x11) slices_S4096x3_S4096x1_0_2

abbrev idx_main_v39 (i : S4096x1.Idx) : S4096x3.Idx := fun a => match a with
  | ⟨0, _⟩ => ⟨(i 0).val, (i 0).isLt⟩
  | ⟨1, _⟩ => ⟨2 + (i 1).val, by have h1 : (i 1).val < 1 := (i 1).isLt; show 2 + (i 1).val < 3; omega⟩

theorem val_main_v39_apply (i : S4096x1.Idx) :
    val_main_v39 (F := F) x0 x1 x2 x4 x5 x6 x7 x8 x9 x10 x11 i = val_main_v27 (F := F) x0 x1 x2 x4 x5 x6 x7 x8 x9 x10 x11 (idx_main_v39 i) := by
  unfold val_main_v39
  generalize val_main_v27 (F := F) x0 x1 x2 x4 x5 x6 x7 x8 x9 x10 x11 = y
  exact extractStridedSlice_apply ![0, 2] y slices_S4096x3_S4096x1_0_2 i (idx_main_v39 i) (fun a => match a with
    | ⟨0, _⟩ => by show (i 0).val = 0 + (i 0).val; omega
    | ⟨1, _⟩ => by show 2 + (i 1).val = 2 + (i 1).val; omega)

def val_main_v40 : (⟨S4096, .f32⟩ : BufTy).Contents (Elt F) :=
  shapeCast _ (val_main_v39 (F := F) x0 x1 x2 x4 x5 x6 x7 x8 x9 x10 x11) shapeCasts_S4096x1_S4096

abbrev idx_main_v40 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩

theorem val_main_v40_apply (i : S4096.Idx) :
    val_main_v40 (F := F) x0 x1 x2 x4 x5 x6 x7 x8 x9 x10 x11 i = val_main_v39 (F := F) x0 x1 x2 x4 x5 x6 x7 x8 x9 x10 x11 (idx_main_v40 i) := by
  unfold val_main_v40
  generalize val_main_v39 (F := F) x0 x1 x2 x4 x5 x6 x7 x8 x9 x10 x11 = y
  exact shapeCast_apply y shapeCasts_S4096x1_S4096 i (idx_main_v40 i)
    (by rewrite [Shape.rowMajor_val_two, Shape.rowMajor_val_one]; have h0 : (i 0).val < 4096 := (i 0).isLt; show ((i 0).val) / 1 * 1 + 0 = (i 0).val; omega)

def val_main_v41 : (⟨S1x4096, .f32⟩ : BufTy).Contents (Elt F) :=
  broadcastInDim S1x4096 ![1] bcast_S4096_S1x4096_1 (val_main_v40 (F := F) x0 x1 x2 x4 x5 x6 x7 x8 x9 x10 x11)

abbrev idx_main_v41 (i : S1x4096.Idx) : S4096.Idx := fun a => match a with
  | ⟨0, _⟩ => ⟨(i 1).val, (i 1).isLt⟩

theorem val_main_v41_apply (i : S1x4096.Idx) :
    val_main_v41 (F := F) x0 x1 x2 x4 x5 x6 x7 x8 x9 x10 x11 i = val_main_v40 (F := F) x0 x1 x2 x4 x5 x6 x7 x8 x9 x10 x11 (idx_main_v41 i) := by
  unfold val_main_v41
  generalize val_main_v40 (F := F) x0 x1 x2 x4 x5 x6 x7 x8 x9 x10 x11 = y
  exact broadcastInDim_apply _ bcast_S4096_S1x4096_1 y i (idx_main_v41 i) (fun a => match a with
    | ⟨0, _⟩ => by show (i 1).val = if (4096 : Nat) = 1 then 0 else (i 1).val; rw [if_neg (by decide)])

def val_main_v42 : (⟨S4096x4096, .f32⟩ : BufTy).Contents (Elt F) :=
  broadcastInDim S4096x4096 ![0, 1] bcast_S1x4096_S4096x4096_0_1 (val_main_v41 (F := F) x0 x1 x2 x4 x5 x6 x7 x8 x9 x10 x11)

abbrev idx_main_v42 (i : S4096x4096.Idx) : S1x4096.Idx := fun a => match a with
  | ⟨0, _⟩ => ⟨0, Nat.one_pos⟩
  | ⟨1, _⟩ => ⟨(i 1).val, (i 1).isLt⟩

theorem val_main_v42_apply (i : S4096x4096.Idx) :
    val_main_v42 (F := F) x0 x1 x2 x4 x5 x6 x7 x8 x9 x10 x11 i = val_main_v41 (F := F) x0 x1 x2 x4 x5 x6 x7 x8 x9 x10 x11 (idx_main_v42 i) := by
  unfold val_main_v42
  generalize val_main_v41 (F := F) x0 x1 x2 x4 x5 x6 x7 x8 x9 x10 x11 = y
  exact broadcastInDim_apply _ bcast_S1x4096_S4096x4096_0_1 y i (idx_main_v42 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v43 : (⟨S4096x4096, .f32⟩ : BufTy).Contents (Elt F) :=
  mulf (x2) (val_main_v42 (F := F) x0 x1 x2 x4 x5 x6 x7 x8 x9 x10 x11)

theorem val_main_v43_apply (i : S4096x4096.Idx) :
    val_main_v43 (F := F) x0 x1 x2 x4 x5 x6 x7 x8 x9 x10 x11 i = FloatOps.mulf (x2 i) (val_main_v42 (F := F) x0 x1 x2 x4 x5 x6 x7 x8 x9 x10 x11 i) := rfl

def val_main_v44 : (⟨S4096x4096, .f32⟩ : BufTy).Contents (Elt F) :=
  addf (val_main_v38 (F := F) x0 x1 x2 x4 x5 x6 x7 x8 x9 x10 x11) (val_main_v43 (F := F) x0 x1 x2 x4 x5 x6 x7 x8 x9 x10 x11)

theorem val_main_v44_apply (i : S4096x4096.Idx) :
    val_main_v44 (F := F) x0 x1 x2 x4 x5 x6 x7 x8 x9 x10 x11 i = FloatOps.addf (val_main_v38 (F := F) x0 x1 x2 x4 x5 x6 x7 x8 x9 x10 x11 i) (val_main_v43 (F := F) x0 x1 x2 x4 x5 x6 x7 x8 x9 x10 x11 i) := rfl

def val_main_v45 : (⟨S4096x128, .f32⟩ : BufTy).Contents (Elt F) :=
  Host.dotGeneral dot_S4096x512_S512x128_S4096x128_1_0_0_1_n_n none (x3) (x12)

abbrev lidx_main_v45 (i : S4096x128.Idx) (k : Fin 512) : S4096x512.Idx := lix i k

abbrev ridx_main_v45 (i : S4096x128.Idx) (k : Fin 512) : S512x128.Idx := rix i k

def val_main_v46 : (⟨S4096x128, .f32⟩ : BufTy).Contents (Elt F) :=
  Host.dotGeneral dot_S4096x4096_S4096x128_S4096x128_1_0_0_1_n_n none (val_main_v44 (F := F) x0 x1 x2 x4 x5 x6 x7 x8 x9 x10 x11) (val_main_v45 (F := F) x3 x12)

abbrev lidx_main_v46 (i : S4096x128.Idx) (k : Fin 4096) : S4096x4096.Idx := lix i k

abbrev ridx_main_v46 (i : S4096x128.Idx) (k : Fin 4096) : S4096x128.Idx := rix i k

def val_main_v47 : (⟨S1x128, .f32⟩ : BufTy).Contents (Elt F) :=
  broadcastInDim S1x128 ![1] bcast_S128_S1x128_1 (x13)

abbrev idx_main_v47 (i : S1x128.Idx) : S128.Idx := fun a => match a with
  | ⟨0, _⟩ => ⟨(i 1).val, (i 1).isLt⟩

theorem val_main_v47_apply (i : S1x128.Idx) :
    val_main_v47 (F := F) x13 i = x13 (idx_main_v47 i) := by
  unfold val_main_v47
  exact broadcastInDim_apply _ bcast_S128_S1x128_1 x13 i (idx_main_v47 i) (fun a => match a with
    | ⟨0, _⟩ => by show (i 1).val = if (128 : Nat) = 1 then 0 else (i 1).val; rw [if_neg (by decide)])

def val_main_v48 : (⟨S4096x128, .f32⟩ : BufTy).Contents (Elt F) :=
  broadcastInDim S4096x128 ![0, 1] bcast_S1x128_S4096x128_0_1 (val_main_v47 (F := F) x13)

abbrev idx_main_v48 (i : S4096x128.Idx) : S1x128.Idx := fun a => match a with
  | ⟨0, _⟩ => ⟨0, Nat.one_pos⟩
  | ⟨1, _⟩ => ⟨(i 1).val, (i 1).isLt⟩

theorem val_main_v48_apply (i : S4096x128.Idx) :
    val_main_v48 (F := F) x13 i = val_main_v47 (F := F) x13 (idx_main_v48 i) := by
  unfold val_main_v48
  generalize val_main_v47 (F := F) x13 = y
  exact broadcastInDim_apply _ bcast_S1x128_S4096x128_0_1 y i (idx_main_v48 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v49 : (⟨S4096x128, .f32⟩ : BufTy).Contents (Elt F) :=
  addf (val_main_v46 (F := F) x0 x1 x2 x3 x4 x5 x6 x7 x8 x9 x10 x11 x12) (val_main_v48 (F := F) x13)

theorem val_main_v49_apply (i : S4096x128.Idx) :
    val_main_v49 (F := F) x0 x1 x2 x3 x4 x5 x6 x7 x8 x9 x10 x11 x12 x13 i = FloatOps.addf (val_main_v46 (F := F) x0 x1 x2 x3 x4 x5 x6 x7 x8 x9 x10 x11 x12 i) (val_main_v48 (F := F) x13 i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v0 : (⟨S4096x128, .f32⟩ : BufTy).Contents (Elt F) :=
  broadcastInDim S4096x128 ![] bcast_S_S4096x128 (val_main_call0_cst (F := F))

abbrev idx_main_call0_v0 (i : S4096x128.Idx) : S_.Idx := fun a => a.elim0

theorem val_main_call0_v0_apply (i : S4096x128.Idx) :
    val_main_call0_v0 (F := F) i = val_main_call0_cst (F := F) (idx_main_call0_v0 i) := by
  unfold val_main_call0_v0
  generalize val_main_call0_cst (F := F) = y
  exact broadcastInDim_apply _ bcast_S_S4096x128 y i (idx_main_call0_v0 i) (fun a => a.elim0)

def val_main_v50 : (⟨S4096x128, .f32⟩ : BufTy).Contents (Elt F) :=
  maximumf (val_main_v49 (F := F) x0 x1 x2 x3 x4 x5 x6 x7 x8 x9 x10 x11 x12 x13) (val_main_call0_v0 (F := F))

theorem val_main_v50_apply (i : S4096x128.Idx) :
    val_main_v50 (F := F) x0 x1 x2 x3 x4 x5 x6 x7 x8 x9 x10 x11 x12 x13 i = FloatOps.maximumf (val_main_v49 (F := F) x0 x1 x2 x3 x4 x5 x6 x7 x8 x9 x10 x11 x12 x13 i) (val_main_call0_v0 (F := F) i) := rfl

def val_main_v51 : (⟨S4096x128, .f32⟩ : BufTy).Contents (Elt F) :=
  Host.dotGeneral dot_S4096x128_S128x128_S4096x128_1_0_0_1_n_n none (val_main_v50 (F := F) x0 x1 x2 x3 x4 x5 x6 x7 x8 x9 x10 x11 x12 x13) (x14)

abbrev lidx_main_v51 (i : S4096x128.Idx) (k : Fin 128) : S4096x128.Idx := lix i k

abbrev ridx_main_v51 (i : S4096x128.Idx) (k : Fin 128) : S128x128.Idx := rix i k

def val_main_v52 : (⟨S1x128, .f32⟩ : BufTy).Contents (Elt F) :=
  broadcastInDim S1x128 ![1] bcast_S128_S1x128_1 (x15)

abbrev idx_main_v52 (i : S1x128.Idx) : S128.Idx := fun a => match a with
  | ⟨0, _⟩ => ⟨(i 1).val, (i 1).isLt⟩

theorem val_main_v52_apply (i : S1x128.Idx) :
    val_main_v52 (F := F) x15 i = x15 (idx_main_v52 i) := by
  unfold val_main_v52
  exact broadcastInDim_apply _ bcast_S128_S1x128_1 x15 i (idx_main_v52 i) (fun a => match a with
    | ⟨0, _⟩ => by show (i 1).val = if (128 : Nat) = 1 then 0 else (i 1).val; rw [if_neg (by decide)])

def val_main_v53 : (⟨S4096x128, .f32⟩ : BufTy).Contents (Elt F) :=
  broadcastInDim S4096x128 ![0, 1] bcast_S1x128_S4096x128_0_1 (val_main_v52 (F := F) x15)

abbrev idx_main_v53 (i : S4096x128.Idx) : S1x128.Idx := fun a => match a with
  | ⟨0, _⟩ => ⟨0, Nat.one_pos⟩
  | ⟨1, _⟩ => ⟨(i 1).val, (i 1).isLt⟩

theorem val_main_v53_apply (i : S4096x128.Idx) :
    val_main_v53 (F := F) x15 i = val_main_v52 (F := F) x15 (idx_main_v53 i) := by
  unfold val_main_v53
  generalize val_main_v52 (F := F) x15 = y
  exact broadcastInDim_apply _ bcast_S1x128_S4096x128_0_1 y i (idx_main_v53 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v54 : (⟨S4096x128, .f32⟩ : BufTy).Contents (Elt F) :=
  addf (val_main_v51 (F := F) x0 x1 x2 x3 x4 x5 x6 x7 x8 x9 x10 x11 x12 x13 x14) (val_main_v53 (F := F) x15)

theorem val_main_v54_apply (i : S4096x128.Idx) :
    val_main_v54 (F := F) x0 x1 x2 x3 x4 x5 x6 x7 x8 x9 x10 x11 x12 x13 x14 x15 i = FloatOps.addf (val_main_v51 (F := F) x0 x1 x2 x3 x4 x5 x6 x7 x8 x9 x10 x11 x12 x13 x14 i) (val_main_v53 (F := F) x15 i) := rfl

def val_main_v55 : (⟨S4096x128, .f32⟩ : BufTy).Contents (Elt F) :=
  Host.dotGeneral dot_S4096x128_S128x128_S4096x128_1_0_0_1_n_n none (val_main_v50 (F := F) x0 x1 x2 x3 x4 x5 x6 x7 x8 x9 x10 x11 x12 x13) (x16)

abbrev lidx_main_v55 (i : S4096x128.Idx) (k : Fin 128) : S4096x128.Idx := lix i k

abbrev ridx_main_v55 (i : S4096x128.Idx) (k : Fin 128) : S128x128.Idx := rix i k

def val_main_v56 : (⟨S1x128, .f32⟩ : BufTy).Contents (Elt F) :=
  broadcastInDim S1x128 ![1] bcast_S128_S1x128_1 (x17)

abbrev idx_main_v56 (i : S1x128.Idx) : S128.Idx := fun a => match a with
  | ⟨0, _⟩ => ⟨(i 1).val, (i 1).isLt⟩

theorem val_main_v56_apply (i : S1x128.Idx) :
    val_main_v56 (F := F) x17 i = x17 (idx_main_v56 i) := by
  unfold val_main_v56
  exact broadcastInDim_apply _ bcast_S128_S1x128_1 x17 i (idx_main_v56 i) (fun a => match a with
    | ⟨0, _⟩ => by show (i 1).val = if (128 : Nat) = 1 then 0 else (i 1).val; rw [if_neg (by decide)])

def val_main_v57 : (⟨S4096x128, .f32⟩ : BufTy).Contents (Elt F) :=
  broadcastInDim S4096x128 ![0, 1] bcast_S1x128_S4096x128_0_1 (val_main_v56 (F := F) x17)

abbrev idx_main_v57 (i : S4096x128.Idx) : S1x128.Idx := fun a => match a with
  | ⟨0, _⟩ => ⟨0, Nat.one_pos⟩
  | ⟨1, _⟩ => ⟨(i 1).val, (i 1).isLt⟩

theorem val_main_v57_apply (i : S4096x128.Idx) :
    val_main_v57 (F := F) x17 i = val_main_v56 (F := F) x17 (idx_main_v57 i) := by
  unfold val_main_v57
  generalize val_main_v56 (F := F) x17 = y
  exact broadcastInDim_apply _ bcast_S1x128_S4096x128_0_1 y i (idx_main_v57 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v58 : (⟨S4096x128, .f32⟩ : BufTy).Contents (Elt F) :=
  addf (val_main_v55 (F := F) x0 x1 x2 x3 x4 x5 x6 x7 x8 x9 x10 x11 x12 x13 x16) (val_main_v57 (F := F) x17)

theorem val_main_v58_apply (i : S4096x128.Idx) :
    val_main_v58 (F := F) x0 x1 x2 x3 x4 x5 x6 x7 x8 x9 x10 x11 x12 x13 x16 x17 i = FloatOps.addf (val_main_v55 (F := F) x0 x1 x2 x3 x4 x5 x6 x7 x8 x9 x10 x11 x12 x13 x16 i) (val_main_v57 (F := F) x17 i) := rfl

def val_main_v59 : (⟨S4096x128, .f32⟩ : BufTy).Contents (Elt F) :=
  Host.dotGeneral dot_S4096x128_S128x128_S4096x128_1_0_0_1_n_n none (val_main_v50 (F := F) x0 x1 x2 x3 x4 x5 x6 x7 x8 x9 x10 x11 x12 x13) (x18)

abbrev lidx_main_v59 (i : S4096x128.Idx) (k : Fin 128) : S4096x128.Idx := lix i k

abbrev ridx_main_v59 (i : S4096x128.Idx) (k : Fin 128) : S128x128.Idx := rix i k

def val_main_v60 : (⟨S1x128, .f32⟩ : BufTy).Contents (Elt F) :=
  broadcastInDim S1x128 ![1] bcast_S128_S1x128_1 (x19)

abbrev idx_main_v60 (i : S1x128.Idx) : S128.Idx := fun a => match a with
  | ⟨0, _⟩ => ⟨(i 1).val, (i 1).isLt⟩

theorem val_main_v60_apply (i : S1x128.Idx) :
    val_main_v60 (F := F) x19 i = x19 (idx_main_v60 i) := by
  unfold val_main_v60
  exact broadcastInDim_apply _ bcast_S128_S1x128_1 x19 i (idx_main_v60 i) (fun a => match a with
    | ⟨0, _⟩ => by show (i 1).val = if (128 : Nat) = 1 then 0 else (i 1).val; rw [if_neg (by decide)])

def val_main_v61 : (⟨S4096x128, .f32⟩ : BufTy).Contents (Elt F) :=
  broadcastInDim S4096x128 ![0, 1] bcast_S1x128_S4096x128_0_1 (val_main_v60 (F := F) x19)

abbrev idx_main_v61 (i : S4096x128.Idx) : S1x128.Idx := fun a => match a with
  | ⟨0, _⟩ => ⟨0, Nat.one_pos⟩
  | ⟨1, _⟩ => ⟨(i 1).val, (i 1).isLt⟩

theorem val_main_v61_apply (i : S4096x128.Idx) :
    val_main_v61 (F := F) x19 i = val_main_v60 (F := F) x19 (idx_main_v61 i) := by
  unfold val_main_v61
  generalize val_main_v60 (F := F) x19 = y
  exact broadcastInDim_apply _ bcast_S1x128_S4096x128_0_1 y i (idx_main_v61 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v62 : (⟨S4096x128, .f32⟩ : BufTy).Contents (Elt F) :=
  addf (val_main_v59 (F := F) x0 x1 x2 x3 x4 x5 x6 x7 x8 x9 x10 x11 x12 x13 x18) (val_main_v61 (F := F) x19)

theorem val_main_v62_apply (i : S4096x128.Idx) :
    val_main_v62 (F := F) x0 x1 x2 x3 x4 x5 x6 x7 x8 x9 x10 x11 x12 x13 x18 x19 i = FloatOps.addf (val_main_v59 (F := F) x0 x1 x2 x3 x4 x5 x6 x7 x8 x9 x10 x11 x12 x13 x18 i) (val_main_v61 (F := F) x19 i) := rfl

def val_main_v63 : (⟨S128x4096, .f32⟩ : BufTy).Contents (Elt F) :=
  transpose S128x4096 [1, 0] (val_main_v58 (F := F) x0 x1 x2 x3 x4 x5 x6 x7 x8 x9 x10 x11 x12 x13 x16 x17) transposes_S4096x128_S128x4096_1_0

abbrev idx_main_v63 (i : S128x4096.Idx) : S4096x128.Idx := fun a => match a with
  | ⟨0, _⟩ => ⟨(i 1).val, (i 1).isLt⟩
  | ⟨1, _⟩ => ⟨(i 0).val, (i 0).isLt⟩

theorem val_main_v63_apply (i : S128x4096.Idx) :
    val_main_v63 (F := F) x0 x1 x2 x3 x4 x5 x6 x7 x8 x9 x10 x11 x12 x13 x16 x17 i = val_main_v58 (F := F) x0 x1 x2 x3 x4 x5 x6 x7 x8 x9 x10 x11 x12 x13 x16 x17 (idx_main_v63 i) := by
  unfold val_main_v63
  generalize val_main_v58 (F := F) x0 x1 x2 x3 x4 x5 x6 x7 x8 x9 x10 x11 x12 x13 x16 x17 = y
  exact transpose_apply [1, 0] y transposes_S4096x128_S128x4096_1_0 i (idx_main_v63 i) (fun b => match b with
    | ⟨0, _⟩ => rfl
    | ⟨1, _⟩ => rfl)

def val_main_v64 : (⟨S4096x4096, .f32⟩ : BufTy).Contents (Elt F) :=
  Host.dotGeneral dot_S4096x128_S128x4096_S4096x4096_1_0_0_1_n_n none (val_main_v54 (F := F) x0 x1 x2 x3 x4 x5 x6 x7 x8 x9 x10 x11 x12 x13 x14 x15) (val_main_v63 (F := F) x0 x1 x2 x3 x4 x5 x6 x7 x8 x9 x10 x11 x12 x13 x16 x17)

abbrev lidx_main_v64 (i : S4096x4096.Idx) (k : Fin 128) : S4096x128.Idx := lix i k

abbrev ridx_main_v64 (i : S4096x4096.Idx) (k : Fin 128) : S128x4096.Idx := rix i k

def val_main_v65 : (⟨S4096x4096, .f32⟩ : BufTy).Contents (Elt F) :=
  mulf (val_main_v44 (F := F) x0 x1 x2 x4 x5 x6 x7 x8 x9 x10 x11) (val_main_v64 (F := F) x0 x1 x2 x3 x4 x5 x6 x7 x8 x9 x10 x11 x12 x13 x14 x15 x16 x17)

theorem val_main_v65_apply (i : S4096x4096.Idx) :
    val_main_v65 (F := F) x0 x1 x2 x3 x4 x5 x6 x7 x8 x9 x10 x11 x12 x13 x14 x15 x16 x17 i = FloatOps.mulf (val_main_v44 (F := F) x0 x1 x2 x4 x5 x6 x7 x8 x9 x10 x11 i) (val_main_v64 (F := F) x0 x1 x2 x3 x4 x5 x6 x7 x8 x9 x10 x11 x12 x13 x14 x15 x16 x17 i) := rfl

def val_main_cst_2 : (⟨S_, .f32⟩ : BufTy).Contents (Elt F) :=
  constant S_ .f32 0xFF800000#32

theorem val_main_cst_2_apply (i : S_.Idx) :
    val_main_cst_2 (F := F) i = FloatOps.ofBits .f32 0xFF800000#32 := rfl

def val_main_v66 : (⟨S4096, .f32⟩ : BufTy).Contents (Elt F) :=
  Host.reduce FloatOps.maximumf (val_main_v65 (F := F) x0 x1 x2 x3 x4 x5 x6 x7 x8 x9 x10 x11 x12 x13 x14 x15 x16 x17) (val_main_cst_2 (F := F)) reducesTo_S4096x4096_S4096_d1 h_S_

def val_main_cst_3 : (⟨S_, .f32⟩ : BufTy).Contents (Elt F) :=
  constant S_ .f32 0xFF800000#32

theorem val_main_cst_3_apply (i : S_.Idx) :
    val_main_cst_3 (F := F) i = FloatOps.ofBits .f32 0xFF800000#32 := rfl

def val_main_v67 : (⟨S4096, .f32⟩ : BufTy).Contents (Elt F) :=
  broadcastInDim S4096 ![] bcast_S_S4096 (val_main_cst_3 (F := F))

abbrev idx_main_v67 (i : S4096.Idx) : S_.Idx := fun a => a.elim0

theorem val_main_v67_apply (i : S4096.Idx) :
    val_main_v67 (F := F) i = val_main_cst_3 (F := F) (idx_main_v67 i) := by
  unfold val_main_v67
  generalize val_main_cst_3 (F := F) = y
  exact broadcastInDim_apply _ bcast_S_S4096 y i (idx_main_v67 i) (fun a => a.elim0)

def val_main_v68 : (⟨S4096, .f32⟩ : BufTy).Contents (Elt F) :=
  maximumf (val_main_v67 (F := F)) (val_main_v66 (F := F) x0 x1 x2 x3 x4 x5 x6 x7 x8 x9 x10 x11 x12 x13 x14 x15 x16 x17)

theorem val_main_v68_apply (i : S4096.Idx) :
    val_main_v68 (F := F) x0 x1 x2 x3 x4 x5 x6 x7 x8 x9 x10 x11 x12 x13 x14 x15 x16 x17 i = FloatOps.maximumf (val_main_v67 (F := F) i) (val_main_v66 (F := F) x0 x1 x2 x3 x4 x5 x6 x7 x8 x9 x10 x11 x12 x13 x14 x15 x16 x17 i) := rfl

def val_main_v69 : (⟨S4096x1, .f32⟩ : BufTy).Contents (Elt F) :=
  broadcastInDim S4096x1 ![0] bcast_S4096_S4096x1_0 (val_main_v68 (F := F) x0 x1 x2 x3 x4 x5 x6 x7 x8 x9 x10 x11 x12 x13 x14 x15 x16 x17)

abbrev idx_main_v69 (i : S4096x1.Idx) : S4096.Idx := fun a => match a with
  | ⟨0, _⟩ => ⟨(i 0).val, (i 0).isLt⟩

theorem val_main_v69_apply (i : S4096x1.Idx) :
    val_main_v69 (F := F) x0 x1 x2 x3 x4 x5 x6 x7 x8 x9 x10 x11 x12 x13 x14 x15 x16 x17 i = val_main_v68 (F := F) x0 x1 x2 x3 x4 x5 x6 x7 x8 x9 x10 x11 x12 x13 x14 x15 x16 x17 (idx_main_v69 i) := by
  unfold val_main_v69
  generalize val_main_v68 (F := F) x0 x1 x2 x3 x4 x5 x6 x7 x8 x9 x10 x11 x12 x13 x14 x15 x16 x17 = y
  exact broadcastInDim_apply _ bcast_S4096_S4096x1_0 y i (idx_main_v69 i) (fun a => match a with
    | ⟨0, _⟩ => by show (i 0).val = if (4096 : Nat) = 1 then 0 else (i 0).val; rw [if_neg (by decide)])

def val_main_v70 : (⟨S4096x4096, .f32⟩ : BufTy).Contents (Elt F) :=
  broadcastInDim S4096x4096 ![0, 1] bcast_S4096x1_S4096x4096_0_1 (val_main_v69 (F := F) x0 x1 x2 x3 x4 x5 x6 x7 x8 x9 x10 x11 x12 x13 x14 x15 x16 x17)

abbrev idx_main_v70 (i : S4096x4096.Idx) : S4096x1.Idx := fun a => match a with
  | ⟨0, _⟩ => ⟨(i 0).val, (i 0).isLt⟩
  | ⟨1, _⟩ => ⟨0, Nat.one_pos⟩

theorem val_main_v70_apply (i : S4096x4096.Idx) :
    val_main_v70 (F := F) x0 x1 x2 x3 x4 x5 x6 x7 x8 x9 x10 x11 x12 x13 x14 x15 x16 x17 i = val_main_v69 (F := F) x0 x1 x2 x3 x4 x5 x6 x7 x8 x9 x10 x11 x12 x13 x14 x15 x16 x17 (idx_main_v70 i) := by
  unfold val_main_v70
  generalize val_main_v69 (F := F) x0 x1 x2 x3 x4 x5 x6 x7 x8 x9 x10 x11 x12 x13 x14 x15 x16 x17 = y
  exact broadcastInDim_apply _ bcast_S4096x1_S4096x4096_0_1 y i (idx_main_v70 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v71 : (⟨S4096x4096, .f32⟩ : BufTy).Contents (Elt F) :=
  subf (val_main_v65 (F := F) x0 x1 x2 x3 x4 x5 x6 x7 x8 x9 x10 x11 x12 x13 x14 x15 x16 x17) (val_main_v70 (F := F) x0 x1 x2 x3 x4 x5 x6 x7 x8 x9 x10 x11 x12 x13 x14 x15 x16 x17)

theorem val_main_v71_apply (i : S4096x4096.Idx) :
    val_main_v71 (F := F) x0 x1 x2 x3 x4 x5 x6 x7 x8 x9 x10 x11 x12 x13 x14 x15 x16 x17 i = FloatOps.subf (val_main_v65 (F := F) x0 x1 x2 x3 x4 x5 x6 x7 x8 x9 x10 x11 x12 x13 x14 x15 x16 x17 i) (val_main_v70 (F := F) x0 x1 x2 x3 x4 x5 x6 x7 x8 x9 x10 x11 x12 x13 x14 x15 x16 x17 i) := rfl

def val_main_v72 : (⟨S4096x4096, .f32⟩ : BufTy).Contents (Elt F) :=
  Host.exp (val_main_v71 (F := F) x0 x1 x2 x3 x4 x5 x6 x7 x8 x9 x10 x11 x12 x13 x14 x15 x16 x17)

theorem val_main_v72_apply (i : S4096x4096.Idx) :
    val_main_v72 (F := F) x0 x1 x2 x3 x4 x5 x6 x7 x8 x9 x10 x11 x12 x13 x14 x15 x16 x17 i = FloatOps.hostUnary .exp (val_main_v71 (F := F) x0 x1 x2 x3 x4 x5 x6 x7 x8 x9 x10 x11 x12 x13 x14 x15 x16 x17 i) := rfl

def val_main_cst_4 : (⟨S_, .f32⟩ : BufTy).Contents (Elt F) :=
  constant S_ .f32 0x00000000#32

theorem val_main_cst_4_apply (i : S_.Idx) :
    val_main_cst_4 (F := F) i = FloatOps.ofBits .f32 0x00000000#32 := rfl

def val_main_v73 : (⟨S4096, .f32⟩ : BufTy).Contents (Elt F) :=
  Host.reduceAdd (val_main_v72 (F := F) x0 x1 x2 x3 x4 x5 x6 x7 x8 x9 x10 x11 x12 x13 x14 x15 x16 x17) (val_main_cst_4 (F := F)) reducesTo_S4096x4096_S4096_d1 h_S_

abbrev idx_main_v73 (i : S4096.Idx) (k : Fin 4096) : S4096x4096.Idx := fun a => match a with
  | ⟨0, _⟩ => ⟨(i 0).val, (i 0).isLt⟩
  | ⟨1, _⟩ => ⟨k.val, k.isLt⟩

def val_main_v74 : (⟨S4096x1, .f32⟩ : BufTy).Contents (Elt F) :=
  broadcastInDim S4096x1 ![0] bcast_S4096_S4096x1_0 (val_main_v73 (F := F) x0 x1 x2 x3 x4 x5 x6 x7 x8 x9 x10 x11 x12 x13 x14 x15 x16 x17)

abbrev idx_main_v74 (i : S4096x1.Idx) : S4096.Idx := fun a => match a with
  | ⟨0, _⟩ => ⟨(i 0).val, (i 0).isLt⟩

theorem val_main_v74_apply (i : S4096x1.Idx) :
    val_main_v74 (F := F) x0 x1 x2 x3 x4 x5 x6 x7 x8 x9 x10 x11 x12 x13 x14 x15 x16 x17 i = val_main_v73 (F := F) x0 x1 x2 x3 x4 x5 x6 x7 x8 x9 x10 x11 x12 x13 x14 x15 x16 x17 (idx_main_v74 i) := by
  unfold val_main_v74
  generalize val_main_v73 (F := F) x0 x1 x2 x3 x4 x5 x6 x7 x8 x9 x10 x11 x12 x13 x14 x15 x16 x17 = y
  exact broadcastInDim_apply _ bcast_S4096_S4096x1_0 y i (idx_main_v74 i) (fun a => match a with
    | ⟨0, _⟩ => by show (i 0).val = if (4096 : Nat) = 1 then 0 else (i 0).val; rw [if_neg (by decide)])

def val_main_v75 : (⟨S4096x4096, .f32⟩ : BufTy).Contents (Elt F) :=
  broadcastInDim S4096x4096 ![0, 1] bcast_S4096x1_S4096x4096_0_1 (val_main_v74 (F := F) x0 x1 x2 x3 x4 x5 x6 x7 x8 x9 x10 x11 x12 x13 x14 x15 x16 x17)

abbrev idx_main_v75 (i : S4096x4096.Idx) : S4096x1.Idx := fun a => match a with
  | ⟨0, _⟩ => ⟨(i 0).val, (i 0).isLt⟩
  | ⟨1, _⟩ => ⟨0, Nat.one_pos⟩

theorem val_main_v75_apply (i : S4096x4096.Idx) :
    val_main_v75 (F := F) x0 x1 x2 x3 x4 x5 x6 x7 x8 x9 x10 x11 x12 x13 x14 x15 x16 x17 i = val_main_v74 (F := F) x0 x1 x2 x3 x4 x5 x6 x7 x8 x9 x10 x11 x12 x13 x14 x15 x16 x17 (idx_main_v75 i) := by
  unfold val_main_v75
  generalize val_main_v74 (F := F) x0 x1 x2 x3 x4 x5 x6 x7 x8 x9 x10 x11 x12 x13 x14 x15 x16 x17 = y
  exact broadcastInDim_apply _ bcast_S4096x1_S4096x4096_0_1 y i (idx_main_v75 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v76 : (⟨S4096x4096, .f32⟩ : BufTy).Contents (Elt F) :=
  Host.divf (val_main_v72 (F := F) x0 x1 x2 x3 x4 x5 x6 x7 x8 x9 x10 x11 x12 x13 x14 x15 x16 x17) (val_main_v75 (F := F) x0 x1 x2 x3 x4 x5 x6 x7 x8 x9 x10 x11 x12 x13 x14 x15 x16 x17)

theorem val_main_v76_apply (i : S4096x4096.Idx) :
    val_main_v76 (F := F) x0 x1 x2 x3 x4 x5 x6 x7 x8 x9 x10 x11 x12 x13 x14 x15 x16 x17 i = FloatOps.hostDivf (val_main_v72 (F := F) x0 x1 x2 x3 x4 x5 x6 x7 x8 x9 x10 x11 x12 x13 x14 x15 x16 x17 i) (val_main_v75 (F := F) x0 x1 x2 x3 x4 x5 x6 x7 x8 x9 x10 x11 x12 x13 x14 x15 x16 x17 i) := rfl

def val_main_cst_5 : (⟨S_, .f32⟩ : BufTy).Contents (Elt F) :=
  constant S_ .f32 0x00000000#32

theorem val_main_cst_5_apply (i : S_.Idx) :
    val_main_cst_5 (F := F) i = FloatOps.ofBits .f32 0x00000000#32 := rfl

def val_main_v77 : (⟨S4096, .f32⟩ : BufTy).Contents (Elt F) :=
  Host.reduceAdd (val_main_v76 (F := F) x0 x1 x2 x3 x4 x5 x6 x7 x8 x9 x10 x11 x12 x13 x14 x15 x16 x17) (val_main_cst_5 (F := F)) reducesTo_S4096x4096_S4096_d1 h_S_

abbrev idx_main_v77 (i : S4096.Idx) (k : Fin 4096) : S4096x4096.Idx := fun a => match a with
  | ⟨0, _⟩ => ⟨(i 0).val, (i 0).isLt⟩
  | ⟨1, _⟩ => ⟨k.val, k.isLt⟩

def val_main_cst_6 : (⟨S_, .f32⟩ : BufTy).Contents (Elt F) :=
  constant S_ .f32 0x00000000#32

theorem val_main_cst_6_apply (i : S_.Idx) :
    val_main_cst_6 (F := F) i = FloatOps.ofBits .f32 0x00000000#32 := rfl

def val_main_v78 : (⟨S4096, .f32⟩ : BufTy).Contents (Elt F) :=
  broadcastInDim S4096 ![] bcast_S_S4096 (val_main_cst_6 (F := F))

abbrev idx_main_v78 (i : S4096.Idx) : S_.Idx := fun a => a.elim0

theorem val_main_v78_apply (i : S4096.Idx) :
    val_main_v78 (F := F) i = val_main_cst_6 (F := F) (idx_main_v78 i) := by
  unfold val_main_v78
  generalize val_main_cst_6 (F := F) = y
  exact broadcastInDim_apply _ bcast_S_S4096 y i (idx_main_v78 i) (fun a => a.elim0)

def val_main_v79 : (⟨S4096, .i1⟩ : BufTy).Contents (Elt F) :=
  cmpf .ogt (val_main_v77 (F := F) x0 x1 x2 x3 x4 x5 x6 x7 x8 x9 x10 x11 x12 x13 x14 x15 x16 x17) (val_main_v78 (F := F))

theorem val_main_v79_apply (i : S4096.Idx) :
    val_main_v79 (F := F) x0 x1 x2 x3 x4 x5 x6 x7 x8 x9 x10 x11 x12 x13 x14 x15 x16 x17 i = FloatOps.cmpf .ogt (val_main_v77 (F := F) x0 x1 x2 x3 x4 x5 x6 x7 x8 x9 x10 x11 x12 x13 x14 x15 x16 x17 i) (val_main_v78 (F := F) i) := rfl

def val_main_cst_7 : (⟨S_, .f32⟩ : BufTy).Contents (Elt F) :=
  constant S_ .f32 0x2B8CBCCC#32

theorem val_main_cst_7_apply (i : S_.Idx) :
    val_main_cst_7 (F := F) i = FloatOps.ofBits .f32 0x2B8CBCCC#32 := rfl

def val_main_v80 : (⟨S4096, .f32⟩ : BufTy).Contents (Elt F) :=
  broadcastInDim S4096 ![] bcast_S_S4096 (val_main_cst_7 (F := F))

abbrev idx_main_v80 (i : S4096.Idx) : S_.Idx := fun a => a.elim0

theorem val_main_v80_apply (i : S4096.Idx) :
    val_main_v80 (F := F) i = val_main_cst_7 (F := F) (idx_main_v80 i) := by
  unfold val_main_v80
  generalize val_main_cst_7 (F := F) = y
  exact broadcastInDim_apply _ bcast_S_S4096 y i (idx_main_v80 i) (fun a => a.elim0)

def val_main_v81 : (⟨S4096, .f32⟩ : BufTy).Contents (Elt F) :=
  maximumf (val_main_v77 (F := F) x0 x1 x2 x3 x4 x5 x6 x7 x8 x9 x10 x11 x12 x13 x14 x15 x16 x17) (val_main_v80 (F := F))

theorem val_main_v81_apply (i : S4096.Idx) :
    val_main_v81 (F := F) x0 x1 x2 x3 x4 x5 x6 x7 x8 x9 x10 x11 x12 x13 x14 x15 x16 x17 i = FloatOps.maximumf (val_main_v77 (F := F) x0 x1 x2 x3 x4 x5 x6 x7 x8 x9 x10 x11 x12 x13 x14 x15 x16 x17 i) (val_main_v80 (F := F) i) := rfl

def val_main_v82 : (⟨S4096, .f32⟩ : BufTy).Contents (Elt F) :=
  Host.rsqrt (val_main_v81 (F := F) x0 x1 x2 x3 x4 x5 x6 x7 x8 x9 x10 x11 x12 x13 x14 x15 x16 x17)

theorem val_main_v82_apply (i : S4096.Idx) :
    val_main_v82 (F := F) x0 x1 x2 x3 x4 x5 x6 x7 x8 x9 x10 x11 x12 x13 x14 x15 x16 x17 i = FloatOps.hostUnary .rsqrt (val_main_v81 (F := F) x0 x1 x2 x3 x4 x5 x6 x7 x8 x9 x10 x11 x12 x13 x14 x15 x16 x17 i) := rfl

def val_main_cst_8 : (⟨S_, .f32⟩ : BufTy).Contents (Elt F) :=
  constant S_ .f32 0x00000000#32

theorem val_main_cst_8_apply (i : S_.Idx) :
    val_main_cst_8 (F := F) i = FloatOps.ofBits .f32 0x00000000#32 := rfl

def val_main_call1_v0 : (⟨S_, .f32⟩ : BufTy).Contents (Elt F) :=
  id (val_main_cst_8 (F := F))

theorem val_main_call1_v0_apply (i : S_.Idx) :
    val_main_call1_v0 (F := F) i = (val_main_cst_8 (F := F) i) := rfl

def val_main_call1_v1 : (⟨S4096, .f32⟩ : BufTy).Contents (Elt F) :=
  broadcastInDim S4096 ![] bcast_S_S4096 (val_main_call1_v0 (F := F))

abbrev idx_main_call1_v1 (i : S4096.Idx) : S_.Idx := fun a => a.elim0

theorem val_main_call1_v1_apply (i : S4096.Idx) :
    val_main_call1_v1 (F := F) i = val_main_call1_v0 (F := F) (idx_main_call1_v1 i) := by
  unfold val_main_call1_v1
  generalize val_main_call1_v0 (F := F) = y
  exact broadcastInDim_apply _ bcast_S_S4096 y i (idx_main_call1_v1 i) (fun a => a.elim0)

def val_main_v83 : (⟨S4096, .f32⟩ : BufTy).Contents (Elt F) :=
  select (val_main_v79 (F := F) x0 x1 x2 x3 x4 x5 x6 x7 x8 x9 x10 x11 x12 x13 x14 x15 x16 x17) (val_main_v82 (F := F) x0 x1 x2 x3 x4 x5 x6 x7 x8 x9 x10 x11 x12 x13 x14 x15 x16 x17) (val_main_call1_v1 (F := F))

theorem val_main_v83_apply (i : S4096.Idx) :
    val_main_v83 (F := F) x0 x1 x2 x3 x4 x5 x6 x7 x8 x9 x10 x11 x12 x13 x14 x15 x16 x17 i = Scalar.select (val_main_v79 (F := F) x0 x1 x2 x3 x4 x5 x6 x7 x8 x9 x10 x11 x12 x13 x14 x15 x16 x17 i) (val_main_v82 (F := F) x0 x1 x2 x3 x4 x5 x6 x7 x8 x9 x10 x11 x12 x13 x14 x15 x16 x17 i) (val_main_call1_v1 (F := F) i) := rfl

def val_main_v84 : (⟨S4096x1, .f32⟩ : BufTy).Contents (Elt F) :=
  broadcastInDim S4096x1 ![0] bcast_S4096_S4096x1_0 (val_main_v83 (F := F) x0 x1 x2 x3 x4 x5 x6 x7 x8 x9 x10 x11 x12 x13 x14 x15 x16 x17)

abbrev idx_main_v84 (i : S4096x1.Idx) : S4096.Idx := fun a => match a with
  | ⟨0, _⟩ => ⟨(i 0).val, (i 0).isLt⟩

theorem val_main_v84_apply (i : S4096x1.Idx) :
    val_main_v84 (F := F) x0 x1 x2 x3 x4 x5 x6 x7 x8 x9 x10 x11 x12 x13 x14 x15 x16 x17 i = val_main_v83 (F := F) x0 x1 x2 x3 x4 x5 x6 x7 x8 x9 x10 x11 x12 x13 x14 x15 x16 x17 (idx_main_v84 i) := by
  unfold val_main_v84
  generalize val_main_v83 (F := F) x0 x1 x2 x3 x4 x5 x6 x7 x8 x9 x10 x11 x12 x13 x14 x15 x16 x17 = y
  exact broadcastInDim_apply _ bcast_S4096_S4096x1_0 y i (idx_main_v84 i) (fun a => match a with
    | ⟨0, _⟩ => by show (i 0).val = if (4096 : Nat) = 1 then 0 else (i 0).val; rw [if_neg (by decide)])

def val_main_v85 : (⟨S4096x4096, .f32⟩ : BufTy).Contents (Elt F) :=
  broadcastInDim S4096x4096 ![0, 1] bcast_S4096x1_S4096x4096_0_1 (val_main_v84 (F := F) x0 x1 x2 x3 x4 x5 x6 x7 x8 x9 x10 x11 x12 x13 x14 x15 x16 x17)

abbrev idx_main_v85 (i : S4096x4096.Idx) : S4096x1.Idx := fun a => match a with
  | ⟨0, _⟩ => ⟨(i 0).val, (i 0).isLt⟩
  | ⟨1, _⟩ => ⟨0, Nat.one_pos⟩

theorem val_main_v85_apply (i : S4096x4096.Idx) :
    val_main_v85 (F := F) x0 x1 x2 x3 x4 x5 x6 x7 x8 x9 x10 x11 x12 x13 x14 x15 x16 x17 i = val_main_v84 (F := F) x0 x1 x2 x3 x4 x5 x6 x7 x8 x9 x10 x11 x12 x13 x14 x15 x16 x17 (idx_main_v85 i) := by
  unfold val_main_v85
  generalize val_main_v84 (F := F) x0 x1 x2 x3 x4 x5 x6 x7 x8 x9 x10 x11 x12 x13 x14 x15 x16 x17 = y
  exact broadcastInDim_apply _ bcast_S4096x1_S4096x4096_0_1 y i (idx_main_v85 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v86 : (⟨S4096x4096, .f32⟩ : BufTy).Contents (Elt F) :=
  mulf (val_main_v85 (F := F) x0 x1 x2 x3 x4 x5 x6 x7 x8 x9 x10 x11 x12 x13 x14 x15 x16 x17) (val_main_v76 (F := F) x0 x1 x2 x3 x4 x5 x6 x7 x8 x9 x10 x11 x12 x13 x14 x15 x16 x17)

theorem val_main_v86_apply (i : S4096x4096.Idx) :
    val_main_v86 (F := F) x0 x1 x2 x3 x4 x5 x6 x7 x8 x9 x10 x11 x12 x13 x14 x15 x16 x17 i = FloatOps.mulf (val_main_v85 (F := F) x0 x1 x2 x3 x4 x5 x6 x7 x8 x9 x10 x11 x12 x13 x14 x15 x16 x17 i) (val_main_v76 (F := F) x0 x1 x2 x3 x4 x5 x6 x7 x8 x9 x10 x11 x12 x13 x14 x15 x16 x17 i) := rfl

def val_main_v87 : (⟨S1x4096, .f32⟩ : BufTy).Contents (Elt F) :=
  broadcastInDim S1x4096 ![1] bcast_S4096_S1x4096_1 (val_main_v83 (F := F) x0 x1 x2 x3 x4 x5 x6 x7 x8 x9 x10 x11 x12 x13 x14 x15 x16 x17)

abbrev idx_main_v87 (i : S1x4096.Idx) : S4096.Idx := fun a => match a with
  | ⟨0, _⟩ => ⟨(i 1).val, (i 1).isLt⟩

theorem val_main_v87_apply (i : S1x4096.Idx) :
    val_main_v87 (F := F) x0 x1 x2 x3 x4 x5 x6 x7 x8 x9 x10 x11 x12 x13 x14 x15 x16 x17 i = val_main_v83 (F := F) x0 x1 x2 x3 x4 x5 x6 x7 x8 x9 x10 x11 x12 x13 x14 x15 x16 x17 (idx_main_v87 i) := by
  unfold val_main_v87
  generalize val_main_v83 (F := F) x0 x1 x2 x3 x4 x5 x6 x7 x8 x9 x10 x11 x12 x13 x14 x15 x16 x17 = y
  exact broadcastInDim_apply _ bcast_S4096_S1x4096_1 y i (idx_main_v87 i) (fun a => match a with
    | ⟨0, _⟩ => by show (i 1).val = if (4096 : Nat) = 1 then 0 else (i 1).val; rw [if_neg (by decide)])

def val_main_v88 : (⟨S4096x4096, .f32⟩ : BufTy).Contents (Elt F) :=
  broadcastInDim S4096x4096 ![0, 1] bcast_S1x4096_S4096x4096_0_1 (val_main_v87 (F := F) x0 x1 x2 x3 x4 x5 x6 x7 x8 x9 x10 x11 x12 x13 x14 x15 x16 x17)

abbrev idx_main_v88 (i : S4096x4096.Idx) : S1x4096.Idx := fun a => match a with
  | ⟨0, _⟩ => ⟨0, Nat.one_pos⟩
  | ⟨1, _⟩ => ⟨(i 1).val, (i 1).isLt⟩

theorem val_main_v88_apply (i : S4096x4096.Idx) :
    val_main_v88 (F := F) x0 x1 x2 x3 x4 x5 x6 x7 x8 x9 x10 x11 x12 x13 x14 x15 x16 x17 i = val_main_v87 (F := F) x0 x1 x2 x3 x4 x5 x6 x7 x8 x9 x10 x11 x12 x13 x14 x15 x16 x17 (idx_main_v88 i) := by
  unfold val_main_v88
  generalize val_main_v87 (F := F) x0 x1 x2 x3 x4 x5 x6 x7 x8 x9 x10 x11 x12 x13 x14 x15 x16 x17 = y
  exact broadcastInDim_apply _ bcast_S1x4096_S4096x4096_0_1 y i (idx_main_v88 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v89 : (⟨S4096x4096, .f32⟩ : BufTy).Contents (Elt F) :=
  mulf (val_main_v86 (F := F) x0 x1 x2 x3 x4 x5 x6 x7 x8 x9 x10 x11 x12 x13 x14 x15 x16 x17) (val_main_v88 (F := F) x0 x1 x2 x3 x4 x5 x6 x7 x8 x9 x10 x11 x12 x13 x14 x15 x16 x17)

theorem val_main_v89_apply (i : S4096x4096.Idx) :
    val_main_v89 (F := F) x0 x1 x2 x3 x4 x5 x6 x7 x8 x9 x10 x11 x12 x13 x14 x15 x16 x17 i = FloatOps.mulf (val_main_v86 (F := F) x0 x1 x2 x3 x4 x5 x6 x7 x8 x9 x10 x11 x12 x13 x14 x15 x16 x17 i) (val_main_v88 (F := F) x0 x1 x2 x3 x4 x5 x6 x7 x8 x9 x10 x11 x12 x13 x14 x15 x16 x17 i) := rfl

def val_main_v90 : (⟨S4096x128, .f32⟩ : BufTy).Contents (Elt F) :=
  Host.dotGeneral dot_S4096x4096_S4096x128_S4096x128_1_0_0_1_n_n none (val_main_v89 (F := F) x0 x1 x2 x3 x4 x5 x6 x7 x8 x9 x10 x11 x12 x13 x14 x15 x16 x17) (val_main_v62 (F := F) x0 x1 x2 x3 x4 x5 x6 x7 x8 x9 x10 x11 x12 x13 x18 x19)

abbrev lidx_main_v90 (i : S4096x128.Idx) (k : Fin 4096) : S4096x4096.Idx := lix i k

abbrev ridx_main_v90 (i : S4096x128.Idx) (k : Fin 4096) : S4096x128.Idx := rix i k

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S4096x128, .f32⟩ : BufTy).Contents (Elt F) :=
  broadcastInDim S4096x128 ![] bcast_S_S4096x128 (val_main_call2_cst (F := F))

abbrev idx_main_call2_v0 (i : S4096x128.Idx) : S_.Idx := fun a => a.elim0

theorem val_main_call2_v0_apply (i : S4096x128.Idx) :
    val_main_call2_v0 (F := F) i = val_main_call2_cst (F := F) (idx_main_call2_v0 i) := by
  unfold val_main_call2_v0
  generalize val_main_call2_cst (F := F) = y
  exact broadcastInDim_apply _ bcast_S_S4096x128 y i (idx_main_call2_v0 i) (fun a => a.elim0)

def val_main_v91 : (⟨S4096x128, .f32⟩ : BufTy).Contents (Elt F) :=
  maximumf (val_main_v90 (F := F) x0 x1 x2 x3 x4 x5 x6 x7 x8 x9 x10 x11 x12 x13 x14 x15 x16 x17 x18 x19) (val_main_call2_v0 (F := F))

theorem val_main_v91_apply (i : S4096x128.Idx) :
    val_main_v91 (F := F) x0 x1 x2 x3 x4 x5 x6 x7 x8 x9 x10 x11 x12 x13 x14 x15 x16 x17 x18 x19 i = FloatOps.maximumf (val_main_v90 (F := F) x0 x1 x2 x3 x4 x5 x6 x7 x8 x9 x10 x11 x12 x13 x14 x15 x16 x17 x18 x19 i) (val_main_call2_v0 (F := F) i) := rfl

def val_main_v92 : (⟨S4096x16, .f32⟩ : BufTy).Contents (Elt F) :=
  Host.dotGeneral dot_S4096x128_S128x16_S4096x16_1_0_0_1_n_n none (val_main_v91 (F := F) x0 x1 x2 x3 x4 x5 x6 x7 x8 x9 x10 x11 x12 x13 x14 x15 x16 x17 x18 x19) (x20)

abbrev lidx_main_v92 (i : S4096x16.Idx) (k : Fin 128) : S4096x128.Idx := lix i k

abbrev ridx_main_v92 (i : S4096x16.Idx) (k : Fin 128) : S128x16.Idx := rix i k

def val_main_v93 : (⟨S4096x16, .f32⟩ : BufTy).Contents (Elt F) :=
  Host.dotGeneral dot_S4096x4096_S4096x16_S4096x16_1_0_0_1_n_n none (val_main_v44 (F := F) x0 x1 x2 x4 x5 x6 x7 x8 x9 x10 x11) (val_main_v92 (F := F) x0 x1 x2 x3 x4 x5 x6 x7 x8 x9 x10 x11 x12 x13 x14 x15 x16 x17 x18 x19 x20)

abbrev lidx_main_v93 (i : S4096x16.Idx) (k : Fin 4096) : S4096x4096.Idx := lix i k

abbrev ridx_main_v93 (i : S4096x16.Idx) (k : Fin 4096) : S4096x16.Idx := rix i k

def val_main_v94 : (⟨S1x16, .f32⟩ : BufTy).Contents (Elt F) :=
  broadcastInDim S1x16 ![1] bcast_S16_S1x16_1 (x21)

abbrev idx_main_v94 (i : S1x16.Idx) : S16.Idx := fun a => match a with
  | ⟨0, _⟩ => ⟨(i 1).val, (i 1).isLt⟩

theorem val_main_v94_apply (i : S1x16.Idx) :
    val_main_v94 (F := F) x21 i = x21 (idx_main_v94 i) := by
  unfold val_main_v94
  exact broadcastInDim_apply _ bcast_S16_S1x16_1 x21 i (idx_main_v94 i) (fun a => match a with
    | ⟨0, _⟩ => by show (i 1).val = if (16 : Nat) = 1 then 0 else (i 1).val; rw [if_neg (by decide)])

def val_main_v95 : (⟨S4096x16, .f32⟩ : BufTy).Contents (Elt F) :=
  broadcastInDim S4096x16 ![0, 1] bcast_S1x16_S4096x16_0_1 (val_main_v94 (F := F) x21)

abbrev idx_main_v95 (i : S4096x16.Idx) : S1x16.Idx := fun a => match a with
  | ⟨0, _⟩ => ⟨0, Nat.one_pos⟩
  | ⟨1, _⟩ => ⟨(i 1).val, (i 1).isLt⟩

theorem val_main_v95_apply (i : S4096x16.Idx) :
    val_main_v95 (F := F) x21 i = val_main_v94 (F := F) x21 (idx_main_v95 i) := by
  unfold val_main_v95
  generalize val_main_v94 (F := F) x21 = y
  exact broadcastInDim_apply _ bcast_S1x16_S4096x16_0_1 y i (idx_main_v95 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v96 : (⟨S4096x16, .f32⟩ : BufTy).Contents (Elt F) :=
  addf (val_main_v93 (F := F) x0 x1 x2 x3 x4 x5 x6 x7 x8 x9 x10 x11 x12 x13 x14 x15 x16 x17 x18 x19 x20) (val_main_v95 (F := F) x21)

theorem val_main_v96_apply (i : S4096x16.Idx) :
    val_main_v96 (F := F) x0 x1 x2 x3 x4 x5 x6 x7 x8 x9 x10 x11 x12 x13 x14 x15 x16 x17 x18 x19 x20 x21 i = FloatOps.addf (val_main_v93 (F := F) x0 x1 x2 x3 x4 x5 x6 x7 x8 x9 x10 x11 x12 x13 x14 x15 x16 x17 x18 x19 x20 i) (val_main_v95 (F := F) x21 i) := rfl

def val_main_cst_9 : (⟨S_, .f32⟩ : BufTy).Contents (Elt F) :=
  constant S_ .f32 0xFF800000#32

theorem val_main_cst_9_apply (i : S_.Idx) :
    val_main_cst_9 (F := F) i = FloatOps.ofBits .f32 0xFF800000#32 := rfl

def val_main_v97 : (⟨S4096, .f32⟩ : BufTy).Contents (Elt F) :=
  Host.reduce FloatOps.maximumf (val_main_v96 (F := F) x0 x1 x2 x3 x4 x5 x6 x7 x8 x9 x10 x11 x12 x13 x14 x15 x16 x17 x18 x19 x20 x21) (val_main_cst_9 (F := F)) reducesTo_S4096x16_S4096_d1 h_S_

def val_main_cst_10 : (⟨S_, .f32⟩ : BufTy).Contents (Elt F) :=
  constant S_ .f32 0xFF800000#32

theorem val_main_cst_10_apply (i : S_.Idx) :
    val_main_cst_10 (F := F) i = FloatOps.ofBits .f32 0xFF800000#32 := rfl

def val_main_v98 : (⟨S4096, .f32⟩ : BufTy).Contents (Elt F) :=
  broadcastInDim S4096 ![] bcast_S_S4096 (val_main_cst_10 (F := F))

abbrev idx_main_v98 (i : S4096.Idx) : S_.Idx := fun a => a.elim0

theorem val_main_v98_apply (i : S4096.Idx) :
    val_main_v98 (F := F) i = val_main_cst_10 (F := F) (idx_main_v98 i) := by
  unfold val_main_v98
  generalize val_main_cst_10 (F := F) = y
  exact broadcastInDim_apply _ bcast_S_S4096 y i (idx_main_v98 i) (fun a => a.elim0)

def val_main_v99 : (⟨S4096, .f32⟩ : BufTy).Contents (Elt F) :=
  maximumf (val_main_v98 (F := F)) (val_main_v97 (F := F) x0 x1 x2 x3 x4 x5 x6 x7 x8 x9 x10 x11 x12 x13 x14 x15 x16 x17 x18 x19 x20 x21)

theorem val_main_v99_apply (i : S4096.Idx) :
    val_main_v99 (F := F) x0 x1 x2 x3 x4 x5 x6 x7 x8 x9 x10 x11 x12 x13 x14 x15 x16 x17 x18 x19 x20 x21 i = FloatOps.maximumf (val_main_v98 (F := F) i) (val_main_v97 (F := F) x0 x1 x2 x3 x4 x5 x6 x7 x8 x9 x10 x11 x12 x13 x14 x15 x16 x17 x18 x19 x20 x21 i) := rfl

def val_main_v100 : (⟨S4096x1, .f32⟩ : BufTy).Contents (Elt F) :=
  broadcastInDim S4096x1 ![0] bcast_S4096_S4096x1_0 (val_main_v99 (F := F) x0 x1 x2 x3 x4 x5 x6 x7 x8 x9 x10 x11 x12 x13 x14 x15 x16 x17 x18 x19 x20 x21)

abbrev idx_main_v100 (i : S4096x1.Idx) : S4096.Idx := fun a => match a with
  | ⟨0, _⟩ => ⟨(i 0).val, (i 0).isLt⟩

theorem val_main_v100_apply (i : S4096x1.Idx) :
    val_main_v100 (F := F) x0 x1 x2 x3 x4 x5 x6 x7 x8 x9 x10 x11 x12 x13 x14 x15 x16 x17 x18 x19 x20 x21 i = val_main_v99 (F := F) x0 x1 x2 x3 x4 x5 x6 x7 x8 x9 x10 x11 x12 x13 x14 x15 x16 x17 x18 x19 x20 x21 (idx_main_v100 i) := by
  unfold val_main_v100
  generalize val_main_v99 (F := F) x0 x1 x2 x3 x4 x5 x6 x7 x8 x9 x10 x11 x12 x13 x14 x15 x16 x17 x18 x19 x20 x21 = y
  exact broadcastInDim_apply _ bcast_S4096_S4096x1_0 y i (idx_main_v100 i) (fun a => match a with
    | ⟨0, _⟩ => by show (i 0).val = if (4096 : Nat) = 1 then 0 else (i 0).val; rw [if_neg (by decide)])

def val_main_v101 : (⟨S4096x16, .f32⟩ : BufTy).Contents (Elt F) :=
  broadcastInDim S4096x16 ![0, 1] bcast_S4096x1_S4096x16_0_1 (val_main_v100 (F := F) x0 x1 x2 x3 x4 x5 x6 x7 x8 x9 x10 x11 x12 x13 x14 x15 x16 x17 x18 x19 x20 x21)

abbrev idx_main_v101 (i : S4096x16.Idx) : S4096x1.Idx := fun a => match a with
  | ⟨0, _⟩ => ⟨(i 0).val, (i 0).isLt⟩
  | ⟨1, _⟩ => ⟨0, Nat.one_pos⟩

theorem val_main_v101_apply (i : S4096x16.Idx) :
    val_main_v101 (F := F) x0 x1 x2 x3 x4 x5 x6 x7 x8 x9 x10 x11 x12 x13 x14 x15 x16 x17 x18 x19 x20 x21 i = val_main_v100 (F := F) x0 x1 x2 x3 x4 x5 x6 x7 x8 x9 x10 x11 x12 x13 x14 x15 x16 x17 x18 x19 x20 x21 (idx_main_v101 i) := by
  unfold val_main_v101
  generalize val_main_v100 (F := F) x0 x1 x2 x3 x4 x5 x6 x7 x8 x9 x10 x11 x12 x13 x14 x15 x16 x17 x18 x19 x20 x21 = y
  exact broadcastInDim_apply _ bcast_S4096x1_S4096x16_0_1 y i (idx_main_v101 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v102 : (⟨S4096x16, .f32⟩ : BufTy).Contents (Elt F) :=
  subf (val_main_v96 (F := F) x0 x1 x2 x3 x4 x5 x6 x7 x8 x9 x10 x11 x12 x13 x14 x15 x16 x17 x18 x19 x20 x21) (val_main_v101 (F := F) x0 x1 x2 x3 x4 x5 x6 x7 x8 x9 x10 x11 x12 x13 x14 x15 x16 x17 x18 x19 x20 x21)

theorem val_main_v102_apply (i : S4096x16.Idx) :
    val_main_v102 (F := F) x0 x1 x2 x3 x4 x5 x6 x7 x8 x9 x10 x11 x12 x13 x14 x15 x16 x17 x18 x19 x20 x21 i = FloatOps.subf (val_main_v96 (F := F) x0 x1 x2 x3 x4 x5 x6 x7 x8 x9 x10 x11 x12 x13 x14 x15 x16 x17 x18 x19 x20 x21 i) (val_main_v101 (F := F) x0 x1 x2 x3 x4 x5 x6 x7 x8 x9 x10 x11 x12 x13 x14 x15 x16 x17 x18 x19 x20 x21 i) := rfl

def val_main_v103 : (⟨S4096x16, .f32⟩ : BufTy).Contents (Elt F) :=
  Host.exp (val_main_v102 (F := F) x0 x1 x2 x3 x4 x5 x6 x7 x8 x9 x10 x11 x12 x13 x14 x15 x16 x17 x18 x19 x20 x21)

theorem val_main_v103_apply (i : S4096x16.Idx) :
    val_main_v103 (F := F) x0 x1 x2 x3 x4 x5 x6 x7 x8 x9 x10 x11 x12 x13 x14 x15 x16 x17 x18 x19 x20 x21 i = FloatOps.hostUnary .exp (val_main_v102 (F := F) x0 x1 x2 x3 x4 x5 x6 x7 x8 x9 x10 x11 x12 x13 x14 x15 x16 x17 x18 x19 x20 x21 i) := rfl

def val_main_cst_11 : (⟨S_, .f32⟩ : BufTy).Contents (Elt F) :=
  constant S_ .f32 0x00000000#32

theorem val_main_cst_11_apply (i : S_.Idx) :
    val_main_cst_11 (F := F) i = FloatOps.ofBits .f32 0x00000000#32 := rfl

def val_main_v104 : (⟨S4096, .f32⟩ : BufTy).Contents (Elt F) :=
  Host.reduceAdd (val_main_v103 (F := F) x0 x1 x2 x3 x4 x5 x6 x7 x8 x9 x10 x11 x12 x13 x14 x15 x16 x17 x18 x19 x20 x21) (val_main_cst_11 (F := F)) reducesTo_S4096x16_S4096_d1 h_S_

abbrev idx_main_v104 (i : S4096.Idx) (k : Fin 16) : S4096x16.Idx := fun a => match a with
  | ⟨0, _⟩ => ⟨(i 0).val, (i 0).isLt⟩
  | ⟨1, _⟩ => ⟨k.val, k.isLt⟩

def val_main_v105 : (⟨S4096x1, .f32⟩ : BufTy).Contents (Elt F) :=
  broadcastInDim S4096x1 ![0] bcast_S4096_S4096x1_0 (val_main_v104 (F := F) x0 x1 x2 x3 x4 x5 x6 x7 x8 x9 x10 x11 x12 x13 x14 x15 x16 x17 x18 x19 x20 x21)

abbrev idx_main_v105 (i : S4096x1.Idx) : S4096.Idx := fun a => match a with
  | ⟨0, _⟩ => ⟨(i 0).val, (i 0).isLt⟩

theorem val_main_v105_apply (i : S4096x1.Idx) :
    val_main_v105 (F := F) x0 x1 x2 x3 x4 x5 x6 x7 x8 x9 x10 x11 x12 x13 x14 x15 x16 x17 x18 x19 x20 x21 i = val_main_v104 (F := F) x0 x1 x2 x3 x4 x5 x6 x7 x8 x9 x10 x11 x12 x13 x14 x15 x16 x17 x18 x19 x20 x21 (idx_main_v105 i) := by
  unfold val_main_v105
  generalize val_main_v104 (F := F) x0 x1 x2 x3 x4 x5 x6 x7 x8 x9 x10 x11 x12 x13 x14 x15 x16 x17 x18 x19 x20 x21 = y
  exact broadcastInDim_apply _ bcast_S4096_S4096x1_0 y i (idx_main_v105 i) (fun a => match a with
    | ⟨0, _⟩ => by show (i 0).val = if (4096 : Nat) = 1 then 0 else (i 0).val; rw [if_neg (by decide)])

def val_main_v106 : (⟨S4096x16, .f32⟩ : BufTy).Contents (Elt F) :=
  broadcastInDim S4096x16 ![0, 1] bcast_S4096x1_S4096x16_0_1 (val_main_v105 (F := F) x0 x1 x2 x3 x4 x5 x6 x7 x8 x9 x10 x11 x12 x13 x14 x15 x16 x17 x18 x19 x20 x21)

abbrev idx_main_v106 (i : S4096x16.Idx) : S4096x1.Idx := fun a => match a with
  | ⟨0, _⟩ => ⟨(i 0).val, (i 0).isLt⟩
  | ⟨1, _⟩ => ⟨0, Nat.one_pos⟩

theorem val_main_v106_apply (i : S4096x16.Idx) :
    val_main_v106 (F := F) x0 x1 x2 x3 x4 x5 x6 x7 x8 x9 x10 x11 x12 x13 x14 x15 x16 x17 x18 x19 x20 x21 i = val_main_v105 (F := F) x0 x1 x2 x3 x4 x5 x6 x7 x8 x9 x10 x11 x12 x13 x14 x15 x16 x17 x18 x19 x20 x21 (idx_main_v106 i) := by
  unfold val_main_v106
  generalize val_main_v105 (F := F) x0 x1 x2 x3 x4 x5 x6 x7 x8 x9 x10 x11 x12 x13 x14 x15 x16 x17 x18 x19 x20 x21 = y
  exact broadcastInDim_apply _ bcast_S4096x1_S4096x16_0_1 y i (idx_main_v106 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v107 : (⟨S4096x16, .f32⟩ : BufTy).Contents (Elt F) :=
  Host.divf (val_main_v103 (F := F) x0 x1 x2 x3 x4 x5 x6 x7 x8 x9 x10 x11 x12 x13 x14 x15 x16 x17 x18 x19 x20 x21) (val_main_v106 (F := F) x0 x1 x2 x3 x4 x5 x6 x7 x8 x9 x10 x11 x12 x13 x14 x15 x16 x17 x18 x19 x20 x21)

theorem val_main_v107_apply (i : S4096x16.Idx) :
    val_main_v107 (F := F) x0 x1 x2 x3 x4 x5 x6 x7 x8 x9 x10 x11 x12 x13 x14 x15 x16 x17 x18 x19 x20 x21 i = FloatOps.hostDivf (val_main_v103 (F := F) x0 x1 x2 x3 x4 x5 x6 x7 x8 x9 x10 x11 x12 x13 x14 x15 x16 x17 x18 x19 x20 x21 i) (val_main_v106 (F := F) x0 x1 x2 x3 x4 x5 x6 x7 x8 x9 x10 x11 x12 x13 x14 x15 x16 x17 x18 x19 x20 x21 i) := rfl

end

section
variable (x0 x1 x2 : (⟨S4096x4096, .f32⟩ : BufTy).Contents (Elt Ideal))
  (x3 : (⟨S4096x512, .f32⟩ : BufTy).Contents (Elt Ideal))
  (x4 : (⟨S4096x64, .f32⟩ : BufTy).Contents (Elt Ideal))
  (x5 : (⟨S64, .f32⟩ : BufTy).Contents (Elt Ideal))
  (x6 : (⟨S4096x64, .f32⟩ : BufTy).Contents (Elt Ideal))
  (x7 : (⟨S64, .f32⟩ : BufTy).Contents (Elt Ideal))
  (x8 : (⟨S4096x64, .f32⟩ : BufTy).Contents (Elt Ideal))
  (x9 : (⟨S64, .f32⟩ : BufTy).Contents (Elt Ideal))
  (x10 : (⟨S192x3, .f32⟩ : BufTy).Contents (Elt Ideal))
  (x11 : (⟨S3, .f32⟩ : BufTy).Contents (Elt Ideal))
  (x12 : (⟨S512x128, .f32⟩ : BufTy).Contents (Elt Ideal))
  (x13 : (⟨S128, .f32⟩ : BufTy).Contents (Elt Ideal))
  (x14 : (⟨S128x128, .f32⟩ : BufTy).Contents (Elt Ideal))
  (x15 : (⟨S128, .f32⟩ : BufTy).Contents (Elt Ideal))
  (x16 : (⟨S128x128, .f32⟩ : BufTy).Contents (Elt Ideal))
  (x17 : (⟨S128, .f32⟩ : BufTy).Contents (Elt Ideal))
  (x18 : (⟨S128x128, .f32⟩ : BufTy).Contents (Elt Ideal))
  (x19 : (⟨S128, .f32⟩ : BufTy).Contents (Elt Ideal))
  (x20 : (⟨S128x16, .f32⟩ : BufTy).Contents (Elt Ideal))
  (x21 : (⟨S16, .f32⟩ : BufTy).Contents (Elt Ideal))

theorem val_main_v0_apply (i : S4096x64.Idx) :
    val_main_v0 (F := Ideal) x0 x4 i = ∑ k : Fin 4096, x0 (lidx_main_v0 i k) * x4 (ridx_main_v0 i k) :=
  mm_apply _ rfl _ _ i

theorem val_main_v4_apply (i : S4096x64.Idx) :
    val_main_v4 (F := Ideal) x1 x6 i = ∑ k : Fin 4096, x1 (lidx_main_v4 i k) * x6 (ridx_main_v4 i k) :=
  mm_apply _ rfl _ _ i

theorem val_main_v8_apply (i : S4096x64.Idx) :
    val_main_v8 (F := Ideal) x2 x8 i = ∑ k : Fin 4096, x2 (lidx_main_v8 i k) * x8 (ridx_main_v8 i k) :=
  mm_apply _ rfl _ _ i

theorem val_main_v13_apply (i : S4096x3.Idx) :
    val_main_v13 (F := Ideal) x0 x1 x2 x4 x5 x6 x7 x8 x9 x10 i = ∑ k : Fin 192, (val_main_v12 (F := Ideal) x0 x1 x2 x4 x5 x6 x7 x8 x9) (lidx_main_v13 i k) * x10 (ridx_main_v13 i k) :=
  mm_apply _ rfl _ _ i

theorem val_main_v24_apply (i : S4096.Idx) :
    val_main_v24 (F := Ideal) x0 x1 x2 x4 x5 x6 x7 x8 x9 x10 x11 i = (val_main_cst_1 (F := Ideal)) (Shape.Idx.first h_S_) + ∑ k : Fin 3, (val_main_v23 (F := Ideal) x0 x1 x2 x4 x5 x6 x7 x8 x9 x10 x11) (idx_main_v24 i k) := by
  unfold val_main_v24
  generalize val_main_v23 (F := Ideal) x0 x1 x2 x4 x5 x6 x7 x8 x9 x10 x11 = y0
  simp only [Host.reduceAdd, Ideal.hostReduceAdd_def]
  rw [Ideal.hostReduceAdd_single reducesTo_S4096x3_S4096_d1 (by decide)]
  refine congrArg (_ + ·) (Finset.sum_congr rfl fun k _ => ?_)
  exact congrArg y0 (funext fun a => Fin.ext (by match a with | ⟨0, _⟩ => rfl | ⟨1, _⟩ => rfl))

theorem val_main_v45_apply (i : S4096x128.Idx) :
    val_main_v45 (F := Ideal) x3 x12 i = ∑ k : Fin 512, x3 (lidx_main_v45 i k) * x12 (ridx_main_v45 i k) :=
  mm_apply _ rfl _ _ i

theorem val_main_v46_apply (i : S4096x128.Idx) :
    val_main_v46 (F := Ideal) x0 x1 x2 x3 x4 x5 x6 x7 x8 x9 x10 x11 x12 i = ∑ k : Fin 4096, (val_main_v44 (F := Ideal) x0 x1 x2 x4 x5 x6 x7 x8 x9 x10 x11) (lidx_main_v46 i k) * (val_main_v45 (F := Ideal) x3 x12) (ridx_main_v46 i k) :=
  mm_apply _ rfl _ _ i

theorem val_main_v51_apply (i : S4096x128.Idx) :
    val_main_v51 (F := Ideal) x0 x1 x2 x3 x4 x5 x6 x7 x8 x9 x10 x11 x12 x13 x14 i = ∑ k : Fin 128, (val_main_v50 (F := Ideal) x0 x1 x2 x3 x4 x5 x6 x7 x8 x9 x10 x11 x12 x13) (lidx_main_v51 i k) * x14 (ridx_main_v51 i k) :=
  mm_apply _ rfl _ _ i

theorem val_main_v55_apply (i : S4096x128.Idx) :
    val_main_v55 (F := Ideal) x0 x1 x2 x3 x4 x5 x6 x7 x8 x9 x10 x11 x12 x13 x16 i = ∑ k : Fin 128, (val_main_v50 (F := Ideal) x0 x1 x2 x3 x4 x5 x6 x7 x8 x9 x10 x11 x12 x13) (lidx_main_v55 i k) * x16 (ridx_main_v55 i k) :=
  mm_apply _ rfl _ _ i

theorem val_main_v59_apply (i : S4096x128.Idx) :
    val_main_v59 (F := Ideal) x0 x1 x2 x3 x4 x5 x6 x7 x8 x9 x10 x11 x12 x13 x18 i = ∑ k : Fin 128, (val_main_v50 (F := Ideal) x0 x1 x2 x3 x4 x5 x6 x7 x8 x9 x10 x11 x12 x13) (lidx_main_v59 i k) * x18 (ridx_main_v59 i k) :=
  mm_apply _ rfl _ _ i

theorem val_main_v64_apply (i : S4096x4096.Idx) :
    val_main_v64 (F := Ideal) x0 x1 x2 x3 x4 x5 x6 x7 x8 x9 x10 x11 x12 x13 x14 x15 x16 x17 i = ∑ k : Fin 128, (val_main_v54 (F := Ideal) x0 x1 x2 x3 x4 x5 x6 x7 x8 x9 x10 x11 x12 x13 x14 x15) (lidx_main_v64 i k) * (val_main_v63 (F := Ideal) x0 x1 x2 x3 x4 x5 x6 x7 x8 x9 x10 x11 x12 x13 x16 x17) (ridx_main_v64 i k) :=
  mm_apply _ rfl _ _ i

theorem val_main_v73_apply (i : S4096.Idx) :
    val_main_v73 (F := Ideal) x0 x1 x2 x3 x4 x5 x6 x7 x8 x9 x10 x11 x12 x13 x14 x15 x16 x17 i = (val_main_cst_4 (F := Ideal)) (Shape.Idx.first h_S_) + ∑ k : Fin 4096, (val_main_v72 (F := Ideal) x0 x1 x2 x3 x4 x5 x6 x7 x8 x9 x10 x11 x12 x13 x14 x15 x16 x17) (idx_main_v73 i k) := by
  unfold val_main_v73
  generalize val_main_v72 (F := Ideal) x0 x1 x2 x3 x4 x5 x6 x7 x8 x9 x10 x11 x12 x13 x14 x15 x16 x17 = y0
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y0 (funext fun a => Fin.ext (by match a with | ⟨0, _⟩ => rfl | ⟨1, _⟩ => rfl))

theorem val_main_v77_apply (i : S4096.Idx) :
    val_main_v77 (F := Ideal) x0 x1 x2 x3 x4 x5 x6 x7 x8 x9 x10 x11 x12 x13 x14 x15 x16 x17 i = (val_main_cst_5 (F := Ideal)) (Shape.Idx.first h_S_) + ∑ k : Fin 4096, (val_main_v76 (F := Ideal) x0 x1 x2 x3 x4 x5 x6 x7 x8 x9 x10 x11 x12 x13 x14 x15 x16 x17) (idx_main_v77 i k) := by
  unfold val_main_v77
  generalize val_main_v76 (F := Ideal) x0 x1 x2 x3 x4 x5 x6 x7 x8 x9 x10 x11 x12 x13 x14 x15 x16 x17 = y0
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y0 (funext fun a => Fin.ext (by match a with | ⟨0, _⟩ => rfl | ⟨1, _⟩ => rfl))

theorem val_main_v90_apply (i : S4096x128.Idx) :
    val_main_v90 (F := Ideal) x0 x1 x2 x3 x4 x5 x6 x7 x8 x9 x10 x11 x12 x13 x14 x15 x16 x17 x18 x19 i = ∑ k : Fin 4096, (val_main_v89 (F := Ideal) x0 x1 x2 x3 x4 x5 x6 x7 x8 x9 x10 x11 x12 x13 x14 x15 x16 x17) (lidx_main_v90 i k) * (val_main_v62 (F := Ideal) x0 x1 x2 x3 x4 x5 x6 x7 x8 x9 x10 x11 x12 x13 x18 x19) (ridx_main_v90 i k) :=
  mm_apply _ rfl _ _ i

theorem val_main_v92_apply (i : S4096x16.Idx) :
    val_main_v92 (F := Ideal) x0 x1 x2 x3 x4 x5 x6 x7 x8 x9 x10 x11 x12 x13 x14 x15 x16 x17 x18 x19 x20 i = ∑ k : Fin 128, (val_main_v91 (F := Ideal) x0 x1 x2 x3 x4 x5 x6 x7 x8 x9 x10 x11 x12 x13 x14 x15 x16 x17 x18 x19) (lidx_main_v92 i k) * x20 (ridx_main_v92 i k) :=
  mm_apply _ rfl _ _ i

theorem val_main_v93_apply (i : S4096x16.Idx) :
    val_main_v93 (F := Ideal) x0 x1 x2 x3 x4 x5 x6 x7 x8 x9 x10 x11 x12 x13 x14 x15 x16 x17 x18 x19 x20 i = ∑ k : Fin 4096, (val_main_v44 (F := Ideal) x0 x1 x2 x4 x5 x6 x7 x8 x9 x10 x11) (lidx_main_v93 i k) * (val_main_v92 (F := Ideal) x0 x1 x2 x3 x4 x5 x6 x7 x8 x9 x10 x11 x12 x13 x14 x15 x16 x17 x18 x19 x20) (ridx_main_v93 i k) :=
  mm_apply _ rfl _ _ i

theorem val_main_v104_apply (i : S4096.Idx) :
    val_main_v104 (F := Ideal) x0 x1 x2 x3 x4 x5 x6 x7 x8 x9 x10 x11 x12 x13 x14 x15 x16 x17 x18 x19 x20 x21 i = (val_main_cst_11 (F := Ideal)) (Shape.Idx.first h_S_) + ∑ k : Fin 16, (val_main_v103 (F := Ideal) x0 x1 x2 x3 x4 x5 x6 x7 x8 x9 x10 x11 x12 x13 x14 x15 x16 x17 x18 x19 x20 x21) (idx_main_v104 i k) := by
  unfold val_main_v104
  generalize val_main_v103 (F := Ideal) x0 x1 x2 x3 x4 x5 x6 x7 x8 x9 x10 x11 x12 x13 x14 x15 x16 x17 x18 x19 x20 x21 = y0
  simp only [Host.reduceAdd, Ideal.hostReduceAdd_def]
  rw [Ideal.hostReduceAdd_single reducesTo_S4096x16_S4096_d1 (by decide)]
  refine congrArg (_ + ·) (Finset.sum_congr rfl fun k _ => ?_)
  exact congrArg y0 (funext fun a => Fin.ext (by match a with | ⟨0, _⟩ => rfl | ⟨1, _⟩ => rfl))

end

end Cert.ReferenceIdeal.ReadC

end
-- ==== Proof.Ref.Base.lean ====
import proofs.«406496_j14319420965162_3_alg».proof.Proof.Ref.ReadC
import proofs.«406496_j14319420965162_3_alg».proof.Proof.Spec
-- ==== Proof.Ref.Args.lean ====
import proofs.«406496_j14319420965162_3_alg».proof.ReferenceIdeal
import proofs.«406496_j14319420965162_3_alg».proof.Proof.Spec
import Idealize.ShloMosaic.Lib.ValueIdx

noncomputable section

namespace Cert.Ref

open Cert.ReferenceIdeal Idealize.ShloMosaic Idealize.ShloMosaic.ValueIdx

def argsOf
    (x0 x1 x2 : (⟨S4096x4096, .f32⟩ : BufTy).Contents (Elt Ideal)) (x3 : (⟨S4096x512, .f32⟩ : BufTy).Contents (Elt Ideal))
    (x4 : (⟨S4096x64, .f32⟩ : BufTy).Contents (Elt Ideal)) (x5 : (⟨S64, .f32⟩ : BufTy).Contents (Elt Ideal))
    (x6 : (⟨S4096x64, .f32⟩ : BufTy).Contents (Elt Ideal)) (x7 : (⟨S64, .f32⟩ : BufTy).Contents (Elt Ideal))
    (x8 : (⟨S4096x64, .f32⟩ : BufTy).Contents (Elt Ideal)) (x9 : (⟨S64, .f32⟩ : BufTy).Contents (Elt Ideal))
    (x10 : (⟨S192x3, .f32⟩ : BufTy).Contents (Elt Ideal)) (x11 : (⟨S3, .f32⟩ : BufTy).Contents (Elt Ideal))
    (x12 : (⟨S512x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x16, .f32⟩ : BufTy).Contents (Elt Ideal)) (x21 : (⟨S16, .f32⟩ : BufTy).Contents (Elt Ideal)) :
    Spec.Args where
  A0 := fun i j => x0 (ix2 i j)
  A1 := fun i j => x1 (ix2 i j)
  A2 := fun i j => x2 (ix2 i j)
  x := fun i j => x3 (ix2 i j)
  Wa1 := fun i j => x4 (ix2 i j)
  ba1 := fun j => x5 (ix1 j)
  Wa2 := fun i j => x6 (ix2 i j)
  ba2 := fun j => x7 (ix1 j)
  Wa3 := fun i j => x8 (ix2 i j)
  ba3 := fun j => x9 (ix1 j)
  Wagg := fun i j => x10 (ix2 i j)
  bagg := fun j => x11 (ix1 j)
  W1 := fun i j => x12 (ix2 i j)
  b1 := fun j => x13 (ix1 j)
  Wq := fun i j => x14 (ix2 i j)
  bq := fun j => x15 (ix1 j)
  Wk := fun i j => x16 (ix2 i j)
  bk := fun j => x17 (ix1 j)
  Wv := fun i j => x18 (ix2 i j)
  bv := fun j => x19 (ix1 j)
  W2 := fun i j => x20 (ix2 i j)
  b2 := fun j => x21 (ix1 j)

end Cert.Ref

end
-- ==== Proof.Ref.Ops.lean ====
import proofs.«406496_j14319420965162_3_alg».proof.Proof.Spec
import Idealize.ShloMosaic.Lib.Pipeline.Value
import Idealize.ShloMosaic.Lib.ValueIdx
import Idealize.ShloMosaic.PureOps.Ideal.Laws

noncomputable section

namespace Cert.Ref

open Idealize.ShloMosaic Idealize.ShloMosaic.ValueIdx

theorem ofBits_negInf : Ideal.ofBits .f32 0xFF800000#32 = (⊥ : EReal) := by simp [Ideal.ofBits, Ideal.ieee]

theorem ofBits_eps_le_one : Ideal.ofBits .f32 0x2B8CBCCC#32 ≤ (1 : EReal) := by
  have h : Ideal.ofBits .f32 0x2B8CBCCC#32 = ((9223372 * (2 : ℝ) ^ (-63 : ℤ) : ℝ) : EReal) := by
    simp [Ideal.ofBits, Ideal.ieee, -EReal.coe_mul]
  rw [h, ← EReal.coe_one, EReal.coe_le_coe_iff]
  norm_num

theorem rsqrt_one : Ideal.rsqrt 1 = 1 := by
  rw [← EReal.coe_one, Ideal.rsqrt_coe]; simp

theorem cmp_ogt_one_zero : Ideal.cmp .ogt 1 0 = 1#1 := by
  simp [Ideal.cmp]

theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

theorem lift_row {n p : ℕ} (h : (⟨2, ![n, p]⟩ : Shape).Reduces [1] (⟨1, ![n]⟩ : Shape)) (i : Fin n)
    (k : Fin ((⟨2, ![n, p]⟩ : Shape).size 1)) : h.lift (ix1 i) k = ix2 i (⟨k.val, k.isLt⟩ : Fin p) := by
  funext c; apply Fin.ext
  fin_cases c <;> rfl

theorem reduceMax_row {n p : ℕ} (x : FVec Ideal ⟨2, ![n, p]⟩ .f32)
    (h' : (⟨2, ![n, p]⟩ : Shape).ReducesTo [1] (⟨1, ![n]⟩ : Shape)) (h : (⟨2, ![n, p]⟩ : Shape).Reduces [1] (⟨1, ![n]⟩ : Shape))
    (hu : 0 < (⟨0, ![]⟩ : Shape).numel) (i : Fin n) :
    Host.reduce FloatOps.maximumf x (constant (F := Ideal) (⟨0, ![]⟩ : Shape) .f32 0xFF800000#32) h' hu (ix1 i)
      = Finset.univ.sup fun k : Fin p => x (ix2 i k) := by
  rw [Host.reduce_eq_fold_single FloatOps.maximumf x _ h' h hu]
  have hf : (x ∘ h.lift (ix1 i)) = fun k : Fin p => x (ix2 i k) := funext fun k => congrArg x (lift_row h i k)
  refine Eq.trans ?_ (fold_max_bot_eq_sup (Finset.univ : Finset (Fin p)) (fun k => x (ix2 i k)))
  rw [← ofBits_negInf]
  exact congrArg (fun f => Finset.fold max (Ideal.ofBits .f32 0xFF800000#32) f (Finset.univ : Finset (Fin p))) hf

theorem concat3_apply (a b c : FVec Ideal ⟨2, ![4096, 64]⟩ .f32)
    (h : Shape.Concatenates [(⟨2, ![4096, 64]⟩ : Shape), ⟨2, ![4096, 64]⟩, ⟨2, ![4096, 64]⟩] (⟨2, ![4096, 192]⟩ : Shape) 1)
    (i : Fin 4096) (l : Fin 192) :
    concatenate (⟨2, ![4096, 192]⟩ : Shape) 1 [⟨(⟨2, ![4096, 64]⟩ : Shape), a⟩, ⟨(⟨2, ![4096, 64]⟩ : Shape), b⟩, ⟨(⟨2, ![4096, 64]⟩ : Shape), c⟩] h (ix2 i l)
      = Spec.hcat3 (fun r q => a (ix2 r q)) (fun r q => b (ix2 r q)) (fun r q => c (ix2 r q)) i l := by
  unfold Spec.hcat3
  by_cases h0 : l.val < 64
  · rw [dif_pos h0]
    refine concatenate_apply_piece (t := (⟨2, ![4096, 192]⟩ : Shape)) 1 [⟨(⟨2, ![4096, 64]⟩ : Shape), a⟩, ⟨(⟨2, ![4096, 64]⟩ : Shape), b⟩, ⟨(⟨2, ![4096, 64]⟩ : Shape), c⟩] h (ix2 i l) 0 (by show (0 : ℕ) < 3; omega) _ a rfl rfl 0 rfl (ix2 i ⟨l.val, h0⟩) ?_ ?_
    · intro d hd
      match d, hd with
      | ⟨0, _⟩, _ => rfl
      | ⟨1, _⟩, hd => exact absurd rfl hd
    · show 0 + l.val = l.val; omega
  · rw [dif_neg h0]
    by_cases h1 : l.val < 128
    · rw [dif_pos h1]
      refine concatenate_apply_piece (t := (⟨2, ![4096, 192]⟩ : Shape)) 1 [⟨(⟨2, ![4096, 64]⟩ : Shape), a⟩, ⟨(⟨2, ![4096, 64]⟩ : Shape), b⟩, ⟨(⟨2, ![4096, 64]⟩ : Shape), c⟩] h (ix2 i l) 1 (by show (1 : ℕ) < 3; omega) _ b rfl rfl 64 rfl (ix2 i ⟨l.val - 64, by omega⟩) ?_ ?_
      · intro d hd
        match d, hd with
        | ⟨0, _⟩, _ => rfl
        | ⟨1, _⟩, hd => exact absurd rfl hd
      · show 64 + (l.val - 64) = l.val; omega
    · rw [dif_neg h1]
      refine concatenate_apply_piece (t := (⟨2, ![4096, 192]⟩ : Shape)) 1 [⟨(⟨2, ![4096, 64]⟩ : Shape), a⟩, ⟨(⟨2, ![4096, 64]⟩ : Shape), b⟩, ⟨(⟨2, ![4096, 64]⟩ : Shape), c⟩] h (ix2 i l) 2 (by show (2 : ℕ) < 3; omega) _ c rfl rfl 128 rfl (ix2 i ⟨l.val - 128, by have := l.isLt; omega⟩) ?_ ?_
      · intro d hd
        match d, hd with
        | ⟨0, _⟩, _ => rfl
        | ⟨1, _⟩, hd => exact absurd rfl hd
      · show 128 + (l.val - 128) = l.val; omega

end Cert.Ref

end
-- ==== Proof.Ref.Nz.lean ====
import proofs.«406496_j14319420965162_3_alg».proof.Proof.Ref.Base
import proofs.«406496_j14319420965162_3_alg».proof.Proof.Ref.Args
import proofs.«406496_j14319420965162_3_alg».proof.Proof.Ref.Ops

noncomputable section

namespace Cert.Ref

open Cert.ReferenceIdeal Cert.ReferenceIdeal.Gen Cert.ReferenceIdeal.ReadC Idealize.ShloMosaic Idealize.ShloMosaic.ValueIdx

scoped macro "idx2" : tactic =>
  `(tactic| exact funext fun a => Fin.ext (by match a with | ⟨0, _⟩ => rfl | ⟨1, _⟩ => rfl))

scoped macro "idx1" : tactic =>
  `(tactic| exact funext fun a => Fin.ext (by match a with | ⟨0, _⟩ => rfl))

theorem lix_ix2 {M K N : ℕ} (r : Fin M) (c : Fin N) (k : Fin K) : lix (ix2 r c) k = ix2 r k := by idx2

theorem rix_ix2 {M K N : ℕ} (r : Fin M) (c : Fin N) (k : Fin K) : rix (ix2 r c) k = ix2 k c := by idx2

structure Inputs where
  (x0 x1 x2 : (⟨S4096x4096, .f32⟩ : BufTy).Contents (Elt Ideal)) (x3 : (⟨S4096x512, .f32⟩ : BufTy).Contents (Elt Ideal))
  (x4 : (⟨S4096x64, .f32⟩ : BufTy).Contents (Elt Ideal)) (x5 : (⟨S64, .f32⟩ : BufTy).Contents (Elt Ideal))
  (x6 : (⟨S4096x64, .f32⟩ : BufTy).Contents (Elt Ideal)) (x7 : (⟨S64, .f32⟩ : BufTy).Contents (Elt Ideal))
  (x8 : (⟨S4096x64, .f32⟩ : BufTy).Contents (Elt Ideal)) (x9 : (⟨S64, .f32⟩ : BufTy).Contents (Elt Ideal))
  (x10 : (⟨S192x3, .f32⟩ : BufTy).Contents (Elt Ideal)) (x11 : (⟨S3, .f32⟩ : BufTy).Contents (Elt Ideal))
  (x12 : (⟨S512x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))
  (x16 : (⟨S128x128, .f32⟩ : BufTy).Contents (Elt Ideal)) (x17 : (⟨S128, .f32⟩ : BufTy).Contents (Elt Ideal))
  (x18 : (⟨S128x128, .f32⟩ : BufTy).Contents (Elt Ideal)) (x19 : (⟨S128, .f32⟩ : BufTy).Contents (Elt Ideal))
  (x20 : (⟨S128x16, .f32⟩ : BufTy).Contents (Elt Ideal)) (x21 : (⟨S16, .f32⟩ : BufTy).Contents (Elt Ideal))

abbrev Inputs.args (X : Inputs) : Spec.Args :=
  argsOf X.x0 X.x1 X.x2 X.x3 X.x4 X.x5 X.x6 X.x7 X.x8 X.x9 X.x10 X.x11 X.x12 X.x13 X.x14 X.x15 X.x16 X.x17 X.x18 X.x19 X.x20 X.x21

variable (X : Inputs)

def zAgg (p : Spec.Args) : Spec.Mat 4096 3 :=
  Spec.addRow (Spec.mm (Spec.hcat3 (Spec.zOf p.A0 p.Wa1 p.ba1) (Spec.zOf p.A1 p.Wa2 p.ba2) (Spec.zOf p.A2 p.Wa3 p.ba3)) p.Wagg) p.bagg

theorem v3_eq (r : Fin 4096) (c : Fin 64) :
    val_main_v3 (F := Ideal) X.x0 X.x4 X.x5 (ix2 r c) = Spec.zOf X.args.A0 X.args.Wa1 X.args.ba1 r c := by
  rw [val_main_v3_apply, val_main_v0_apply, val_main_v2_apply, val_main_v1_apply]
  have eb : idx_main_v1 (idx_main_v2 (ix2 r c)) = ix1 c := by idx1
  simp only [lix_ix2, rix_ix2, eb, Ideal.addf_def]
  rfl

theorem v7_eq (r : Fin 4096) (c : Fin 64) :
    val_main_v7 (F := Ideal) X.x1 X.x6 X.x7 (ix2 r c) = Spec.zOf X.args.A1 X.args.Wa2 X.args.ba2 r c := by
  rw [val_main_v7_apply, val_main_v4_apply, val_main_v6_apply, val_main_v5_apply]
  have eb : idx_main_v5 (idx_main_v6 (ix2 r c)) = ix1 c := by idx1
  simp only [lix_ix2, rix_ix2, eb, Ideal.addf_def]
  rfl

theorem v11_eq (r : Fin 4096) (c : Fin 64) :
    val_main_v11 (F := Ideal) X.x2 X.x8 X.x9 (ix2 r c) = Spec.zOf X.args.A2 X.args.Wa3 X.args.ba3 r c := by
  rw [val_main_v11_apply, val_main_v8_apply, val_main_v10_apply, val_main_v9_apply]
  have eb : idx_main_v9 (idx_main_v10 (ix2 r c)) = ix1 c := by idx1
  simp only [lix_ix2, rix_ix2, eb, Ideal.addf_def]
  rfl

theorem v12_eq (r : Fin 4096) (l : Fin 192) :
    val_main_v12 (F := Ideal) X.x0 X.x1 X.x2 X.x4 X.x5 X.x6 X.x7 X.x8 X.x9 (ix2 r l)
      = Spec.hcat3 (Spec.zOf X.args.A0 X.args.Wa1 X.args.ba1) (Spec.zOf X.args.A1 X.args.Wa2 X.args.ba2) (Spec.zOf X.args.A2 X.args.Wa3 X.args.ba3) r l := by
  unfold val_main_v12
  refine (concat3_apply _ _ _ _ r l).trans ?_
  simp only [v3_eq X, v7_eq X, v11_eq X]

theorem v16_eq (r : Fin 4096) (c : Fin 3) :
    val_main_v16 (F := Ideal) X.x0 X.x1 X.x2 X.x4 X.x5 X.x6 X.x7 X.x8 X.x9 X.x10 X.x11 (ix2 r c) = zAgg X.args r c := by
  rw [val_main_v16_apply, val_main_v13_apply, val_main_v15_apply, val_main_v14_apply]
  have eb : idx_main_v14 (idx_main_v15 (ix2 r c)) = ix1 c := by idx1
  simp only [lix_ix2, rix_ix2, eb, v12_eq X, Ideal.addf_def]
  rfl

theorem v19_eq (r : Fin 4096) :
    val_main_v19 (F := Ideal) X.x0 X.x1 X.x2 X.x4 X.x5 X.x6 X.x7 X.x8 X.x9 X.x10 X.x11 (ix1 r) = Spec.rowMax (zAgg X.args) r := by
  rw [val_main_v19_apply, val_main_v18_apply, val_main_cst_0_apply, Ideal.ofBits_def, ofBits_negInf, Ideal.maximumf_def,
    max_bot_left]
  refine (reduceMax_row _ reducesTo_S4096x3_S4096_d1 (by decide) h_S_ r).trans ?_
  simp only [v16_eq X]
  rfl

theorem v23_eq (r : Fin 4096) (c : Fin 3) :
    val_main_v23 (F := Ideal) X.x0 X.x1 X.x2 X.x4 X.x5 X.x6 X.x7 X.x8 X.x9 X.x10 X.x11 (ix2 r c) = Ideal.exp (zAgg X.args r c - Spec.rowMax (zAgg X.args) r) := by
  rw [val_main_v23_apply, val_main_v22_apply, val_main_v21_apply, val_main_v20_apply]
  have e : idx_main_v20 (idx_main_v21 (ix2 r c)) = ix1 r := by idx1
  rw [e, v19_eq X, v16_eq X]
  rfl

theorem v27_eq (r : Fin 4096) (c : Fin 3) :
    val_main_v27 (F := Ideal) X.x0 X.x1 X.x2 X.x4 X.x5 X.x6 X.x7 X.x8 X.x9 X.x10 X.x11 (ix2 r c) = X.args.nzV r c := by
  rw [val_main_v27_apply, val_main_v26_apply, val_main_v25_apply, val_main_v24_apply, val_main_cst_1_apply]
  have e : idx_main_v25 (idx_main_v26 (ix2 r c)) = ix1 r := by idx1
  have es : ∀ k, idx_main_v24 (ix1 r) k = ix2 r k := fun k => by idx2
  rw [e]
  simp only [es, v23_eq X, Ideal.hostDivf_def, Ideal.ofBits_def, Ideal.ofBits_zero_f32, zero_add]
  rfl

end Cert.Ref

end
-- ==== Proof.Ref.Adj.lean ====
import proofs.«406496_j14319420965162_3_alg».proof.Proof.Ref.Nz

noncomputable section

namespace Cert.Ref

open Cert.ReferenceIdeal Cert.ReferenceIdeal.Gen Cert.ReferenceIdeal.ReadC Idealize.ShloMosaic Idealize.ShloMosaic.ValueIdx

variable (X : Inputs)

theorem v31_eq (r c : Fin 4096) :
    val_main_v31 (F := Ideal) X.x0 X.x1 X.x2 X.x4 X.x5 X.x6 X.x7 X.x8 X.x9 X.x10 X.x11 (ix2 r c) = X.args.nzV c 0 := by
  rw [val_main_v31_apply, val_main_v30_apply, val_main_v29_apply, val_main_v28_apply]
  have e : idx_main_v28 (idx_main_v29 (idx_main_v30 (idx_main_v31 (ix2 r c)))) = ix2 c (0 : Fin 3) :=
    funext fun a => Fin.ext (by
      match a with
      | ⟨0, _⟩ => show c.val / 1 = c.val; exact Nat.div_one _
      | ⟨1, _⟩ => rfl)
  rw [e, v27_eq X]

theorem v36_eq (r c : Fin 4096) :
    val_main_v36 (F := Ideal) X.x0 X.x1 X.x2 X.x4 X.x5 X.x6 X.x7 X.x8 X.x9 X.x10 X.x11 (ix2 r c) = X.args.nzV c 1 := by
  rw [val_main_v36_apply, val_main_v35_apply, val_main_v34_apply, val_main_v33_apply]
  have e : idx_main_v33 (idx_main_v34 (idx_main_v35 (idx_main_v36 (ix2 r c)))) = ix2 c (1 : Fin 3) :=
    funext fun a => Fin.ext (by
      match a with
      | ⟨0, _⟩ => show c.val / 1 = c.val; exact Nat.div_one _
      | ⟨1, _⟩ => rfl)
  rw [e, v27_eq X]

theorem v42_eq (r c : Fin 4096) :
    val_main_v42 (F := Ideal) X.x0 X.x1 X.x2 X.x4 X.x5 X.x6 X.x7 X.x8 X.x9 X.x10 X.x11 (ix2 r c) = X.args.nzV c 2 := by
  rw [val_main_v42_apply, val_main_v41_apply, val_main_v40_apply, val_main_v39_apply]
  have e : idx_main_v39 (idx_main_v40 (idx_main_v41 (idx_main_v42 (ix2 r c)))) = ix2 c (2 : Fin 3) :=
    funext fun a => Fin.ext (by
      match a with
      | ⟨0, _⟩ => show c.val / 1 = c.val; exact Nat.div_one _
      | ⟨1, _⟩ => rfl)
  rw [e, v27_eq X]

theorem v44_eq (r c : Fin 4096) :
    val_main_v44 (F := Ideal) X.x0 X.x1 X.x2 X.x4 X.x5 X.x6 X.x7 X.x8 X.x9 X.x10 X.x11 (ix2 r c) = X.args.adjV r c := by
  rw [val_main_v44_apply, val_main_v38_apply, val_main_v32_apply, val_main_v37_apply, val_main_v43_apply,
    v31_eq X, v36_eq X, v42_eq X]
  rfl

end Cert.Ref

end
-- ==== Proof.Ref.Hid.lean ====
import proofs.«406496_j14319420965162_3_alg».proof.Proof.Ref.Adj

noncomputable section

namespace Cert.Ref

open Cert.ReferenceIdeal Cert.ReferenceIdeal.Gen Cert.ReferenceIdeal.ReadC Idealize.ShloMosaic Idealize.ShloMosaic.ValueIdx

variable (X : Inputs)

theorem v45_eq (r : Fin 4096) (c : Fin 128) :
    val_main_v45 (F := Ideal) X.x3 X.x12 (ix2 r c) = Spec.mm X.args.x X.args.W1 r c := by
  rw [val_main_v45_apply]
  simp only [lix_ix2, rix_ix2]
  rfl

theorem v50_eq (r : Fin 4096) (c : Fin 128) :
    val_main_v50 (F := Ideal) X.x0 X.x1 X.x2 X.x3 X.x4 X.x5 X.x6 X.x7 X.x8 X.x9 X.x10 X.x11 X.x12 X.x13 (ix2 r c) = X.args.hV r c := by
  rw [val_main_v50_apply, val_main_v49_apply, val_main_v46_apply, val_main_v48_apply, val_main_v47_apply,
    val_main_call0_v0_apply, val_main_call0_cst_apply]
  have eb : idx_main_v47 (idx_main_v48 (ix2 r c)) = ix1 c := by idx1
  simp only [lix_ix2, rix_ix2, eb, v44_eq X, v45_eq X, Ideal.addf_def, Ideal.maximumf_def, Ideal.ofBits_def,
    Ideal.ofBits_zero_f32]
  rfl

theorem v54_eq (r : Fin 4096) (c : Fin 128) :
    val_main_v54 (F := Ideal) X.x0 X.x1 X.x2 X.x3 X.x4 X.x5 X.x6 X.x7 X.x8 X.x9 X.x10 X.x11 X.x12 X.x13 X.x14 X.x15 (ix2 r c) = X.args.qV r c := by
  rw [val_main_v54_apply, val_main_v51_apply, val_main_v53_apply, val_main_v52_apply]
  have eb : idx_main_v52 (idx_main_v53 (ix2 r c)) = ix1 c := by idx1
  simp only [lix_ix2, rix_ix2, eb, v50_eq X, Ideal.addf_def]
  rfl

theorem v58_eq (r : Fin 4096) (c : Fin 128) :
    val_main_v58 (F := Ideal) X.x0 X.x1 X.x2 X.x3 X.x4 X.x5 X.x6 X.x7 X.x8 X.x9 X.x10 X.x11 X.x12 X.x13 X.x16 X.x17 (ix2 r c) = X.args.kV r c := by
  rw [val_main_v58_apply, val_main_v55_apply, val_main_v57_apply, val_main_v56_apply]
  have eb : idx_main_v56 (idx_main_v57 (ix2 r c)) = ix1 c := by idx1
  simp only [lix_ix2, rix_ix2, eb, v50_eq X, Ideal.addf_def]
  rfl

theorem v62_eq (r : Fin 4096) (c : Fin 128) :
    val_main_v62 (F := Ideal) X.x0 X.x1 X.x2 X.x3 X.x4 X.x5 X.x6 X.x7 X.x8 X.x9 X.x10 X.x11 X.x12 X.x13 X.x18 X.x19 (ix2 r c) = X.args.vV r c := by
  rw [val_main_v62_apply, val_main_v59_apply, val_main_v61_apply, val_main_v60_apply]
  have eb : idx_main_v60 (idx_main_v61 (ix2 r c)) = ix1 c := by idx1
  simp only [lix_ix2, rix_ix2, eb, v50_eq X, Ideal.addf_def]
  rfl

end Cert.Ref

end
-- ==== Proof.Ref.Attn.lean ====
import proofs.«406496_j14319420965162_3_alg».proof.Proof.Ref.Hid

noncomputable section

namespace Cert.Ref

open Cert.ReferenceIdeal Cert.ReferenceIdeal.Gen Cert.ReferenceIdeal.ReadC Idealize.ShloMosaic Idealize.ShloMosaic.ValueIdx

abbrev Inputs.scores (X : Inputs) : Spec.Mat 4096 4096 := Spec.scores X.args.adjV X.args.qV X.args.kV

variable (X : Inputs)

theorem v63_eq (l : Fin 128) (j : Fin 4096) :
    val_main_v63 (F := Ideal) X.x0 X.x1 X.x2 X.x3 X.x4 X.x5 X.x6 X.x7 X.x8 X.x9 X.x10 X.x11 X.x12 X.x13 X.x16 X.x17 (ix2 l j) = X.args.kV j l := by
  rw [val_main_v63_apply]
  have e : idx_main_v63 (ix2 l j) = ix2 j l := by idx2
  rw [e, v58_eq X]

theorem v65_eq (r c : Fin 4096) :
    val_main_v65 (F := Ideal) X.x0 X.x1 X.x2 X.x3 X.x4 X.x5 X.x6 X.x7 X.x8 X.x9 X.x10 X.x11 X.x12 X.x13 X.x14 X.x15 X.x16 X.x17 (ix2 r c) = X.scores r c := by
  rw [val_main_v65_apply, val_main_v64_apply, v44_eq X]
  simp only [lix_ix2, rix_ix2, v54_eq X, v63_eq X, Ideal.mulf_def]
  rfl

theorem v68_eq (r : Fin 4096) :
    val_main_v68 (F := Ideal) X.x0 X.x1 X.x2 X.x3 X.x4 X.x5 X.x6 X.x7 X.x8 X.x9 X.x10 X.x11 X.x12 X.x13 X.x14 X.x15 X.x16 X.x17 (ix1 r) = Spec.rowMax X.scores r := by
  rw [val_main_v68_apply, val_main_v67_apply, val_main_cst_3_apply, Ideal.ofBits_def, ofBits_negInf,
    Ideal.maximumf_def, max_bot_left]
  refine (reduceMax_row _ reducesTo_S4096x4096_S4096_d1 (by decide) h_S_ r).trans ?_
  simp only [v65_eq X]
  rfl

theorem v72_eq (r : Fin 4096) (c : Fin 4096) :
    val_main_v72 (F := Ideal) X.x0 X.x1 X.x2 X.x3 X.x4 X.x5 X.x6 X.x7 X.x8 X.x9 X.x10 X.x11 X.x12 X.x13 X.x14 X.x15 X.x16 X.x17 (ix2 r c) = Ideal.exp (X.scores r c - Spec.rowMax X.scores r) := by
  rw [val_main_v72_apply, val_main_v71_apply, val_main_v70_apply, val_main_v69_apply]
  have e : idx_main_v69 (idx_main_v70 (ix2 r c)) = ix1 r := by idx1
  rw [e, v68_eq X, v65_eq X]
  rfl

theorem v76_eq (r : Fin 4096) (c : Fin 4096) :
    val_main_v76 (F := Ideal) X.x0 X.x1 X.x2 X.x3 X.x4 X.x5 X.x6 X.x7 X.x8 X.x9 X.x10 X.x11 X.x12 X.x13 X.x14 X.x15 X.x16 X.x17 (ix2 r c) = Spec.softmax X.scores r c := by
  rw [val_main_v76_apply, val_main_v75_apply, val_main_v74_apply, val_main_v73_apply,
    val_main_cst_4_apply]
  have e : idx_main_v74 (idx_main_v75 (ix2 r c)) = ix1 r := by idx1
  have es : ∀ k, idx_main_v73 (ix1 r) k = ix2 r k := fun k => by idx2
  rw [e]
  simp only [es, v72_eq X, Ideal.hostDivf_def, Ideal.ofBits_def, Ideal.ofBits_zero_f32, zero_add]
  rfl

end Cert.Ref

end
-- ==== Proof.Ref.Norm.lean ====
import proofs.«406496_j14319420965162_3_alg».proof.Proof.Ref.Attn

noncomputable section

namespace Cert.Ref

open Cert.ReferenceIdeal Cert.ReferenceIdeal.Gen Cert.ReferenceIdeal.ReadC Idealize.ShloMosaic Idealize.ShloMosaic.ValueIdx

variable (X : Inputs) (hrow : ∀ i, ∑ j, Spec.softmax X.scores i j = 1)

include hrow

theorem v77_eq (r : Fin 4096) :
    val_main_v77 (F := Ideal) X.x0 X.x1 X.x2 X.x3 X.x4 X.x5 X.x6 X.x7 X.x8 X.x9 X.x10 X.x11 X.x12 X.x13 X.x14 X.x15 X.x16 X.x17 (ix1 r) = 1 := by
  rw [val_main_v77_apply, val_main_cst_5_apply]
  have es : ∀ k, idx_main_v77 (ix1 r) k = ix2 r k := fun k => by idx2
  simp only [es, v76_eq X, Ideal.ofBits_def, Ideal.ofBits_zero_f32, zero_add]
  exact hrow r

theorem v83_eq (r : Fin 4096) :
    val_main_v83 (F := Ideal) X.x0 X.x1 X.x2 X.x3 X.x4 X.x5 X.x6 X.x7 X.x8 X.x9 X.x10 X.x11 X.x12 X.x13 X.x14 X.x15 X.x16 X.x17 (ix1 r) = 1 := by
  rw [val_main_v83_apply, val_main_v79_apply, val_main_v82_apply, val_main_v81_apply, val_main_v78_apply,
    val_main_v80_apply, val_main_cst_6_apply, val_main_cst_7_apply, v77_eq X hrow]
  simp only [Ideal.cmpf_def, Ideal.ofBits_def, Ideal.ofBits_zero_f32, cmp_ogt_one_zero, select_one,
    Ideal.hostUnary_rsqrt_def, Ideal.maximumf_def, max_eq_left ofBits_eps_le_one, rsqrt_one]

theorem v89_eq (r c : Fin 4096) :
    val_main_v89 (F := Ideal) X.x0 X.x1 X.x2 X.x3 X.x4 X.x5 X.x6 X.x7 X.x8 X.x9 X.x10 X.x11 X.x12 X.x13 X.x14 X.x15 X.x16 X.x17 (ix2 r c) = Spec.softmax X.scores r c := by
  rw [val_main_v89_apply, val_main_v86_apply, val_main_v85_apply, val_main_v84_apply, val_main_v88_apply,
    val_main_v87_apply]
  have e1 : idx_main_v84 (idx_main_v85 (ix2 r c)) = ix1 r := by idx1
  have e2 : idx_main_v87 (idx_main_v88 (ix2 r c)) = ix1 c := by idx1
  rw [e1, e2]
  simp only [v83_eq X hrow, v76_eq X, Ideal.mulf_def, one_mul, mul_one]

end Cert.Ref

end
-- ==== Proof.Ref.Out.lean ====
import proofs.«406496_j14319420965162_3_alg».proof.Proof.Ref.Norm

noncomputable section

namespace Cert.Ref

open Cert.ReferenceIdeal Cert.ReferenceIdeal.Gen Cert.ReferenceIdeal.ReadC Idealize.ShloMosaic Idealize.ShloMosaic.ValueIdx

abbrev Inputs.logits (X : Inputs) : Spec.Mat 4096 16 := Spec.addRow (Spec.mm X.args.adjV (Spec.mm X.args.xtV X.args.W2)) X.args.b2

variable (X : Inputs) (hrow : ∀ i, ∑ j, Spec.softmax X.scores i j = 1)

include hrow

theorem v91_eq (r : Fin 4096) (c : Fin 128) :
    val_main_v91 (F := Ideal) X.x0 X.x1 X.x2 X.x3 X.x4 X.x5 X.x6 X.x7 X.x8 X.x9 X.x10 X.x11 X.x12 X.x13 X.x14 X.x15 X.x16 X.x17 X.x18 X.x19 (ix2 r c) = X.args.xtV r c := by
  rw [val_main_v91_apply, val_main_v90_apply, val_main_call2_v0_apply, val_main_call2_cst_apply]
  simp only [lix_ix2, rix_ix2, v89_eq X hrow, v62_eq X, Ideal.maximumf_def, Ideal.ofBits_def, Ideal.ofBits_zero_f32]
  rfl

theorem v92_eq (r : Fin 4096) (c : Fin 16) :
    val_main_v92 (F := Ideal) X.x0 X.x1 X.x2 X.x3 X.x4 X.x5 X.x6 X.x7 X.x8 X.x9 X.x10 X.x11 X.x12 X.x13 X.x14 X.x15 X.x16 X.x17 X.x18 X.x19 X.x20 (ix2 r c) = Spec.mm X.args.xtV X.args.W2 r c := by
  rw [val_main_v92_apply]
  simp only [lix_ix2, rix_ix2, v91_eq X hrow]
  rfl

theorem v96_eq (r : Fin 4096) (c : Fin 16) :
    val_main_v96 (F := Ideal) X.x0 X.x1 X.x2 X.x3 X.x4 X.x5 X.x6 X.x7 X.x8 X.x9 X.x10 X.x11 X.x12 X.x13 X.x14 X.x15 X.x16 X.x17 X.x18 X.x19 X.x20 X.x21 (ix2 r c) = X.logits r c := by
  rw [val_main_v96_apply, val_main_v93_apply, val_main_v95_apply, val_main_v94_apply]
  have eb : idx_main_v94 (idx_main_v95 (ix2 r c)) = ix1 c := by idx1
  simp only [lix_ix2, rix_ix2, eb, v44_eq X, v92_eq X hrow, Ideal.addf_def]
  rfl

theorem v99_eq (r : Fin 4096) :
    val_main_v99 (F := Ideal) X.x0 X.x1 X.x2 X.x3 X.x4 X.x5 X.x6 X.x7 X.x8 X.x9 X.x10 X.x11 X.x12 X.x13 X.x14 X.x15 X.x16 X.x17 X.x18 X.x19 X.x20 X.x21 (ix1 r) = Spec.rowMax X.logits r := by
  rw [val_main_v99_apply, val_main_v98_apply, val_main_cst_10_apply, Ideal.ofBits_def, ofBits_negInf,
    Ideal.maximumf_def, max_bot_left]
  refine (reduceMax_row _ reducesTo_S4096x16_S4096_d1 (by decide) h_S_ r).trans ?_
  simp only [v96_eq X hrow]
  rfl

theorem v103_eq (r : Fin 4096) (c : Fin 16) :
    val_main_v103 (F := Ideal) X.x0 X.x1 X.x2 X.x3 X.x4 X.x5 X.x6 X.x7 X.x8 X.x9 X.x10 X.x11 X.x12 X.x13 X.x14 X.x15 X.x16 X.x17 X.x18 X.x19 X.x20 X.x21 (ix2 r c) = Ideal.exp (X.logits r c - Spec.rowMax X.logits r) := by
  rw [val_main_v103_apply, val_main_v102_apply, val_main_v101_apply, val_main_v100_apply]
  have e : idx_main_v100 (idx_main_v101 (ix2 r c)) = ix1 r := by idx1
  rw [e, v99_eq X hrow, v96_eq X hrow]
  rfl

theorem v107_eq (r : Fin 4096) (c : Fin 16) :
    val_main_v107 (F := Ideal) X.x0 X.x1 X.x2 X.x3 X.x4 X.x5 X.x6 X.x7 X.x8 X.x9 X.x10 X.x11 X.x12 X.x13 X.x14 X.x15 X.x16 X.x17 X.x18 X.x19 X.x20 X.x21 (ix2 r c) = X.args.outV r c := by
  rw [val_main_v107_apply, val_main_v106_apply, val_main_v105_apply, val_main_v104_apply,
    val_main_cst_11_apply]
  have e : idx_main_v105 (idx_main_v106 (ix2 r c)) = ix1 r := by idx1
  have es : ∀ k, idx_main_v104 (ix1 r) k = ix2 r k := fun k => by idx2
  rw [e]
  simp only [es, v103_eq X hrow, Ideal.hostDivf_def, Ideal.ofBits_def, Ideal.ofBits_zero_f32, zero_add]
  rfl

end Cert.Ref

end
-- ==== Proof.Ref.Main.lean ====
import proofs.«406496_j14319420965162_3_alg».proof.Proof.Ref.Out
import proofs.«406496_j14319420965162_3_alg».proof.Proof.Alg.Finite

noncomputable section

namespace Cert.Ref

open Cert.ReferenceIdeal Cert.ReferenceIdeal.Gen Cert.ReferenceIdeal.ReadC Idealize.ShloMosaic Idealize.ShloMosaic.ValueIdx

variable
    (x0 x1 x2 : (⟨S4096x4096, .f32⟩ : BufTy).Contents (Elt Ideal)) (x3 : (⟨S4096x512, .f32⟩ : BufTy).Contents (Elt Ideal))
    (x4 : (⟨S4096x64, .f32⟩ : BufTy).Contents (Elt Ideal)) (x5 : (⟨S64, .f32⟩ : BufTy).Contents (Elt Ideal))
    (x6 : (⟨S4096x64, .f32⟩ : BufTy).Contents (Elt Ideal)) (x7 : (⟨S64, .f32⟩ : BufTy).Contents (Elt Ideal))
    (x8 : (⟨S4096x64, .f32⟩ : BufTy).Contents (Elt Ideal)) (x9 : (⟨S64, .f32⟩ : BufTy).Contents (Elt Ideal))
    (x10 : (⟨S192x3, .f32⟩ : BufTy).Contents (Elt Ideal)) (x11 : (⟨S3, .f32⟩ : BufTy).Contents (Elt Ideal))
    (x12 : (⟨S512x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x16, .f32⟩ : BufTy).Contents (Elt Ideal)) (x21 : (⟨S16, .f32⟩ : BufTy).Contents (Elt Ideal))

local notation "P" => argsOf x0 x1 x2 x3 x4 x5 x6 x7 x8 x9 x10 x11 x12 x13 x14 x15 x16 x17 x18 x19 x20 x21

theorem nz_eq (i : Fin 4096) (k : Fin 3) :
    val_main_v27 (F := Ideal) x0 x1 x2 x4 x5 x6 x7 x8 x9 x10 x11 (ix2 i k) = (P).nzV i k :=
  v27_eq ⟨x0, x1, x2, x3, x4, x5, x6, x7, x8, x9, x10, x11, x12, x13, x14, x15, x16, x17, x18, x19, x20, x21⟩ i k

theorem out_eq (hp : (P).Fin') (i : Fin 4096) (k : Fin 16) :
    val_main_v107 (F := Ideal) x0 x1 x2 x3 x4 x5 x6 x7 x8 x9 x10 x11 x12 x13 x14 x15 x16 x17 x18 x19 x20 x21 (ix2 i k) = (P).outV i k :=
  v107_eq ⟨x0, x1, x2, x3, x4, x5, x6, x7, x8, x9, x10, x11, x12, x13, x14, x15, x16, x17, x18, x19, x20, x21⟩ (fun r => Alg.softmax_row_sum (by decide) _ (Alg.scoresV_fin hp) r) i k

end Cert.Ref

end
-- ==== Proof.lean ====
import proofs.«406496_j14319420965162_3_alg».proof.Defs
import proofs.«406496_j14319420965162_3_alg».proof.Proof.Gen.Kernel
import proofs.«406496_j14319420965162_3_alg».proof.Proof.Gen.KernelIdeal
import proofs.«406496_j14319420965162_3_alg».proof.Proof.Gen.ReferenceIdeal
import proofs.«406496_j14319420965162_3_alg».proof.Proof.Gen.Pre_finite_inputs
import proofs.«406496_j14319420965162_3_alg».proof.Proof.Kernel.Frame
import proofs.«406496_j14319420965162_3_alg».proof.Proof.KernelIdeal.Frame
import proofs.«406496_j14319420965162_3_alg».proof.Proof.KernelIdeal.RunVals
import proofs.«406496_j14319420965162_3_alg».proof.Proof.KernelIdeal.ChainC
import proofs.«406496_j14319420965162_3_alg».proof.Proof.KernelIdeal.ChainH
import proofs.«406496_j14319420965162_3_alg».proof.Proof.Ref.RunC
import proofs.«406496_j14319420965162_3_alg».proof.Proof.Ref.Main
import Idealize.ShloMosaic.Adequacy
import Idealize.ShloMosaic.Init

noncomputable section

namespace Cert.Proof

open Idealize.ShloMosaic Idealize.ShloMosaic.TcCoe Idealize.SL.Sem Idealize.ShloMosaic.ValueIdx

-- each program runs to its end, faults nowhere and leaves its arguments as launched
theorem frame_k : Cert.frame_Kernel := fun m ρ _ => Cert.Kernel.Segs.frame m ρ

theorem frame_ki : Cert.frame_KernelIdeal := fun m ρ _ => Cert.KernelIdeal.Segs.frame m ρ

-- the reference's frame is its run with the results dropped
theorem frame_ri : Cert.frame_ReferenceIdeal := fun m ρ _ =>
  (θ_run Cert.ReferenceIdeal.defs _ _).mono (fun _ h c => (h c).2.2) (Cert.ReferenceIdeal.ValueC.run (F := Ideal) m ρ)

theorem preserves : Cert.preserves_Kernel_KernelIdeal := trivial

-- from memories agreeing on the arguments both programs end at the specification's class probabilities and mixing weights
theorem algebraic : Cert.algebraic_KernelIdeal_ReferenceIdeal := by
  intro m ρ m' ρ' hpre hagree
  refine ⟨fun c => Cert.KernelIdeal.Segs.X3 m c, fun c => Cert.KernelIdeal.Segs.X0 m c, Cert.KernelIdeal.Segs.run_vals m ρ, ?_⟩
  refine (θ_run Cert.ReferenceIdeal.defs _ _).mono (fun _ h c => ⟨(h c).1.trans ?_, (h c).2.1.trans ?_, (h c).2.2⟩)
    (Cert.ReferenceIdeal.ValueC.run (F := Ideal) m' ρ')
  · obtain ⟨h0, h1, h2, h3, h4, h5, h6, h7, h8, h9, h10, h11, h12, h13, h14, h15, h16, h17, h18, h19, h20, h21⟩ := hagree c
    funext j
    obtain ⟨i, k, rfl⟩ : ∃ (i : Fin 4096) (k : Fin 16), j = ix2 i k := ⟨j 0, j 1, eq_ix2 j⟩
    show Cert.ReferenceIdeal.ValueC.res_main_v107 m' c (ix2 i k) = Cert.KernelIdeal.Segs.X3 m c (ix2 i k)
    rw [Cert.KernelIdeal.Chain.out_val m c (Cert.KernelIdeal.Chain.argsK_fin m hpre c) i k]
    unfold Cert.ReferenceIdeal.ValueC.res_main_v107
    rw [h0, h1, h2, h3, h4, h5, h6, h7, h8, h9, h10, h11, h12, h13, h14, h15, h16, h17, h18, h19, h20, h21]
    exact Cert.Ref.out_eq _ _ _ _ _ _ _ _ _ _ _ _ _ _ _ _ _ _ _ _ _ _ (Cert.KernelIdeal.Chain.argsK_fin m hpre c) i k
  · obtain ⟨h0, h1, h2, h3, h4, h5, h6, h7, h8, h9, h10, h11, h12, h13, h14, h15, h16, h17, h18, h19, h20, h21⟩ := hagree c
    funext j
    obtain ⟨i, k, rfl⟩ : ∃ (i : Fin 4096) (k : Fin 3), j = ix2 i k := ⟨j 0, j 1, eq_ix2 j⟩
    show Cert.ReferenceIdeal.ValueC.res_main_v27 m' c (ix2 i k) = Cert.KernelIdeal.Segs.X0 m c (ix2 i k)
    rw [Cert.KernelIdeal.Chain.nz_val m c i k]
    unfold Cert.ReferenceIdeal.ValueC.res_main_v27
    rw [h0, h1, h2, h4, h5, h6, h7, h8, h9, h10, h11]
    exact Cert.Ref.nz_eq _ _ _ _ _ _ _ _ _ _ _ _ _ _ _ _ _ _ _ _ _ _ i k

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
